-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel

variable [Facts]

def fn {F : FTy → Type} [FloatOps F] (main_arg0 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  main_v3
-- ==== Pre_finite_inputs_ReferenceIdeal.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  main_v3
-- ==== Kernel.lean ====
abbrev S1x2048x1024 : Shape := ⟨3, ![1, 2048, 1024]⟩
abbrev S2048x512 : Shape := ⟨2, ![2048, 512]⟩
abbrev S704x512 : Shape := ⟨2, ![704, 512]⟩
abbrev S640x512 : Shape := ⟨2, ![640, 512]⟩
abbrev S_ : Shape := ⟨0, ![]⟩
abbrev S2 : Shape := ⟨1, ![2]⟩
abbrev S11 : Shape := ⟨1, ![11]⟩
abbrev S10 : Shape := ⟨1, ![10]⟩
abbrev S1x2048x512 : Shape := ⟨3, ![1, 2048, 512]⟩
abbrev S1 : Shape := ⟨1, ![1]⟩
abbrev S320x512 : Shape := ⟨2, ![320, 512]⟩
abbrev S1x320x512 : Shape := ⟨3, ![1, 320, 512]⟩
abbrev S384x512 : Shape := ⟨2, ![384, 512]⟩
abbrev S1x384x512 : Shape := ⟨3, ![1, 384, 512]⟩
abbrev S64x512 : Shape := ⟨2, ![64, 512]⟩

abbrev nBuf : Space → Nat
  | .hbm => 2
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S704x512, .f32⟩
  | .local _ .vmem, ⟨3, _⟩ => ⟨S704x512, .bf16⟩
  | .local _ .vmem, ⟨4, _⟩ => ⟨S704x512, .bf16⟩
  | .local _ .vmem, ⟨5, _⟩ => ⟨S704x512, .bf16⟩
  | .local _ .vmem, ⟨6, _⟩ => ⟨S640x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v39 : BitVec 1 := Scalar.cmpi .eq v2 c0_i32
  let v40 : BitVec 32 := Scalar.extui v39
  let c0_i32_24 : BitVec 32 := 0#32
  let v41 : BitVec 1 := Scalar.cmpi .ne v40 c0_i32_24
  v41

def k0_off1 (d0 : Dev nD) : Fin 3 → Nat :=
  let c0_i32_30 : BitVec 32 := 0#32
  let c22_i32 : BitVec 32 := 22#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c22_i32 v8
  let c5_i32 : BitVec 32 := 5#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.muli c5_i32 v5
  let v14 : BitVec 32 := Scalar.addi v12 v13
  let c64_i32 : BitVec 32 := 64#32
  let v15 : BitVec 32 := Scalar.muli v14 c64_i32
  let c512_i32 : BitVec 32 := 512#32
  ![0, v15.toNat, 512]
def k0_off2 (d0 : Dev nD) : Fin 3 → Nat :=
  let c0_i32_34 : BitVec 32 := 0#32
  let c10_i32 : BitVec 32 := 10#32
  let c6_i32 : BitVec 32 := 6#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.muli c6_i32 v5
  let v17 : BitVec 32 := Scalar.addi c10_i32 v16
  let c64_i32_6 : BitVec 32 := 64#32
  let v18 : BitVec 32 := Scalar.muli v17 c64_i32_6
  let c512_i32_37 : BitVec 32 := 512#32
  ![0, v18.toNat, 512]
def k0_dev1 (d0 : Dev nD) : Nat :=
  let c0_i32_40 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_39 : BitVec 32 := 4#32
  let v58 : BitVec 32 := Scalar.muli v9 c4_i32_39
  let v59 : BitVec 32 := Scalar.addi c0_i32_40 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v60 : BitVec 32 := Scalar.muli v5 c2_i32_41
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v62 : BitVec 32 := Scalar.muli v8 c1_i32_42
  let v63 : BitVec 32 := Scalar.addi v61 v62
  v63.toNat
def k0_dev2 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v64 : BitVec 32 := Scalar.muli v2 c4_i32_44
  let v65 : BitVec 32 := Scalar.addi c0_i32_45 v64
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_46 : BitVec 32 := 2#32
  let v66 : BitVec 32 := Scalar.muli v10 c2_i32_46
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v68 : BitVec 32 := Scalar.muli v8 c1_i32_47
  let v69 : BitVec 32 := Scalar.addi v67 v68
  v69.toNat
def k0_dev3 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v70 : BitVec 32 := Scalar.muli v2 c4_i32_49
  let v71 : BitVec 32 := Scalar.addi c0_i32_50 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v72 : BitVec 32 := Scalar.muli v5 c2_i32_51
  let v73 : BitVec 32 := Scalar.addi v71 v72
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_52 : BitVec 32 := 1#32
  let v74 : BitVec 32 := Scalar.muli v11 c1_i32_52
  let v75 : BitVec 32 := Scalar.addi v73 v74
  v75.toNat
def k0_dev4 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v91 : BitVec 32 := Scalar.muli v9 c4_i32_68
  let v92 : BitVec 32 := Scalar.addi c0_i32_69 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v93 : BitVec 32 := Scalar.muli v5 c2_i32_70
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v95 : BitVec 32 := Scalar.muli v8 c1_i32_71
  let v96 : BitVec 32 := Scalar.addi v94 v95
  v96.toNat
def k0_dev5 (d0 : Dev nD) : Nat :=
  let c0_i32_79 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_78 : BitVec 32 := 4#32
  let v103 : BitVec 32 := Scalar.muli v9 c4_i32_78
  let v104 : BitVec 32 := Scalar.addi c0_i32_79 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v105 : BitVec 32 := Scalar.muli v5 c2_i32_80
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v107 : BitVec 32 := Scalar.muli v8 c1_i32_81
  let v108 : BitVec 32 := Scalar.addi v106 v107
  v108.toNat
def k0_dev6 (d0 : Dev nD) : Nat :=
  let c0_i32_89 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_88 : BitVec 32 := 4#32
  let v115 : BitVec 32 := Scalar.muli v9 c4_i32_88
  let v116 : BitVec 32 := Scalar.addi c0_i32_89 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v117 : BitVec 32 := Scalar.muli v5 c2_i32_90
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v119 : BitVec 32 := Scalar.muli v8 c1_i32_91
  let v120 : BitVec 32 := Scalar.addi v118 v119
  v120.toNat
def k0_dev7 (d0 : Dev nD) : Nat :=
  let c0_i32_98 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_97 : BitVec 32 := 4#32
  let v127 : BitVec 32 := Scalar.muli v9 c4_i32_97
  let v128 : BitVec 32 := Scalar.addi c0_i32_98 v127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v129 : BitVec 32 := Scalar.muli v5 c2_i32_99
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v131 : BitVec 32 := Scalar.muli v8 c1_i32_100
  let v132 : BitVec 32 := Scalar.addi v130 v131
  v132.toNat
def k0_dev8 (d0 : Dev nD) : Nat :=
  let c0_i32_107 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_106 : BitVec 32 := 4#32
  let v139 : BitVec 32 := Scalar.muli v9 c4_i32_106
  let v140 : BitVec 32 := Scalar.addi c0_i32_107 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v141 : BitVec 32 := Scalar.muli v5 c2_i32_108
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v143 : BitVec 32 := Scalar.muli v8 c1_i32_109
  let v144 : BitVec 32 := Scalar.addi v142 v143
  v144.toNat
def k0_dev9 (d0 : Dev nD) : Nat :=
  let c0_i32_116 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_115 : BitVec 32 := 4#32
  let v151 : BitVec 32 := Scalar.muli v9 c4_i32_115
  let v152 : BitVec 32 := Scalar.addi c0_i32_116 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v153 : BitVec 32 := Scalar.muli v5 c2_i32_117
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v155 : BitVec 32 := Scalar.muli v8 c1_i32_118
  let v156 : BitVec 32 := Scalar.addi v154 v155
  v156.toNat
def k0_dev10 (d0 : Dev nD) : Nat :=
  let c0_i32_126 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_125 : BitVec 32 := 4#32
  let v163 : BitVec 32 := Scalar.muli v9 c4_i32_125
  let v164 : BitVec 32 := Scalar.addi c0_i32_126 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v165 : BitVec 32 := Scalar.muli v5 c2_i32_127
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v167 : BitVec 32 := Scalar.muli v8 c1_i32_128
  let v168 : BitVec 32 := Scalar.addi v166 v167
  v168.toNat
def k0_dev11 (d0 : Dev nD) : Nat :=
  let c0_i32_134 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_133 : BitVec 32 := 4#32
  let v175 : BitVec 32 := Scalar.muli v9 c4_i32_133
  let v176 : BitVec 32 := Scalar.addi c0_i32_134 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v177 : BitVec 32 := Scalar.muli v5 c2_i32_135
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v179 : BitVec 32 := Scalar.muli v8 c1_i32_136
  let v180 : BitVec 32 := Scalar.addi v178 v179
  v180.toNat
def k0_dev12 (d0 : Dev nD) : Nat :=
  let c0_i32_142 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_141 : BitVec 32 := 4#32
  let v187 : BitVec 32 := Scalar.muli v9 c4_i32_141
  let v188 : BitVec 32 := Scalar.addi c0_i32_142 v187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v189 : BitVec 32 := Scalar.muli v5 c2_i32_143
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v191 : BitVec 32 := Scalar.muli v8 c1_i32_144
  let v192 : BitVec 32 := Scalar.addi v190 v191
  v192.toNat
def k0_dev13 (d0 : Dev nD) : Nat :=
  let c0_i32_151 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_150 : BitVec 32 := 4#32
  let v199 : BitVec 32 := Scalar.muli v9 c4_i32_150
  let v200 : BitVec 32 := Scalar.addi c0_i32_151 v199
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_152 : BitVec 32 := 2#32
  let v201 : BitVec 32 := Scalar.muli v5 c2_i32_152
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v203 : BitVec 32 := Scalar.muli v8 c1_i32_153
  let v204 : BitVec 32 := Scalar.addi v202 v203
  v204.toNat
def k0_dev14 (d0 : Dev nD) : Nat :=
  let c0_i32_160 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_159 : BitVec 32 := 4#32
  let v211 : BitVec 32 := Scalar.muli v9 c4_i32_159
  let v212 : BitVec 32 := Scalar.addi c0_i32_160 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v213 : BitVec 32 := Scalar.muli v5 c2_i32_161
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v215 : BitVec 32 := Scalar.muli v8 c1_i32_162
  let v216 : BitVec 32 := Scalar.addi v214 v215
  v216.toNat
def k0_dev15 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_181 : BitVec 32 := 4#32
  let v235 : BitVec 32 := Scalar.muli v2 c4_i32_181
  let v236 : BitVec 32 := Scalar.addi c0_i32_182 v235
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_183 : BitVec 32 := 2#32
  let v237 : BitVec 32 := Scalar.muli v10 c2_i32_183
  let v238 : BitVec 32 := Scalar.addi v236 v237
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v239 : BitVec 32 := Scalar.muli v8 c1_i32_184
  let v240 : BitVec 32 := Scalar.addi v238 v239
  v240.toNat
def k0_dev16 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v247 : BitVec 32 := Scalar.muli v2 c4_i32_191
  let v248 : BitVec 32 := Scalar.addi c0_i32_192 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v249 : BitVec 32 := Scalar.muli v5 c2_i32_193
  let v250 : BitVec 32 := Scalar.addi v248 v249
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_194 : BitVec 32 := 1#32
  let v251 : BitVec 32 := Scalar.muli v11 c1_i32_194
  let v252 : BitVec 32 := Scalar.addi v250 v251
  v252.toNat
def k0_dev17 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v269 : BitVec 32 := Scalar.muli v2 c4_i32_211
  let v270 : BitVec 32 := Scalar.addi c0_i32_212 v269
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_213 : BitVec 32 := 2#32
  let v271 : BitVec 32 := Scalar.muli v10 c2_i32_213
  let v272 : BitVec 32 := Scalar.addi v270 v271
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_214 : BitVec 32 := 1#32
  let v273 : BitVec 32 := Scalar.muli v8 c1_i32_214
  let v274 : BitVec 32 := Scalar.addi v272 v273
  v274.toNat
def k0_dev18 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_221 : BitVec 32 := 4#32
  let v281 : BitVec 32 := Scalar.muli v2 c4_i32_221
  let v282 : BitVec 32 := Scalar.addi c0_i32_222 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v283 : BitVec 32 := Scalar.muli v5 c2_i32_223
  let v284 : BitVec 32 := Scalar.addi v282 v283
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_224 : BitVec 32 := 1#32
  let v285 : BitVec 32 := Scalar.muli v11 c1_i32_224
  let v286 : BitVec 32 := Scalar.addi v284 v285
  v286.toNat
def k0_dev19 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v303 : BitVec 32 := Scalar.muli v2 c4_i32_241
  let v304 : BitVec 32 := Scalar.addi c0_i32_242 v303
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_243 : BitVec 32 := 2#32
  let v305 : BitVec 32 := Scalar.muli v10 c2_i32_243
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v307 : BitVec 32 := Scalar.muli v8 c1_i32_244
  let v308 : BitVec 32 := Scalar.addi v306 v307
  v308.toNat
def k0_dev20 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_251 : BitVec 32 := 4#32
  let v315 : BitVec 32 := Scalar.muli v2 c4_i32_251
  let v316 : BitVec 32 := Scalar.addi c0_i32_252 v315
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_253 : BitVec 32 := 2#32
  let v317 : BitVec 32 := Scalar.muli v5 c2_i32_253
  let v318 : BitVec 32 := Scalar.addi v316 v317
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_254 : BitVec 32 := 1#32
  let v319 : BitVec 32 := Scalar.muli v11 c1_i32_254
  let v320 : BitVec 32 := Scalar.addi v318 v319
  v320.toNat
def k0_dev21 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v337 : BitVec 32 := Scalar.muli v2 c4_i32_271
  let v338 : BitVec 32 := Scalar.addi c0_i32_272 v337
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_273 : BitVec 32 := 2#32
  let v339 : BitVec 32 := Scalar.muli v10 c2_i32_273
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v341 : BitVec 32 := Scalar.muli v8 c1_i32_274
  let v342 : BitVec 32 := Scalar.addi v340 v341
  v342.toNat
def k0_dev22 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_281 : BitVec 32 := 4#32
  let v349 : BitVec 32 := Scalar.muli v2 c4_i32_281
  let v350 : BitVec 32 := Scalar.addi c0_i32_282 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v351 : BitVec 32 := Scalar.muli v5 c2_i32_283
  let v352 : BitVec 32 := Scalar.addi v350 v351
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_284 : BitVec 32 := 1#32
  let v353 : BitVec 32 := Scalar.muli v11 c1_i32_284
  let v354 : BitVec 32 := Scalar.addi v352 v353
  v354.toNat
def k0_dev23 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_301 : BitVec 32 := 4#32
  let v371 : BitVec 32 := Scalar.muli v2 c4_i32_301
  let v372 : BitVec 32 := Scalar.addi c0_i32_302 v371
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_303 : BitVec 32 := 2#32
  let v373 : BitVec 32 := Scalar.muli v10 c2_i32_303
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v375 : BitVec 32 := Scalar.muli v8 c1_i32_304
  let v376 : BitVec 32 := Scalar.addi v374 v375
  v376.toNat
def k0_dev24 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v383 : BitVec 32 := Scalar.muli v2 c4_i32_311
  let v384 : BitVec 32 := Scalar.addi c0_i32_312 v383
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v385 : BitVec 32 := Scalar.muli v5 c2_i32_313
  let v386 : BitVec 32 := Scalar.addi v384 v385
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_314 : BitVec 32 := 1#32
  let v387 : BitVec 32 := Scalar.muli v11 c1_i32_314
  let v388 : BitVec 32 := Scalar.addi v386 v387
  v388.toNat
def k0_off3 (d0 : Dev nD) : Fin 2 → Nat :=
  let c22_i32 : BitVec 32 := 22#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c22_i32 v8
  let c5_i32 : BitVec 32 := 5#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.muli c5_i32 v5
  let v14 : BitVec 32 := Scalar.addi v12 v13
  let c64_i32 : BitVec 32 := 64#32
  let v15 : BitVec 32 := Scalar.muli v14 c64_i32
  let v395 : Index := Scalar.indexCast v15
  let c0_319 : Index := 0#32
  ![v395.toNat, 0]
def k0_dev25 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v412 : BitVec 32 := Scalar.muli v2 c4_i32_335
  let v413 : BitVec 32 := Scalar.addi c0_i32_336 v412
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_337 : BitVec 32 := 2#32
  let v414 : BitVec 32 := Scalar.muli v10 c2_i32_337
  let v415 : BitVec 32 := Scalar.addi v413 v414
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_338 : BitVec 32 := 1#32
  let v416 : BitVec 32 := Scalar.muli v8 c1_i32_338
  let v417 : BitVec 32 := Scalar.addi v415 v416
  v417.toNat
def k0_dev26 (d0 : Dev nD) : Nat :=
  let c0_i32_356 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_355 : BitVec 32 := 4#32
  let v434 : BitVec 32 := Scalar.muli v2 c4_i32_355
  let v435 : BitVec 32 := Scalar.addi c0_i32_356 v434
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_357 : BitVec 32 := 2#32
  let v436 : BitVec 32 := Scalar.muli v10 c2_i32_357
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_358 : BitVec 32 := 1#32
  let v438 : BitVec 32 := Scalar.muli v8 c1_i32_358
  let v439 : BitVec 32 := Scalar.addi v437 v438
  v439.toNat
def k0_dev27 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v456 : BitVec 32 := Scalar.muli v2 c4_i32_375
  let v457 : BitVec 32 := Scalar.addi c0_i32_376 v456
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_377 : BitVec 32 := 2#32
  let v458 : BitVec 32 := Scalar.muli v10 c2_i32_377
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_378 : BitVec 32 := 1#32
  let v460 : BitVec 32 := Scalar.muli v8 c1_i32_378
  let v461 : BitVec 32 := Scalar.addi v459 v460
  v461.toNat
def k0_dev28 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_395 : BitVec 32 := 4#32
  let v478 : BitVec 32 := Scalar.muli v2 c4_i32_395
  let v479 : BitVec 32 := Scalar.addi c0_i32_396 v478
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_397 : BitVec 32 := 2#32
  let v480 : BitVec 32 := Scalar.muli v10 c2_i32_397
  let v481 : BitVec 32 := Scalar.addi v479 v480
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_398 : BitVec 32 := 1#32
  let v482 : BitVec 32 := Scalar.muli v8 c1_i32_398
  let v483 : BitVec 32 := Scalar.addi v481 v482
  v483.toNat
def k0_dev29 (d0 : Dev nD) : Nat :=
  let c0_i32_416 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_415 : BitVec 32 := 4#32
  let v500 : BitVec 32 := Scalar.muli v2 c4_i32_415
  let v501 : BitVec 32 := Scalar.addi c0_i32_416 v500
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_417 : BitVec 32 := 2#32
  let v502 : BitVec 32 := Scalar.muli v10 c2_i32_417
  let v503 : BitVec 32 := Scalar.addi v501 v502
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_418 : BitVec 32 := 1#32
  let v504 : BitVec 32 := Scalar.muli v8 c1_i32_418
  let v505 : BitVec 32 := Scalar.addi v503 v504
  v505.toNat
def k0_dev30 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_435 : BitVec 32 := 4#32
  let v522 : BitVec 32 := Scalar.muli v2 c4_i32_435
  let v523 : BitVec 32 := Scalar.addi c0_i32_436 v522
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_437 : BitVec 32 := 2#32
  let v524 : BitVec 32 := Scalar.muli v10 c2_i32_437
  let v525 : BitVec 32 := Scalar.addi v523 v524
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_438 : BitVec 32 := 1#32
  let v526 : BitVec 32 := Scalar.muli v8 c1_i32_438
  let v527 : BitVec 32 := Scalar.addi v525 v526
  v527.toNat
def k0_off4 (d0 : Dev nD) : Fin 2 → Nat :=
  let c10_i32 : BitVec 32 := 10#32
  let c6_i32 : BitVec 32 := 6#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.muli c6_i32 v5
  let v17 : BitVec 32 := Scalar.addi c10_i32 v16
  let c64_i32_6 : BitVec 32 := 64#32
  let v18 : BitVec 32 := Scalar.muli v17 c64_i32_6
  let v534 : Index := Scalar.indexCast v18
  let c0_443 : Index := 0#32
  ![v534.toNat, 0]
def k0_dev31 (d0 : Dev nD) : Nat :=
  let c0_i32_459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_458 : BitVec 32 := 4#32
  let v551 : BitVec 32 := Scalar.muli v2 c4_i32_458
  let v552 : BitVec 32 := Scalar.addi c0_i32_459 v551
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_460 : BitVec 32 := 2#32
  let v553 : BitVec 32 := Scalar.muli v5 c2_i32_460
  let v554 : BitVec 32 := Scalar.addi v552 v553
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_461 : BitVec 32 := 1#32
  let v555 : BitVec 32 := Scalar.muli v11 c1_i32_461
  let v556 : BitVec 32 := Scalar.addi v554 v555
  v556.toNat
def k0_dev32 (d0 : Dev nD) : Nat :=
  let c0_i32_479 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_478 : BitVec 32 := 4#32
  let v573 : BitVec 32 := Scalar.muli v2 c4_i32_478
  let v574 : BitVec 32 := Scalar.addi c0_i32_479 v573
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_480 : BitVec 32 := 2#32
  let v575 : BitVec 32 := Scalar.muli v5 c2_i32_480
  let v576 : BitVec 32 := Scalar.addi v574 v575
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_481 : BitVec 32 := 1#32
  let v577 : BitVec 32 := Scalar.muli v11 c1_i32_481
  let v578 : BitVec 32 := Scalar.addi v576 v577
  v578.toNat
def k0_dev33 (d0 : Dev nD) : Nat :=
  let c0_i32_499 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_498 : BitVec 32 := 4#32
  let v595 : BitVec 32 := Scalar.muli v2 c4_i32_498
  let v596 : BitVec 32 := Scalar.addi c0_i32_499 v595
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_500 : BitVec 32 := 2#32
  let v597 : BitVec 32 := Scalar.muli v5 c2_i32_500
  let v598 : BitVec 32 := Scalar.addi v596 v597
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_501 : BitVec 32 := 1#32
  let v599 : BitVec 32 := Scalar.muli v11 c1_i32_501
  let v600 : BitVec 32 := Scalar.addi v598 v599
  v600.toNat
def k0_dev34 (d0 : Dev nD) : Nat :=
  let c0_i32_519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_518 : BitVec 32 := 4#32
  let v617 : BitVec 32 := Scalar.muli v2 c4_i32_518
  let v618 : BitVec 32 := Scalar.addi c0_i32_519 v617
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_520 : BitVec 32 := 2#32
  let v619 : BitVec 32 := Scalar.muli v5 c2_i32_520
  let v620 : BitVec 32 := Scalar.addi v618 v619
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_521 : BitVec 32 := 1#32
  let v621 : BitVec 32 := Scalar.muli v11 c1_i32_521
  let v622 : BitVec 32 := Scalar.addi v620 v621
  v622.toNat
def k0_dev35 (d0 : Dev nD) : Nat :=
  let c0_i32_539 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_538 : BitVec 32 := 4#32
  let v639 : BitVec 32 := Scalar.muli v2 c4_i32_538
  let v640 : BitVec 32 := Scalar.addi c0_i32_539 v639
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_540 : BitVec 32 := 2#32
  let v641 : BitVec 32 := Scalar.muli v5 c2_i32_540
  let v642 : BitVec 32 := Scalar.addi v640 v641
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_541 : BitVec 32 := 1#32
  let v643 : BitVec 32 := Scalar.muli v11 c1_i32_541
  let v644 : BitVec 32 := Scalar.addi v642 v643
  v644.toNat
def k0_off5 (d0 : Dev nD) : Fin 2 → Nat :=
  let c22_i32_7 : BitVec 32 := 22#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.muli c22_i32_7 v8
  let c5_i32_9 : BitVec 32 := 5#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_8 v5
  let v21 : BitVec 32 := Scalar.muli c5_i32_9 v20
  let v22 : BitVec 32 := Scalar.addi v19 v21
  let c64_i32_10 : BitVec 32 := 64#32
  let v23 : BitVec 32 := Scalar.muli v22 c64_i32_10
  let v651 : Index := Scalar.indexCast v23
  let c0_546 : Index := 0#32
  ![v651.toNat, 0]
def k0_off6 (d0 : Dev nD) : Fin 2 → Nat :=
  let c10_i32_13 : BitVec 32 := 10#32
  let c6_i32_12 : BitVec 32 := 6#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_11 v5
  let v25 : BitVec 32 := Scalar.muli c6_i32_12 v24
  let v26 : BitVec 32 := Scalar.addi c10_i32_13 v25
  let c64_i32_14 : BitVec 32 := 64#32
  let v27 : BitVec 32 := Scalar.muli v26 c64_i32_14
  let v718 : Index := Scalar.indexCast v27
  let c0_610 : Index := 0#32
  ![v718.toNat, 0]
def k0_off7 (d0 : Dev nD) : Fin 2 → Nat :=
  let c22_i32_16 : BitVec 32 := 22#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v29 : BitVec 32 := Scalar.muli c22_i32_16 v28
  let c5_i32_17 : BitVec 32 := 5#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c5_i32_17 v5
  let v31 : BitVec 32 := Scalar.addi v29 v30
  let c64_i32_18 : BitVec 32 := 64#32
  let v32 : BitVec 32 := Scalar.muli v31 c64_i32_18
  let v775 : Index := Scalar.indexCast v32
  let c0_664 : Index := 0#32
  ![v775.toNat, 0]
def k0_off8 (d0 : Dev nD) : Fin 2 → Nat :=
  let c22_i32_20 : BitVec 32 := 22#32
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_19 v8
  let v34 : BitVec 32 := Scalar.muli c22_i32_20 v33
  let c5_i32_22 : BitVec 32 := 5#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.subi c1_i32_21 v5
  let v36 : BitVec 32 := Scalar.muli c5_i32_22 v35
  let v37 : BitVec 32 := Scalar.addi v34 v36
  let c64_i32_23 : BitVec 32 := 64#32
  let v38 : BitVec 32 := Scalar.muli v37 c64_i32_23
  let v832 : Index := Scalar.indexCast v38
  let c0_718 : Index := 0#32
  ![v832.toNat, 0]
def k0_cond2 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_25 : BitVec 32 := 1#32
  let v42 : BitVec 1 := Scalar.cmpi .eq v2 c1_i32_25
  let v43 : BitVec 32 := Scalar.extui v42
  let c0_i32_26 : BitVec 32 := 0#32
  let v44 : BitVec 1 := Scalar.cmpi .ne v43 c0_i32_26
  v44

def k0_off9 (d0 : Dev nD) : Fin 3 → Nat :=
  let c0_i32_29 : BitVec 32 := 0#32
  let c22_i32 : BitVec 32 := 22#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c22_i32 v8
  let c5_i32 : BitVec 32 := 5#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.muli c5_i32 v5
  let v14 : BitVec 32 := Scalar.addi v12 v13
  let c64_i32 : BitVec 32 := 64#32
  let v15 : BitVec 32 := Scalar.muli v14 c64_i32
  let c0_i32_33 : BitVec 32 := 0#32
  ![0, v15.toNat, 0]
def k0_off10 (d0 : Dev nD) : Fin 3 → Nat :=
  let c0_i32_34 : BitVec 32 := 0#32
  let c10_i32 : BitVec 32 := 10#32
  let c6_i32 : BitVec 32 := 6#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.muli c6_i32 v5
  let v17 : BitVec 32 := Scalar.addi c10_i32 v16
  let c64_i32_6 : BitVec 32 := 64#32
  let v18 : BitVec 32 := Scalar.muli v17 c64_i32_6
  let c0_i32_37 : BitVec 32 := 0#32
  ![0, v18.toNat, 0]
def k0_dev36 (d0 : Dev nD) : Nat :=
  let c0_i32_40 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_39 : BitVec 32 := 4#32
  let v58 : BitVec 32 := Scalar.muli v9 c4_i32_39
  let v59 : BitVec 32 := Scalar.addi c0_i32_40 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v60 : BitVec 32 := Scalar.muli v5 c2_i32_41
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v62 : BitVec 32 := Scalar.muli v8 c1_i32_42
  let v63 : BitVec 32 := Scalar.addi v61 v62
  v63.toNat
def k0_dev37 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v64 : BitVec 32 := Scalar.muli v2 c4_i32_44
  let v65 : BitVec 32 := Scalar.addi c0_i32_45 v64
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_46 : BitVec 32 := 2#32
  let v66 : BitVec 32 := Scalar.muli v10 c2_i32_46
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v68 : BitVec 32 := Scalar.muli v8 c1_i32_47
  let v69 : BitVec 32 := Scalar.addi v67 v68
  v69.toNat
def k0_dev38 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v70 : BitVec 32 := Scalar.muli v2 c4_i32_49
  let v71 : BitVec 32 := Scalar.addi c0_i32_50 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v72 : BitVec 32 := Scalar.muli v5 c2_i32_51
  let v73 : BitVec 32 := Scalar.addi v71 v72
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_52 : BitVec 32 := 1#32
  let v74 : BitVec 32 := Scalar.muli v11 c1_i32_52
  let v75 : BitVec 32 := Scalar.addi v73 v74
  v75.toNat
def k0_dev39 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v91 : BitVec 32 := Scalar.muli v9 c4_i32_68
  let v92 : BitVec 32 := Scalar.addi c0_i32_69 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v93 : BitVec 32 := Scalar.muli v5 c2_i32_70
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v95 : BitVec 32 := Scalar.muli v8 c1_i32_71
  let v96 : BitVec 32 := Scalar.addi v94 v95
  v96.toNat
def k0_dev40 (d0 : Dev nD) : Nat :=
  let c0_i32_79 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_78 : BitVec 32 := 4#32
  let v103 : BitVec 32 := Scalar.muli v9 c4_i32_78
  let v104 : BitVec 32 := Scalar.addi c0_i32_79 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v105 : BitVec 32 := Scalar.muli v5 c2_i32_80
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v107 : BitVec 32 := Scalar.muli v8 c1_i32_81
  let v108 : BitVec 32 := Scalar.addi v106 v107
  v108.toNat
def k0_dev41 (d0 : Dev nD) : Nat :=
  let c0_i32_89 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_88 : BitVec 32 := 4#32
  let v115 : BitVec 32 := Scalar.muli v9 c4_i32_88
  let v116 : BitVec 32 := Scalar.addi c0_i32_89 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v117 : BitVec 32 := Scalar.muli v5 c2_i32_90
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v119 : BitVec 32 := Scalar.muli v8 c1_i32_91
  let v120 : BitVec 32 := Scalar.addi v118 v119
  v120.toNat
def k0_dev42 (d0 : Dev nD) : Nat :=
  let c0_i32_98 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_97 : BitVec 32 := 4#32
  let v127 : BitVec 32 := Scalar.muli v9 c4_i32_97
  let v128 : BitVec 32 := Scalar.addi c0_i32_98 v127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v129 : BitVec 32 := Scalar.muli v5 c2_i32_99
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v131 : BitVec 32 := Scalar.muli v8 c1_i32_100
  let v132 : BitVec 32 := Scalar.addi v130 v131
  v132.toNat
def k0_dev43 (d0 : Dev nD) : Nat :=
  let c0_i32_107 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_106 : BitVec 32 := 4#32
  let v139 : BitVec 32 := Scalar.muli v9 c4_i32_106
  let v140 : BitVec 32 := Scalar.addi c0_i32_107 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v141 : BitVec 32 := Scalar.muli v5 c2_i32_108
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v143 : BitVec 32 := Scalar.muli v8 c1_i32_109
  let v144 : BitVec 32 := Scalar.addi v142 v143
  v144.toNat
def k0_dev44 (d0 : Dev nD) : Nat :=
  let c0_i32_116 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_115 : BitVec 32 := 4#32
  let v151 : BitVec 32 := Scalar.muli v9 c4_i32_115
  let v152 : BitVec 32 := Scalar.addi c0_i32_116 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v153 : BitVec 32 := Scalar.muli v5 c2_i32_117
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v155 : BitVec 32 := Scalar.muli v8 c1_i32_118
  let v156 : BitVec 32 := Scalar.addi v154 v155
  v156.toNat
def k0_dev45 (d0 : Dev nD) : Nat :=
  let c0_i32_126 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_125 : BitVec 32 := 4#32
  let v163 : BitVec 32 := Scalar.muli v9 c4_i32_125
  let v164 : BitVec 32 := Scalar.addi c0_i32_126 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v165 : BitVec 32 := Scalar.muli v5 c2_i32_127
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v167 : BitVec 32 := Scalar.muli v8 c1_i32_128
  let v168 : BitVec 32 := Scalar.addi v166 v167
  v168.toNat
def k0_dev46 (d0 : Dev nD) : Nat :=
  let c0_i32_134 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_133 : BitVec 32 := 4#32
  let v175 : BitVec 32 := Scalar.muli v9 c4_i32_133
  let v176 : BitVec 32 := Scalar.addi c0_i32_134 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v177 : BitVec 32 := Scalar.muli v5 c2_i32_135
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v179 : BitVec 32 := Scalar.muli v8 c1_i32_136
  let v180 : BitVec 32 := Scalar.addi v178 v179
  v180.toNat
def k0_dev47 (d0 : Dev nD) : Nat :=
  let c0_i32_142 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_141 : BitVec 32 := 4#32
  let v187 : BitVec 32 := Scalar.muli v9 c4_i32_141
  let v188 : BitVec 32 := Scalar.addi c0_i32_142 v187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v189 : BitVec 32 := Scalar.muli v5 c2_i32_143
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v191 : BitVec 32 := Scalar.muli v8 c1_i32_144
  let v192 : BitVec 32 := Scalar.addi v190 v191
  v192.toNat
def k0_dev48 (d0 : Dev nD) : Nat :=
  let c0_i32_151 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_150 : BitVec 32 := 4#32
  let v199 : BitVec 32 := Scalar.muli v9 c4_i32_150
  let v200 : BitVec 32 := Scalar.addi c0_i32_151 v199
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_152 : BitVec 32 := 2#32
  let v201 : BitVec 32 := Scalar.muli v5 c2_i32_152
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v203 : BitVec 32 := Scalar.muli v8 c1_i32_153
  let v204 : BitVec 32 := Scalar.addi v202 v203
  v204.toNat
def k0_dev49 (d0 : Dev nD) : Nat :=
  let c0_i32_160 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_159 : BitVec 32 := 4#32
  let v211 : BitVec 32 := Scalar.muli v9 c4_i32_159
  let v212 : BitVec 32 := Scalar.addi c0_i32_160 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v213 : BitVec 32 := Scalar.muli v5 c2_i32_161
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v215 : BitVec 32 := Scalar.muli v8 c1_i32_162
  let v216 : BitVec 32 := Scalar.addi v214 v215
  v216.toNat
def k0_dev50 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_181 : BitVec 32 := 4#32
  let v235 : BitVec 32 := Scalar.muli v2 c4_i32_181
  let v236 : BitVec 32 := Scalar.addi c0_i32_182 v235
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_183 : BitVec 32 := 2#32
  let v237 : BitVec 32 := Scalar.muli v10 c2_i32_183
  let v238 : BitVec 32 := Scalar.addi v236 v237
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v239 : BitVec 32 := Scalar.muli v8 c1_i32_184
  let v240 : BitVec 32 := Scalar.addi v238 v239
  v240.toNat
def k0_dev51 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v247 : BitVec 32 := Scalar.muli v2 c4_i32_191
  let v248 : BitVec 32 := Scalar.addi c0_i32_192 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v249 : BitVec 32 := Scalar.muli v5 c2_i32_193
  let v250 : BitVec 32 := Scalar.addi v248 v249
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_194 : BitVec 32 := 1#32
  let v251 : BitVec 32 := Scalar.muli v11 c1_i32_194
  let v252 : BitVec 32 := Scalar.addi v250 v251
  v252.toNat
def k0_dev52 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v269 : BitVec 32 := Scalar.muli v2 c4_i32_211
  let v270 : BitVec 32 := Scalar.addi c0_i32_212 v269
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_213 : BitVec 32 := 2#32
  let v271 : BitVec 32 := Scalar.muli v10 c2_i32_213
  let v272 : BitVec 32 := Scalar.addi v270 v271
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_214 : BitVec 32 := 1#32
  let v273 : BitVec 32 := Scalar.muli v8 c1_i32_214
  let v274 : BitVec 32 := Scalar.addi v272 v273
  v274.toNat
def k0_dev53 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_221 : BitVec 32 := 4#32
  let v281 : BitVec 32 := Scalar.muli v2 c4_i32_221
  let v282 : BitVec 32 := Scalar.addi c0_i32_222 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v283 : BitVec 32 := Scalar.muli v5 c2_i32_223
  let v284 : BitVec 32 := Scalar.addi v282 v283
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_224 : BitVec 32 := 1#32
  let v285 : BitVec 32 := Scalar.muli v11 c1_i32_224
  let v286 : BitVec 32 := Scalar.addi v284 v285
  v286.toNat
def k0_dev54 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v303 : BitVec 32 := Scalar.muli v2 c4_i32_241
  let v304 : BitVec 32 := Scalar.addi c0_i32_242 v303
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_243 : BitVec 32 := 2#32
  let v305 : BitVec 32 := Scalar.muli v10 c2_i32_243
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v307 : BitVec 32 := Scalar.muli v8 c1_i32_244
  let v308 : BitVec 32 := Scalar.addi v306 v307
  v308.toNat
def k0_dev55 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_251 : BitVec 32 := 4#32
  let v315 : BitVec 32 := Scalar.muli v2 c4_i32_251
  let v316 : BitVec 32 := Scalar.addi c0_i32_252 v315
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_253 : BitVec 32 := 2#32
  let v317 : BitVec 32 := Scalar.muli v5 c2_i32_253
  let v318 : BitVec 32 := Scalar.addi v316 v317
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_254 : BitVec 32 := 1#32
  let v319 : BitVec 32 := Scalar.muli v11 c1_i32_254
  let v320 : BitVec 32 := Scalar.addi v318 v319
  v320.toNat
def k0_dev56 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v337 : BitVec 32 := Scalar.muli v2 c4_i32_271
  let v338 : BitVec 32 := Scalar.addi c0_i32_272 v337
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_273 : BitVec 32 := 2#32
  let v339 : BitVec 32 := Scalar.muli v10 c2_i32_273
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v341 : BitVec 32 := Scalar.muli v8 c1_i32_274
  let v342 : BitVec 32 := Scalar.addi v340 v341
  v342.toNat
def k0_dev57 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_281 : BitVec 32 := 4#32
  let v349 : BitVec 32 := Scalar.muli v2 c4_i32_281
  let v350 : BitVec 32 := Scalar.addi c0_i32_282 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v351 : BitVec 32 := Scalar.muli v5 c2_i32_283
  let v352 : BitVec 32 := Scalar.addi v350 v351
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_284 : BitVec 32 := 1#32
  let v353 : BitVec 32 := Scalar.muli v11 c1_i32_284
  let v354 : BitVec 32 := Scalar.addi v352 v353
  v354.toNat
def k0_dev58 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_301 : BitVec 32 := 4#32
  let v371 : BitVec 32 := Scalar.muli v2 c4_i32_301
  let v372 : BitVec 32 := Scalar.addi c0_i32_302 v371
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_303 : BitVec 32 := 2#32
  let v373 : BitVec 32 := Scalar.muli v10 c2_i32_303
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v375 : BitVec 32 := Scalar.muli v8 c1_i32_304
  let v376 : BitVec 32 := Scalar.addi v374 v375
  v376.toNat
def k0_dev59 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v383 : BitVec 32 := Scalar.muli v2 c4_i32_311
  let v384 : BitVec 32 := Scalar.addi c0_i32_312 v383
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v385 : BitVec 32 := Scalar.muli v5 c2_i32_313
  let v386 : BitVec 32 := Scalar.addi v384 v385
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_314 : BitVec 32 := 1#32
  let v387 : BitVec 32 := Scalar.muli v11 c1_i32_314
  let v388 : BitVec 32 := Scalar.addi v386 v387
  v388.toNat
def k0_off11 (d0 : Dev nD) : Fin 2 → Nat :=
  let c22_i32 : BitVec 32 := 22#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c22_i32 v8
  let c5_i32 : BitVec 32 := 5#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.muli c5_i32 v5
  let v14 : BitVec 32 := Scalar.addi v12 v13
  let c64_i32 : BitVec 32 := 64#32
  let v15 : BitVec 32 := Scalar.muli v14 c64_i32
  let v395 : Index := Scalar.indexCast v15
  let c0_319 : Index := 0#32
  ![v395.toNat, 0]
def k0_dev60 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v412 : BitVec 32 := Scalar.muli v2 c4_i32_335
  let v413 : BitVec 32 := Scalar.addi c0_i32_336 v412
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_337 : BitVec 32 := 2#32
  let v414 : BitVec 32 := Scalar.muli v10 c2_i32_337
  let v415 : BitVec 32 := Scalar.addi v413 v414
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_338 : BitVec 32 := 1#32
  let v416 : BitVec 32 := Scalar.muli v8 c1_i32_338
  let v417 : BitVec 32 := Scalar.addi v415 v416
  v417.toNat
def k0_dev61 (d0 : Dev nD) : Nat :=
  let c0_i32_356 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_355 : BitVec 32 := 4#32
  let v434 : BitVec 32 := Scalar.muli v2 c4_i32_355
  let v435 : BitVec 32 := Scalar.addi c0_i32_356 v434
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_357 : BitVec 32 := 2#32
  let v436 : BitVec 32 := Scalar.muli v10 c2_i32_357
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_358 : BitVec 32 := 1#32
  let v438 : BitVec 32 := Scalar.muli v8 c1_i32_358
  let v439 : BitVec 32 := Scalar.addi v437 v438
  v439.toNat
def k0_dev62 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v456 : BitVec 32 := Scalar.muli v2 c4_i32_375
  let v457 : BitVec 32 := Scalar.addi c0_i32_376 v456
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_377 : BitVec 32 := 2#32
  let v458 : BitVec 32 := Scalar.muli v10 c2_i32_377
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_378 : BitVec 32 := 1#32
  let v460 : BitVec 32 := Scalar.muli v8 c1_i32_378
  let v461 : BitVec 32 := Scalar.addi v459 v460
  v461.toNat
def k0_dev63 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_395 : BitVec 32 := 4#32
  let v478 : BitVec 32 := Scalar.muli v2 c4_i32_395
  let v479 : BitVec 32 := Scalar.addi c0_i32_396 v478
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_397 : BitVec 32 := 2#32
  let v480 : BitVec 32 := Scalar.muli v10 c2_i32_397
  let v481 : BitVec 32 := Scalar.addi v479 v480
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_398 : BitVec 32 := 1#32
  let v482 : BitVec 32 := Scalar.muli v8 c1_i32_398
  let v483 : BitVec 32 := Scalar.addi v481 v482
  v483.toNat
def k0_dev64 (d0 : Dev nD) : Nat :=
  let c0_i32_416 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_415 : BitVec 32 := 4#32
  let v500 : BitVec 32 := Scalar.muli v2 c4_i32_415
  let v501 : BitVec 32 := Scalar.addi c0_i32_416 v500
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_417 : BitVec 32 := 2#32
  let v502 : BitVec 32 := Scalar.muli v10 c2_i32_417
  let v503 : BitVec 32 := Scalar.addi v501 v502
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_418 : BitVec 32 := 1#32
  let v504 : BitVec 32 := Scalar.muli v8 c1_i32_418
  let v505 : BitVec 32 := Scalar.addi v503 v504
  v505.toNat
def k0_dev65 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_435 : BitVec 32 := 4#32
  let v522 : BitVec 32 := Scalar.muli v2 c4_i32_435
  let v523 : BitVec 32 := Scalar.addi c0_i32_436 v522
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_437 : BitVec 32 := 2#32
  let v524 : BitVec 32 := Scalar.muli v10 c2_i32_437
  let v525 : BitVec 32 := Scalar.addi v523 v524
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_438 : BitVec 32 := 1#32
  let v526 : BitVec 32 := Scalar.muli v8 c1_i32_438
  let v527 : BitVec 32 := Scalar.addi v525 v526
  v527.toNat
def k0_off12 (d0 : Dev nD) : Fin 2 → Nat :=
  let c10_i32 : BitVec 32 := 10#32
  let c6_i32 : BitVec 32 := 6#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.muli c6_i32 v5
  let v17 : BitVec 32 := Scalar.addi c10_i32 v16
  let c64_i32_6 : BitVec 32 := 64#32
  let v18 : BitVec 32 := Scalar.muli v17 c64_i32_6
  let v534 : Index := Scalar.indexCast v18
  let c0_443 : Index := 0#32
  ![v534.toNat, 0]
def k0_dev66 (d0 : Dev nD) : Nat :=
  let c0_i32_459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_458 : BitVec 32 := 4#32
  let v551 : BitVec 32 := Scalar.muli v2 c4_i32_458
  let v552 : BitVec 32 := Scalar.addi c0_i32_459 v551
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_460 : BitVec 32 := 2#32
  let v553 : BitVec 32 := Scalar.muli v5 c2_i32_460
  let v554 : BitVec 32 := Scalar.addi v552 v553
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_461 : BitVec 32 := 1#32
  let v555 : BitVec 32 := Scalar.muli v11 c1_i32_461
  let v556 : BitVec 32 := Scalar.addi v554 v555
  v556.toNat
def k0_dev67 (d0 : Dev nD) : Nat :=
  let c0_i32_479 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_478 : BitVec 32 := 4#32
  let v573 : BitVec 32 := Scalar.muli v2 c4_i32_478
  let v574 : BitVec 32 := Scalar.addi c0_i32_479 v573
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_480 : BitVec 32 := 2#32
  let v575 : BitVec 32 := Scalar.muli v5 c2_i32_480
  let v576 : BitVec 32 := Scalar.addi v574 v575
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_481 : BitVec 32 := 1#32
  let v577 : BitVec 32 := Scalar.muli v11 c1_i32_481
  let v578 : BitVec 32 := Scalar.addi v576 v577
  v578.toNat
def k0_dev68 (d0 : Dev nD) : Nat :=
  let c0_i32_499 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_498 : BitVec 32 := 4#32
  let v595 : BitVec 32 := Scalar.muli v2 c4_i32_498
  let v596 : BitVec 32 := Scalar.addi c0_i32_499 v595
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_500 : BitVec 32 := 2#32
  let v597 : BitVec 32 := Scalar.muli v5 c2_i32_500
  let v598 : BitVec 32 := Scalar.addi v596 v597
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_501 : BitVec 32 := 1#32
  let v599 : BitVec 32 := Scalar.muli v11 c1_i32_501
  let v600 : BitVec 32 := Scalar.addi v598 v599
  v600.toNat
def k0_dev69 (d0 : Dev nD) : Nat :=
  let c0_i32_519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_518 : BitVec 32 := 4#32
  let v617 : BitVec 32 := Scalar.muli v2 c4_i32_518
  let v618 : BitVec 32 := Scalar.addi c0_i32_519 v617
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_520 : BitVec 32 := 2#32
  let v619 : BitVec 32 := Scalar.muli v5 c2_i32_520
  let v620 : BitVec 32 := Scalar.addi v618 v619
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_521 : BitVec 32 := 1#32
  let v621 : BitVec 32 := Scalar.muli v11 c1_i32_521
  let v622 : BitVec 32 := Scalar.addi v620 v621
  v622.toNat
def k0_dev70 (d0 : Dev nD) : Nat :=
  let c0_i32_539 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_538 : BitVec 32 := 4#32
  let v639 : BitVec 32 := Scalar.muli v2 c4_i32_538
  let v640 : BitVec 32 := Scalar.addi c0_i32_539 v639
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_540 : BitVec 32 := 2#32
  let v641 : BitVec 32 := Scalar.muli v5 c2_i32_540
  let v642 : BitVec 32 := Scalar.addi v640 v641
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_541 : BitVec 32 := 1#32
  let v643 : BitVec 32 := Scalar.muli v11 c1_i32_541
  let v644 : BitVec 32 := Scalar.addi v642 v643
  v644.toNat
def k0_off13 (d0 : Dev nD) : Fin 2 → Nat :=
  let c22_i32_7 : BitVec 32 := 22#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.muli c22_i32_7 v8
  let c5_i32_9 : BitVec 32 := 5#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_8 v5
  let v21 : BitVec 32 := Scalar.muli c5_i32_9 v20
  let v22 : BitVec 32 := Scalar.addi v19 v21
  let c64_i32_10 : BitVec 32 := 64#32
  let v23 : BitVec 32 := Scalar.muli v22 c64_i32_10
  let v651 : Index := Scalar.indexCast v23
  let c0_546 : Index := 0#32
  ![v651.toNat, 0]
def k0_off14 (d0 : Dev nD) : Fin 2 → Nat :=
  let c10_i32_13 : BitVec 32 := 10#32
  let c6_i32_12 : BitVec 32 := 6#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_11 v5
  let v25 : BitVec 32 := Scalar.muli c6_i32_12 v24
  let v26 : BitVec 32 := Scalar.addi c10_i32_13 v25
  let c64_i32_14 : BitVec 32 := 64#32
  let v27 : BitVec 32 := Scalar.muli v26 c64_i32_14
  let v718 : Index := Scalar.indexCast v27
  let c0_610 : Index := 0#32
  ![v718.toNat, 0]
def k0_off15 (d0 : Dev nD) : Fin 2 → Nat :=
  let c22_i32_16 : BitVec 32 := 22#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v29 : BitVec 32 := Scalar.muli c22_i32_16 v28
  let c5_i32_17 : BitVec 32 := 5#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.muli c5_i32_17 v5
  let v31 : BitVec 32 := Scalar.addi v29 v30
  let c64_i32_18 : BitVec 32 := 64#32
  let v32 : BitVec 32 := Scalar.muli v31 c64_i32_18
  let v775 : Index := Scalar.indexCast v32
  let c0_664 : Index := 0#32
  ![v775.toNat, 0]
def k0_off16 (d0 : Dev nD) : Fin 2 → Nat :=
  let c22_i32_20 : BitVec 32 := 22#32
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_19 v8
  let v34 : BitVec 32 := Scalar.muli c22_i32_20 v33
  let c5_i32_22 : BitVec 32 := 5#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.subi c1_i32_21 v5
  let v36 : BitVec 32 := Scalar.muli c5_i32_22 v35
  let v37 : BitVec 32 := Scalar.addi v34 v36
  let c64_i32_23 : BitVec 32 := 64#32
  let v38 : BitVec 32 := Scalar.muli v37 c64_i32_23
  let v832 : Index := Scalar.indexCast v38
  let c0_718 : Index := 0#32
  ![v832.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S1x2048x1024_S1x2048x512_0_0_0 : ∀ a, (![0, 0, 0] : Fin 3 → Nat) a + S1x2048x512.size a ≤ S1x2048x1024.size a
  squeezes_S1x2048x512_S2048x512 : S1x2048x512.Squeezes S2048x512
  inb_S2_S1_0 : ∀ a, (![0] : Fin 1 → Nat) a + S1.size a ≤ S2.size a
  squeezes_S1_S_ : S1.Squeezes S_
  inb_S704x512_S320x512_0_0 : ∀ a, (![0, 0] : Fin 2 → Nat) a + S320x512.size a ≤ S704x512.size a
  squeezes_S1x320x512_S320x512 : S1x320x512.Squeezes S320x512
  inb_S2_S1_1 : ∀ a, (![1] : Fin 1 → Nat) a + S1.size a ≤ S2.size a
  inb_S704x512_S384x512_320_0 : ∀ a, (![320, 0] : Fin 2 → Nat) a + S384x512.size a ≤ S704x512.size a
  squeezes_S1x384x512_S384x512 : S1x384x512.Squeezes S384x512
  hamt_1 : (1#32 : BitVec 32).msb = false
  hamt_3 : (3#32 : BitVec 32).msb = false
  inb_S704x512_S704x512_0_0 : ∀ a, (![0, 0] : Fin 2 → Nat) a + S704x512.size a ≤ S704x512.size a
  h_S704x512 : 0 < S704x512.numel
  bitsLt_bf16_f32 : FTy.bits .bf16 < FTy.bits .f32
  shapeCasts_S704x512_S704x512 : S704x512.ShapeCasts S704x512
  packedbf16_S704x512_S704x512_0_0 : (Rect.unit (s := S704x512) ![0, 0] S704x512.size inb_S704x512_S704x512_0_0).PackedRows (EltTy.packing .bf16)
  inb_S11_S1_0 : ∀ a, (![0] : Fin 1 → Nat) a + S1.size a ≤ S11.size a
  inb_S704x512_S64x512_0_0 : ∀ a, (![0, 0] : Fin 2 → Nat) a + S64x512.size a ≤ S704x512.size a
  wordsbf16_S704x512_S64x512_0_0 : (Rect.unit (s := S704x512) ![0, 0] S64x512.size inb_S704x512_S64x512_0_0).WholeWords (EltTy.packing .bf16)
  inb_S11_S1_1 : ∀ a, (![1] : Fin 1 → Nat) a + S1.size a ≤ S11.size a
  inb_S704x512_S64x512_64_0 : ∀ a, (![64, 0] : Fin 2 → Nat) a + S64x512.size a ≤ S704x512.size a
  wordsbf16_S704x512_S64x512_64_0 : (Rect.unit (s := S704x512) ![64, 0] S64x512.size inb_S704x512_S64x512_64_0).WholeWords (EltTy.packing .bf16)
  inb_S11_S1_2 : ∀ a, (![2] : Fin 1 → Nat) a + S1.size a ≤ S11.size a
  inb_S704x512_S64x512_128_0 : ∀ a, (![128, 0] : Fin 2 → Nat) a + S64x512.size a ≤ S704x512.size a
  wordsbf16_S704x512_S64x512_128_0 : (Rect.unit (s := S704x512) ![128, 0] S64x512.size inb_S704x512_S64x512_128_0).WholeWords (EltTy.packing .bf16)
  inb_S11_S1_3 : ∀ a, (![3] : Fin 1 → Nat) a + S1.size a ≤ S11.size a
  inb_S704x512_S64x512_192_0 : ∀ a, (![192, 0] : Fin 2 → Nat) a + S64x512.size a ≤ S704x512.size a
  wordsbf16_S704x512_S64x512_192_0 : (Rect.unit (s := S704x512) ![192, 0] S64x512.size inb_S704x512_S64x512_192_0).WholeWords (EltTy.packing .bf16)
  inb_S11_S1_4 : ∀ a, (![4] : Fin 1 → Nat) a + S1.size a ≤ S11.size a
  inb_S704x512_S64x512_256_0 : ∀ a, (![256, 0] : Fin 2 → Nat) a + S64x512.size a ≤ S704x512.size a
  wordsbf16_S704x512_S64x512_256_0 : (Rect.unit (s := S704x512) ![256, 0] S64x512.size inb_S704x512_S64x512_256_0).WholeWords (EltTy.packing .bf16)
  inb_S11_S1_5 : ∀ a, (![5] : Fin 1 → Nat) a + S1.size a ≤ S11.size a
  inb_S704x512_S64x512_320_0 : ∀ a, (![320, 0] : Fin 2 → Nat) a + S64x512.size a ≤ S704x512.size a
  wordsbf16_S704x512_S64x512_320_0 : (Rect.unit (s := S704x512) ![320, 0] S64x512.size inb_S704x512_S64x512_320_0).WholeWords (EltTy.packing .bf16)
  inb_S11_S1_6 : ∀ a, (![6] : Fin 1 → Nat) a + S1.size a ≤ S11.size a
  inb_S704x512_S64x512_384_0 : ∀ a, (![384, 0] : Fin 2 → Nat) a + S64x512.size a ≤ S704x512.size a
  wordsbf16_S704x512_S64x512_384_0 : (Rect.unit (s := S704x512) ![384, 0] S64x512.size inb_S704x512_S64x512_384_0).WholeWords (EltTy.packing .bf16)
  inb_S11_S1_7 : ∀ a, (![7] : Fin 1 → Nat) a + S1.size a ≤ S11.size a
  inb_S704x512_S64x512_448_0 : ∀ a, (![448, 0] : Fin 2 → Nat) a + S64x512.size a ≤ S704x512.size a
  wordsbf16_S704x512_S64x512_448_0 : (Rect.unit (s := S704x512) ![448, 0] S64x512.size inb_S704x512_S64x512_448_0).WholeWords (EltTy.packing .bf16)
  inb_S11_S1_8 : ∀ a, (![8] : Fin 1 → Nat) a + S1.size a ≤ S11.size a
  inb_S704x512_S64x512_512_0 : ∀ a, (![512, 0] : Fin 2 → Nat) a + S64x512.size a ≤ S704x512.size a
  wordsbf16_S704x512_S64x512_512_0 : (Rect.unit (s := S704x512) ![512, 0] S64x512.size inb_S704x512_S64x512_512_0).WholeWords (EltTy.packing .bf16)
  inb_S11_S1_9 : ∀ a, (![9] : Fin 1 → Nat) a + S1.size a ≤ S11.size a
  inb_S704x512_S64x512_576_0 : ∀ a, (![576, 0] : Fin 2 → Nat) a + S64x512.size a ≤ S704x512.size a
  wordsbf16_S704x512_S64x512_576_0 : (Rect.unit (s := S704x512) ![576, 0] S64x512.size inb_S704x512_S64x512_576_0).WholeWords (EltTy.packing .bf16)
  inb_S11_S1_10 : ∀ a, (![10] : Fin 1 → Nat) a + S1.size a ≤ S11.size a
  inb_S704x512_S64x512_640_0 : ∀ a, (![640, 0] : Fin 2 → Nat) a + S64x512.size a ≤ S704x512.size a
  wordsbf16_S704x512_S64x512_640_0 : (Rect.unit (s := S704x512) ![640, 0] S64x512.size inb_S704x512_S64x512_640_0).WholeWords (EltTy.packing .bf16)
  inb_S10_S1_0 : ∀ a, (![0] : Fin 1 → Nat) a + S1.size a ≤ S10.size a
  inb_S640x512_S64x512_0_0 : ∀ a, (![0, 0] : Fin 2 → Nat) a + S64x512.size a ≤ S640x512.size a
  wordsbf16_S640x512_S64x512_0_0 : (Rect.unit (s := S640x512) ![0, 0] S64x512.size inb_S640x512_S64x512_0_0).WholeWords (EltTy.packing .bf16)
  inb_S10_S1_1 : ∀ a, (![1] : Fin 1 → Nat) a + S1.size a ≤ S10.size a
  inb_S640x512_S64x512_64_0 : ∀ a, (![64, 0] : Fin 2 → Nat) a + S64x512.size a ≤ S640x512.size a
  wordsbf16_S640x512_S64x512_64_0 : (Rect.unit (s := S640x512) ![64, 0] S64x512.size inb_S640x512_S64x512_64_0).WholeWords (EltTy.packing .bf16)
  inb_S10_S1_2 : ∀ a, (![2] : Fin 1 → Nat) a + S1.size a ≤ S10.size a
  inb_S640x512_S64x512_128_0 : ∀ a, (![128, 0] : Fin 2 → Nat) a + S64x512.size a ≤ S640x512.size a
  wordsbf16_S640x512_S64x512_128_0 : (Rect.unit (s := S640x512) ![128, 0] S64x512.size inb_S640x512_S64x512_128_0).WholeWords (EltTy.packing .bf16)
  inb_S10_S1_3 : ∀ a, (![3] : Fin 1 → Nat) a + S1.size a ≤ S10.size a
  inb_S640x512_S64x512_192_0 : ∀ a, (![192, 0] : Fin 2 → Nat) a + S64x512.size a ≤ S640x512.size a
  wordsbf16_S640x512_S64x512_192_0 : (Rect.unit (s := S640x512) ![192, 0] S64x512.size inb_S640x512_S64x512_192_0).WholeWords (EltTy.packing .bf16)
  inb_S10_S1_4 : ∀ a, (![4] : Fin 1 → Nat) a + S1.size a ≤ S10.size a
  inb_S640x512_S64x512_256_0 : ∀ a, (![256, 0] : Fin 2 → Nat) a + S64x512.size a ≤ S640x512.size a
  wordsbf16_S640x512_S64x512_256_0 : (Rect.unit (s := S640x512) ![256, 0] S64x512.size inb_S640x512_S64x512_256_0).WholeWords (EltTy.packing .bf16)
  h_S320x512 : 0 < S320x512.numel
  h_S384x512 : 0 < S384x512.numel
  inb_S10_S1_5 : ∀ a, (![5] : Fin 1 → Nat) a + S1.size a ≤ S10.size a
  inb_S640x512_S64x512_320_0 : ∀ a, (![320, 0] : Fin 2 → Nat) a + S64x512.size a ≤ S640x512.size a
  wordsbf16_S640x512_S64x512_320_0 : (Rect.unit (s := S640x512) ![320, 0] S64x512.size inb_S640x512_S64x512_320_0).WholeWords (EltTy.packing .bf16)
  inb_S10_S1_6 : ∀ a, (![6] : Fin 1 → Nat) a + S1.size a ≤ S10.size a
  inb_S640x512_S64x512_384_0 : ∀ a, (![384, 0] : Fin 2 → Nat) a + S64x512.size a ≤ S640x512.size a
  wordsbf16_S640x512_S64x512_384_0 : (Rect.unit (s := S640x512) ![384, 0] S64x512.size inb_S640x512_S64x512_384_0).WholeWords (EltTy.packing .bf16)
  inb_S10_S1_7 : ∀ a, (![7] : Fin 1 → Nat) a + S1.size a ≤ S10.size a
  inb_S640x512_S64x512_448_0 : ∀ a, (![448, 0] : Fin 2 → Nat) a + S64x512.size a ≤ S640x512.size a
  wordsbf16_S640x512_S64x512_448_0 : (Rect.unit (s := S640x512) ![448, 0] S64x512.size inb_S640x512_S64x512_448_0).WholeWords (EltTy.packing .bf16)
  inb_S10_S1_8 : ∀ a, (![8] : Fin 1 → Nat) a + S1.size a ≤ S10.size a
  inb_S640x512_S64x512_512_0 : ∀ a, (![512, 0] : Fin 2 → Nat) a + S64x512.size a ≤ S640x512.size a
  wordsbf16_S640x512_S64x512_512_0 : (Rect.unit (s := S640x512) ![512, 0] S64x512.size inb_S640x512_S64x512_512_0).WholeWords (EltTy.packing .bf16)
  inb_S10_S1_9 : ∀ a, (![9] : Fin 1 → Nat) a + S1.size a ≤ S10.size a
  inb_S640x512_S64x512_576_0 : ∀ a, (![576, 0] : Fin 2 → Nat) a + S64x512.size a ≤ S640x512.size a
  wordsbf16_S640x512_S64x512_576_0 : (Rect.unit (s := S640x512) ![576, 0] S64x512.size inb_S640x512_S64x512_576_0).WholeWords (EltTy.packing .bf16)
  inb_S640x512_S320x512_0_0 : ∀ a, (![0, 0] : Fin 2 → Nat) a + S320x512.size a ≤ S640x512.size a
  inb_S640x512_S320x512_320_0 : ∀ a, (![320, 0] : Fin 2 → Nat) a + S320x512.size a ≤ S640x512.size a
  inb_S1x2048x1024_S1x2048x512_0_0_512 : ∀ a, (![0, 0, 512] : Fin 3 → Nat) a + S1x2048x512.size a ≤ S1x2048x1024.size a
  hcc0_scratch6 : 1 + S_.numel ≤ 68
  hcc0_scratch7 : 2 + S2.numel ≤ 68
  hcc0_scratch8 : 4 + S11.numel ≤ 68
  hcc0_scratch9 : 15 + S11.numel ≤ 68
  hcc0_scratch10 : 26 + S11.numel ≤ 68
  hcc0_scratch11 : 37 + S11.numel ≤ 68
  hcc0_scratch12 : 48 + S10.numel ≤ 68
  hcc0_scratch13 : 58 + S10.numel ≤ 68
  k0_off1_inb : ∀ d0 : Dev nD, ∀ (k0_h1 : k0_cond1 d0 = 1#1), ∀ a, (k0_off1 d0) a + S1x320x512.size a ≤ S1x2048x1024.size a
  k0_off2_inb : ∀ d0 : Dev nD, ∀ (k0_h1 : k0_cond1 d0 = 1#1), ∀ a, (k0_off2 d0) a + S1x384x512.size a ≤ S1x2048x1024.size a
  k0_dev1_lt : ∀ d0 : Dev nD, ∀ (k0_h1 : k0_cond1 d0 = 1#1), (k0_dev1 d0) < nD
  k0_dev2_lt : ∀ d0 : Dev nD, ∀ (k0_h1 : k0_cond1 d0 = 1#1), (k0_dev2 d0) < nD
  k0_dev3_lt : ∀ d0 : Dev nD, ∀ (k0_h1 : k0_cond1 d0 = 1#1), (k0_dev3 d0) < nD
  k0_dev4_lt : ∀ d0 : Dev nD, ∀ (k0_h1 : k0_cond1 d0 = 1#1), (k0_dev4 d0) < nD
  k0_dev5_lt : ∀ d0 : Dev nD, ∀ (k0_h1 : k0_cond1 d0 = 1#1), (k0_dev5 d0) < nD
  k0_dev6_lt : ∀ d0 : Dev nD, ∀ (k0_h1 : k0_cond1 d0 = 1#1), (k0_dev6 d0) < nD
  k0_dev7_lt : ∀ d0 : Dev nD, ∀ (k0_h1 : k0_cond1 d0 = 1#1), (k0_dev7 d0) < nD
  k0_dev8_lt : ∀ d0 : Dev nD, ∀ (k0_h1 : k0_cond1 d0 = 1#1), (k0_dev8 d0) < nD
  k0_dev9_lt : ∀ d0 : Dev nD, ∀ (k0_h1 : k0_cond1 d0 = 1#1), (k0_dev9 d0) < nD
  k0_dev10_lt : ∀ d0 : Dev nD, ∀ (k0_h1 : k0_cond1 d0 = 1#1), (k0_dev10 d0) < nD
  k0_dev11_lt : ∀ d0 : Dev nD, ∀ (k0_h1 : k0_cond1 d0 = 1#1), (k0_dev11 d0) < nD
  k0_dev12_lt : ∀ d0 : Dev nD, ∀ (k0_h1 : k0_cond1 d0 = 1#1), (k0_dev12 d0) < nD
  k0_dev13_lt : ∀ d0 : Dev nD, ∀ (k0_h1 : k0_cond1 d0 = 1#1), (k0_dev13 d0) < nD
  k0_dev14_lt : ∀ d0 : Dev nD, ∀ (k0_h1 : k0_cond1 d0 = 1#1), (k0_dev14 d0) < nD
  k0_dev15_lt : ∀ d0 : Dev nD, ∀ (k0_h1 : k0_cond1 d0 = 1#1), (k0_dev15 d0) < nD
  k0_dev16_lt : ∀ d0 : Dev nD, ∀ (k0_h1 : k0_cond1 d0 = 1#1), (k0_dev16 d0) < nD
  k0_dev17_lt : ∀ d0 : Dev nD, ∀ (k0_h1 : k0_cond1 d0 = 1#1), (k0_dev17 d0) < nD
  k0_dev18_lt : ∀ d0 : Dev nD, ∀ (k0_h1 : k0_cond1 d0 = 1#1), (k0_dev18 d0) < nD
  k0_dev19_lt : ∀ d0 : Dev nD, ∀ (k0_h1 : k0_cond1 d0 = 1#1), (k0_dev19 d0) < nD
  k0_dev20_lt : ∀ d0 : Dev nD, ∀ (k0_h1 : k0_cond1 d0 = 1#1), (k0_dev20 d0) < nD
  k0_dev21_lt : ∀ d0 : Dev nD, ∀ (k0_h1 : k0_cond1 d0 = 1#1), (k0_dev21 d0) < nD
  k0_dev22_lt : ∀ d0 : Dev nD, ∀ (k0_h1 : k0_cond1 d0 = 1#1), (k0_dev22 d0) < nD
  k0_dev23_lt : ∀ d0 : Dev nD, ∀ (k0_h1 : k0_cond1 d0 = 1#1), (k0_dev23 d0) < nD
  k0_dev24_lt : ∀ d0 : Dev nD, ∀ (k0_h1 : k0_cond1 d0 = 1#1), (k0_dev24 d0) < nD
  k0_off3_inb : ∀ d0 : Dev nD, ∀ (k0_h1 : k0_cond1 d0 = 1#1), ∀ a, (k0_off3 d0) a + S320x512.size a ≤ S2048x512.size a
  k0_dev25_lt : ∀ d0 : Dev nD, ∀ (k0_h1 : k0_cond1 d0 = 1#1), (k0_dev25 d0) < nD
  k0_dev26_lt : ∀ d0 : Dev nD, ∀ (k0_h1 : k0_cond1 d0 = 1#1), (k0_dev26 d0) < nD
  k0_dev27_lt : ∀ d0 : Dev nD, ∀ (k0_h1 : k0_cond1 d0 = 1#1), (k0_dev27 d0) < nD
  k0_dev28_lt : ∀ d0 : Dev nD, ∀ (k0_h1 : k0_cond1 d0 = 1#1), (k0_dev28 d0) < nD
  k0_dev29_lt : ∀ d0 : Dev nD, ∀ (k0_h1 : k0_cond1 d0 = 1#1), (k0_dev29 d0) < nD
  k0_dev30_lt : ∀ d0 : Dev nD, ∀ (k0_h1 : k0_cond1 d0 = 1#1), (k0_dev30 d0) < nD
  k0_off4_inb : ∀ d0 : Dev nD, ∀ (k0_h1 : k0_cond1 d0 = 1#1), ∀ a, (k0_off4 d0) a + S384x512.size a ≤ S2048x512.size a
  k0_dev31_lt : ∀ d0 : Dev nD, ∀ (k0_h1 : k0_cond1 d0 = 1#1), (k0_dev31 d0) < nD
  k0_dev32_lt : ∀ d0 : Dev nD, ∀ (k0_h1 : k0_cond1 d0 = 1#1), (k0_dev32 d0) < nD
  k0_dev33_lt : ∀ d0 : Dev nD, ∀ (k0_h1 : k0_cond1 d0 = 1#1), (k0_dev33 d0) < nD
  k0_dev34_lt : ∀ d0 : Dev nD, ∀ (k0_h1 : k0_cond1 d0 = 1#1), (k0_dev34 d0) < nD
  k0_dev35_lt : ∀ d0 : Dev nD, ∀ (k0_h1 : k0_cond1 d0 = 1#1), (k0_dev35 d0) < nD
  k0_off5_inb : ∀ d0 : Dev nD, ∀ (k0_h1 : k0_cond1 d0 = 1#1), ∀ a, (k0_off5 d0) a + S320x512.size a ≤ S2048x512.size a
  k0_off6_inb : ∀ d0 : Dev nD, ∀ (k0_h1 : k0_cond1 d0 = 1#1), ∀ a, (k0_off6 d0) a + S384x512.size a ≤ S2048x512.size a
  k0_off7_inb : ∀ d0 : Dev nD, ∀ (k0_h1 : k0_cond1 d0 = 1#1), ∀ a, (k0_off7 d0) a + S320x512.size a ≤ S2048x512.size a
  k0_off8_inb : ∀ d0 : Dev nD, ∀ (k0_h1 : k0_cond1 d0 = 1#1), ∀ a, (k0_off8 d0) a + S320x512.size a ≤ S2048x512.size a
  k0_off9_inb : ∀ d0 : Dev nD, ∀ (k0_h2 : k0_cond2 d0 = 1#1), ∀ a, (k0_off9 d0) a + S1x320x512.size a ≤ S1x2048x1024.size a
  k0_off10_inb : ∀ d0 : Dev nD, ∀ (k0_h2 : k0_cond2 d0 = 1#1), ∀ a, (k0_off10 d0) a + S1x384x512.size a ≤ S1x2048x1024.size a
  k0_dev36_lt : ∀ d0 : Dev nD, ∀ (k0_h2 : k0_cond2 d0 = 1#1), (k0_dev36 d0) < nD
  k0_dev37_lt : ∀ d0 : Dev nD, ∀ (k0_h2 : k0_cond2 d0 = 1#1), (k0_dev37 d0) < nD
  k0_dev38_lt : ∀ d0 : Dev nD, ∀ (k0_h2 : k0_cond2 d0 = 1#1), (k0_dev38 d0) < nD
  k0_dev39_lt : ∀ d0 : Dev nD, ∀ (k0_h2 : k0_cond2 d0 = 1#1), (k0_dev39 d0) < nD
  k0_dev40_lt : ∀ d0 : Dev nD, ∀ (k0_h2 : k0_cond2 d0 = 1#1), (k0_dev40 d0) < nD
  k0_dev41_lt : ∀ d0 : Dev nD, ∀ (k0_h2 : k0_cond2 d0 = 1#1), (k0_dev41 d0) < nD
  k0_dev42_lt : ∀ d0 : Dev nD, ∀ (k0_h2 : k0_cond2 d0 = 1#1), (k0_dev42 d0) < nD
  k0_dev43_lt : ∀ d0 : Dev nD, ∀ (k0_h2 : k0_cond2 d0 = 1#1), (k0_dev43 d0) < nD
  k0_dev44_lt : ∀ d0 : Dev nD, ∀ (k0_h2 : k0_cond2 d0 = 1#1), (k0_dev44 d0) < nD
  k0_dev45_lt : ∀ d0 : Dev nD, ∀ (k0_h2 : k0_cond2 d0 = 1#1), (k0_dev45 d0) < nD
  k0_dev46_lt : ∀ d0 : Dev nD, ∀ (k0_h2 : k0_cond2 d0 = 1#1), (k0_dev46 d0) < nD
  k0_dev47_lt : ∀ d0 : Dev nD, ∀ (k0_h2 : k0_cond2 d0 = 1#1), (k0_dev47 d0) < nD
  k0_dev48_lt : ∀ d0 : Dev nD, ∀ (k0_h2 : k0_cond2 d0 = 1#1), (k0_dev48 d0) < nD
  k0_dev49_lt : ∀ d0 : Dev nD, ∀ (k0_h2 : k0_cond2 d0 = 1#1), (k0_dev49 d0) < nD
  k0_dev50_lt : ∀ d0 : Dev nD, ∀ (k0_h2 : k0_cond2 d0 = 1#1), (k0_dev50 d0) < nD
  k0_dev51_lt : ∀ d0 : Dev nD, ∀ (k0_h2 : k0_cond2 d0 = 1#1), (k0_dev51 d0) < nD
  k0_dev52_lt : ∀ d0 : Dev nD, ∀ (k0_h2 : k0_cond2 d0 = 1#1), (k0_dev52 d0) < nD
  k0_dev53_lt : ∀ d0 : Dev nD, ∀ (k0_h2 : k0_cond2 d0 = 1#1), (k0_dev53 d0) < nD
  k0_dev54_lt : ∀ d0 : Dev nD, ∀ (k0_h2 : k0_cond2 d0 = 1#1), (k0_dev54 d0) < nD
  k0_dev55_lt : ∀ d0 : Dev nD, ∀ (k0_h2 : k0_cond2 d0 = 1#1), (k0_dev55 d0) < nD
  k0_dev56_lt : ∀ d0 : Dev nD, ∀ (k0_h2 : k0_cond2 d0 = 1#1), (k0_dev56 d0) < nD
  k0_dev57_lt : ∀ d0 : Dev nD, ∀ (k0_h2 : k0_cond2 d0 = 1#1), (k0_dev57 d0) < nD
  k0_dev58_lt : ∀ d0 : Dev nD, ∀ (k0_h2 : k0_cond2 d0 = 1#1), (k0_dev58 d0) < nD
  k0_dev59_lt : ∀ d0 : Dev nD, ∀ (k0_h2 : k0_cond2 d0 = 1#1), (k0_dev59 d0) < nD
  k0_off11_inb : ∀ d0 : Dev nD, ∀ (k0_h2 : k0_cond2 d0 = 1#1), ∀ a, (k0_off11 d0) a + S320x512.size a ≤ S2048x512.size a
  k0_dev60_lt : ∀ d0 : Dev nD, ∀ (k0_h2 : k0_cond2 d0 = 1#1), (k0_dev60 d0) < nD
  k0_dev61_lt : ∀ d0 : Dev nD, ∀ (k0_h2 : k0_cond2 d0 = 1#1), (k0_dev61 d0) < nD
  k0_dev62_lt : ∀ d0 : Dev nD, ∀ (k0_h2 : k0_cond2 d0 = 1#1), (k0_dev62 d0) < nD
  k0_dev63_lt : ∀ d0 : Dev nD, ∀ (k0_h2 : k0_cond2 d0 = 1#1), (k0_dev63 d0) < nD
  k0_dev64_lt : ∀ d0 : Dev nD, ∀ (k0_h2 : k0_cond2 d0 = 1#1), (k0_dev64 d0) < nD
  k0_dev65_lt : ∀ d0 : Dev nD, ∀ (k0_h2 : k0_cond2 d0 = 1#1), (k0_dev65 d0) < nD
  k0_off12_inb : ∀ d0 : Dev nD, ∀ (k0_h2 : k0_cond2 d0 = 1#1), ∀ a, (k0_off12 d0) a + S384x512.size a ≤ S2048x512.size a
  k0_dev66_lt : ∀ d0 : Dev nD, ∀ (k0_h2 : k0_cond2 d0 = 1#1), (k0_dev66 d0) < nD
  k0_dev67_lt : ∀ d0 : Dev nD, ∀ (k0_h2 : k0_cond2 d0 = 1#1), (k0_dev67 d0) < nD
  k0_dev68_lt : ∀ d0 : Dev nD, ∀ (k0_h2 : k0_cond2 d0 = 1#1), (k0_dev68 d0) < nD
  k0_dev69_lt : ∀ d0 : Dev nD, ∀ (k0_h2 : k0_cond2 d0 = 1#1), (k0_dev69 d0) < nD
  k0_dev70_lt : ∀ d0 : Dev nD, ∀ (k0_h2 : k0_cond2 d0 = 1#1), (k0_dev70 d0) < nD
  k0_off13_inb : ∀ d0 : Dev nD, ∀ (k0_h2 : k0_cond2 d0 = 1#1), ∀ a, (k0_off13 d0) a + S320x512.size a ≤ S2048x512.size a
  k0_off14_inb : ∀ d0 : Dev nD, ∀ (k0_h2 : k0_cond2 d0 = 1#1), ∀ a, (k0_off14 d0) a + S384x512.size a ≤ S2048x512.size a
  k0_off15_inb : ∀ d0 : Dev nD, ∀ (k0_h2 : k0_cond2 d0 = 1#1), ∀ a, (k0_off15 d0) a + S320x512.size a ≤ S2048x512.size a
  k0_off16_inb : ∀ d0 : Dev nD, ∀ (k0_h2 : k0_cond2 d0 = 1#1), ∀ a, (k0_off16 d0) a + S320x512.size a ≤ S2048x512.size a
  hstage0_0 : ∀ j, (stage0_0 j).IsWhole

variable [Facts₀]

abbrev cc0_scratch6 : DmaSems sig S_ := SemArray.consecutive 1 S_ hcc0_scratch6
abbrev cc0_scratch7 : DmaSems sig S2 := SemArray.consecutive 2 S2 hcc0_scratch7
abbrev cc0_scratch8 : DmaSems sig S11 := SemArray.consecutive 4 S11 hcc0_scratch8
abbrev cc0_scratch9 : DmaSems sig S11 := SemArray.consecutive 15 S11 hcc0_scratch9
abbrev cc0_scratch10 : DmaSems sig S11 := SemArray.consecutive 26 S11 hcc0_scratch10
abbrev cc0_scratch11 : DmaSems sig S11 := SemArray.consecutive 37 S11 hcc0_scratch11
abbrev cc0_scratch12 : DmaSems sig S10 := SemArray.consecutive 48 S10 hcc0_scratch12
abbrev cc0_scratch13 : DmaSems sig S10 := SemArray.consecutive 58 S10 hcc0_scratch13

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x2048x1024_S2048x1024_d0 : S2x2048x1024.ReducesTo [0] S2048x1024
  h_S_ : 0 < S_.numel

variable [Facts₀]

class Facts : Prop extends Facts₀ where

variable [Facts]
-- ==== Proof.Mesh.lean ====
import Mathlib.Data.Fin.VecNotation
import Mathlib.Logic.Equiv.Defs

namespace Cert.RsMesh

def xp : Fin 8 → Fin 8 := ![4, 5, 6, 7, 0, 1, 2, 3]

def yn : Fin 8 → Fin 8 := ![2, 3, 0, 1, 6, 7, 4, 5]

def zn : Fin 8 → Fin 8 := ![1, 0, 3, 2, 5, 4, 7, 6]

theorem xp_xp (c : Fin 8) : xp (xp c) = c := by revert c; decide
theorem yn_yn (c : Fin 8) : yn (yn c) = c := by revert c; decide
theorem zn_zn (c : Fin 8) : zn (zn c) = c := by revert c; decide
theorem xp_val (c : Fin 8) : (xp c).val = (2 * ((c.val / 2) % 2) + (c.val % 2) + 4) - 4 * (c.val / 4) := by revert c; decide
theorem yn_val (c : Fin 8) : (yn c).val = (4 * (c.val / 4) + (c.val % 2) + 2) - 2 * ((c.val / 2) % 2) := by revert c; decide
theorem zn_val (c : Fin 8) : (zn c).val = (4 * (c.val / 4) + 2 * ((c.val / 2) % 2) + 1) - (c.val % 2) := by revert c; decide

theorem xp_x (c : Fin 8) : (xp c).val / 4 = 1 - c.val / 4 := by revert c; decide
def xpE : Fin 8 ≃ Fin 8 := ⟨xp, xp, xp_xp, xp_xp⟩
def ynE : Fin 8 ≃ Fin 8 := ⟨yn, yn, yn_yn, yn_yn⟩
def znE : Fin 8 ≃ Fin 8 := ⟨zn, zn, zn_zn, zn_zn⟩

end Cert.RsMesh
-- ==== Proof.Contents.lean ====
import proofs.«901021_g7700000000001022_dist_rs_v7x_xyz2x2x2_x_m2048_n512_f32_1_alg».proof.Proof.Gen.KernelIdeal
import proofs.«901021_g7700000000001022_dist_rs_v7x_xyz2x2x2_x_m2048_n512_f32_1_alg».proof.Proof.Gen.KernelIdeal.Skeleton
import proofs.«901021_g7700000000001022_dist_rs_v7x_xyz2x2x2_x_m2048_n512_f32_1_alg».proof.Proof.Gen.KernelIdeal.Launch
import proofs.«901021_g7700000000001022_dist_rs_v7x_xyz2x2x2_x_m2048_n512_f32_1_alg».proof.Proof.Gen.KernelIdeal.Points
import proofs.«901021_g7700000000001022_dist_rs_v7x_xyz2x2x2_x_m2048_n512_f32_1_alg».proof.Proof.Gen.KernelIdeal.Frame
import proofs.«901021_g7700000000001022_dist_rs_v7x_xyz2x2x2_x_m2048_n512_f32_1_alg».proof.Proof.Mesh
import Idealize.ShloMosaic.Lib.Pipeline.Launch
import Idealize.ShloMosaic.Lib.Pipeline.Kit
import Idealize.ShloMosaic.Lib.Tactic

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev a0M : Memref sig .tc .hbm S1x2048x1024 .f32 := Memref.whole main_arg0
abbrev oM : Memref sig .tc .vmem S2048x512 .f32 := Memref.whole cc0_stg0_0
abbrev xlM : Memref sig .tc .vmem S2048x512 .f32 := Memref.whole cc0_scratch0
abbrev xpM : Memref sig .tc .vmem S704x512 .f32 := Memref.whole cc0_scratch1
abbrev xsM : Memref sig .tc .vmem S704x512 .bf16 := Memref.whole cc0_scratch2
abbrev xrM : Memref sig .tc .vmem S704x512 .bf16 := Memref.whole cc0_scratch3
abbrev yrM : Memref sig .tc .vmem S704x512 .bf16 := Memref.whole cc0_scratch4
abbrev zrM : Memref sig .tc .vmem S640x512 .bf16 := Memref.whole cc0_scratch5

theorem ch_inb (k : Fin 11) : ∀ a, (![64 * k.val, 0] : Fin 2 → Nat) a + S64x512.size a ≤ S704x512.size a := by
  revert k; decide
theorem chz_inb (j : Fin 10) : ∀ a, (![64 * j.val, 0] : Fin 2 → Nat) a + S64x512.size a ≤ S640x512.size a := by
  revert j; decide

abbrev ch (M : Memref sig .tc .vmem S704x512 .bf16) (k : Fin 11) : Memref sig .tc .vmem S64x512 .bf16 :=
  M.slice (Rect.unit (s := S704x512) ![64 * k.val, 0] S64x512.size (ch_inb k)) (fun _ => rfl)

abbrev chz (M : Memref sig .tc .vmem S640x512 .bf16) (j : Fin 10) : Memref sig .tc .vmem S64x512 .bf16 :=
  M.slice (Rect.unit (s := S640x512) ![64 * j.val, 0] S64x512.size (chz_inb j)) (fun _ => rfl)

def xc (c : Dev nD) : Nat := c.val / 4

def erow (c : Dev nD) : Nat := 1408 * (c.val % 2) + 320 * ((c.val / 2) % 2)

def crow (c : Dev nD) : Nat := 384 * ((c.val / 2) % 2) + 640

theorem xc_lt (c : Dev nD) : xc c < 2 := by revert c; decide
theorem ld_inb (c : Dev nD) : ∀ a, (![0, 0, 512 * xc c] : Fin 3 → Nat) a + S1x2048x512.size a ≤ S1x2048x1024.size a := by
  revert c; decide
theorem pe_inb (c : Dev nD) : ∀ a, (![0, erow c, 512 * (1 - xc c)] : Fin 3 → Nat) a + S1x320x512.size a ≤ S1x2048x1024.size a := by
  revert c; decide
theorem pc_inb (c : Dev nD) : ∀ a, (![0, crow c, 512 * (1 - xc c)] : Fin 3 → Nat) a + S1x384x512.size a ≤ S1x2048x1024.size a := by
  revert c; decide

abbrev ldSrc (c : Dev nD) : Memref sig .tc .hbm S2048x512 .f32 :=
  (a0M.slice (Rect.unit (s := S1x2048x1024) ![0, 0, 512 * xc c] S1x2048x512.size (ld_inb c)) (fun _ => rfl)).squeeze S2048x512 squeezes_S1x2048x512_S2048x512

abbrev peSrc (c : Dev nD) : Memref sig .tc .hbm S320x512 .f32 :=
  (a0M.slice (Rect.unit (s := S1x2048x1024) ![0, erow c, 512 * (1 - xc c)] S1x320x512.size (pe_inb c)) (fun _ => rfl)).squeeze S320x512 squeezes_S1x320x512_S320x512

abbrev pcSrc (c : Dev nD) : Memref sig .tc .hbm S384x512 .f32 :=
  (a0M.slice (Rect.unit (s := S1x2048x1024) ![0, crow c, 512 * (1 - xc c)] S1x384x512.size (pc_inb c)) (fun _ => rfl)).squeeze S384x512 squeezes_S1x384x512_S384x512
abbrev peDst : Memref sig .tc .vmem S320x512 .f32 :=
  xpM.slice (Rect.unit (s := S704x512) ![0, 0] S320x512.size inb_S704x512_S320x512_0_0) (fun _ => rfl)
abbrev pcDst : Memref sig .tc .vmem S384x512 .f32 :=
  xpM.slice (Rect.unit (s := S704x512) ![320, 0] S384x512.size inb_S704x512_S384x512_320_0) (fun _ => rfl)

def dflt {T : BufTy} : T.Contents (Elt F) := fun _ => Classical.arbitrary _

def A (c : Dev nD) : (main_arg0 : Ref sig .tc).ty.Contents (Elt F) := m ((c : Thread nD τ).loc main_arg0)

def XL (c : Dev nD) : (cc0_scratch0 : Ref sig .tc).ty.Contents (Elt F) := (ldSrc c).view.read (Elt F) (A m c)

def XP (c : Dev nD) : (cc0_scratch1 : Ref sig .tc).ty.Contents (Elt F) :=
  pcDst.view.write (Elt F) (peDst.view.write (Elt F) dflt ((peSrc c).view.read (Elt F) (A m c)) Finset.univ)
    ((pcSrc c).view.read (Elt F) (A m c)) Finset.univ

def XS (c : Dev nD) : (cc0_scratch2 : Ref sig .tc).ty.Contents (Elt F) := k0_pay1 (XP m c)

def XR (c : Dev nD) : (cc0_scratch3 : Ref sig .tc).ty.Contents (Elt F) := XS m (xp c)

def YR (c : Dev nD) : (cc0_scratch4 : Ref sig .tc).ty.Contents (Elt F) := XR m (yn c)

def ZR (c : Dev nD) : (cc0_scratch5 : Ref sig .tc).ty.Contents (Elt F) := fun i =>
  if h : (i 0).val < 320 then XR m (zn c) (Shape.pair (d := ![704, 512]) ⟨(i 0).val, by show (i 0).val < 704; omega⟩ ⟨(i 1).val, (i 1).isLt⟩)
  else YR m (zn c) (Shape.pair (d := ![704, 512]) ⟨(i 0).val - 320, by have h2 : (i 0).val < 640 := (i 0).isLt; show (i 0).val - 320 < 704; omega⟩ ⟨(i 1).val, (i 1).isLt⟩)

end Cert.KernelIdeal.Rs

end
-- ==== Proof.Proto.lean ====
import proofs.«901021_g7700000000001022_dist_rs_v7x_xyz2x2x2_x_m2048_n512_f32_1_alg».proof.Proof.Contents

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev barS : Sem sig := (SemArray.scalar (sig.barrier 0 rfl) : Sems sig S_).sem
abbrev barCell (c : Dev nD) : GSem nD τ sig := ((c : Thread nD τ), .reg barS)
abbrev dcell (c : Dev nD) (q : DmaSem sig) : GSem nD τ sig := ((c : Thread nD τ), .dma q)

abbrev lsQ : DmaSem sig := ⟨1, by decide⟩
abbrev psQ (k : Fin 2) : DmaSem sig := ⟨2 + k.val, by have := k.isLt; show 2 + k.val < 68; omega⟩
abbrev sxQ (k : Fin 11) : DmaSem sig := ⟨4 + k.val, by have := k.isLt; show 4 + k.val < 68; omega⟩
abbrev rxQ (k : Fin 11) : DmaSem sig := ⟨15 + k.val, by have := k.isLt; show 15 + k.val < 68; omega⟩
abbrev syQ (k : Fin 11) : DmaSem sig := ⟨26 + k.val, by have := k.isLt; show 26 + k.val < 68; omega⟩
abbrev ryQ (k : Fin 11) : DmaSem sig := ⟨37 + k.val, by have := k.isLt; show 37 + k.val < 68; omega⟩
abbrev szQ (j : Fin 10) : DmaSem sig := ⟨48 + j.val, by have := j.isLt; show 48 + j.val < 68; omega⟩
abbrev rzQ (j : Fin 10) : DmaSem sig := ⟨58 + j.val, by have := j.isLt; show 58 + j.val < 68; omega⟩

example : ((cc0_scratch9.slice (Rect.unit (s := S11) ![3] S1.size inb_S11_S1_3)).squeeze S_ squeezes_S1_S_).sem = rxQ 3 := rfl
example : cc0_scratch6.sem = lsQ := rfl

abbrev qL : PosShare TreeShare := fullShare.left
abbrev qR : PosShare TreeShare := fullShare.right
abbrev qRL : PosShare TreeShare := fullShare.right.left
abbrev qRR : PosShare TreeShare := fullShare.right.right

abbrev NL : ℕ := (xlM : Memref sig .tc .vmem S2048x512 .f32).view.dmaCredit
abbrev NE : ℕ := (peDst : Memref sig .tc .vmem S320x512 .f32).view.dmaCredit
abbrev NC : ℕ := (pcDst : Memref sig .tc .vmem S384x512 .f32).view.dmaCredit
abbrev NX : ℕ := (ch xrM 0).view.dmaCredit
abbrev NY : ℕ := (ch yrM 0).view.dmaCredit
abbrev NZ : ℕ := (chz zrM 0).view.dmaCredit

theorem NL_pos : 0 < NL := View.dmaCredit_pos _ (by decide)
theorem NE_pos : 0 < NE := View.dmaCredit_pos _ (by decide)
theorem NC_pos : 0 < NC := View.dmaCredit_pos _ (by decide)
theorem NX_pos : 0 < NX := View.dmaCredit_pos _ (by decide)
theorem NY_pos : 0 < NY := View.dmaCredit_pos _ (by decide)
theorem NZ_pos : 0 < NZ := View.dmaCredit_pos _ (by decide)

def amtQ (q : DmaSem sig) : ℕ :=
  if q.val = 1 then NL else if q.val = 2 then NE else if q.val = 3 then NC
  else if q.val < 26 then NX else if q.val < 48 then NY else NZ

theorem amtQ_pos (q : DmaSem sig) : 0 < amtQ q := by
  unfold amtQ; (repeat' split) <;> first | exact NL_pos | exact NE_pos | exact NC_pos | exact NX_pos | exact NY_pos | exact NZ_pos

def lsPay (c : Dev nD) : sProp 𝕄 :=
  iprop(((xlM : Memref sig .tc .vmem S2048x512 .f32).view.loc (c : Thread nD τ) ↦[(xlM : Memref sig .tc .vmem S2048x512 .f32).view.set]{fullShare} XL m c)
    ∗ ((ldSrc c).view.loc (c : Thread nD τ) ↦[(ldSrc c).view.set]{fullShare} A m c))
def pePay (c : Dev nD) : sProp 𝕄 :=
  iprop(((peDst : Memref sig .tc .vmem S320x512 .f32).view.loc (c : Thread nD τ) ↦[(peDst : Memref sig .tc .vmem S320x512 .f32).view.set]{fullShare} XP m c)
    ∗ ((peSrc c).view.loc (c : Thread nD τ) ↦[(peSrc c).view.set]{fullShare} A m c))
def pcPay (c : Dev nD) : sProp 𝕄 :=
  iprop(((pcDst : Memref sig .tc .vmem S384x512 .f32).view.loc (c : Thread nD τ) ↦[(pcDst : Memref sig .tc .vmem S384x512 .f32).view.set]{fullShare} XP m c)
    ∗ ((pcSrc c).view.loc (c : Thread nD τ) ↦[(pcSrc c).view.set]{fullShare} A m c))
def sxPay (c : Dev nD) (k : Fin 11) : sProp 𝕄 :=
  ((ch xsM k).view.loc (c : Thread nD τ) ↦[(ch xsM k).view.set]{fullShare} XS m c)
def rxPay (c : Dev nD) (k : Fin 11) : sProp 𝕄 :=
  iprop(((ch xrM k).view.loc (c : Thread nD τ) ↦[(ch xrM k).view.set]{qL} XR m c)
    ∗ ((ch xrM k).view.loc (c : Thread nD τ) ↦[(ch xrM k).view.set]{qRL} XR m c)
    ∗ ((ch xrM k).view.loc (c : Thread nD τ) ↦[(ch xrM k).view.set]{qRR} XR m c))
def syPay (c : Dev nD) (k : Fin 11) : sProp 𝕄 :=
  ((ch xrM k).view.loc (c : Thread nD τ) ↦[(ch xrM k).view.set]{qL} XR m c)
def ryPay (c : Dev nD) (k : Fin 11) : sProp 𝕄 :=
  iprop(((ch yrM k).view.loc (c : Thread nD τ) ↦[(ch yrM k).view.set]{qL} YR m c)
    ∗ ((ch yrM k).view.loc (c : Thread nD τ) ↦[(ch yrM k).view.set]{qR} YR m c))

def szPay (c : Dev nD) (j : Fin 10) : sProp 𝕄 :=
  if h : j.val < 5 then ((ch xrM ⟨j.val, by omega⟩).view.loc (c : Thread nD τ) ↦[(ch xrM ⟨j.val, by omega⟩).view.set]{qRL} XR m c)
  else ((ch yrM ⟨j.val - 5, by omega⟩).view.loc (c : Thread nD τ) ↦[(ch yrM ⟨j.val - 5, by omega⟩).view.set]{qL} YR m c)
def rzPay (c : Dev nD) (j : Fin 10) : sProp 𝕄 :=
  ((chz zrM j).view.loc (c : Thread nD τ) ↦[(chz zrM j).view.set]{fullShare} ZR m c)

def barPay (c : Dev nD) (d : Fin 3) : sProp 𝕄 :=
  match d with
  | 0 => iprop(∃ f, (xrM : Memref sig .tc .vmem S704x512 .bf16).view.loc (xp c : Thread nD τ) ↦[(xrM : Memref sig .tc .vmem S704x512 .bf16).view.set]{fullShare} f)
  | 1 => iprop(∃ f, (yrM : Memref sig .tc .vmem S704x512 .bf16).view.loc (yn c : Thread nD τ) ↦[(yrM : Memref sig .tc .vmem S704x512 .bf16).view.set]{fullShare} f)
  | 2 => iprop(∃ f, (zrM : Memref sig .tc .vmem S640x512 .bf16).view.loc (zn c : Thread nD τ) ↦[(zrM : Memref sig .tc .vmem S640x512 .bf16).view.set]{fullShare} f)

def payQ (c : Dev nD) (q : DmaSem sig) : sProp 𝕄 :=
  if q.val = 1 then lsPay m c else if q.val = 2 then pePay m c else if q.val = 3 then pcPay m c
  else if h4 : q.val < 4 then iprop(emp)
  else if h : q.val < 15 then sxPay m c ⟨q.val - 4, by omega⟩
  else if h : q.val < 26 then rxPay m c ⟨q.val - 15, by omega⟩
  else if h : q.val < 37 then syPay m c ⟨q.val - 26, by omega⟩
  else if h : q.val < 48 then ryPay m c ⟨q.val - 37, by omega⟩
  else if h : q.val < 58 then szPay m c ⟨q.val - 48, by omega⟩
  else rzPay m c ⟨q.val - 58, by have := q.isLt; have h68 : q.val < 68 := this; omega⟩

def rsRd : Rounds.Schedule (GSem nD τ sig) (Fin 3) 𝕄 where
  duties g r :=
    if r = 0 ∧ g.1.2 = .tc then
      (match g.2 with
        | .reg _ => Finset.univ
        | .dma q => if 1 ≤ q.val then {0} else ∅)
    else ∅
  unitless _ := False
  amount g _ _ := match g.2 with
    | .reg _ => 1
    | .dma q => amtQ q
  payload g _ d := match g.2 with
    | .reg _ => barPay g.1.1 d
    | .dma q => payQ m g.1.1 q
  amount_pos g _ _ _ := by
    rcases g with ⟨t, sm⟩
    cases sm with
    | reg s => exact Nat.one_pos
    | dma q => exact amtQ_pos q

end Cert.KernelIdeal.Rs

end
-- ==== Proof.Sched.lean ====
import proofs.«901021_g7700000000001022_dist_rs_v7x_xyz2x2x2_x_m2048_n512_f32_1_alg».proof.Proof.Proto

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD)

theorem duties_bar : (rsRd (F := F) m).duties (barCell c) 0 = Finset.univ := by dsimp only [rsRd]; exact if_pos ⟨rfl, rfl⟩
theorem duties_d (q : DmaSem sig) (hq : 1 ≤ q.val) : (rsRd (F := F) m).duties (dcell c q) 0 = {0} := by
  dsimp only [rsRd]; rw [if_pos ⟨rfl, rfl⟩]; exact if_pos hq
theorem duties_later (g : GSem nD τ sig) : ∀ r, 1 ≤ r → (rsRd (F := F) m).duties g r = ∅ :=
  fun r hr => by dsimp only [rsRd]; rw [if_neg fun h => by omega]
theorem amount_bar (d : Fin 3) : (rsRd (F := F) m).amount (barCell c) 0 d = 1 := rfl
theorem amount_d (q : DmaSem sig) (d : Fin 3) : (rsRd (F := F) m).amount (dcell c q) 0 d = amtQ q := rfl
theorem payload_bar (d : Fin 3) : (rsRd (F := F) m).payload (barCell c) 0 d = barPay c d := rfl
theorem payload_d (q : DmaSem sig) (d : Fin 3) : (rsRd (F := F) m).payload (dcell c q) 0 d = payQ m c q := rfl

theorem expect_bar : (rsRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_d (q : DmaSem sig) (hq : 1 ≤ q.val) : (rsRd (F := F) m).expect (dcell c q) 0 = amtQ q := by
  unfold Schedule.expect Schedule.amountOf; rw [duties_d m c q hq, Finset.sum_singleton, amount_d]

theorem amtQ_ls : amtQ lsQ = NL := rfl
theorem amtQ_ps0 : amtQ (psQ 0) = NE := rfl
theorem amtQ_ps1 : amtQ (psQ 1) = NC := rfl
theorem amtQ_sx (k : Fin 11) : amtQ (sxQ k) = NX := by
  have := k.isLt; unfold amtQ; rw [if_neg (by show ¬ 4 + k.val = 1; omega), if_neg (by show ¬ 4 + k.val = 2; omega), if_neg (by show ¬ 4 + k.val = 3; omega), if_pos (by show 4 + k.val < 26; omega)]
theorem amtQ_rx (k : Fin 11) : amtQ (rxQ k) = NX := by
  have := k.isLt; unfold amtQ; rw [if_neg (by show ¬ 15 + k.val = 1; omega), if_neg (by show ¬ 15 + k.val = 2; omega), if_neg (by show ¬ 15 + k.val = 3; omega), if_pos (by show 15 + k.val < 26; omega)]
theorem amtQ_sy (k : Fin 11) : amtQ (syQ k) = NY := by
  have := k.isLt; unfold amtQ; rw [if_neg (by show ¬ 26 + k.val = 1; omega), if_neg (by show ¬ 26 + k.val = 2; omega), if_neg (by show ¬ 26 + k.val = 3; omega), if_neg (by show ¬ 26 + k.val < 26; omega), if_pos (by show 26 + k.val < 48; omega)]
theorem amtQ_ry (k : Fin 11) : amtQ (ryQ k) = NY := by
  have := k.isLt; unfold amtQ; rw [if_neg (by show ¬ 37 + k.val = 1; omega), if_neg (by show ¬ 37 + k.val = 2; omega), if_neg (by show ¬ 37 + k.val = 3; omega), if_neg (by show ¬ 37 + k.val < 26; omega), if_pos (by show 37 + k.val < 48; omega)]
theorem amtQ_sz (j : Fin 10) : amtQ (szQ j) = NZ := by
  have := j.isLt; unfold amtQ; rw [if_neg (by show ¬ 48 + j.val = 1; omega), if_neg (by show ¬ 48 + j.val = 2; omega), if_neg (by show ¬ 48 + j.val = 3; omega), if_neg (by show ¬ 48 + j.val < 26; omega), if_neg (by show ¬ 48 + j.val < 48; omega)]
theorem amtQ_rz (j : Fin 10) : amtQ (rzQ j) = NZ := by
  have := j.isLt; unfold amtQ; rw [if_neg (by show ¬ 58 + j.val = 1; omega), if_neg (by show ¬ 58 + j.val = 2; omega), if_neg (by show ¬ 58 + j.val = 3; omega), if_neg (by show ¬ 58 + j.val < 26; omega), if_neg (by show ¬ 58 + j.val < 48; omega)]

theorem payQ_ls : payQ m c lsQ = lsPay m c := rfl
theorem payQ_ps0 : payQ m c (psQ 0) = pePay m c := rfl
theorem payQ_ps1 : payQ m c (psQ 1) = pcPay m c := rfl
theorem payQ_sx (k : Fin 11) : payQ m c (sxQ k) = sxPay m c k := by
  have := k.isLt; unfold payQ
  rw [if_neg (by show ¬ 4 + k.val = 1; omega), if_neg (by show ¬ 4 + k.val = 2; omega), if_neg (by show ¬ 4 + k.val = 3; omega),
    dif_neg (by show ¬ 4 + k.val < 4; omega), dif_pos (by show 4 + k.val < 15; omega)]
  exact congrArg (sxPay m c) (Fin.ext (show 4 + k.val - 4 = k.val by omega))
theorem payQ_rx (k : Fin 11) : payQ m c (rxQ k) = rxPay m c k := by
  have := k.isLt; unfold payQ
  rw [if_neg (by show ¬ 15 + k.val = 1; omega), if_neg (by show ¬ 15 + k.val = 2; omega), if_neg (by show ¬ 15 + k.val = 3; omega),
    dif_neg (by show ¬ 15 + k.val < 4; omega), dif_neg (by show ¬ 15 + k.val < 15; omega), dif_pos (by show 15 + k.val < 26; omega)]
  exact congrArg (rxPay m c) (Fin.ext (show 15 + k.val - 15 = k.val by omega))
theorem payQ_sy (k : Fin 11) : payQ m c (syQ k) = syPay m c k := by
  have := k.isLt; unfold payQ
  rw [if_neg (by show ¬ 26 + k.val = 1; omega), if_neg (by show ¬ 26 + k.val = 2; omega), if_neg (by show ¬ 26 + k.val = 3; omega),
    dif_neg (by show ¬ 26 + k.val < 4; omega), dif_neg (by show ¬ 26 + k.val < 15; omega), dif_neg (by show ¬ 26 + k.val < 26; omega), dif_pos (by show 26 + k.val < 37; omega)]
  exact congrArg (syPay m c) (Fin.ext (show 26 + k.val - 26 = k.val by omega))
theorem payQ_ry (k : Fin 11) : payQ m c (ryQ k) = ryPay m c k := by
  have := k.isLt; unfold payQ
  rw [if_neg (by show ¬ 37 + k.val = 1; omega), if_neg (by show ¬ 37 + k.val = 2; omega), if_neg (by show ¬ 37 + k.val = 3; omega),
    dif_neg (by show ¬ 37 + k.val < 4; omega), dif_neg (by show ¬ 37 + k.val < 15; omega), dif_neg (by show ¬ 37 + k.val < 26; omega), dif_neg (by show ¬ 37 + k.val < 37; omega), dif_pos (by show 37 + k.val < 48; omega)]
  exact congrArg (ryPay m c) (Fin.ext (show 37 + k.val - 37 = k.val by omega))
theorem payQ_sz (j : Fin 10) : payQ m c (szQ j) = szPay m c j := by
  have := j.isLt; unfold payQ
  rw [if_neg (by show ¬ 48 + j.val = 1; omega), if_neg (by show ¬ 48 + j.val = 2; omega), if_neg (by show ¬ 48 + j.val = 3; omega),
    dif_neg (by show ¬ 48 + j.val < 4; omega), dif_neg (by show ¬ 48 + j.val < 15; omega), dif_neg (by show ¬ 48 + j.val < 26; omega), dif_neg (by show ¬ 48 + j.val < 37; omega), dif_neg (by show ¬ 48 + j.val < 48; omega), dif_pos (by show 48 + j.val < 58; omega)]
  exact congrArg (szPay m c) (Fin.ext (show 48 + j.val - 48 = j.val by omega))
theorem payQ_rz (j : Fin 10) : payQ m c (rzQ j) = rzPay m c j := by
  have := j.isLt; unfold payQ
  rw [if_neg (by show ¬ 58 + j.val = 1; omega), if_neg (by show ¬ 58 + j.val = 2; omega), if_neg (by show ¬ 58 + j.val = 3; omega),
    dif_neg (by show ¬ 58 + j.val < 4; omega), dif_neg (by show ¬ 58 + j.val < 15; omega), dif_neg (by show ¬ 58 + j.val < 26; omega), dif_neg (by show ¬ 58 + j.val < 37; omega), dif_neg (by show ¬ 58 + j.val < 48; omega), dif_neg (by show ¬ 58 + j.val < 58; omega)]
  exact congrArg (rzPay m c) (Fin.ext (show 58 + j.val - 58 = j.val by omega))

end Tables

def payList (c : Dev nD) : List (CellTallies nD τ sig Unit) :=
  [tallyAt (barCell (xp c)) () 1, tallyAt (barCell (yn c)) () 1, tallyAt (barCell (zn c)) () 1]
  ++ (List.finRange 11).map (fun k => tallyAt (dcell (xp c) (rxQ k)) () NX)
  ++ ((List.finRange 5).flatMap fun k : Fin 5 =>
        [tallyAt (dcell (yn c) (ryQ ⟨k.val, by omega⟩)) () NY, tallyAt (dcell (zn c) (rzQ ⟨k.val, by omega⟩)) () NZ])
  ++ (List.finRange 6).map (fun k : Fin 6 => tallyAt (dcell (yn c) (ryQ ⟨5 + k.val, by omega⟩)) () NY)
  ++ (List.finRange 5).map (fun k : Fin 5 => tallyAt (dcell (zn c) (rzQ ⟨5 + k.val, by omega⟩)) () NZ)

def owedFrom (c : Dev nD) (n : Nat) : CellTallies nD τ sig Unit := ((payList c).drop n).foldr (fun t acc => acc + t) 0
def O₀ (c : Dev nD) : CellTallies nD τ sig Unit := owedFrom c 0

theorem payList_length (c : Dev nD) : (payList c).length = 35 := by
  simp [payList, List.length_flatMap]

theorem owedFrom_succ (c : Dev nD) (n : Nat) (h : n < 35) :
    owedFrom c n = owedFrom c (n + 1) + (payList c)[n]'(by rw [payList_length]; exact h) := by
  unfold owedFrom
  rw [List.drop_eq_getElem_cons (by rw [payList_length]; exact h), List.foldr_cons]
theorem owedFrom_end (c : Dev nD) : owedFrom c 35 = 0 := by
  unfold owedFrom; rw [List.drop_of_length_le (by rw [payList_length])]; rfl

theorem payList_mem (c : Dev nD) {t : CellTallies nD τ sig Unit} (ht : t ∈ payList c) :
    ∃ (g : GSem nD τ sig) (n : ℕ), t = tallyAt g () n ∧ g.1.2 = .tc ∧
      ((∃ s, g.2 = .reg s) ∨ (∃ q : DmaSem sig, g.2 = .dma q ∧ ((15 ≤ q.val ∧ q.val < 26) ∨ (37 ≤ q.val ∧ q.val < 48) ∨ 58 ≤ q.val))) := by
  simp only [payList, List.mem_append, List.mem_cons, List.mem_map, List.mem_flatMap, List.mem_finRange, true_and, List.not_mem_nil, or_false] at ht
  rcases ht with ((((rfl | rfl | rfl) | ⟨k, rfl⟩) | ⟨k, rfl | rfl⟩) | ⟨k, rfl⟩) | ⟨k, rfl⟩
  · exact ⟨_, _, rfl, rfl, .inl ⟨_, rfl⟩⟩
  · exact ⟨_, _, rfl, rfl, .inl ⟨_, rfl⟩⟩
  · exact ⟨_, _, rfl, rfl, .inl ⟨_, rfl⟩⟩
  · exact ⟨_, _, rfl, rfl, .inr ⟨_, rfl, .inl ⟨by show 15 ≤ 15 + k.val; omega, by have := k.isLt; show 15 + k.val < 26; omega⟩⟩⟩
  · exact ⟨_, _, rfl, rfl, .inr ⟨_, rfl, .inr (.inl ⟨by show 37 ≤ 37 + k.val; omega, by have := k.isLt; show 37 + k.val < 48; omega⟩)⟩⟩
  · exact ⟨_, _, rfl, rfl, .inr ⟨_, rfl, .inr (.inr (by show 58 ≤ 58 + k.val; omega))⟩⟩
  · exact ⟨_, _, rfl, rfl, .inr ⟨_, rfl, .inr (.inl ⟨by show 37 ≤ 37 + (5 + k.val); omega, by have := k.isLt; show 37 + (5 + k.val) < 48; omega⟩)⟩⟩
  · exact ⟨_, _, rfl, rfl, .inr ⟨_, rfl, .inr (.inr (by show 58 ≤ 58 + (5 + k.val); omega))⟩⟩

def L (g : GSem nD τ sig) : Finset Unit := if g.1.2 = .tc then {()} else ∅

def lv (g : GSem nD τ sig) (_ : Unit) : ℕ :=
  match g.2 with
  | .reg _ => 1
  | .dma q => if 15 ≤ q.val ∧ q.val < 26 then 2 else if 37 ≤ q.val ∧ q.val < 48 then 3 else if 58 ≤ q.val then 4 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Rs

end
-- ==== Proof.Out.lean ====
import proofs.«901021_g7700000000001022_dist_rs_v7x_xyz2x2x2_x_m2048_n512_f32_1_alg».proof.Proof.Contents

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

def e2row (c : Dev nD) : Nat := (1408 * (c.val % 2) + 320) - 320 * ((c.val / 2) % 2)
def c2row (c : Dev nD) : Nat := 1024 - 384 * ((c.val / 2) % 2)
def e3row (c : Dev nD) : Nat := (320 * ((c.val / 2) % 2) + 1408) - 1408 * (c.val % 2)
def e4row (c : Dev nD) : Nat := 1728 - (1408 * (c.val % 2) + 320 * ((c.val / 2) % 2))

theorem inb320 (r : Dev nD → Nat) (h : ∀ c, r c + 320 ≤ 2048) (c : Dev nD) :
    ∀ a, (![r c, 0] : Fin 2 → Nat) a + S320x512.size a ≤ S2048x512.size a := by
  intro a; have := h c; fin_cases a
  · show r c + 320 ≤ 2048; omega
  · show 0 + 512 ≤ 512; omega
theorem inb384 (r : Dev nD → Nat) (h : ∀ c, r c + 384 ≤ 2048) (c : Dev nD) :
    ∀ a, (![r c, 0] : Fin 2 → Nat) a + S384x512.size a ≤ S2048x512.size a := by
  intro a; have := h c; fin_cases a
  · show r c + 384 ≤ 2048; omega
  · show 0 + 512 ≤ 512; omega

theorem erow_le : ∀ c : Dev nD, erow c + 320 ≤ 2048 := by decide
theorem crow_le : ∀ c : Dev nD, crow c + 384 ≤ 2048 := by decide
theorem e2row_le : ∀ c : Dev nD, e2row c + 320 ≤ 2048 := by decide
theorem c2row_le : ∀ c : Dev nD, c2row c + 384 ≤ 2048 := by decide
theorem e3row_le : ∀ c : Dev nD, e3row c + 320 ≤ 2048 := by decide
theorem e4row_le : ∀ c : Dev nD, e4row c + 320 ≤ 2048 := by decide

abbrev R320 (r : Dev nD → Nat) (h : ∀ c, r c + 320 ≤ 2048) (c : Dev nD) : Rect S2048x512 :=
  Rect.unit (s := S2048x512) ![r c, 0] S320x512.size (inb320 r h c)
abbrev R384 (r : Dev nD → Nat) (h : ∀ c, r c + 384 ≤ 2048) (c : Dev nD) : Rect S2048x512 :=
  Rect.unit (s := S2048x512) ![r c, 0] S384x512.size (inb384 r h c)

abbrev Ra : Rect S704x512 := Rect.unit (s := S704x512) ![0, 0] S320x512.size inb_S704x512_S320x512_0_0
abbrev Rb : Rect S704x512 := Rect.unit (s := S704x512) ![320, 0] S384x512.size inb_S704x512_S384x512_320_0
abbrev Za : Rect S640x512 := Rect.unit (s := S640x512) ![0, 0] S320x512.size inb_S640x512_S320x512_0_0
abbrev Zb : Rect S640x512 := Rect.unit (s := S640x512) ![320, 0] S320x512.size inb_S640x512_S320x512_320_0

def OUTw (c : Dev nD) (d : (cc0_stg0_0 : Ref sig .tc).ty.Contents (Elt F)) : (cc0_stg0_0 : Ref sig .tc).ty.Contents (Elt F) :=
  let s1 := ((oM.access (R320 erow erow_le c) : View sig .tc _ _ _).write (Elt F) d
    (k0_pay2 (xlM.view.readAt (Elt F) (R320 erow erow_le c).toLoadRect (XL m c)) (xrM.view.readAt (Elt F) Ra.toLoadRect (XR m c))) Finset.univ)
  let s2 := ((oM.access (R384 crow crow_le c) : View sig .tc _ _ _).write (Elt F) s1
    (k0_pay3 (xlM.view.readAt (Elt F) (R384 crow crow_le c).toLoadRect (XL m c)) (xrM.view.readAt (Elt F) Rb.toLoadRect (XR m c))) Finset.univ)
  let s3 := ((oM.access (R320 e2row e2row_le c) : View sig .tc _ _ _).write (Elt F) s2
    (k0_pay4 (xlM.view.readAt (Elt F) (R320 e2row e2row_le c).toLoadRect (XL m c)) (yrM.view.readAt (Elt F) Ra.toLoadRect (YR m c))) Finset.univ)
  let s4 := ((oM.access (R384 c2row c2row_le c) : View sig .tc _ _ _).write (Elt F) s3
    (k0_pay5 (xlM.view.readAt (Elt F) (R384 c2row c2row_le c).toLoadRect (XL m c)) (yrM.view.readAt (Elt F) Rb.toLoadRect (YR m c))) Finset.univ)
  let s5 := ((oM.access (R320 e3row e3row_le c) : View sig .tc _ _ _).write (Elt F) s4
    (k0_pay6 (xlM.view.readAt (Elt F) (R320 e3row e3row_le c).toLoadRect (XL m c)) (zrM.view.readAt (Elt F) Za.toLoadRect (ZR m c))) Finset.univ)
  ((oM.access (R320 e4row e4row_le c) : View sig .tc _ _ _).write (Elt F) s5
    (k0_pay7 (xlM.view.readAt (Elt F) (R320 e4row e4row_le c).toLoadRect (XL m c)) (zrM.view.readAt (Elt F) Zb.toLoadRect (ZR m c))) Finset.univ)

def OUT (c : Dev nD) : (cc0_stg0_0 : Ref sig .tc).ty.Contents (Elt F) := OUTw m c dflt

end Cert.KernelIdeal.Rs

end
-- ==== Proof.Data.lean ====
import proofs.«901021_g7700000000001022_dist_rs_v7x_xyz2x2x2_x_m2048_n512_f32_1_alg».proof.Proof.Sched
import proofs.«901021_g7700000000001022_dist_rs_v7x_xyz2x2x2_x_m2048_n512_f32_1_alg».proof.Proof.Out

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev csem (q : Fin 68) : SemLoc sig := if q.val = 0 then .reg barS else .dma q
abbrev kcell (ck : Dev nD × Fin 68) : GSem nD τ sig := ((ck.1 : Thread nD τ), csem ck.2)

theorem kcell_injective : Function.Injective (kcell : Dev nD × Fin 68 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    unfold csem at h2
    by_cases hk : k.val = 0 <;> by_cases hk' : k'.val = 0
    · exact Fin.ext (hk.trans hk'.symm)
    · rw [if_pos hk, if_neg hk'] at h2; cases h2
    · rw [if_neg hk, if_pos hk'] at h2; cases h2
    · rw [if_neg hk, if_neg hk'] at h2; exact SemLoc.dma.inj h2
  subst this; rfl

theorem kcell_d (c : Dev nD) (q : Fin 68) (hq : 1 ≤ q.val) : kcell (c, q) = dcell c q := by
  unfold kcell csem; rw [if_neg (show ¬ q.val = 0 by omega)]

def records (K : Dev nD × Fin 68 → ℕ) : sProp 𝕄 :=
  iprop((bigSep Finset.univ fun ck : Dev nD × Fin 68 => cellInv ER (rsRd m) (K ck) (kcell ck))
    ∗ bigSep Finset.univ fun ck : Dev nD × Fin 68 => reached ER (kcell ck) 0)

instance records_persistent (K : Dev nD × Fin 68 → ℕ) : BI.Persistent (records m K) := by unfold records; infer_instance

def payToks (c : Dev nD) : sProp 𝕄 :=
  iprop(dutyTok ER (barCell (xp c)) 0 0 ∗ dutyTok ER (barCell (yn c)) 0 1 ∗ dutyTok ER (barCell (zn c)) 0 2
    ∗ (bigSep Finset.univ fun k : Fin 11 => dutyTok ER (dcell (xp c) (rxQ k)) 0 0)
    ∗ (bigSep Finset.univ fun k : Fin 11 => dutyTok ER (dcell (yn c) (ryQ k)) 0 0)
    ∗ (bigSep Finset.univ fun j : Fin 10 => dutyTok ER (dcell (zn c) (rzQ j)) 0 0)
    ∗ dutyTok ER (dcell c lsQ) 0 0 ∗ dutyTok ER (dcell c (psQ 0)) 0 0 ∗ dutyTok ER (dcell c (psQ 1)) 0 0
    ∗ (bigSep Finset.univ fun k : Fin 11 => dutyTok ER (dcell c (sxQ k)) 0 0)
    ∗ (bigSep Finset.univ fun k : Fin 11 => dutyTok ER (dcell c (syQ k)) 0 0)
    ∗ (bigSep Finset.univ fun j : Fin 10 => dutyTok ER (dcell c (szQ j)) 0 0))

def positions (c : Dev nD) : sProp 𝕄 := bigSep Finset.univ fun q : Fin 68 => atPos ER (kcell (c, q)) 0 ∅ 0

def ghost (K : Dev nD × Fin 68 → ℕ) (c : Dev nD) : sProp 𝕄 := iprop(records m K ∗ positions c ∗ payToks c)

def creds (c : Dev nD) : sProp 𝕄 :=
  iprop(cred (tallyAt (barCell c) () 3)
    ∗ (bigSep Finset.univ fun k : Fin 11 => cred (tallyAt (dcell c (rxQ k)) () NX))
    ∗ (bigSep Finset.univ fun k : Fin 11 => cred (tallyAt (dcell c (ryQ k)) () NY))
    ∗ (bigSep Finset.univ fun j : Fin 10 => cred (tallyAt (dcell c (rzQ j)) () NZ)))

def start (c : Dev nD) : sProp 𝕄 := iprop((∃ K, ghost m K c) ∗ creds c ∗ levAts L lv)

abbrev someBuf (c : Dev nD) (b : Ref sig .tc) : sProp 𝕄 :=
  iprop(∃ f : Buf (Elt F) ((c : Thread nD τ).loc b), ((c : Thread nD τ).loc b) ↦{fullShare} f)

def scratch (c : Dev nD) : sProp 𝕄 :=
  iprop(someBuf c cc0_scratch0 ∗ someBuf c cc0_scratch1 ∗ someBuf c cc0_scratch2 ∗ someBuf c cc0_scratch3 ∗ someBuf c cc0_scratch4 ∗ someBuf c cc0_scratch5)

def argPts (c : Dev nD) : sProp 𝕄 := (((c : Thread nD τ).loc main_arg0) ↦{fullShare} A m c)

def Φ₀ (c : Dev nD) : sProp 𝕄 := iprop(start m c ∗ argPts m c ∗ scratch c)

def Φ₁ (c : Dev nD) : sProp 𝕄 :=
  iprop(argPts m c ∗ scratch c ∗ bigSep (Finset.univ.filter fun q : Fin 68 => 1 ≤ q.val) fun q => semVal (dcell c q) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem mayWait_lv (c : Dev nD) (sm : SemLoc sig) (O : CellTallies nD τ sig Unit) (n : ℕ) (hn : lv ((c : Thread nD τ), sm) () = n)
    (hO : ∀ (g : GSem nD τ sig) (u : Unit), 0 < O g u → g.1.2 = .tc ∧ n < lv g ()) :
    (levAts L lv : sProp 𝕄) ⊢ MayWait (c : Thread nD τ) sm () O :=
  Pipeline.mayWait_of_levAts (by rw [L_tc]; exact Finset.mem_singleton_self _)
    (fun g i h => ⟨by rw [L, if_pos (hO g i h).1]; exact Finset.mem_singleton_self _, by rw [hn]; exact (hO g i h).2⟩)

end Cert.KernelIdeal.Rs

end
-- ==== Proof.Seg.lean ====
import proofs.«901021_g7700000000001022_dist_rs_v7x_xyz2x2x2_x_m2048_n512_f32_1_alg».proof.Proof.Gen.KernelIdeal.Skeleton

set_option synthInstance.maxSize 4096

noncomputable section

namespace Cert.KernelIdeal.Rs

open Cert.KernelIdeal Cert.KernelIdeal.Gen
open Idealize.ShloMosaic Idealize.SL.Sem

variable {F : FTy → Type} [FloatOps F]

noncomputable def segA1 (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) (d0 : Dev nD) (v2 : BitVec 32) (v5 : BitVec 32) (v8 : BitVec 32) (v9 : BitVec 32) (v10 : BitVec 32) (v11 : BitVec 32) (v15 : BitVec 32) (v18 : BitVec 32) (v23 : BitVec 32) (v27 : BitVec 32) (v32 : BitVec 32) (v38 : BitVec 32) (k0_h1 : k0_cond1 d0 = 1#1) :
    Prog (TpuEff nD τ sig (Elt F) Λ₀ .tc) (PUnit) := do
  let ⟨v57, v71, v72⟩ : Σ' (v57 : Sems sig S_) (v71 : BitVec 32), BitVec 32 ← k0_part1 arg0 harg0 arg1 harg1 arg2 harg2 arg3 harg3 arg4 harg4 arg5 harg5 arg6 harg6 arg7 harg7 arg8 arg9 arg10 arg11 arg12 arg13 arg14 arg15 d0 v2 v5 v8 v9 v10 k0_h1
  k0_part2 arg0 harg0 arg1 harg1 arg2 harg2 arg3 harg3 arg4 harg4 arg5 harg5 arg6 harg6 arg7 harg7 arg8 arg9 arg10 arg11 arg12 arg13 arg14 arg15 d0 v5 v8 v9 v11 k0_h1 v57 v71 v72
  let ⟨v130, v131⟩ : Σ' (v130 : BitVec 32), BitVec 32 ← k0_part3 arg0 harg0 arg1 harg1 arg2 harg2 arg3 harg3 arg4 harg4 arg5 harg5 arg6 harg6 arg7 harg7 arg8 arg9 arg10 arg11 arg12 arg13 arg14 arg15 d0 v5 v8 v9 k0_h1
  k0_part4 arg0 harg0 arg1 harg1 arg2 harg2 arg3 harg3 arg4 harg4 arg5 harg5 arg6 harg6 arg7 harg7 arg8 arg9 arg10 arg11 arg12 arg13 arg14 arg15 d0 v5 v8 v9 k0_h1 v130 v131
  k0_part5 arg0 harg0 arg1 harg1 arg2 harg2 arg3 harg3 arg4 harg4 arg5 harg5 arg6 harg6 arg7 harg7 arg8 arg9 arg10 arg11 arg12 arg13 arg14 arg15 d0 v5 v8 v9 k0_h1
  k0_part6 arg0 harg0 arg1 harg1 arg2 harg2 arg3 harg3 arg4 harg4 arg5 harg5 arg6 harg6 arg7 harg7 arg8 arg9 arg10 arg11 arg12 arg13 arg14 arg15 d0 v5 v8 v9 k0_h1
  pure ⟨⟩

noncomputable def segB1 (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) (d0 : Dev nD) (v2 : BitVec 32) (v5 : BitVec 32) (v8 : BitVec 32) (v9 : BitVec 32) (v10 : BitVec 32) (v11 : BitVec 32) (v15 : BitVec 32) (v18 : BitVec 32) (v23 : BitVec 32) (v27 : BitVec 32) (v32 : BitVec 32) (v38 : BitVec 32) (k0_h1 : k0_cond1 d0 = 1#1) :
    Prog (TpuEff nD τ sig (Elt F) Λ₀ .tc) (PUnit) := do
  k0_part7 arg0 harg0 arg1 harg1 arg2 harg2 arg3 harg3 arg4 harg4 arg5 harg5 arg6 harg6 arg7 harg7 arg8 arg9 arg10 arg11 arg12 arg13 arg14 arg15 d0 v2 v5 v8 v9 v10 v11 k0_h1
  let ⟨v284, c1_i32_224⟩ : Σ' (v284 : BitVec 32), BitVec 32 ← k0_part8 arg0 harg0 arg1 harg1 arg2 harg2 arg3 harg3 arg4 harg4 arg5 harg5 arg6 harg6 arg7 harg7 arg8 arg9 arg10 arg11 arg12 arg13 arg14 arg15 d0 v2 v5 v8 v9 v10 k0_h1
  let c4_i32_251 : BitVec 32 ← k0_part9 arg0 harg0 arg1 harg1 arg2 harg2 arg3 harg3 arg4 harg4 arg5 harg5 arg6 harg6 arg7 harg7 arg8 arg9 arg10 arg11 arg12 arg13 arg14 arg15 d0 v2 v5 v8 v9 v10 v11 k0_h1 v284 c1_i32_224
  k0_part10 arg0 harg0 arg1 harg1 arg2 harg2 arg3 harg3 arg4 harg4 arg5 harg5 arg6 harg6 arg7 harg7 arg8 arg9 arg10 arg11 arg12 arg13 arg14 arg15 d0 v2 v5 v8 v9 v10 v11 k0_h1 c4_i32_251
  k0_part11 arg0 harg0 arg1 harg1 arg2 harg2 arg3 harg3 arg4 harg4 arg5 harg5 arg6 harg6 arg7 harg7 arg8 arg9 arg10 arg11 arg12 arg13 arg14 arg15 d0 v2 v5 v8 v9 v10 v11 k0_h1
  k0_part12 arg0 harg0 arg1 harg1 arg2 harg2 arg3 harg3 arg4 harg4 arg5 harg5 arg6 harg6 arg7 harg7 arg8 arg9 arg10 arg11 arg12 arg13 arg14 arg15 d0 v2 v5 v8 v9 v11 v15 k0_h1
  let v437 : BitVec 32 ← k0_part13 arg0 harg0 arg1 harg1 arg2 harg2 arg3 harg3 arg4 harg4 arg5 harg5 arg6 harg6 arg7 harg7 arg8 arg9 arg10 arg11 arg12 arg13 arg14 arg15 d0 v2 v5 v8 v9 v10 k0_h1
  k0_part14 arg0 harg0 arg1 harg1 arg2 harg2 arg3 harg3 arg4 harg4 arg5 harg5 arg6 harg6 arg7 harg7 arg8 arg9 arg10 arg11 arg12 arg13 arg14 arg15 d0 v2 v5 v8 v9 v10 k0_h1 v437
  k0_part15 arg0 harg0 arg1 harg1 arg2 harg2 arg3 harg3 arg4 harg4 arg5 harg5 arg6 harg6 arg7 harg7 arg8 arg9 arg10 arg11 arg12 arg13 arg14 arg15 d0 v2 v5 v8 v9 v10 k0_h1
  k0_part16 arg0 harg0 arg1 harg1 arg2 harg2 arg3 harg3 arg4 harg4 arg5 harg5 arg6 harg6 arg7 harg7 arg8 arg9 arg10 arg11 arg12 arg13 arg14 arg15 d0 v2 v5 v8 v9 v10 k0_h1
  k0_part17 arg0 harg0 arg1 harg1 arg2 harg2 arg3 harg3 arg4 harg4 arg5 harg5 arg6 harg6 arg7 harg7 arg8 arg9 arg10 arg11 arg12 arg13 arg14 arg15 d0 v2 v5 v8 v10 v11 v18 k0_h1
  pure ⟨⟩

noncomputable def segC1 (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) (d0 : Dev nD) (v2 : BitVec 32) (v5 : BitVec 32) (v8 : BitVec 32) (v9 : BitVec 32) (v10 : BitVec 32) (v11 : BitVec 32) (v15 : BitVec 32) (v18 : BitVec 32) (v23 : BitVec 32) (v27 : BitVec 32) (v32 : BitVec 32) (v38 : BitVec 32) (k0_h1 : k0_cond1 d0 = 1#1) :
    Prog (TpuEff nD τ sig (Elt F) Λ₀ .tc) (PUnit) := do
  let ⟨v588, c1_i32_491⟩ : Σ' (v588 : BitVec 32), BitVec 32 ← k0_part18 arg0 harg0 arg1 harg1 arg2 harg2 arg3 harg3 arg4 harg4 arg5 harg5 arg6 harg6 arg7 harg7 arg8 arg9 arg10 arg11 arg12 arg13 arg14 arg15 d0 v2 v5 v8 v10 v11 k0_h1
  let ⟨v617, c0_i32_519⟩ : Σ' (v617 : BitVec 32), BitVec 32 ← k0_part19 arg0 harg0 arg1 harg1 arg2 harg2 arg3 harg3 arg4 harg4 arg5 harg5 arg6 harg6 arg7 harg7 arg8 arg9 arg10 arg11 arg12 arg13 arg14 arg15 d0 v2 v5 v8 v10 v11 k0_h1 v588 c1_i32_491
  k0_part20 arg0 harg0 arg1 harg1 arg2 harg2 arg3 harg3 arg4 harg4 arg5 harg5 arg6 harg6 arg7 harg7 arg8 arg9 arg10 arg11 arg12 arg13 arg14 arg15 d0 v2 v5 v8 v10 v11 k0_h1 v617 c0_i32_519
  let v678 : BitVec 32 ← k0_part21 arg0 harg0 arg1 harg1 arg2 harg2 arg3 harg3 arg4 harg4 arg5 harg5 arg6 harg6 arg7 harg7 arg8 arg9 arg10 arg11 arg12 arg13 arg14 arg15 d0 v2 v8 v10 v23 k0_h1
  k0_part22 arg0 harg0 arg1 harg1 arg2 harg2 arg3 harg3 arg4 harg4 arg5 harg5 arg6 harg6 arg7 harg7 arg8 arg9 arg10 arg11 arg12 arg13 arg14 arg15 v2 v8 v10 v678
  let ⟨v736, c2_i32_628⟩ : Σ' (v736 : BitVec 32), BitVec 32 ← k0_part23 arg0 harg0 arg1 harg1 arg2 harg2 arg3 harg3 arg4 harg4 arg5 harg5 arg6 harg6 arg7 harg7 arg8 arg9 arg10 arg11 arg12 arg13 arg14 arg15 d0 v2 v5 v8 v10 v11 v27 k0_h1
  let v765 : BitVec 32 ← k0_part24 arg0 harg0 arg1 harg1 arg2 harg2 arg3 harg3 arg4 harg4 arg5 harg5 arg6 harg6 arg7 harg7 arg8 arg9 arg10 arg11 arg12 arg13 arg14 arg15 v2 v5 v11 v736 c2_i32_628
  let ⟨v795, c1_i32_683⟩ : Σ' (v795 : BitVec 32), BitVec 32 ← k0_part25 arg0 harg0 arg1 harg1 arg2 harg2 arg3 harg3 arg4 harg4 arg5 harg5 arg6 harg6 arg7 harg7 arg8 arg9 arg10 arg11 arg12 arg13 arg14 arg15 d0 v2 v5 v11 v32 k0_h1 v765
  let ⟨v823, c2_i32_712⟩ : Σ' (v823 : BitVec 32), BitVec 32 ← k0_part26 arg0 harg0 arg1 harg1 arg2 harg2 arg3 harg3 arg4 harg4 arg5 harg5 arg6 harg6 arg7 harg7 arg8 arg9 arg10 arg11 arg12 arg13 arg14 arg15 v2 v5 v11 v795 c1_i32_683
  k0_part27 arg0 harg0 arg1 harg1 arg2 harg2 arg3 harg3 arg4 harg4 arg5 harg5 arg6 harg6 arg7 harg7 arg8 arg9 arg10 arg11 arg12 arg13 arg14 arg15 d0 v5 v11 v38 k0_h1 v823 c2_i32_712
  pure ⟨⟩

noncomputable def segD1 (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) (d0 : Dev nD) (v2 : BitVec 32) (v5 : BitVec 32) (v8 : BitVec 32) (v9 : BitVec 32) (v10 : BitVec 32) (v11 : BitVec 32) (v15 : BitVec 32) (v18 : BitVec 32) (v23 : BitVec 32) (v27 : BitVec 32) (v32 : BitVec 32) (v38 : BitVec 32) (k0_h1 : k0_cond1 d0 = 1#1) :
    Prog (TpuEff nD τ sig (Elt F) Λ₀ .tc) (PUnit) := do
  k0_part28 arg0 harg0 arg1 harg1 arg2 harg2 arg3 harg3 arg4 harg4 arg5 harg5 arg6 harg6 arg7 harg7 arg8 arg9 arg10 arg11 arg12 arg13 arg14 arg15
  k0_part29 arg0 harg0 arg1 harg1 arg2 harg2 arg3 harg3 arg4 harg4 arg5 harg5 arg6 harg6 arg7 harg7 arg8 arg9 arg10 arg11 arg12 arg13 arg14 arg15
  k0_part30 arg0 harg0 arg1 harg1 arg2 harg2 arg3 harg3 arg4 harg4 arg5 harg5 arg6 harg6 arg7 harg7 arg8 arg9 arg10 arg11 arg12 arg13 arg14 arg15
  k0_part31 arg0 harg0 arg1 harg1 arg2 harg2 arg3 harg3 arg4 harg4 arg5 harg5 arg6 harg6 arg7 harg7 arg8 arg9 arg10 arg11 arg12 arg13 arg14 arg15
  k0_part32 arg0 harg0 arg1 harg1 arg2 harg2 arg3 harg3 arg4 harg4 arg5 harg5 arg6 harg6 arg7 harg7 arg8 arg9 arg10 arg11 arg12 arg13 arg14 arg15
  let v950 : Memref sig .tc .vmem S64x512 .bf16 := arg7.slice (Rect.unit (s := S640x512) ![320, 0] S64x512.size inb_S640x512_S64x512_320_0) (fun _ => rfl)
  let v947 : DmaSems sig S1 := arg14.slice (Rect.unit (s := S10) ![5] S1.size inb_S10_S1_5)
  let v948 : DmaSems sig S_ := v947.squeeze S_ squeezes_S1_S_
  let v949 : Memref sig .tc .vmem S64x512 .bf16 := arg6.slice (Rect.unit (s := S704x512) ![0, 0] S64x512.size inb_S704x512_S64x512_0_0) (fun _ => rfl)
  Prog.lift (.waitDma2 v948.sem v950 v949 (harg7.wordExact_slice rfl _ wordsbf16_S640x512_S64x512_320_0) (harg6.wordExact_slice rfl _ wordsbf16_S704x512_S64x512_0_0))
  let v951 : DmaSems sig S1 := arg14.slice (Rect.unit (s := S10) ![6] S1.size inb_S10_S1_6)
  let v952 : DmaSems sig S_ := v951.squeeze S_ squeezes_S1_S_
  let v953 : Memref sig .tc .vmem S64x512 .bf16 := arg6.slice (Rect.unit (s := S704x512) ![64, 0] S64x512.size inb_S704x512_S64x512_64_0) (fun _ => rfl)
  let v954 : Memref sig .tc .vmem S64x512 .bf16 := arg7.slice (Rect.unit (s := S640x512) ![384, 0] S64x512.size inb_S640x512_S64x512_384_0) (fun _ => rfl)
  Prog.lift (.waitDma2 v952.sem v954 v953 (harg7.wordExact_slice rfl _ wordsbf16_S640x512_S64x512_384_0) (harg6.wordExact_slice rfl _ wordsbf16_S704x512_S64x512_64_0))
  let v955 : DmaSems sig S1 := arg14.slice (Rect.unit (s := S10) ![7] S1.size inb_S10_S1_7)
  let v956 : DmaSems sig S_ := v955.squeeze S_ squeezes_S1_S_
  let v957 : Memref sig .tc .vmem S64x512 .bf16 := arg6.slice (Rect.unit (s := S704x512) ![128, 0] S64x512.size inb_S704x512_S64x512_128_0) (fun _ => rfl)
  let v958 : Memref sig .tc .vmem S64x512 .bf16 := arg7.slice (Rect.unit (s := S640x512) ![448, 0] S64x512.size inb_S640x512_S64x512_448_0) (fun _ => rfl)
  Prog.lift (.waitDma2 v956.sem v958 v957 (harg7.wordExact_slice rfl _ wordsbf16_S640x512_S64x512_448_0) (harg6.wordExact_slice rfl _ wordsbf16_S704x512_S64x512_128_0))
  pure ⟨⟩

noncomputable def segE1 (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) :
    Prog (TpuEff nD τ sig (Elt F) Λ₀ .tc) (PUnit) := do
  let v959 : DmaSems sig S1 := arg14.slice (Rect.unit (s := S10) ![8] S1.size inb_S10_S1_8)
  let v960 : DmaSems sig S_ := v959.squeeze S_ squeezes_S1_S_
  let v961 : Memref sig .tc .vmem S64x512 .bf16 := arg6.slice (Rect.unit (s := S704x512) ![192, 0] S64x512.size inb_S704x512_S64x512_192_0) (fun _ => rfl)
  let v962 : Memref sig .tc .vmem S64x512 .bf16 := arg7.slice (Rect.unit (s := S640x512) ![512, 0] S64x512.size inb_S640x512_S64x512_512_0) (fun _ => rfl)
  Prog.lift (.waitDma2 v960.sem v962 v961 (harg7.wordExact_slice rfl _ wordsbf16_S640x512_S64x512_512_0) (harg6.wordExact_slice rfl _ wordsbf16_S704x512_S64x512_192_0))
  let v963 : DmaSems sig S1 := arg14.slice (Rect.unit (s := S10) ![9] S1.size inb_S10_S1_9)
  let v964 : DmaSems sig S_ := v963.squeeze S_ squeezes_S1_S_
  let v965 : Memref sig .tc .vmem S64x512 .bf16 := arg6.slice (Rect.unit (s := S704x512) ![256, 0] S64x512.size inb_S704x512_S64x512_256_0) (fun _ => rfl)
  let v966 : Memref sig .tc .vmem S64x512 .bf16 := arg7.slice (Rect.unit (s := S640x512) ![576, 0] S64x512.size inb_S640x512_S64x512_576_0) (fun _ => rfl)
  Prog.lift (.waitDma2 v964.sem v966 v965 (harg7.wordExact_slice rfl _ wordsbf16_S640x512_S64x512_576_0) (harg6.wordExact_slice rfl _ wordsbf16_S704x512_S64x512_256_0))
  pure ⟨⟩

set_option maxRecDepth 65536 in

theorem part33_segs (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) (d0 : Dev nD) (v2 : BitVec 32) (v5 : BitVec 32) (v8 : BitVec 32) (v9 : BitVec 32) (v10 : BitVec 32) (v11 : BitVec 32) (v15 : BitVec 32) (v18 : BitVec 32) (v23 : BitVec 32) (v27 : BitVec 32) (v32 : BitVec 32) (v38 : BitVec 32) (k0_h1 : k0_cond1 d0 = 1#1) :
    k0_part33_skel (F := F) arg0 harg0 arg1 harg1 arg2 harg2 arg3 harg3 arg4 harg4 arg5 harg5 arg6 harg6 arg7 harg7 arg8 arg9 arg10 arg11 arg12 arg13 arg14 arg15 d0 v2 v5 v8 v9 v10 v11 v15 v18 v23 v27 v32 v38 k0_h1 = (do
      segA1 arg0 harg0 arg1 harg1 arg2 harg2 arg3 harg3 arg4 harg4 arg5 harg5 arg6 harg6 arg7 harg7 arg8 arg9 arg10 arg11 arg12 arg13 arg14 arg15 d0 v2 v5 v8 v9 v10 v11 v15 v18 v23 v27 v32 v38 k0_h1
      segB1 arg0 harg0 arg1 harg1 arg2 harg2 arg3 harg3 arg4 harg4 arg5 harg5 arg6 harg6 arg7 harg7 arg8 arg9 arg10 arg11 arg12 arg13 arg14 arg15 d0 v2 v5 v8 v9 v10 v11 v15 v18 v23 v27 v32 v38 k0_h1
      segC1 arg0 harg0 arg1 harg1 arg2 harg2 arg3 harg3 arg4 harg4 arg5 harg5 arg6 harg6 arg7 harg7 arg8 arg9 arg10 arg11 arg12 arg13 arg14 arg15 d0 v2 v5 v8 v9 v10 v11 v15 v18 v23 v27 v32 v38 k0_h1
      segD1 arg0 harg0 arg1 harg1 arg2 harg2 arg3 harg3 arg4 harg4 arg5 harg5 arg6 harg6 arg7 harg7 arg8 arg9 arg10 arg11 arg12 arg13 arg14 arg15 d0 v2 v5 v8 v9 v10 v11 v15 v18 v23 v27 v32 v38 k0_h1) := rfl

end Cert.KernelIdeal.Rs

end
-- ==== Proof.States.lean ====
import proofs.«901021_g7700000000001022_dist_rs_v7x_xyz2x2x2_x_m2048_n512_f32_1_alg».proof.Proof.Data
import proofs.«901021_g7700000000001022_dist_rs_v7x_xyz2x2x2_x_m2048_n512_f32_1_alg».proof.Proof.Seg

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev chk (M : Memref sig .tc .vmem S704x512 .bf16) (c' : Dev nD) (k : Fin 11) (q : PosShare TreeShare) (f : Buf (Elt F) (M.view.loc (c' : Thread nD τ))) : sProp 𝕄 :=
  ((ch M k).view.loc (c' : Thread nD τ) ↦[(ch M k).view.set]{q} f)
abbrev chkz (M : Memref sig .tc .vmem S640x512 .bf16) (c' : Dev nD) (j : Fin 10) (q : PosShare TreeShare) (f : Buf (Elt F) (M.view.loc (c' : Thread nD τ))) : sProp 𝕄 :=
  ((chz M j).view.loc (c' : Thread nD τ) ↦[(chz M j).view.set]{q} f)

abbrev whl (c' : Dev nD) (b : Ref sig .tc) (f : Buf (Elt F) ((c' : Thread nD τ).loc b)) : sProp 𝕄 := (((c' : Thread nD τ).loc b) ↦{fullShare} f)

abbrev S11 (p : Fin 11 → Prop) [DecidablePred p] : Finset (Fin 11) := Finset.univ.filter p
abbrev S10 (p : Fin 10 → Prop) [DecidablePred p] : Finset (Fin 10) := Finset.univ.filter p

def posAt (c : Dev nD) (p : Fin 68 → Prop) [DecidablePred p] : sProp 𝕄 :=
  bigSep Finset.univ fun q : Fin 68 => atPos ER (kcell (c, q)) (if p q then 1 else 0) ∅ 0

def st1 (c : Dev nD) (d : (cc0_stg0_0 : Ref sig .tc).ty.Contents (Elt F)) : (cc0_stg0_0 : Ref sig .tc).ty.Contents (Elt F) :=
  ((oM.access (R320 erow erow_le c) : View sig .tc _ _ _).write (Elt F) d
    (k0_pay2 (xlM.view.readAt (Elt F) (R320 erow erow_le c).toLoadRect (XL m c)) (xrM.view.readAt (Elt F) Ra.toLoadRect (XR m c))) Finset.univ)
def st2 (c : Dev nD) (d : (cc0_stg0_0 : Ref sig .tc).ty.Contents (Elt F)) : (cc0_stg0_0 : Ref sig .tc).ty.Contents (Elt F) :=
  ((oM.access (R384 crow crow_le c) : View sig .tc _ _ _).write (Elt F) d
    (k0_pay3 (xlM.view.readAt (Elt F) (R384 crow crow_le c).toLoadRect (XL m c)) (xrM.view.readAt (Elt F) Rb.toLoadRect (XR m c))) Finset.univ)
def pers (K : Dev nD × Fin 68 → ℕ) : sProp 𝕄 := iprop(records m K ∗ levAts L lv)
instance pers_persistent (K : Dev nD × Fin 68 → ℕ) : BI.Persistent (pers m K) := by unfold pers; infer_instance

def locals (c : Dev nD) : sProp 𝕄 :=
  iprop(whl c main_arg0 (A m c) ∗ whl c cc0_scratch0 (XL m c) ∗ whl c cc0_scratch1 (XP m c))

def St0 (K : Dev nD × Fin 68 → ℕ) (c : Dev nD) (g0 : Buf (Elt F) ((c : Thread nD τ).loc cc0_stg0_0)) : sProp 𝕄 :=
  iprop(pers m K ∗ posAt c (fun _ => False) ∗ payToks c ∗ creds c
    ∗ (∃ W, owes (c : Thread nD τ) (owedFrom c 0) W)
    ∗ argPts m c ∗ scratch c ∗ whl c cc0_stg0_0 g0)

def StA (K : Dev nD × Fin 68 → ℕ) (c : Dev nD) (g0 : Buf (Elt F) ((c : Thread nD τ).loc cc0_stg0_0)) : sProp 𝕄 :=
  iprop(pers m K ∗ posAt c (fun q => q.val ≤ 3)
    ∗ (bigSep Finset.univ fun k : Fin 11 => iprop(dutyTok ER (dcell (yn c) (ryQ k)) 0 0 ∗ dutyTok ER (dcell c (syQ k)) 0 0))
    ∗ (bigSep Finset.univ fun j : Fin 10 => iprop(dutyTok ER (dcell (zn c) (rzQ j)) 0 0 ∗ dutyTok ER (dcell c (szQ j)) 0 0))
    ∗ (bigSep Finset.univ fun k : Fin 11 => iprop(cred (tallyAt (dcell c (rxQ k)) () NX) ∗ cred (tallyAt (dcell c (ryQ k)) () NY) ∗ cred (tallyAt (dcell c (sxQ k)) () NX)))
    ∗ (bigSep Finset.univ fun j : Fin 10 => cred (tallyAt (dcell c (rzQ j)) () NZ))
    ∗ (∃ W, owes (c : Thread nD τ) (owedFrom c 14) W)
    ∗ locals m c
    ∗ (∃ f, whl (yn c) cc0_scratch4 f) ∗ (∃ f, whl (zn c) cc0_scratch5 f)
    ∗ whl c cc0_stg0_0 g0)

def StB (K : Dev nD × Fin 68 → ℕ) (c : Dev nD) (g0 : Buf (Elt F) ((c : Thread nD τ).loc cc0_stg0_0)) : sProp 𝕄 :=
  iprop(pers m K ∗ posAt c (fun q => q.val ≤ 3 ∨ (15 ≤ q.val ∧ q.val ≤ 25) ∨ q.val = 37)
    ∗ (bigSep (S10 fun j => 5 ≤ j.val) fun j => iprop(dutyTok ER (dcell (zn c) (rzQ j)) 0 0 ∗ dutyTok ER (dcell c (szQ j)) 0 0))
    ∗ (bigSep Finset.univ fun k : Fin 11 => iprop(cred (tallyAt (dcell c (sxQ k)) () NX) ∗ cred (tallyAt (dcell c (syQ k)) () NY)))
    ∗ (bigSep (S11 fun k => 1 ≤ k.val) fun k => cred (tallyAt (dcell c (ryQ k)) () NY))
    ∗ (bigSep Finset.univ fun j : Fin 10 => cred (tallyAt (dcell c (rzQ j)) () NZ))
    ∗ (bigSep (S10 fun j => j.val < 5) fun j => cred (tallyAt (dcell c (szQ j)) () NZ))
    ∗ (∃ W, owes (c : Thread nD τ) (owedFrom c 30) W)
    ∗ locals m c
    ∗ (bigSep Finset.univ fun k : Fin 11 => chk xrM c k qRR (XR m c))
    ∗ (bigSep (S11 fun k => 5 ≤ k.val) fun k => chk xrM c k qRL (XR m c))
    ∗ chk yrM c 0 qL (YR m c) ∗ chk yrM c 0 qR (YR m c)
    ∗ (bigSep (S10 fun j => 5 ≤ j.val) fun j => iprop(∃ f, chkz zrM (zn c) j fullShare f))
    ∗ whl c cc0_stg0_0 (st2 m c (st1 m c g0)))

def StC (K : Dev nD × Fin 68 → ℕ) (c : Dev nD) (g0 : Buf (Elt F) ((c : Thread nD τ).loc cc0_stg0_0)) : sProp 𝕄 :=
  iprop(pers m K ∗ posAt c (fun q => q.val ≤ 3 ∨ (15 ≤ q.val ∧ q.val ≤ 25) ∨ (37 ≤ q.val ∧ q.val ≤ 47) ∨ 58 ≤ q.val ∨ q.val = 4 ∨ q.val = 26)
    ∗ (bigSep (S11 fun k => 1 ≤ k.val) fun k => iprop(cred (tallyAt (dcell c (sxQ k)) () NX) ∗ cred (tallyAt (dcell c (syQ k)) () NY)))
    ∗ (bigSep Finset.univ fun j : Fin 10 => cred (tallyAt (dcell c (szQ j)) () NZ))
    ∗ (∃ W, owes (c : Thread nD τ) 0 W)
    ∗ locals m c
    ∗ chk xsM c 0 fullShare (XS m c)
    ∗ (bigSep Finset.univ fun k : Fin 11 => chk xrM c k qRR (XR m c))
    ∗ (bigSep (S11 fun k => 5 ≤ k.val) fun k => chk xrM c k qRL (XR m c))
    ∗ chk xrM c 0 qL (XR m c)
    ∗ (bigSep Finset.univ fun k : Fin 11 => chk yrM c k qR (YR m c))
    ∗ (bigSep (S11 fun k => 5 ≤ k.val) fun k => chk yrM c k qL (YR m c))
    ∗ (bigSep Finset.univ fun j : Fin 10 => chkz zrM c j fullShare (ZR m c))
    ∗ whl c cc0_stg0_0 (OUTw m c g0))

def StD (K : Dev nD × Fin 68 → ℕ) (c : Dev nD) (g0 : Buf (Elt F) ((c : Thread nD τ).loc cc0_stg0_0)) : sProp 𝕄 :=
  iprop(pers m K ∗ posAt c (fun q => q.val ≠ 56 ∧ q.val ≠ 57)
    ∗ cred (tallyAt (dcell c (szQ 8)) () NZ) ∗ cred (tallyAt (dcell c (szQ 9)) () NZ)
    ∗ (∃ W, owes (c : Thread nD τ) 0 W)
    ∗ locals m c
    ∗ (bigSep Finset.univ fun k : Fin 11 => iprop(chk xsM c k fullShare (XS m c) ∗ chk xrM c k qL (XR m c) ∗ chk xrM c k qRL (XR m c) ∗ chk xrM c k qRR (XR m c) ∗ chk yrM c k qR (YR m c)))
    ∗ (bigSep (S11 fun k => k.val < 3 ∨ 5 ≤ k.val) fun k => chk yrM c k qL (YR m c))
    ∗ (bigSep Finset.univ fun j : Fin 10 => chkz zrM c j fullShare (ZR m c))
    ∗ whl c cc0_stg0_0 (OUTw m c g0))

def StF (K : Dev nD × Fin 68 → ℕ) (c : Dev nD) (g0 : Buf (Elt F) ((c : Thread nD τ).loc cc0_stg0_0)) : sProp 𝕄 :=
  iprop(pers m K ∗ posAt c (fun _ => True)
    ∗ (∃ W, owes (c : Thread nD τ) 0 W)
    ∗ locals m c
    ∗ (bigSep Finset.univ fun k : Fin 11 => iprop(chk xsM c k fullShare (XS m c) ∗ chk xrM c k qL (XR m c) ∗ chk xrM c k qRL (XR m c) ∗ chk xrM c k qRR (XR m c) ∗ chk yrM c k qL (YR m c) ∗ chk yrM c k qR (YR m c)))
    ∗ (bigSep Finset.univ fun j : Fin 10 => chkz zrM c j fullShare (ZR m c))
    ∗ whl c cc0_stg0_0 (OUTw m c g0))

theorem bigSep_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem inv_at (K : Dev nD × Fin 68 → ℕ) (ck : Dev nD × Fin 68) :
    (bigSep Finset.univ fun ck : Dev nD × Fin 68 => (cellInv ER (rsRd m) (K ck) (kcell ck) : sProp 𝕄)) ⊢ cellInv ER (rsRd m) (K ck) (kcell ck) :=
  bigSep_elim (Finset.mem_univ ck)
theorem reached_at (ck : Dev nD × Fin 68) :
    (bigSep Finset.univ fun ck : Dev nD × Fin 68 => (reached ER (kcell ck) 0 : sProp 𝕄)) ⊢ reached ER (kcell ck) 0 :=
  bigSep_elim (Finset.mem_univ ck)
theorem inv_d (K : Dev nD × Fin 68 → ℕ) (c' : Dev nD) (q : DmaSem sig) (hq : 1 ≤ q.val) :
    (bigSep Finset.univ fun ck : Dev nD × Fin 68 => (cellInv ER (rsRd m) (K ck) (kcell ck) : sProp 𝕄)) ⊢ cellInv ER (rsRd m) (K (c', q)) (dcell c' q) := by
  rw [← kcell_d c' q hq]; exact inv_at m K (c', q)
theorem reached_d (c' : Dev nD) (q : DmaSem sig) (hq : 1 ≤ q.val) :
    (bigSep Finset.univ fun ck : Dev nD × Fin 68 => (reached ER (kcell ck) 0 : sProp 𝕄)) ⊢ reached ER (dcell c' q) 0 := by
  rw [← kcell_d c' q hq]; exact reached_at (c', q)
theorem bigSep_10_ge5 (Φ : Fin 10 → sProp 𝕄) : bigSep (Finset.univ.filter fun j : Fin 10 => 5 ≤ j.val) Φ = iprop(Φ 5 ∗ Φ 6 ∗ Φ 7 ∗ Φ 8 ∗ Φ 9) :=
  bigSep_eq_bigSepL_of_eq [5, 6, 7, 8, 9] (by decide) (by decide) Φ
theorem bigSep_10_lt5 (Φ : Fin 10 → sProp 𝕄) : bigSep (Finset.univ.filter fun j : Fin 10 => j.val < 5) Φ = iprop(Φ 0 ∗ Φ 1 ∗ Φ 2 ∗ Φ 3 ∗ Φ 4) :=
  bigSep_eq_bigSepL_of_eq [0, 1, 2, 3, 4] (by decide) (by decide) Φ
theorem bigSep_11_lt5 (Φ : Fin 11 → sProp 𝕄) : bigSep (Finset.univ.filter fun k : Fin 11 => k.val < 5) Φ = iprop(Φ 0 ∗ Φ 1 ∗ Φ 2 ∗ Φ 3 ∗ Φ 4) :=
  bigSep_eq_bigSepL_of_eq [0, 1, 2, 3, 4] (by decide) (by decide) Φ
theorem bigSep_11_ge5 (Φ : Fin 11 → sProp 𝕄) : bigSep (Finset.univ.filter fun k : Fin 11 => 5 ≤ k.val) Φ = iprop(Φ 5 ∗ Φ 6 ∗ Φ 7 ∗ Φ 8 ∗ Φ 9 ∗ Φ 10) :=
  bigSep_eq_bigSepL_of_eq [5, 6, 7, 8, 9, 10] (by decide) (by decide) Φ
theorem wp_ret_bind {α : Type} (c : Dev nD) (k' : PUnit → Prog (TpuEff nD τ sig (Elt F) Λ₀ .tc) α) (Q' : α → sProp 𝕄) :
    wp frame (wpE (defs₀ (F := F)) 𝒱₀ (c : Thread nD τ) none) Set.univ (k' ⟨⟩) Q'
      ⊢ wp frame (wpE (defs₀ (F := F)) 𝒱₀ (c : Thread nD τ) none) Set.univ ((Prog.ret PUnit.unit).bind k') Q' :=
  Entails.refl _
theorem bigSep_ge1 (Φ : Fin 11 → sProp 𝕄) : bigSep (S11 fun k => 1 ≤ k.val) Φ = iprop(Φ 1 ∗ Φ 2 ∗ Φ 3 ∗ Φ 4 ∗ Φ 5 ∗ Φ 6 ∗ Φ 7 ∗ Φ 8 ∗ Φ 9 ∗ Φ 10) :=
  bigSep_eq_bigSepL_of_eq [1, 2, 3, 4, 5, 6, 7, 8, 9, 10] (by decide) (by decide) Φ
theorem bigSep_ge5 (Φ : Fin 11 → sProp 𝕄) : bigSep (S11 fun k => 5 ≤ k.val) Φ = iprop(Φ 5 ∗ Φ 6 ∗ Φ 7 ∗ Φ 8 ∗ Φ 9 ∗ Φ 10) :=
  bigSep_eq_bigSepL_of_eq [5, 6, 7, 8, 9, 10] (by decide) (by decide) Φ

end Cert.KernelIdeal.Rs

end
-- ==== Proof.Cond.lean ====
import proofs.«901021_g7700000000001022_dist_rs_v7x_xyz2x2x2_x_m2048_n512_f32_1_alg».proof.Proof.States

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cond1_of (c : Dev nD) (h : c.val / 4 = 0) : k0_cond1 c = 1#1 := by revert c; decide
theorem cond1_not (c : Dev nD) (h : c.val / 4 = 1) : ¬ k0_cond1 c = 1#1 := by revert c; decide
theorem cond2_of (c : Dev nD) (h : c.val / 4 = 1) : k0_cond2 c = 1#1 := by revert c; decide
theorem cond2_not (c : Dev nD) (h : c.val / 4 = 0) : ¬ k0_cond2 c = 1#1 := by revert c; decide

end Cert.KernelIdeal.Rs

end
-- ==== Proof.Chunks.lean ====
import proofs.«901021_g7700000000001022_dist_rs_v7x_xyz2x2x2_x_m2048_n512_f32_1_alg».proof.Proof.Proto
import proofs.«901021_g7700000000001022_dist_rs_v7x_xyz2x2x2_x_m2048_n512_f32_1_alg».proof.Proof.Out
import Idealize.ShloMosaic.Rules.PointsTo
import Idealize.SL.RA.TreeShare
import Mathlib.Data.Finset.Union
import Mathlib.Data.Finset.Image
import Mathlib.Data.Finset.SDiff
import Mathlib.Data.Finset.Filter
import Mathlib.Tactic.FinCases
import Mathlib.Tactic.Tauto

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Shares
variable {ℓ : Loc nD τ sig} {I : Finset (Idx ℓ)} {f : Buf (Elt F) ℓ}

theorem share2 : (ℓ ↦[I]{fullShare} f : sProp 𝕄) ⊣⊢ iprop((ℓ ↦[I]{qL} f) ∗ (ℓ ↦[I]{qR} f)) :=
  pointsTo_share (PosShare.mem_left_op_right fullShare)

theorem shareR : (ℓ ↦[I]{qR} f : sProp 𝕄) ⊣⊢ iprop((ℓ ↦[I]{qRL} f) ∗ (ℓ ↦[I]{qRR} f)) :=
  pointsTo_share (PosShare.mem_left_op_right fullShare.right)

theorem share3 : (ℓ ↦[I]{fullShare} f : sProp 𝕄) ⊣⊢ iprop((ℓ ↦[I]{qL} f) ∗ (ℓ ↦[I]{qRL} f) ∗ (ℓ ↦[I]{qRR} f)) := by
  have hR := shareR (F := F) (ℓ := ℓ) (I := I) (f := f)
  rw [← hR.1.antisymm hR.2]
  exact share2

end Shares

theorem pointsTo_cover {ℓ : Loc nD τ sig} {T : Type} (S : Finset T) (K : T → Finset (Idx ℓ))
    (hd : ∀ t t', t ≠ t' → Disjoint (K t) (K t')) (q : PosShare TreeShare) (f : Buf (Elt F) ℓ) :
    (ℓ ↦[S.biUnion K]{q} f : sProp 𝕄) = bigSep S fun t => ℓ ↦[K t]{q} f :=
  pointsTo_biUnion S K fun t _ t' _ h => hd t t' h

abbrev chR (k : Fin 11) : Rect S704x512 := Rect.unit (s := S704x512) ![64 * k.val, 0] S64x512.size (ch_inb k)

theorem mem_chR {k : Fin 11} {x : S704x512.Idx} :
    x ∈ (chR k).set ↔ 64 * k.val ≤ (x 0).val ∧ (x 0).val < 64 * k.val + 64 := by
  rw [Rect.mem_set_unit]
  constructor
  · intro h; exact h 0
  · intro h a
    have h1 : (x 1).val < 512 := (x 1).isLt
    fin_cases a
    · exact h
    · show 0 ≤ (x 1).val ∧ (x 1).val < 0 + 512
      omega

theorem chR_disjoint {k k' : Fin 11} (h : k ≠ k') : Disjoint (chR k).set (chR k').set := by
  have hv : k.val ≠ k'.val := fun e => h (Fin.ext e)
  refine Rect.unit_disjoint (0 : Fin 2) ?_
  show 64 * k.val + 64 ≤ 64 * k'.val ∨ 64 * k'.val + 64 ≤ 64 * k.val
  omega

theorem exists_chR (x : S704x512.Idx) : ∃ k : Fin 11, x ∈ (chR k).set := by
  have h0 : (x 0).val < 704 := (x 0).isLt
  exact ⟨⟨(x 0).val / 64, by omega⟩, mem_chR.mpr ⟨by show 64 * ((x 0).val / 64) ≤ _; omega,
    by show _ < 64 * ((x 0).val / 64) + 64; omega⟩⟩

section Chunks704
variable (M : Memref sig .tc .vmem S704x512 .bf16)

theorem ch_set (k : Fin 11) : (ch M k).view.set = (chR k).set.map M.view.emb := View.set_slice _ _

theorem ch_disjoint {k k' : Fin 11} (h : k ≠ k') : Disjoint (ch M k).view.set (ch M k').view.set := by
  rw [ch_set, ch_set]; exact (Finset.disjoint_map _).mpr (chR_disjoint h)

theorem set_eq_chunks : M.view.set = Finset.univ.biUnion fun k : Fin 11 => (ch M k).view.set := by
  ext i
  rw [Finset.mem_biUnion]
  constructor
  · intro hi
    obtain ⟨x, -, rfl⟩ := Finset.mem_map.mp hi
    obtain ⟨k, hk⟩ := exists_chR x
    exact ⟨k, Finset.mem_univ _, by rw [ch_set]; exact Finset.mem_map_of_mem _ hk⟩
  · rintro ⟨k, -, hi⟩
    exact View.set_slice_subset _ _ hi

-- A buffer of 704 rows is its eleven chunks of 64 rows.
theorem chunks704 (c : Dev nD) (q : PosShare TreeShare) (f : Buf (Elt F) (M.view.loc (c : Thread nD τ))) :
    (M.view.loc (c : Thread nD τ) ↦[M.view.set]{q} f : sProp 𝕄)
      = bigSep Finset.univ fun k : Fin 11 => ((ch M k).view.loc (c : Thread nD τ) ↦[(ch M k).view.set]{q} f) :=
  (congrArg (fun S => (M.view.loc (c : Thread nD τ) ↦[S]{q} f : sProp 𝕄)) (set_eq_chunks M)).trans
    (pointsTo_cover (ℓ := M.view.loc (c : Thread nD τ)) Finset.univ (fun k : Fin 11 => (ch M k).view.set)
      (fun _ _ h => ch_disjoint M h) q f)

def rowsLo : Finset M.view.ty.Idx := (Finset.univ.filter fun k : Fin 11 => k.val < 5).biUnion fun k => (ch M k).view.set

def rowsHi : Finset M.view.ty.Idx := (Finset.univ.filter fun k : Fin 11 => 5 ≤ k.val).biUnion fun k => (ch M k).view.set

theorem lo_eq (c : Dev nD) (q : PosShare TreeShare) (f : Buf (Elt F) (M.view.loc (c : Thread nD τ))) :
    (bigSep (Finset.univ.filter fun k : Fin 11 => k.val < 5) fun k =>
        ((ch M k).view.loc (c : Thread nD τ) ↦[(ch M k).view.set]{q} f) : sProp 𝕄)
      = (M.view.loc (c : Thread nD τ) ↦[rowsLo M]{q} f) :=
  (pointsTo_cover (ℓ := M.view.loc (c : Thread nD τ)) (Finset.univ.filter fun k : Fin 11 => k.val < 5)
    (fun k : Fin 11 => (ch M k).view.set) (fun _ _ h => ch_disjoint M h) q f).symm

theorem hi_eq (c : Dev nD) (q : PosShare TreeShare) (f : Buf (Elt F) (M.view.loc (c : Thread nD τ))) :
    (bigSep (Finset.univ.filter fun k : Fin 11 => 5 ≤ k.val) fun k =>
        ((ch M k).view.loc (c : Thread nD τ) ↦[(ch M k).view.set]{q} f) : sProp 𝕄)
      = (M.view.loc (c : Thread nD τ) ↦[rowsHi M]{q} f) :=
  (pointsTo_cover (ℓ := M.view.loc (c : Thread nD τ)) (Finset.univ.filter fun k : Fin 11 => 5 ≤ k.val)
    (fun k : Fin 11 => (ch M k).view.set) (fun _ _ h => ch_disjoint M h) q f).symm

theorem load_lo : M.view.setOn Ra.toLoadRect.set ⊆ rowsLo M := by
  intro i hi
  obtain ⟨x, hx, rfl⟩ := Finset.mem_map.mp hi
  have h0 : 0 ≤ (x 0).val ∧ (x 0).val < 0 + 320 := (Rect.mem_set_unit.mp hx) 0
  refine Finset.mem_biUnion.mpr ⟨⟨(x 0).val / 64, by omega⟩,
    Finset.mem_filter.mpr ⟨Finset.mem_univ _, by show (x 0).val / 64 < 5; omega⟩, ?_⟩
  rw [ch_set]
  exact Finset.mem_map_of_mem _ (mem_chR.mpr ⟨by show 64 * ((x 0).val / 64) ≤ _; omega,
    by show _ < 64 * ((x 0).val / 64) + 64; omega⟩)

theorem load_hi : M.view.setOn Rb.toLoadRect.set ⊆ rowsHi M := by
  intro i hi
  obtain ⟨x, hx, rfl⟩ := Finset.mem_map.mp hi
  have h0 : 320 ≤ (x 0).val ∧ (x 0).val < 320 + 384 := (Rect.mem_set_unit.mp hx) 0
  refine Finset.mem_biUnion.mpr ⟨⟨(x 0).val / 64, by omega⟩,
    Finset.mem_filter.mpr ⟨Finset.mem_univ _, by show 5 ≤ (x 0).val / 64; omega⟩, ?_⟩
  rw [ch_set]
  exact Finset.mem_map_of_mem _ (mem_chR.mpr ⟨by show 64 * ((x 0).val / 64) ≤ _; omega,
    by show _ < 64 * ((x 0).val / 64) + 64; omega⟩)

end Chunks704

abbrev chzR (j : Fin 10) : Rect S640x512 := Rect.unit (s := S640x512) ![64 * j.val, 0] S64x512.size (chz_inb j)

theorem mem_chzR {j : Fin 10} {x : S640x512.Idx} :
    x ∈ (chzR j).set ↔ 64 * j.val ≤ (x 0).val ∧ (x 0).val < 64 * j.val + 64 := by
  rw [Rect.mem_set_unit]
  constructor
  · intro h; exact h 0
  · intro h a
    have h1 : (x 1).val < 512 := (x 1).isLt
    fin_cases a
    · exact h
    · show 0 ≤ (x 1).val ∧ (x 1).val < 0 + 512
      omega

theorem chzR_disjoint {j j' : Fin 10} (h : j ≠ j') : Disjoint (chzR j).set (chzR j').set := by
  have hv : j.val ≠ j'.val := fun e => h (Fin.ext e)
  refine Rect.unit_disjoint (0 : Fin 2) ?_
  show 64 * j.val + 64 ≤ 64 * j'.val ∨ 64 * j'.val + 64 ≤ 64 * j.val
  omega

theorem exists_chzR (x : S640x512.Idx) : ∃ j : Fin 10, x ∈ (chzR j).set := by
  have h0 : (x 0).val < 640 := (x 0).isLt
  exact ⟨⟨(x 0).val / 64, by omega⟩, mem_chzR.mpr ⟨by show 64 * ((x 0).val / 64) ≤ _; omega,
    by show _ < 64 * ((x 0).val / 64) + 64; omega⟩⟩

section Chunks640
variable (M : Memref sig .tc .vmem S640x512 .bf16)

theorem chz_set (j : Fin 10) : (chz M j).view.set = (chzR j).set.map M.view.emb := View.set_slice _ _

theorem chz_disjoint {j j' : Fin 10} (h : j ≠ j') : Disjoint (chz M j).view.set (chz M j').view.set := by
  rw [chz_set, chz_set]; exact (Finset.disjoint_map _).mpr (chzR_disjoint h)

theorem set_eq_zchunks : M.view.set = Finset.univ.biUnion fun j : Fin 10 => (chz M j).view.set := by
  ext i
  rw [Finset.mem_biUnion]
  constructor
  · intro hi
    obtain ⟨x, -, rfl⟩ := Finset.mem_map.mp hi
    obtain ⟨j, hj⟩ := exists_chzR x
    exact ⟨j, Finset.mem_univ _, by rw [chz_set]; exact Finset.mem_map_of_mem _ hj⟩
  · rintro ⟨j, -, hi⟩
    exact View.set_slice_subset _ _ hi

theorem chunks640 (c : Dev nD) (q : PosShare TreeShare) (f : Buf (Elt F) (M.view.loc (c : Thread nD τ))) :
    (M.view.loc (c : Thread nD τ) ↦[M.view.set]{q} f : sProp 𝕄)
      = bigSep Finset.univ fun j : Fin 10 => ((chz M j).view.loc (c : Thread nD τ) ↦[(chz M j).view.set]{q} f) :=
  (congrArg (fun S => (M.view.loc (c : Thread nD τ) ↦[S]{q} f : sProp 𝕄)) (set_eq_zchunks M)).trans
    (pointsTo_cover (ℓ := M.view.loc (c : Thread nD τ)) Finset.univ (fun j : Fin 10 => (chz M j).view.set)
      (fun _ _ h => chz_disjoint M h) q f)

def zrowsLo : Finset M.view.ty.Idx := (Finset.univ.filter fun j : Fin 10 => j.val < 5).biUnion fun j => (chz M j).view.set

def zrowsHi : Finset M.view.ty.Idx := (Finset.univ.filter fun j : Fin 10 => 5 ≤ j.val).biUnion fun j => (chz M j).view.set

theorem zlo_eq (c : Dev nD) (q : PosShare TreeShare) (f : Buf (Elt F) (M.view.loc (c : Thread nD τ))) :
    (bigSep (Finset.univ.filter fun j : Fin 10 => j.val < 5) fun j =>
        ((chz M j).view.loc (c : Thread nD τ) ↦[(chz M j).view.set]{q} f) : sProp 𝕄)
      = (M.view.loc (c : Thread nD τ) ↦[zrowsLo M]{q} f) :=
  (pointsTo_cover (ℓ := M.view.loc (c : Thread nD τ)) (Finset.univ.filter fun j : Fin 10 => j.val < 5)
    (fun j : Fin 10 => (chz M j).view.set) (fun _ _ h => chz_disjoint M h) q f).symm

theorem zhi_eq (c : Dev nD) (q : PosShare TreeShare) (f : Buf (Elt F) (M.view.loc (c : Thread nD τ))) :
    (bigSep (Finset.univ.filter fun j : Fin 10 => 5 ≤ j.val) fun j =>
        ((chz M j).view.loc (c : Thread nD τ) ↦[(chz M j).view.set]{q} f) : sProp 𝕄)
      = (M.view.loc (c : Thread nD τ) ↦[zrowsHi M]{q} f) :=
  (pointsTo_cover (ℓ := M.view.loc (c : Thread nD τ)) (Finset.univ.filter fun j : Fin 10 => 5 ≤ j.val)
    (fun j : Fin 10 => (chz M j).view.set) (fun _ _ h => chz_disjoint M h) q f).symm

theorem zload_lo : M.view.setOn Za.toLoadRect.set ⊆ zrowsLo M := by
  intro i hi
  obtain ⟨x, hx, rfl⟩ := Finset.mem_map.mp hi
  have h0 : 0 ≤ (x 0).val ∧ (x 0).val < 0 + 320 := (Rect.mem_set_unit.mp hx) 0
  refine Finset.mem_biUnion.mpr ⟨⟨(x 0).val / 64, by omega⟩,
    Finset.mem_filter.mpr ⟨Finset.mem_univ _, by show (x 0).val / 64 < 5; omega⟩, ?_⟩
  rw [chz_set]
  exact Finset.mem_map_of_mem _ (mem_chzR.mpr ⟨by show 64 * ((x 0).val / 64) ≤ _; omega,
    by show _ < 64 * ((x 0).val / 64) + 64; omega⟩)

theorem zload_hi : M.view.setOn Zb.toLoadRect.set ⊆ zrowsHi M := by
  intro i hi
  obtain ⟨x, hx, rfl⟩ := Finset.mem_map.mp hi
  have h0 : 320 ≤ (x 0).val ∧ (x 0).val < 320 + 320 := (Rect.mem_set_unit.mp hx) 0
  refine Finset.mem_biUnion.mpr ⟨⟨(x 0).val / 64, by omega⟩,
    Finset.mem_filter.mpr ⟨Finset.mem_univ _, by show 5 ≤ (x 0).val / 64; omega⟩, ?_⟩
  rw [chz_set]
  exact Finset.mem_map_of_mem _ (mem_chzR.mpr ⟨by show 64 * ((x 0).val / 64) ≤ _; omega,
    by show _ < 64 * ((x 0).val / 64) + 64; omega⟩)

end Chunks640

abbrev ldR (c : Dev nD) : Rect S1x2048x1024 := Rect.unit (s := S1x2048x1024) ![0, 0, 512 * xc c] S1x2048x512.size (ld_inb c)
abbrev peR (c : Dev nD) : Rect S1x2048x1024 := Rect.unit (s := S1x2048x1024) ![0, erow c, 512 * (1 - xc c)] S1x320x512.size (pe_inb c)
abbrev pcR (c : Dev nD) : Rect S1x2048x1024 := Rect.unit (s := S1x2048x1024) ![0, crow c, 512 * (1 - xc c)] S1x384x512.size (pc_inb c)

theorem ld_set (c : Dev nD) : (ldSrc c).view.set = (ldR c).set := (View.set_reshape _ _).trans (View.set_slice_whole _ _)
theorem pe_set (c : Dev nD) : (peSrc c).view.set = (peR c).set := (View.set_reshape _ _).trans (View.set_slice_whole _ _)
theorem pc_set (c : Dev nD) : (pcSrc c).view.set = (pcR c).set := (View.set_reshape _ _).trans (View.set_slice_whole _ _)

theorem erow_crow (c : Dev nD) : erow c + 320 ≤ crow c ∨ crow c + 384 ≤ erow c := by revert c; decide

theorem ld_pe_disjoint (c : Dev nD) : Disjoint (ldSrc c).view.set (peSrc c).view.set := by
  rw [ld_set, pe_set]
  have := xc_lt c
  refine Rect.unit_disjoint (2 : Fin 3) ?_
  show 512 * xc c + 512 ≤ 512 * (1 - xc c) ∨ 512 * (1 - xc c) + 512 ≤ 512 * xc c
  omega

theorem ld_pc_disjoint (c : Dev nD) : Disjoint (ldSrc c).view.set (pcSrc c).view.set := by
  rw [ld_set, pc_set]
  have := xc_lt c
  refine Rect.unit_disjoint (2 : Fin 3) ?_
  show 512 * xc c + 512 ≤ 512 * (1 - xc c) ∨ 512 * (1 - xc c) + 512 ≤ 512 * xc c
  omega

theorem pe_pc_disjoint (c : Dev nD) : Disjoint (peSrc c).view.set (pcSrc c).view.set := by
  rw [pe_set, pc_set]
  refine Rect.unit_disjoint (1 : Fin 3) ?_
  show erow c + 320 ≤ crow c ∨ crow c + 384 ≤ erow c
  exact erow_crow c

theorem arg_split (c : Dev nD) (f : Buf (Elt F) (a0M.view.loc (c : Thread nD τ))) :
    (a0M.view.loc (c : Thread nD τ) ↦[a0M.view.set]{fullShare} f : sProp 𝕄) ⊣⊢
      iprop(((ldSrc c).view.loc (c : Thread nD τ) ↦[(ldSrc c).view.set]{fullShare} f)
        ∗ ((peSrc c).view.loc (c : Thread nD τ) ↦[(peSrc c).view.set]{fullShare} f)
        ∗ ((pcSrc c).view.loc (c : Thread nD τ) ↦[(pcSrc c).view.set]{fullShare} f)
        ∗ (a0M.view.loc (c : Thread nD τ) ↦[a0M.view.set \ ((ldSrc c).view.set ∪ (peSrc c).view.set ∪ (pcSrc c).view.set)]{fullShare} f)) := by
  have hS : a0M.view.set = (Finset.univ : Finset (Idx (a0M.view.loc (c : Thread nD τ)))) := View.set_whole _
  have h1 : (ldSrc c).view.set ⊆ a0M.view.set := hS ▸ Finset.subset_univ _
  have h2 : (peSrc c).view.set ⊆ a0M.view.set \ (ldSrc c).view.set :=
    Finset.subset_sdiff.mpr ⟨hS ▸ Finset.subset_univ _, (ld_pe_disjoint c).symm⟩
  have h3 : (pcSrc c).view.set ⊆ (a0M.view.set \ (ldSrc c).view.set) \ (peSrc c).view.set :=
    Finset.subset_sdiff.mpr ⟨Finset.subset_sdiff.mpr ⟨hS ▸ Finset.subset_univ _, (ld_pc_disjoint c).symm⟩,
      (pe_pc_disjoint c).symm⟩
  have e1 : (a0M.view.loc (c : Thread nD τ) ↦[a0M.view.set]{fullShare} f : sProp 𝕄) ⊣⊢
      iprop((a0M.view.loc (c : Thread nD τ) ↦[(ldSrc c).view.set]{fullShare} f)
        ∗ (a0M.view.loc (c : Thread nD τ) ↦[a0M.view.set \ (ldSrc c).view.set]{fullShare} f)) :=
    pointsTo_split_subset h1
  have e2 : (a0M.view.loc (c : Thread nD τ) ↦[a0M.view.set \ (ldSrc c).view.set]{fullShare} f : sProp 𝕄) ⊣⊢
      iprop((a0M.view.loc (c : Thread nD τ) ↦[(peSrc c).view.set]{fullShare} f)
        ∗ (a0M.view.loc (c : Thread nD τ) ↦[(a0M.view.set \ (ldSrc c).view.set) \ (peSrc c).view.set]{fullShare} f)) :=
    pointsTo_split_subset h2
  have e3 : (a0M.view.loc (c : Thread nD τ) ↦[(a0M.view.set \ (ldSrc c).view.set) \ (peSrc c).view.set]{fullShare} f : sProp 𝕄) ⊣⊢
      iprop((a0M.view.loc (c : Thread nD τ) ↦[(pcSrc c).view.set]{fullShare} f)
        ∗ (a0M.view.loc (c : Thread nD τ) ↦[((a0M.view.set \ (ldSrc c).view.set) \ (peSrc c).view.set) \ (pcSrc c).view.set]{fullShare} f)) :=
    pointsTo_split_subset h3
  have hrest : ((a0M.view.set \ (ldSrc c).view.set) \ (peSrc c).view.set) \ (pcSrc c).view.set
      = a0M.view.set \ ((ldSrc c).view.set ∪ (peSrc c).view.set ∪ (pcSrc c).view.set) := by
    ext i
    simp only [Finset.mem_sdiff, Finset.mem_union]
    tauto
  rw [hrest] at e3
  rw [← e3.1.antisymm e3.2, ← e2.1.antisymm e2.2]
  exact e1

theorem xps_split (c : Dev nD) (f : Buf (Elt F) (xpM.view.loc (c : Thread nD τ))) :
    (xpM.view.loc (c : Thread nD τ) ↦[xpM.view.set]{fullShare} f : sProp 𝕄) ⊣⊢
      iprop((peDst.view.loc (c : Thread nD τ) ↦[peDst.view.set]{fullShare} f)
        ∗ (pcDst.view.loc (c : Thread nD τ) ↦[pcDst.view.set]{fullShare} f)) := by
  have ha : peDst.view.set = (Rect.unit (s := S704x512) ![0, 0] S320x512.size inb_S704x512_S320x512_0_0).set :=
    View.set_slice_whole _ _
  have hb : pcDst.view.set = (Rect.unit (s := S704x512) ![320, 0] S384x512.size inb_S704x512_S384x512_320_0).set :=
    View.set_slice_whole _ _
  have hd : Disjoint peDst.view.set pcDst.view.set := by
    rw [ha, hb]
    refine Rect.unit_disjoint (0 : Fin 2) ?_
    show 0 + 320 ≤ 320 ∨ 320 + 384 ≤ 0
    omega
  have hu : xpM.view.set = peDst.view.set ∪ pcDst.view.set := by
    rw [ha, hb]
    ext x
    have h0 : (x 0).val < 704 := (x 0).isLt
    have h1 : (x 1).val < 512 := (x 1).isLt
    rw [Finset.mem_union, Rect.mem_set_unit, Rect.mem_set_unit]
    refine ⟨fun _ => ?_, fun _ => (View.set_whole _) ▸ Finset.mem_univ _⟩
    by_cases hr : (x 0).val < 320
    · left; intro a; fin_cases a
      · show 0 ≤ (x 0).val ∧ (x 0).val < 0 + 320; omega
      · show 0 ≤ (x 1).val ∧ (x 1).val < 0 + 512; omega
    · right; intro a; fin_cases a
      · show 320 ≤ (x 0).val ∧ (x 0).val < 320 + 384; omega
      · show 0 ≤ (x 1).val ∧ (x 1).val < 0 + 512; omega
  have e : (xpM.view.loc (c : Thread nD τ) ↦[peDst.view.set ∪ pcDst.view.set]{fullShare} f : sProp 𝕄) ⊣⊢
      iprop((xpM.view.loc (c : Thread nD τ) ↦[peDst.view.set]{fullShare} f)
        ∗ (xpM.view.loc (c : Thread nD τ) ↦[pcDst.view.set]{fullShare} f)) := pointsTo_union hd
  rw [← hu] at e
  exact e

end Cert.KernelIdeal.Rs

end
-- ==== Proof.Rows.lean ====
import proofs.«901021_g7700000000001022_dist_rs_v7x_xyz2x2x2_x_m2048_n512_f32_1_alg».proof.Proof.Chunks
import Idealize.ShloMosaic.Rules.PointsTo
import Idealize.SL.RA.TreeShare

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Rows704
variable (M : Memref sig .tc .vmem S704x512 .bf16)

theorem rows_disjoint : Disjoint (rowsLo M) (rowsHi M) := by
  unfold rowsLo rowsHi
  refine (Finset.disjoint_biUnion_left _ _ _).mpr fun k hk => (Finset.disjoint_biUnion_right _ _ _).mpr fun k' hk' => ?_
  have h1 : k.val < 5 := (Finset.mem_filter.mp hk).2
  have h2 : 5 ≤ k'.val := (Finset.mem_filter.mp hk').2
  exact ch_disjoint M fun e => by rw [e] at h1; omega

theorem rows_union : M.view.set = rowsLo M ∪ rowsHi M := by
  ext i
  rw [Finset.mem_union]
  constructor
  · intro hi
    rw [set_eq_chunks M] at hi
    obtain ⟨k, -, hk⟩ := Finset.mem_biUnion.mp hi
    by_cases h : k.val < 5
    · exact .inl (Finset.mem_biUnion.mpr ⟨k, Finset.mem_filter.mpr ⟨Finset.mem_univ _, h⟩, hk⟩)
    · exact .inr (Finset.mem_biUnion.mpr ⟨k, Finset.mem_filter.mpr ⟨Finset.mem_univ _, by omega⟩, hk⟩)
  · rintro (hi | hi)
    · obtain ⟨k, -, hk⟩ := Finset.mem_biUnion.mp hi
      exact View.set_slice_subset _ _ hk
    · obtain ⟨k, -, hk⟩ := Finset.mem_biUnion.mp hi
      exact View.set_slice_subset _ _ hk

theorem rows_split (c : Dev nD) (q : PosShare TreeShare) (f : Buf (Elt F) (M.view.loc (c : Thread nD τ))) :
    (M.view.loc (c : Thread nD τ) ↦[M.view.set]{q} f : sProp 𝕄) ⊣⊢
      iprop((M.view.loc (c : Thread nD τ) ↦[rowsLo M]{q} f) ∗ (M.view.loc (c : Thread nD τ) ↦[rowsHi M]{q} f)) := by
  have e : (M.view.loc (c : Thread nD τ) ↦[rowsLo M ∪ rowsHi M]{q} f : sProp 𝕄) ⊣⊢
      iprop((M.view.loc (c : Thread nD τ) ↦[rowsLo M]{q} f) ∗ (M.view.loc (c : Thread nD τ) ↦[rowsHi M]{q} f)) :=
    pointsTo_union (rows_disjoint M)
  rw [← rows_union M] at e
  exact e

end Rows704

section Rows640
variable (M : Memref sig .tc .vmem S640x512 .bf16)

theorem zrows_disjoint : Disjoint (zrowsLo M) (zrowsHi M) := by
  unfold zrowsLo zrowsHi
  refine (Finset.disjoint_biUnion_left _ _ _).mpr fun j hj => (Finset.disjoint_biUnion_right _ _ _).mpr fun j' hj' => ?_
  have h1 : j.val < 5 := (Finset.mem_filter.mp hj).2
  have h2 : 5 ≤ j'.val := (Finset.mem_filter.mp hj').2
  exact chz_disjoint M fun e => by rw [e] at h1; omega

theorem zrows_union : M.view.set = zrowsLo M ∪ zrowsHi M := by
  ext i
  rw [Finset.mem_union]
  constructor
  · intro hi
    rw [set_eq_zchunks M] at hi
    obtain ⟨j, -, hj⟩ := Finset.mem_biUnion.mp hi
    by_cases h : j.val < 5
    · exact .inl (Finset.mem_biUnion.mpr ⟨j, Finset.mem_filter.mpr ⟨Finset.mem_univ _, h⟩, hj⟩)
    · exact .inr (Finset.mem_biUnion.mpr ⟨j, Finset.mem_filter.mpr ⟨Finset.mem_univ _, by omega⟩, hj⟩)
  · rintro (hi | hi)
    · obtain ⟨j, -, hj⟩ := Finset.mem_biUnion.mp hi
      exact View.set_slice_subset _ _ hj
    · obtain ⟨j, -, hj⟩ := Finset.mem_biUnion.mp hi
      exact View.set_slice_subset _ _ hj

theorem zrows_split (c : Dev nD) (q : PosShare TreeShare) (f : Buf (Elt F) (M.view.loc (c : Thread nD τ))) :
    (M.view.loc (c : Thread nD τ) ↦[M.view.set]{q} f : sProp 𝕄) ⊣⊢
      iprop((M.view.loc (c : Thread nD τ) ↦[zrowsLo M]{q} f) ∗ (M.view.loc (c : Thread nD τ) ↦[zrowsHi M]{q} f)) := by
  have e : (M.view.loc (c : Thread nD τ) ↦[zrowsLo M ∪ zrowsHi M]{q} f : sProp 𝕄) ⊣⊢
      iprop((M.view.loc (c : Thread nD τ) ↦[zrowsLo M]{q} f) ∗ (M.view.loc (c : Thread nD τ) ↦[zrowsHi M]{q} f)) :=
    pointsTo_union (zrows_disjoint M)
  rw [← zrows_union M] at e
  exact e

end Rows640

end Cert.KernelIdeal.Rs

end
-- ==== Proof.Land.lean ====
import proofs.«901021_g7700000000001022_dist_rs_v7x_xyz2x2x2_x_m2048_n512_f32_1_alg».proof.Proof.Proto
import Idealize.ShloMosaic.Rules.PointsTo
import Idealize.ShloMosaic.Lib.Pipeline.Value

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem land_write_read_on_set {κ : Kind} {sp : Space} {s : Shape} {e : EltTy} (v : View sig κ sp s e)
    (f g : v.ty.Contents (Elt F)) (w : s.Idx → Elt F e) (hw : w = v.read (Elt F) g) :
    ∀ i ∈ v.set, v.write (Elt F) f w Finset.univ i = g i := by
  intro i hi
  subst hw
  rw [View.write_read_eq_piecewise, View.setOn_univ, Finset.piecewise_eq_of_mem _ _ _ hi]

theorem land_pointsTo_land (t : Thread nD τ) {sp : Space} {s : Shape} {e : EltTy} (v : View sig t.2.kind sp s e)
    (q : PosShare TreeShare) (f g : Buf (Elt F) (v.loc t)) (w : s.Idx → Elt F e) (hw : w = v.read (Elt F) g) :
    ((v.loc t ↦[v.set]{q} v.write (Elt F) f w Finset.univ) : sProp 𝕄) = (v.loc t ↦[v.set]{q} g) :=
  pointsTo_congr (land_write_read_on_set v f g w hw)

theorem sx_src (c : Dev nD) (k : Fin 11) :
    (((ch xsM k).view.loc (c : Thread nD τ) ↦[(ch xsM k).view.set]{fullShare} XS m c) : sProp 𝕄) ⊢ sxPay m c k :=
  Entails.refl _

theorem sy_src (c : Dev nD) (k : Fin 11) :
    (((ch xrM k).view.loc (c : Thread nD τ) ↦[(ch xrM k).view.set]{qL} XR m c) : sProp 𝕄) ⊢ syPay m c k :=
  Entails.refl _

theorem land_szPay_lo (c : Dev nD) (j : Fin 10) (k : Fin 11) (h : j.val < 5) (hk : k.val = j.val) :
    szPay m c j = ((ch xrM k).view.loc (c : Thread nD τ) ↦[(ch xrM k).view.set]{qRL} XR m c) := by
  rcases k with ⟨kv, hkv⟩
  obtain rfl : kv = j.val := hk
  unfold szPay; rw [dif_pos h]

theorem land_szPay_hi (c : Dev nD) (j : Fin 10) (k : Fin 11) (h : ¬ j.val < 5) (hk : k.val = j.val - 5) :
    szPay m c j = ((ch yrM k).view.loc (c : Thread nD τ) ↦[(ch yrM k).view.set]{qL} YR m c) := by
  rcases k with ⟨kv, hkv⟩
  obtain rfl : kv = j.val - 5 := hk
  unfold szPay; rw [dif_neg h]

theorem sz_src_x (c : Dev nD) (j : Fin 5) :
    (((ch xrM ⟨j.val, by omega⟩).view.loc (c : Thread nD τ) ↦[(ch xrM ⟨j.val, by omega⟩).view.set]{qRL} XR m c) : sProp 𝕄)
      ⊢ szPay m c ⟨j.val, by omega⟩ :=
  Entails.of_eq (land_szPay_lo m c ⟨j.val, by omega⟩ ⟨j.val, by omega⟩ j.isLt rfl).symm

theorem sz_src_y (c : Dev nD) (k : Fin 5) :
    (((ch yrM ⟨k.val, by omega⟩).view.loc (c : Thread nD τ) ↦[(ch yrM ⟨k.val, by omega⟩).view.set]{qL} YR m c) : sProp 𝕄)
      ⊢ szPay m c ⟨5 + k.val, by omega⟩ :=
  Entails.of_eq (land_szPay_hi m c ⟨5 + k.val, by omega⟩ ⟨k.val, by omega⟩ (by show ¬ 5 + k.val < 5; omega) (by show k.val = 5 + k.val - 5; omega)).symm

theorem ls_land (c : Dev nD) (fd : Buf (Elt F) ((xlM : Memref sig .tc .vmem S2048x512 .f32).view.loc (c : Thread nD τ))) :
    (iprop(((xlM : Memref sig .tc .vmem S2048x512 .f32).view.loc (c : Thread nD τ) ↦[(xlM : Memref sig .tc .vmem S2048x512 .f32).view.set]{fullShare}
          ((xlM : Memref sig .tc .vmem S2048x512 .f32).view.write (Elt F) fd ((ldSrc c).view.read (Elt F) (A m c)) Finset.univ))
        ∗ ((ldSrc c).view.loc (c : Thread nD τ) ↦[(ldSrc c).view.set]{fullShare} A m c)) : sProp 𝕄) ⊢ lsPay m c := by
  unfold lsPay
  have hR : (ldSrc c).view.read (Elt F) (A m c) = (xlM : Memref sig .tc .vmem S2048x512 .f32).view.read (Elt F) (XL m c) := rfl
  rw [land_pointsTo_land (c : Thread nD τ) (xlM : Memref sig .tc .vmem S2048x512 .f32).view fullShare fd (XL m c) _ hR]

theorem land_pe_pc_disjoint :
    Disjoint (peDst : Memref sig .tc .vmem S320x512 .f32).view.set
      ((pcDst : Memref sig .tc .vmem S384x512 .f32).view.setOn Finset.univ) := by
  have h1 : (peDst : Memref sig .tc .vmem S320x512 .f32).view.set
      = (Rect.unit (s := S704x512) ![0, 0] S320x512.size inb_S704x512_S320x512_0_0).set :=
    View.set_slice_whole cc0_scratch1 _
  have h2 : (pcDst : Memref sig .tc .vmem S384x512 .f32).view.set
      = (Rect.unit (s := S704x512) ![320, 0] S384x512.size inb_S704x512_S384x512_320_0).set :=
    View.set_slice_whole cc0_scratch1 _
  rw [View.setOn_univ, h1, h2]
  exact Rect.unit_disjoint 0 (Or.inl (by decide))

theorem pe_land (c : Dev nD) (fd : Buf (Elt F) ((peDst : Memref sig .tc .vmem S320x512 .f32).view.loc (c : Thread nD τ))) :
    (iprop(((peDst : Memref sig .tc .vmem S320x512 .f32).view.loc (c : Thread nD τ) ↦[(peDst : Memref sig .tc .vmem S320x512 .f32).view.set]{fullShare}
          ((peDst : Memref sig .tc .vmem S320x512 .f32).view.write (Elt F) fd ((peSrc c).view.read (Elt F) (A m c)) Finset.univ))
        ∗ ((peSrc c).view.loc (c : Thread nD τ) ↦[(peSrc c).view.set]{fullShare} A m c)) : sProp 𝕄) ⊢ pePay m c := by
  have hR : (peSrc c).view.read (Elt F) (A m c) = (peDst : Memref sig .tc .vmem S320x512 .f32).view.read (Elt F) (XP m c) := by
    unfold XP
    exact ((View.read_slice_write_slice_of_disjoint _ _ _ _ _ land_pe_pc_disjoint).trans (View.read_write_univ _ _)).symm
  unfold pePay
  rw [land_pointsTo_land (c : Thread nD τ) (peDst : Memref sig .tc .vmem S320x512 .f32).view fullShare fd (XP m c) _ hR]

theorem pc_land (c : Dev nD) (fd : Buf (Elt F) ((pcDst : Memref sig .tc .vmem S384x512 .f32).view.loc (c : Thread nD τ))) :
    (iprop(((pcDst : Memref sig .tc .vmem S384x512 .f32).view.loc (c : Thread nD τ) ↦[(pcDst : Memref sig .tc .vmem S384x512 .f32).view.set]{fullShare}
          ((pcDst : Memref sig .tc .vmem S384x512 .f32).view.write (Elt F) fd ((pcSrc c).view.read (Elt F) (A m c)) Finset.univ))
        ∗ ((pcSrc c).view.loc (c : Thread nD τ) ↦[(pcSrc c).view.set]{fullShare} A m c)) : sProp 𝕄) ⊢ pcPay m c := by
  have hR : (pcSrc c).view.read (Elt F) (A m c) = (pcDst : Memref sig .tc .vmem S384x512 .f32).view.read (Elt F) (XP m c) := by
    unfold XP
    exact (View.read_write_univ _ _).symm
  unfold pcPay
  rw [land_pointsTo_land (c : Thread nD τ) (pcDst : Memref sig .tc .vmem S384x512 .f32).view fullShare fd (XP m c) _ hR]

theorem rx_land (c : Dev nD) (k : Fin 11) (fd : Buf (Elt F) ((ch xrM k).view.loc (xp c : Thread nD τ))) :
    (((ch xrM k).view.loc (xp c : Thread nD τ) ↦[(ch xrM k).view.set]{fullShare}
        ((ch xrM k).view.write (Elt F) fd ((ch xsM k).view.read (Elt F) (XS m c)) Finset.univ)) : sProp 𝕄)
      ⊢ rxPay m (xp c) k := by
  have hR : (ch xsM k).view.read (Elt F) (XS m c) = (ch xrM k).view.read (Elt F) (XR m (xp c)) := by
    unfold XR; rw [xp_xp]; rfl
  rw [land_pointsTo_land (xp c : Thread nD τ) (ch xrM k).view fullShare fd (XR m (xp c)) _ hR]
  unfold rxPay
  exact (pointsTo_share (PosShare.mem_left_op_right fullShare)).1.trans
    (BIClass.sep_mono (Entails.refl _) (pointsTo_share (PosShare.mem_left_op_right qR)).1)

theorem ry_land (c : Dev nD) (k : Fin 11) (fd : Buf (Elt F) ((ch yrM k).view.loc (yn c : Thread nD τ))) :
    (((ch yrM k).view.loc (yn c : Thread nD τ) ↦[(ch yrM k).view.set]{fullShare}
        ((ch yrM k).view.write (Elt F) fd ((ch xrM k).view.read (Elt F) (XR m c)) Finset.univ)) : sProp 𝕄)
      ⊢ ryPay m (yn c) k := by
  have hR : (ch xrM k).view.read (Elt F) (XR m c) = (ch yrM k).view.read (Elt F) (YR m (yn c)) := by
    unfold YR; rw [yn_yn]; rfl
  rw [land_pointsTo_land (yn c : Thread nD τ) (ch yrM k).view fullShare fd (YR m (yn c)) _ hR]
  unfold ryPay
  exact (pointsTo_share (PosShare.mem_left_op_right fullShare)).1

theorem land_ch_xr_row (k : Fin 11) (x : S64x512.Idx) :
    (((ch xrM k).view.emb x : S704x512.Idx) 0).val = 64 * k.val + (x 0).val := by
  show 64 * k.val + 1 * (x 0).val = _
  rw [Nat.one_mul]
theorem land_ch_xr_col (k : Fin 11) (x : S64x512.Idx) :
    (((ch xrM k).view.emb x : S704x512.Idx) 1).val = (x 1).val := by
  show 0 + 1 * (x 1).val = _
  rw [Nat.one_mul, Nat.zero_add]

theorem land_ch_yr_row (k : Fin 11) (x : S64x512.Idx) :
    (((ch yrM k).view.emb x : S704x512.Idx) 0).val = 64 * k.val + (x 0).val := by
  show 64 * k.val + 1 * (x 0).val = _
  rw [Nat.one_mul]
theorem land_ch_yr_col (k : Fin 11) (x : S64x512.Idx) :
    (((ch yrM k).view.emb x : S704x512.Idx) 1).val = (x 1).val := by
  show 0 + 1 * (x 1).val = _
  rw [Nat.one_mul, Nat.zero_add]

theorem land_chz_zr_row (j : Fin 10) (x : S64x512.Idx) :
    (((chz zrM j).view.emb x : S640x512.Idx) 0).val = 64 * j.val + (x 0).val := by
  show 64 * j.val + 1 * (x 0).val = _
  rw [Nat.one_mul]
theorem land_chz_zr_col (j : Fin 10) (x : S64x512.Idx) :
    (((chz zrM j).view.emb x : S640x512.Idx) 1).val = (x 1).val := by
  show 0 + 1 * (x 1).val = _
  rw [Nat.one_mul, Nat.zero_add]

theorem land_ZR_lo (c : Dev nD) (i : S640x512.Idx) (h : (i 0).val < 320) :
    ZR m c i = XR m (zn c) (Shape.pair (d := ![704, 512]) ⟨(i 0).val, by show (i 0).val < 704; omega⟩ ⟨(i 1).val, (i 1).isLt⟩) :=
  dif_pos h

theorem land_ZR_hi (c : Dev nD) (i : S640x512.Idx) (h : ¬ (i 0).val < 320) :
    ZR m c i = YR m (zn c) (Shape.pair (d := ![704, 512]) ⟨(i 0).val - 320, by have h2 : (i 0).val < 640 := (i 0).isLt; show (i 0).val - 320 < 704; omega⟩ ⟨(i 1).val, (i 1).isLt⟩) :=
  dif_neg h

theorem land_ch_xr_read (k : Fin 11) (f : (cc0_scratch3 : Ref sig .tc).ty.Contents (Elt F)) (x : S64x512.Idx) :
    (ch xrM k).view.read (Elt F) f x = f ((ch xrM k).view.emb x) := rfl

theorem land_ch_yr_read (k : Fin 11) (f : (cc0_scratch4 : Ref sig .tc).ty.Contents (Elt F)) (x : S64x512.Idx) :
    (ch yrM k).view.read (Elt F) f x = f ((ch yrM k).view.emb x) := rfl

theorem land_chz_zr_read (j : Fin 10) (f : (cc0_scratch5 : Ref sig .tc).ty.Contents (Elt F)) (x : S64x512.Idx) :
    (chz zrM j).view.read (Elt F) f x = f ((chz zrM j).view.emb x) := rfl

theorem land_zr_read_lo (c : Dev nD) (k : Fin 11) (j : Fin 10) (hk : k.val = j.val) (hj : j.val < 5) :
    (ch xrM k).view.read (Elt F) (XR m c) = (chz zrM j).view.read (Elt F) (ZR m (zn c)) := by
  funext x
  rw [land_ch_xr_read, land_chz_zr_read]
  have hx0 : (x 0).val < 64 := (x 0).isLt
  rw [land_ZR_lo m (zn c) _ (by rw [land_chz_zr_row]; omega), zn_zn]
  refine congrArg (XR m c) ?_
  funext a
  apply Fin.ext
  match a with
  | ⟨0, _⟩ => exact (land_ch_xr_row k x).trans ((congrArg (fun n => 64 * n + (x 0).val) hk).trans (land_chz_zr_row j x).symm)
  | ⟨1, _⟩ => exact (land_ch_xr_col k x).trans (land_chz_zr_col j x).symm

theorem land_zr_read_hi (c : Dev nD) (k : Fin 11) (j : Fin 10) (hk : j.val = 5 + k.val) :
    (ch yrM k).view.read (Elt F) (YR m c) = (chz zrM j).view.read (Elt F) (ZR m (zn c)) := by
  funext x
  rw [land_ch_yr_read, land_chz_zr_read]
  have hx0 : (x 0).val < 64 := (x 0).isLt
  rw [land_ZR_hi m (zn c) _ (by rw [land_chz_zr_row]; omega), zn_zn]
  refine congrArg (YR m c) ?_
  funext a
  apply Fin.ext
  match a with
  | ⟨0, _⟩ =>
    exact (land_ch_yr_row k x).trans
      (show 64 * k.val + (x 0).val = (((chz zrM j).view.emb x : S640x512.Idx) 0).val - 320 from by
        rw [land_chz_zr_row, hk]; omega)
  | ⟨1, _⟩ => exact (land_ch_yr_col k x).trans (land_chz_zr_col j x).symm

theorem rz_land_x (c : Dev nD) (j : Fin 5) (fd : Buf (Elt F) ((chz zrM ⟨j.val, by omega⟩).view.loc (zn c : Thread nD τ))) :
    (((chz zrM ⟨j.val, by omega⟩).view.loc (zn c : Thread nD τ) ↦[(chz zrM ⟨j.val, by omega⟩).view.set]{fullShare}
        ((chz zrM ⟨j.val, by omega⟩).view.write (Elt F) fd ((ch xrM ⟨j.val, by omega⟩).view.read (Elt F) (XR m c)) Finset.univ)) : sProp 𝕄)
      ⊢ rzPay m (zn c) ⟨j.val, by omega⟩ := by
  unfold rzPay
  rw [land_pointsTo_land (zn c : Thread nD τ) (chz zrM _).view fullShare fd (ZR m (zn c)) _
    (land_zr_read_lo m c _ _ rfl j.isLt)]

theorem rz_land_y (c : Dev nD) (k : Fin 5) (fd : Buf (Elt F) ((chz zrM ⟨5 + k.val, by omega⟩).view.loc (zn c : Thread nD τ))) :
    (((chz zrM ⟨5 + k.val, by omega⟩).view.loc (zn c : Thread nD τ) ↦[(chz zrM ⟨5 + k.val, by omega⟩).view.set]{fullShare}
        ((chz zrM ⟨5 + k.val, by omega⟩).view.write (Elt F) fd ((ch yrM ⟨k.val, by omega⟩).view.read (Elt F) (YR m c)) Finset.univ)) : sProp 𝕄)
      ⊢ rzPay m (zn c) ⟨5 + k.val, by omega⟩ := by
  unfold rzPay
  rw [land_pointsTo_land (zn c : Thread nD τ) (chz zrM _).view fullShare fd (ZR m (zn c)) _
    (land_zr_read_hi m c _ _ rfl)]

end Cert.KernelIdeal.Rs

end
-- ==== Proof.OutValue.lean ====
import proofs.«901021_g7700000000001022_dist_rs_v7x_xyz2x2x2_x_m2048_n512_f32_1_alg».proof.Proof.Out
import Idealize.ShloMosaic.Lib.Pipeline.Value
import Idealize.ShloMosaic.Lib.ValueIdx

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

theorem rows_cover (c : Dev nD) (r : Nat) (hr : r < 2048) :
    (erow c ≤ r ∧ r < erow c + 320) ∨ (crow c ≤ r ∧ r < crow c + 384) ∨ (e2row c ≤ r ∧ r < e2row c + 320)
      ∨ (c2row c ≤ r ∧ r < c2row c + 384) ∨ (e3row c ≤ r ∧ r < e3row c + 320) ∨ (e4row c ≤ r ∧ r < e4row c + 320) := by
  unfold erow crow e2row c2row e3row e4row
  rcases Nat.mod_two_eq_zero_or_one c.val with hz | hz <;>
    rcases Nat.mod_two_eq_zero_or_one (c.val / 2) with hy | hy <;>
    rw [hz, hy] <;> omega

theorem write_rows320 (r0 : Nat) (inb : ∀ a, (![r0, 0] : Fin 2 → Nat) a + S320x512.size a ≤ S2048x512.size a)
    (d : (cc0_stg0_0 : Ref sig .tc).ty.Contents (Elt F)) (w : S320x512.Idx → Elt F .f32) (i : S2048x512.Idx) :
    ((oM.access (Rect.unit (s := S2048x512) ![r0, 0] S320x512.size inb) : View sig .tc _ _ _).write (Elt F) d w Finset.univ) i
      = if h : r0 ≤ (i 0).val ∧ (i 0).val < r0 + 320 then w (ix2 (⟨(i 0).val - r0, by omega⟩ : Fin 320) (⟨(i 1).val, (i 1).isLt⟩ : Fin 512)) else d i := by
  have e := View.write_whole_slice_unit (Val := Elt F) (cc0_stg0_0 : Ref sig .tc) ![r0, 0] S320x512.size inb d w
  rw [show ((oM.access (Rect.unit (s := S2048x512) ![r0, 0] S320x512.size inb) : View sig .tc _ _ _).write (Elt F) d w Finset.univ) = _ from e]
  unfold updateSlice
  have h1 : (i 1).val < 512 := (i 1).isLt
  by_cases h : r0 ≤ (i 0).val ∧ (i 0).val < r0 + 320
  · rw [dif_pos h, dif_pos (by
      intro a; match a with
      | ⟨0, _⟩ => exact h
      | ⟨1, _⟩ => exact ⟨Nat.zero_le _, by show (i 1).val < 0 + 512; omega⟩)]
    refine congrArg w (funext fun b => ?_)
    match b with
    | ⟨0, _⟩ => rfl
    | ⟨1, _⟩ => rfl
  · rw [dif_neg h, dif_neg (fun hh => h (hh 0))]

theorem write_rows384 (r0 : Nat) (inb : ∀ a, (![r0, 0] : Fin 2 → Nat) a + S384x512.size a ≤ S2048x512.size a)
    (d : (cc0_stg0_0 : Ref sig .tc).ty.Contents (Elt F)) (w : S384x512.Idx → Elt F .f32) (i : S2048x512.Idx) :
    ((oM.access (Rect.unit (s := S2048x512) ![r0, 0] S384x512.size inb) : View sig .tc _ _ _).write (Elt F) d w Finset.univ) i
      = if h : r0 ≤ (i 0).val ∧ (i 0).val < r0 + 384 then w (ix2 (⟨(i 0).val - r0, by omega⟩ : Fin 384) (⟨(i 1).val, (i 1).isLt⟩ : Fin 512)) else d i := by
  have e := View.write_whole_slice_unit (Val := Elt F) (cc0_stg0_0 : Ref sig .tc) ![r0, 0] S384x512.size inb d w
  rw [show ((oM.access (Rect.unit (s := S2048x512) ![r0, 0] S384x512.size inb) : View sig .tc _ _ _).write (Elt F) d w Finset.univ) = _ from e]
  unfold updateSlice
  have h1 : (i 1).val < 512 := (i 1).isLt
  by_cases h : r0 ≤ (i 0).val ∧ (i 0).val < r0 + 384
  · rw [dif_pos h, dif_pos (by
      intro a; match a with
      | ⟨0, _⟩ => exact h
      | ⟨1, _⟩ => exact ⟨Nat.zero_le _, by show (i 1).val < 0 + 512; omega⟩)]
    refine congrArg w (funext fun b => ?_)
    match b with
    | ⟨0, _⟩ => rfl
    | ⟨1, _⟩ => rfl
  · rw [dif_neg h, dif_neg (fun hh => h (hh 0))]

-- The six row ranges tile the 2048 rows, so the result does not depend on what the buffer held before.
theorem OUTw_indep (c : Dev nD) (d : (cc0_stg0_0 : Ref sig .tc).ty.Contents (Elt F)) : OUTw m c d = OUT m c := by
  funext i
  have hcov := rows_cover c (i 0).val (i 0).isLt
  unfold OUT OUTw
  simp only [write_rows320, write_rows384]
  split_ifs <;> first | rfl | omega

end Cert.KernelIdeal.Rs

end
-- ==== Proof.Stor.lean ====
import proofs.«901021_g7700000000001022_dist_rs_v7x_xyz2x2x2_x_m2048_n512_f32_1_alg».proof.Proof.Sched

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance barPay_storable (c : Dev nD) (d : Fin 3) : BI.Storable (upEmb : UEmb _ 𝕄) (barPay (F := F) c d) := by
  unfold barPay; split <;> infer_instance

instance payQ_storable (c : Dev nD) (q : DmaSem sig) : BI.Storable (upEmb : UEmb _ 𝕄) (payQ (F := F) m c q) := by
  unfold payQ lsPay pePay pcPay sxPay rxPay syPay ryPay szPay rzPay
  (repeat' split) <;> infer_instance

instance rsRd_payload_storable (g : GSem nD τ sig) (r : ℕ) (d : Fin 3) :
    BI.Storable (upEmb : UEmb _ 𝕄) ((rsRd (F := F) m).payload g r d) := by
  rcases g with ⟨t, sm⟩
  cases sm with
  | reg s => exact barPay_storable t.1 d
  | dma q => exact payQ_storable m t.1 q

end Cert.KernelIdeal.Rs

end
-- ==== Proof.SrcEq.lean ====
import proofs.«901021_g7700000000001022_dist_rs_v7x_xyz2x2x2_x_m2048_n512_f32_1_alg».proof.Proof.Contents

set_option maxRecDepth 16384

noncomputable section

namespace Cert.KernelIdeal.Rs

open Cert.KernelIdeal Cert.KernelIdeal.Gen Cert.RsMesh

open Idealize.ShloMosaic
open Idealize.ShloMosaic.TcCoe

theorem ldSrc_eq_b1 (c : Dev nD) (hx : c.val / 4 = 0) (h0 : ∀ a, (![0, 0, 0] : Fin 3 → ℕ) a + S1x2048x512.size a ≤ S1x2048x1024.size a) :
    ((Memref.whole main_arg0 : Memref sig .tc .hbm S1x2048x1024 .f32).slice (Rect.unit (s := S1x2048x1024) ![0, 0, 0] S1x2048x512.size h0) (fun _ => rfl)).squeeze S2048x512 squeezes_S1x2048x512_S2048x512 = ldSrc c := by
  have h : (![0, 0, 0] : Fin 3 → ℕ) = ![0, 0, 512 * xc c] := by unfold xc; rw [hx]
  exact congrArg (fun M => Memref.squeeze M S2048x512 squeezes_S1x2048x512_S2048x512) (Memref.slice_unit_congr _ h _ _ _ _)

theorem peSrc_eq_b1 (c : Dev nD) (hx : c.val / 4 = 0) (h0 : ∀ a, (k0_off1 c) a + S1x320x512.size a ≤ S1x2048x1024.size a) :
    ((Memref.whole main_arg0 : Memref sig .tc .hbm S1x2048x1024 .f32).slice (Rect.unit (s := S1x2048x1024) (k0_off1 c) S1x320x512.size h0) (fun _ => rfl)).squeeze S320x512 squeezes_S1x320x512_S320x512 = peSrc c := by
  have h : k0_off1 c = ![0, erow c, 512 * (1 - xc c)] := by rw [k0_off1_eq]; unfold erow xc; rw [hx]
  exact congrArg (fun M => Memref.squeeze M S320x512 squeezes_S1x320x512_S320x512) (Memref.slice_unit_congr _ h _ _ _ _)

theorem pcSrc_eq_b1 (c : Dev nD) (hx : c.val / 4 = 0) (h0 : ∀ a, (k0_off2 c) a + S1x384x512.size a ≤ S1x2048x1024.size a) :
    ((Memref.whole main_arg0 : Memref sig .tc .hbm S1x2048x1024 .f32).slice (Rect.unit (s := S1x2048x1024) (k0_off2 c) S1x384x512.size h0) (fun _ => rfl)).squeeze S384x512 squeezes_S1x384x512_S384x512 = pcSrc c := by
  have h : k0_off2 c = ![0, crow c, 512 * (1 - xc c)] := by rw [k0_off2_eq]; unfold crow xc; rw [hx]
  exact congrArg (fun M => Memref.squeeze M S384x512 squeezes_S1x384x512_S384x512) (Memref.slice_unit_congr _ h _ _ _ _)

theorem ldSrc_eq_b2 (c : Dev nD) (hx : c.val / 4 = 1) (h0 : ∀ a, (![0, 0, 512] : Fin 3 → ℕ) a + S1x2048x512.size a ≤ S1x2048x1024.size a) :
    ((Memref.whole main_arg0 : Memref sig .tc .hbm S1x2048x1024 .f32).slice (Rect.unit (s := S1x2048x1024) ![0, 0, 512] S1x2048x512.size h0) (fun _ => rfl)).squeeze S2048x512 squeezes_S1x2048x512_S2048x512 = ldSrc c := by
  have h : (![0, 0, 512] : Fin 3 → ℕ) = ![0, 0, 512 * xc c] := by unfold xc; rw [hx]
  exact congrArg (fun M => Memref.squeeze M S2048x512 squeezes_S1x2048x512_S2048x512) (Memref.slice_unit_congr _ h _ _ _ _)

theorem peSrc_eq_b2 (c : Dev nD) (hx : c.val / 4 = 1) (h0 : ∀ a, (k0_off9 c) a + S1x320x512.size a ≤ S1x2048x1024.size a) :
    ((Memref.whole main_arg0 : Memref sig .tc .hbm S1x2048x1024 .f32).slice (Rect.unit (s := S1x2048x1024) (k0_off9 c) S1x320x512.size h0) (fun _ => rfl)).squeeze S320x512 squeezes_S1x320x512_S320x512 = peSrc c := by
  have h : k0_off9 c = ![0, erow c, 512 * (1 - xc c)] := by rw [k0_off9_eq]; unfold erow xc; rw [hx]
  exact congrArg (fun M => Memref.squeeze M S320x512 squeezes_S1x320x512_S320x512) (Memref.slice_unit_congr _ h _ _ _ _)

theorem pcSrc_eq_b2 (c : Dev nD) (hx : c.val / 4 = 1) (h0 : ∀ a, (k0_off10 c) a + S1x384x512.size a ≤ S1x2048x1024.size a) :
    ((Memref.whole main_arg0 : Memref sig .tc .hbm S1x2048x1024 .f32).slice (Rect.unit (s := S1x2048x1024) (k0_off10 c) S1x384x512.size h0) (fun _ => rfl)).squeeze S384x512 squeezes_S1x384x512_S384x512 = pcSrc c := by
  have h : k0_off10 c = ![0, crow c, 512 * (1 - xc c)] := by rw [k0_off10_eq]; unfold crow xc; rw [hx]
  exact congrArg (fun M => Memref.squeeze M S384x512 squeezes_S1x384x512_S384x512) (Memref.slice_unit_congr _ h _ _ _ _)

end Cert.KernelIdeal.Rs

end
-- ==== Proof.StepsA.lean ====
import proofs.«901021_g7700000000001022_dist_rs_v7x_xyz2x2x2_x_m2048_n512_f32_1_alg».proof.Proof.Cond
import proofs.«901021_g7700000000001022_dist_rs_v7x_xyz2x2x2_x_m2048_n512_f32_1_alg».proof.Proof.Chunks
import proofs.«901021_g7700000000001022_dist_rs_v7x_xyz2x2x2_x_m2048_n512_f32_1_alg».proof.Proof.Rows
import proofs.«901021_g7700000000001022_dist_rs_v7x_xyz2x2x2_x_m2048_n512_f32_1_alg».proof.Proof.Land
import proofs.«901021_g7700000000001022_dist_rs_v7x_xyz2x2x2_x_m2048_n512_f32_1_alg».proof.Proof.OutValue
import proofs.«901021_g7700000000001022_dist_rs_v7x_xyz2x2x2_x_m2048_n512_f32_1_alg».proof.Proof.Stor
import proofs.«901021_g7700000000001022_dist_rs_v7x_xyz2x2x2_x_m2048_n512_f32_1_alg».proof.Proof.SrcEq

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_d amount_bar amount_d payload_bar payload_d expect_bar expect_d
  amtQ_ls amtQ_ps0 amtQ_ps1 amtQ_sx amtQ_rx amtQ_sy amtQ_ry amtQ_sz amtQ_rz payQ_ls payQ_ps0 payQ_ps1 payQ_sx payQ_rx payQ_sy payQ_ry payQ_sz payQ_rz

theorem segA_inv_b (K : Dev nD × Fin 68 → ℕ) (c' : Dev nD) :
    (bigSep Finset.univ fun ck : Dev nD × Fin 68 => (cellInv ER (rsRd m) (K ck) (kcell ck) : sProp 𝕄)) ⊢ cellInv ER (rsRd m) (K (c', 0)) (barCell c') :=
  inv_at m K (c', 0)
theorem segA_reached_b (c' : Dev nD) :
    (bigSep Finset.univ fun ck : Dev nD × Fin 68 => (reached ER (kcell ck) 0 : sProp 𝕄)) ⊢ reached ER (barCell c') 0 :=
  reached_at (c', 0)

theorem segA_posAt_lo (c : Dev nD) (p : Fin 68 → Prop) [DecidablePred p] :
    (posAt (F := F) c p : sProp 𝕄) = iprop(atPos ER (barCell c) (if p 0 then 1 else 0) ∅ 0
      ∗ atPos ER (dcell c lsQ) (if p 1 then 1 else 0) ∅ 0
      ∗ atPos ER (dcell c (psQ 0)) (if p 2 then 1 else 0) ∅ 0
      ∗ atPos ER (dcell c (psQ 1)) (if p 3 then 1 else 0) ∅ 0
      ∗ bigSep (Finset.univ.filter fun q : Fin 68 => 4 ≤ q.val) fun q => atPos ER (kcell (c, q)) (if p q then 1 else 0) ∅ 0) := by
  unfold posAt
  rw [bigSep_univ_split (0 : Fin 68), bigSep_erase (i := (1 : Fin 68)) (by decide), bigSep_erase (i := (2 : Fin 68)) (by decide),
    bigSep_erase (i := (3 : Fin 68)) (by decide)]
  have h : (((Finset.univ.erase (0 : Fin 68)).erase 1).erase 2).erase 3 = Finset.univ.filter fun q : Fin 68 => 4 ≤ q.val := by decide
  rw [h]
  rfl

theorem segA_peer_xp (c : Dev nD) (n : ℕ) (hn : n = (2 * ((c.val / 2) % 2) + (c.val % 2) + 4) - 4 * (c.val / 4)) (h : n < nD) :
    (⟨n, h⟩ : Dev nD) = xp c := Fin.ext (hn.trans (xp_val c).symm)
theorem segA_peer_yn (c : Dev nD) (n : ℕ) (hn : n = (4 * (c.val / 4) + (c.val % 2) + 2) - 2 * ((c.val / 2) % 2)) (h : n < nD) :
    (⟨n, h⟩ : Dev nD) = yn c := Fin.ext (hn.trans (yn_val c).symm)
theorem segA_peer_zn (c : Dev nD) (n : ℕ) (hn : n = (4 * (c.val / 4) + 2 * ((c.val / 2) % 2) + 1) - (c.val % 2)) (h : n < nD) :
    (⟨n, h⟩ : Dev nD) = zn c := Fin.ext (hn.trans (zn_val c).symm)

theorem segA_enq_src {sp sp' : Space} {s : Shape} {e : EltTy} {α : Type} {src src' : Memref sig Kind.tc sp s e} (h : src = src')
    (dst : Memref sig Kind.tc sp' s e) (sem : SemLoc sig) (hsrc : src.view.WordExact) (hdst : dst.view.WordExact)
    (hsem : DmaTarget.Typed (nD := nD) (τ := τ) (p := Proc.tc) sp sem (.here dst)) (k : PUnit → Prog (TpuEff nD τ sig (Elt F) Λ₀ .tc) α) :
    Prog.op (TpuEff.enqueueDma (nD := nD) (τ := τ) (Val := Elt F) (Λ := Λ₀) (p := Proc.tc) src (.here dst) sem hsrc hdst hsem) k
      = Prog.op (TpuEff.enqueueDma (nD := nD) (τ := τ) (Val := Elt F) (Λ := Λ₀) (p := Proc.tc) src' (.here dst) sem (h ▸ hsrc) hdst hsem) k := by
  subst h; rfl

theorem segA_whl_eq (c' : Dev nD) (b : Ref sig .tc) (f : Buf (Elt F) ((c' : Thread nD τ).loc b)) :
    (whl c' b f : sProp 𝕄) = ((Memref.whole b).view.loc (c' : Thread nD τ) ↦[(Memref.whole b).view.set]{fullShare} f) :=
  congrArg (fun S => ((c' : Thread nD τ).loc b ↦[S]{fullShare} f : sProp 𝕄)) (View.set_whole b).symm

theorem segA_pt_eq (c' : Dev nD) (b : Ref sig .tc) (f : Buf (Elt F) ((c' : Thread nD τ).loc b)) :
    (((c' : Thread nD τ).loc b ↦{fullShare} f) : sProp 𝕄) = ((Memref.whole b).view.loc (c' : Thread nD τ) ↦[(Memref.whole b).view.set]{fullShare} f) :=
  segA_whl_eq c' b f

theorem segA_some_x (c c' : Dev nD) (h : c' = c) (f : Buf (Elt F) ((c : Thread nD τ).loc cc0_scratch3)) :
    (whl c cc0_scratch3 f : sProp 𝕄) ⊢ iprop(∃ f', (xrM : Memref sig .tc .vmem S704x512 .bf16).view.loc (c' : Thread nD τ) ↦[(xrM : Memref sig .tc .vmem S704x512 .bf16).view.set]{fullShare} f') := by
  subst h
  iintro H
  iexists f
  iapply (Entails.of_eq (segA_whl_eq c' cc0_scratch3 f))
  iexact H
theorem segA_some_y (c c' : Dev nD) (h : c' = c) (f : Buf (Elt F) ((c : Thread nD τ).loc cc0_scratch4)) :
    (whl c cc0_scratch4 f : sProp 𝕄) ⊢ iprop(∃ f', (yrM : Memref sig .tc .vmem S704x512 .bf16).view.loc (c' : Thread nD τ) ↦[(yrM : Memref sig .tc .vmem S704x512 .bf16).view.set]{fullShare} f') := by
  subst h
  iintro H
  iexists f
  iapply (Entails.of_eq (segA_whl_eq c' cc0_scratch4 f))
  iexact H
theorem segA_some_z (c c' : Dev nD) (h : c' = c) (f : Buf (Elt F) ((c : Thread nD τ).loc cc0_scratch5)) :
    (whl c cc0_scratch5 f : sProp 𝕄) ⊢ iprop(∃ f', (zrM : Memref sig .tc .vmem S640x512 .bf16).view.loc (c' : Thread nD τ) ↦[(zrM : Memref sig .tc .vmem S640x512 .bf16).view.set]{fullShare} f') := by
  subst h
  iintro H
  iexists f
  iapply (Entails.of_eq (segA_whl_eq c' cc0_scratch5 f))
  iexact H

theorem segA_bar0 (c : Dev nD) (f : Buf (Elt F) ((c : Thread nD τ).loc cc0_scratch3)) :
    (whl c cc0_scratch3 f : sProp 𝕄) ⊢ (rsRd m).payload (barCell (xp c)) 0 0 := segA_some_x c (xp (xp c)) (xp_xp c) f
theorem segA_bar1 (c : Dev nD) (f : Buf (Elt F) ((c : Thread nD τ).loc cc0_scratch4)) :
    (whl c cc0_scratch4 f : sProp 𝕄) ⊢ (rsRd m).payload (barCell (yn c)) 0 1 := segA_some_y c (yn (yn c)) (yn_yn c) f
theorem segA_bar2 (c : Dev nD) (f : Buf (Elt F) ((c : Thread nD τ).loc cc0_scratch5)) :
    (whl c cc0_scratch5 f : sProp 𝕄) ⊢ (rsRd m).payload (barCell (zn c)) 0 2 := segA_some_z c (zn (zn c)) (zn_zn c) f

theorem segA_owes_step (c : Dev nD) (n : ℕ) (h : n < 35) (t : CellTallies nD τ sig Unit)
    (ht : (payList c)[n]'(by rw [payList_length]; exact h) = t) (W : Waits sig Unit) :
    (owes (c : Thread nD τ) (owedFrom c n) W : sProp 𝕄) ⊢ owes (c : Thread nD τ) (owedFrom c (n + 1) + t) W := by
  rw [owedFrom_succ c n h, ht]

theorem segA_foldr_pos (l : List (CellTallies nD τ sig Unit)) (g : GSem nD τ sig) (u : Unit)
    (h : 0 < (List.foldr (fun (t acc : CellTallies nD τ sig Unit) => acc + t) (0 : CellTallies nD τ sig Unit) l) g u) : ∃ t ∈ l, 0 < t g u := by
  induction l with
  | nil => exact absurd h (Nat.lt_irrefl 0)
  | cons t l ih =>
    have h' : 0 < (List.foldr (fun (t acc : CellTallies nD τ sig Unit) => acc + t) (0 : CellTallies nD τ sig Unit) l) g u + t g u := h
    by_cases ht : 0 < t g u
    · exact ⟨t, List.mem_cons_self, ht⟩
    · obtain ⟨t', ht', hp⟩ := ih (by omega)
      exact ⟨t', List.mem_cons_of_mem _ ht', hp⟩

theorem segA_owed_tc (c : Dev nD) (n : ℕ) (g : GSem nD τ sig) (u : Unit) (h : 0 < owedFrom c n g u) :
    g.1.2 = .tc ∧ 0 < lv g () := by
  unfold owedFrom at h
  obtain ⟨t, ht, hp⟩ := segA_foldr_pos _ g u h
  obtain ⟨g', k, rfl, htc, hshape⟩ := payList_mem c (List.mem_of_mem_drop ht)
  have hg : g = g' := by
    rw [tallyAt_apply] at hp
    by_cases hc : g = g' ∧ u = ()
    · exact hc.1
    · rw [if_neg hc] at hp; exact absurd hp (Nat.lt_irrefl 0)
  subst hg
  refine ⟨htc, ?_⟩
  rcases hshape with ⟨s, hs⟩ | ⟨q, hq, hr⟩
  · unfold lv; rw [hs]; exact Nat.one_pos
  · unfold lv; rw [hq]; dsimp only; split_ifs <;> omega

-- From the fourth payment on, everything still owed sits on a receive cell, above the barrier's level.
theorem segA_owed_recv (c : Dev nD) (n : ℕ) (hn : 3 ≤ n) (g : GSem nD τ sig) (u : Unit) (h : 0 < owedFrom c n g u) :
    g.1.2 = .tc ∧ 1 < lv g () := by
  unfold owedFrom at h
  obtain ⟨t, ht, hp⟩ := segA_foldr_pos _ g u h
  have ht3 : t ∈ (payList c).drop 3 := by
    have : (payList c).drop n = ((payList c).drop 3).drop (n - 3) := by rw [List.drop_drop]; congr 1; omega
    rw [this] at ht; exact List.mem_of_mem_drop ht
  have hd : (payList c).drop 3 = (List.finRange 11).map (fun k => tallyAt (dcell (xp c) (rxQ k)) () NX)
      ++ ((List.finRange 5).flatMap fun k : Fin 5 =>
        [tallyAt (dcell (yn c) (ryQ ⟨k.val, by omega⟩)) () NY, tallyAt (dcell (zn c) (rzQ ⟨k.val, by omega⟩)) () NZ])
      ++ (List.finRange 6).map (fun k : Fin 6 => tallyAt (dcell (yn c) (ryQ ⟨5 + k.val, by omega⟩)) () NY)
      ++ (List.finRange 5).map (fun k : Fin 5 => tallyAt (dcell (zn c) (rzQ ⟨5 + k.val, by omega⟩)) () NZ) := rfl
  rw [hd] at ht3
  simp only [List.mem_append, List.mem_cons, List.mem_map, List.mem_flatMap, List.mem_finRange, _root_.true_and, List.not_mem_nil, _root_.or_false] at ht3
  have key : ∃ (c' : Dev nD) (q : DmaSem sig) (k : ℕ), t = tallyAt (dcell c' q) () k ∧ ((15 ≤ q.val ∧ q.val < 26) ∨ (37 ≤ q.val ∧ q.val < 48) ∨ 58 ≤ q.val) := by
    rcases ht3 with ((⟨k, he⟩ | ⟨k, he | he⟩) | ⟨k, he⟩) | ⟨k, he⟩
    · exact ⟨_, _, _, he.symm, .inl ⟨by show 15 ≤ 15 + k.val; omega, by have := k.isLt; show 15 + k.val < 26; omega⟩⟩
    · exact ⟨_, _, _, he, .inr (.inl ⟨by show 37 ≤ 37 + k.val; omega, by have := k.isLt; show 37 + k.val < 48; omega⟩)⟩
    · exact ⟨_, _, _, he, .inr (.inr (by show 58 ≤ 58 + k.val; omega))⟩
    · exact ⟨_, _, _, he.symm, .inr (.inl ⟨by show 37 ≤ 37 + (5 + k.val); omega, by have := k.isLt; show 37 + (5 + k.val) < 48; omega⟩)⟩
    · exact ⟨_, _, _, he.symm, .inr (.inr (by show 58 ≤ 58 + (5 + k.val); omega))⟩
  obtain ⟨c', q, k, rfl, hr⟩ := key
  have hg : g = dcell c' q := by
    rw [tallyAt_apply] at hp
    by_cases hc : g = dcell c' q ∧ u = ()
    · exact hc.1
    · rw [if_neg hc] at hp; exact absurd hp (Nat.lt_irrefl 0)
  subst hg
  refine ⟨rfl, ?_⟩
  show 1 < (if 15 ≤ q.val ∧ q.val < 26 then 2 else if 37 ≤ q.val ∧ q.val < 48 then 3 else if 58 ≤ q.val then 4 else 0)
  split_ifs <;> omega

theorem segA_barPay0 (c : Dev nD) : (barPay c 0 : sProp 𝕄)
    = iprop(∃ f, (xrM : Memref sig .tc .vmem S704x512 .bf16).view.loc (xp c : Thread nD τ) ↦[(xrM : Memref sig .tc .vmem S704x512 .bf16).view.set]{fullShare} f) := rfl
theorem segA_barPay1 (c : Dev nD) : (barPay c 1 : sProp 𝕄)
    = iprop(∃ f, (yrM : Memref sig .tc .vmem S704x512 .bf16).view.loc (yn c : Thread nD τ) ↦[(yrM : Memref sig .tc .vmem S704x512 .bf16).view.set]{fullShare} f) := rfl
theorem segA_barPay2 (c : Dev nD) : (barPay c 2 : sProp 𝕄)
    = iprop(∃ f, (zrM : Memref sig .tc .vmem S640x512 .bf16).view.loc (zn c : Thread nD τ) ↦[(zrM : Memref sig .tc .vmem S640x512 .bf16).view.set]{fullShare} f) := rfl

theorem segA_posAt_A (c : Dev nD) :
    (posAt (F := F) c (fun q => q.val ≤ 3) : sProp 𝕄) = iprop(atPos ER (barCell c) 1 ∅ 0
      ∗ atPos ER (dcell c lsQ) 1 ∅ 0 ∗ atPos ER (dcell c (psQ 0)) 1 ∅ 0 ∗ atPos ER (dcell c (psQ 1)) 1 ∅ 0
      ∗ bigSep (Finset.univ.filter fun q : Fin 68 => 4 ≤ q.val) fun q => atPos ER (kcell (c, q)) 0 ∅ 0) := by
  have hrest : (bigSep (Finset.univ.filter fun q : Fin 68 => 4 ≤ q.val) (fun q => atPos ER (kcell (c, q)) (if q.val ≤ 3 then 1 else 0) ∅ 0) : sProp 𝕄)
      = bigSep (Finset.univ.filter fun q : Fin 68 => 4 ≤ q.val) (fun q => atPos ER (kcell (c, q)) 0 ∅ 0) :=
    bigSep_congr fun q hq => by rw [if_neg (by have := (Finset.mem_filter.mp hq).2; omega)]
  rw [segA_posAt_lo, hrest]
  rfl

theorem segA_bar3 (c : Dev nD) :
    (bigSep Finset.univ (fun d : Fin 3 => barPay c d) : sProp 𝕄) = iprop(barPay c 0 ∗ barPay c 1 ∗ barPay c 2) :=
  bigSep_univ_eq_bigSepL [(0 : Fin 3), 1, 2] (by decide) (by decide) _

-- One chunk of the narrowed half goes to the x neighbour; the payment comes off what the device owes.
theorem segA_send_x (K : Dev nD × Fin 68 → ℕ) (c : Dev nD) (k : Fin 11) (n : ℕ) (hn : n < 35)
    (ht : (payList c)[n]'(by rw [payList_length]; exact hn) = tallyAt (dcell (xp c) (rxQ k)) () NX)
    (d' : Dev nD) (hd : d' = xp c)
    {hsc : ((ch xrM k) : Memref sig (Dev.tc d' : Thread nD τ).2.kind .vmem S64x512 .bf16).view.ref.isScScratch = false}
    {hsrc : (ch xsM k).view.WordExact} {hdst : (ch xrM k).view.WordExact}
    {hsem : DmaTarget.Typed .vmem (.dma (rxQ k)) (.remote (Dev.tc d' : Thread nD τ) (ch xrM k) (.dma (sxQ k)) hsc)}
    {α : Type} {Q : α → sProp 𝕄} {kont : PUnit → Prog (TpuEff nD τ sig (Elt F) Λ₀ .tc) α}
    (fd : Buf (Elt F) ((ch xrM k).view.loc (xp c : Thread nD τ))) {W : Waits sig Unit} :
    iprop((bigSep Finset.univ fun ck : Dev nD × Fin 68 => cellInv ER (rsRd m) (K ck) (kcell ck))
        ∗ (bigSep Finset.univ fun ck : Dev nD × Fin 68 => reached ER (kcell ck) 0)
        ∗ chk xsM c k fullShare (XS m c) ∗ chk xrM (xp c) k fullShare fd
        ∗ owes (c : Thread nD τ) (owedFrom c n) W
        ∗ dutyTok ER (dcell c (sxQ k)) 0 0 ∗ dutyTok ER (dcell (xp c) (rxQ k)) 0 0)
      ⊢ iprop(((cred (tallyAt (dcell c (sxQ k)) () NX) ∗ owes (c : Thread nD τ) (owedFrom c (n + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ch xsM k) (.remote (Dev.tc d' : Thread nD τ) (ch xrM k) (.dma (sxQ k)) hsc) (.dma (rxQ k)) hsrc hdst hsem) kont) Q) := by
  subst hd
  have hs1 : 1 ≤ (sxQ k).val := by show 1 ≤ 4 + k.val; omega
  have hr1 : 1 ≤ (rxQ k).val := by show 1 ≤ 15 + k.val; omega
  iintro ⟨#HI, #HR, Hs, Hd, HO, HtS, HtR⟩
  ihave #HI1 := (inv_d m K c (sxQ k) hs1) $$ HI
  ihave #HI2 := (inv_d m K (xp c) (rxQ k) hr1) $$ HI
  ihave #HR1 := (reached_d (F := F) c (sxQ k) hs1) $$ HR
  ihave #HR2 := (reached_d (F := F) (xp c) (rxQ k) hr1) $$ HR
  iapply (Rounds.wp_send_pointsTo 𝒱₀ ER (rsRd m) (c : Thread nD τ) none (c' := (xp c : Thread nD τ)) (src := ch xsM k) (dst := ch xrM k)
      (q := fullShare) (fs := XS m c) (fd := fd) (κ₁ := K (c, sxQ k)) (κ₂ := K (xp c, rxQ k)) (r₁ := 0) (r₂ := 0) (d₁ := 0) (d₂ := 0)
      (by rw [duties_d m c (sxQ k) hs1]; exact Finset.mem_singleton_self _)
      (by rw [duties_d m (xp c) (rxQ k) hr1]; exact Finset.mem_singleton_self _)
      () () NX rfl ((amount_d m c (sxQ k) 0).trans (amtQ_sx k)) ((amount_d m (xp c) (rxQ k) 0).trans (amtQ_rx k))
      (owedFrom c (n + 1)) ((owedFrom_succ c n hn).trans (congrArg _ ht)) (W := W)
      (by rw [payload_d, payQ_sx]; exact sx_src m c k)
      (by rw [payload_d, payQ_rx]; exact rx_land m c k fd)) $$ [Hs Hd HO HtS HtR]
  isplitr; · iexact HI1
  isplitr; · iexact HI2
  isplitl [Hs]; · iexact Hs
  isplitl [Hd]; · iexact Hd
  isplitl [HO]; · iexact HO
  isplitl [HtS]; · iexact HtS
  isplitr; · iexact HR1
  isplitl [HtR]; · iexact HtR
  iexact HR2

end Cert.KernelIdeal.Rs

end
-- ==== Proof.SegA1.lean ====
import proofs.«901021_g7700000000001022_dist_rs_v7x_xyz2x2x2_x_m2048_n512_f32_1_alg».proof.Proof.StepsA

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_d amount_bar amount_d payload_bar payload_d expect_bar expect_d
  amtQ_ls amtQ_ps0 amtQ_ps1 amtQ_sx amtQ_rx amtQ_sy amtQ_ry amtQ_sz amtQ_rz payQ_ls payQ_ps0 payQ_ps1 payQ_sx payQ_rx payQ_sy payQ_ry payQ_sz payQ_rz

theorem segA_peer1_b1 (c : Dev nD) (h : k0_dev1 c < nD) : (⟨k0_dev1 c, h⟩ : Dev nD) = xp c := segA_peer_xp c _ (k0_dev1_eq c) h
theorem segA_peer2_b1 (c : Dev nD) (h : k0_dev2 c < nD) : (⟨k0_dev2 c, h⟩ : Dev nD) = yn c := segA_peer_yn c _ (k0_dev2_eq c) h
theorem segA_peer3_b1 (c : Dev nD) (h : k0_dev3 c < nD) : (⟨k0_dev3 c, h⟩ : Dev nD) = zn c := segA_peer_zn c _ (k0_dev3_eq c) h
theorem segA_peer4_b1 (c : Dev nD) (h : k0_dev4 c < nD) : (⟨k0_dev4 c, h⟩ : Dev nD) = xp c := segA_peer_xp c _ (k0_dev4_eq c) h
theorem segA_peer5_b1 (c : Dev nD) (h : k0_dev5 c < nD) : (⟨k0_dev5 c, h⟩ : Dev nD) = xp c := segA_peer_xp c _ (k0_dev5_eq c) h
theorem segA_peer6_b1 (c : Dev nD) (h : k0_dev6 c < nD) : (⟨k0_dev6 c, h⟩ : Dev nD) = xp c := segA_peer_xp c _ (k0_dev6_eq c) h
theorem segA_peer7_b1 (c : Dev nD) (h : k0_dev7 c < nD) : (⟨k0_dev7 c, h⟩ : Dev nD) = xp c := segA_peer_xp c _ (k0_dev7_eq c) h
theorem segA_peer8_b1 (c : Dev nD) (h : k0_dev8 c < nD) : (⟨k0_dev8 c, h⟩ : Dev nD) = xp c := segA_peer_xp c _ (k0_dev8_eq c) h
theorem segA_peer9_b1 (c : Dev nD) (h : k0_dev9 c < nD) : (⟨k0_dev9 c, h⟩ : Dev nD) = xp c := segA_peer_xp c _ (k0_dev9_eq c) h
theorem segA_peer10_b1 (c : Dev nD) (h : k0_dev10 c < nD) : (⟨k0_dev10 c, h⟩ : Dev nD) = xp c := segA_peer_xp c _ (k0_dev10_eq c) h
theorem segA_peer11_b1 (c : Dev nD) (h : k0_dev11 c < nD) : (⟨k0_dev11 c, h⟩ : Dev nD) = xp c := segA_peer_xp c _ (k0_dev11_eq c) h
theorem segA_peer12_b1 (c : Dev nD) (h : k0_dev12 c < nD) : (⟨k0_dev12 c, h⟩ : Dev nD) = xp c := segA_peer_xp c _ (k0_dev12_eq c) h
theorem segA_peer13_b1 (c : Dev nD) (h : k0_dev13 c < nD) : (⟨k0_dev13 c, h⟩ : Dev nD) = xp c := segA_peer_xp c _ (k0_dev13_eq c) h
theorem segA_peer14_b1 (c : Dev nD) (h : k0_dev14 c < nD) : (⟨k0_dev14 c, h⟩ : Dev nD) = xp c := segA_peer_xp c _ (k0_dev14_eq c) h

attribute [local sl_canon] segA_peer1_b1 segA_peer2_b1 segA_peer3_b1 segA_peer4_b1 segA_peer5_b1 segA_peer6_b1 segA_peer7_b1 segA_peer8_b1 segA_peer9_b1 segA_peer10_b1 segA_peer11_b1 segA_peer12_b1 segA_peer13_b1 segA_peer14_b1

theorem segA_xs_eq_b1 (c : Dev nD) (f2 : Buf (Elt F) ((c : Thread nD τ).loc cc0_scratch2))
    (h1 h2 : ∀ a, (![0, 0] : Fin 2 → ℕ) a + S704x512.size a ≤ S704x512.size a) :
    (Memref.whole cc0_scratch2 : Memref sig .tc .vmem S704x512 .bf16).view.writes (Elt F) f2
      [⟨Rect.unit (s := S704x512) ![0, 0] S704x512.size h1,
        k0_pay1 (View.readAt (Elt F) (xpM : Memref sig .tc .vmem S704x512 .f32).view (Rect.unit (s := S704x512) ![0, 0] S704x512.size h2).toLoadRect (XP m c))⟩]
      = XS m c := by
  have hz : (![0, 0] : Fin 2 → ℕ) = fun _ => 0 := by funext a; fin_cases a <;> rfl
  have e1 : View.readAt (Elt F) (xpM : Memref sig .tc .vmem S704x512 .f32).view (Rect.unit (s := S704x512) ![0, 0] S704x512.size h2).toLoadRect (XP m c) = XP m c :=
    Memref.readAt_unit_zero (Elt F) cc0_scratch1 hz h2 (XP m c)
  rw [View.writes_singleton, e1]
  exact Memref.write_access_unit_zero_univ (Elt F) cc0_scratch2 hz h1 f2 (k0_pay1 (XP m c))

-- Stretch A on a device with x = 0: the three local copies, the handshake with the three neighbours, the eleven sends along x.
set_option maxHeartbeats 4000000 in
theorem segA1_run (K : Dev nD × Fin 68 → ℕ) (c : Dev nD) (hx : c.val / 4 = 0) (g0 : Buf (Elt F) ((c : Thread nD τ).loc cc0_stg0_0))
    (v2 v5 v8 v9 v10 v11 v15 v18 v23 v27 v32 v38 : BitVec 32) :
    St0 m K c g0 ⊢ wp frame (wpE (defs₀ (F := F)) 𝒱₀ (c : Thread nD τ) none) Set.univ
      (segA1 (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v5 v8 v9 v10 v11 v15 v18 v23 v27 v32 v38 (cond1_of c hx))
      (fun _ => StA m K c g0) := by
  unfold St0 pers records payToks creds scratch argPts
  rw [segA_posAt_lo]
  simp only [bigSep_fin11, bigSep_fin10, if_false]
  iintro ⟨⟨⟨#HI, #HR⟩, #Hlev⟩, ⟨Hp0, HpL, HpP0, HpP1, HpRest⟩,
    ⟨HtBX, HtBY, HtBZ, ⟨HtRX0, HtRX1, HtRX2, HtRX3, HtRX4, HtRX5, HtRX6, HtRX7, HtRX8, HtRX9, HtRX10⟩, ⟨HtRY0, HtRY1, HtRY2, HtRY3, HtRY4, HtRY5, HtRY6, HtRY7, HtRY8, HtRY9, HtRY10⟩, ⟨HtRZ0, HtRZ1, HtRZ2, HtRZ3, HtRZ4, HtRZ5, HtRZ6, HtRZ7, HtRZ8, HtRZ9⟩, HtL, HtP0, HtP1, ⟨HtSX0, HtSX1, HtSX2, HtSX3, HtSX4, HtSX5, HtSX6, HtSX7, HtSX8, HtSX9, HtSX10⟩, ⟨HtSY0, HtSY1, HtSY2, HtSY3, HtSY4, HtSY5, HtSY6, HtSY7, HtSY8, HtSY9, HtSY10⟩, ⟨HtSZ0, HtSZ1, HtSZ2, HtSZ3, HtSZ4, HtSZ5, HtSZ6, HtSZ7, HtSZ8, HtSZ9⟩⟩,
    ⟨HcB, ⟨HcRX0, HcRX1, HcRX2, HcRX3, HcRX4, HcRX5, HcRX6, HcRX7, HcRX8, HcRX9, HcRX10⟩, ⟨HcRY0, HcRY1, HcRY2, HcRY3, HcRY4, HcRY5, HcRY6, HcRY7, HcRY8, HcRY9, HcRY10⟩, ⟨HcRZ0, HcRZ1, HcRZ2, HcRZ3, HcRZ4, HcRZ5, HcRZ6, HcRZ7, HcRZ8, HcRZ9⟩⟩,
    ⟨%W, HO⟩, Harg, ⟨⟨%f0, Hs0⟩, ⟨%f1, Hs1⟩, ⟨%f2, Hs2⟩, ⟨%f3, Hs3⟩, ⟨%f4, Hs4⟩, ⟨%f5, Hs5⟩⟩, Hout⟩

  ihave HargW := (Entails.of_eq (segA_whl_eq c main_arg0 (A m c))) $$ Harg
  icases (arg_split c (A m c)).1 $$ HargW with ⟨HaL, HaE, HaC, HaR⟩
  ihave Hs1W := (Entails.of_eq (segA_whl_eq c cc0_scratch1 f1)) $$ Hs1
  icases (xps_split c f1).1 $$ Hs1W with ⟨HxE, HxC⟩
  ihave Hs0W := (Entails.of_eq (segA_whl_eq c cc0_scratch0 f0)) $$ Hs0
  ihave #HIls := (inv_d m K c lsQ (by decide)) $$ HI
  ihave #HRls := (reached_d (F := F) c lsQ (by decide)) $$ HR
  ihave #HIp0 := (inv_d m K c (psQ 0) (by decide)) $$ HI
  ihave #HRp0 := (reached_d (F := F) c (psQ 0) (by decide)) $$ HR
  ihave #HIp1 := (inv_d m K c (psQ 1) (by decide)) $$ HI
  ihave #HRp1 := (reached_d (F := F) c (psQ 1) (by decide)) $$ HR
  sl_unfold [segA1]
  sl_exec

  rw [segA_enq_src (ldSrc_eq_b1 c hx _)]
  iapply (Rounds.wp_copy_pointsTo 𝒱₀ ER (rsRd m) (c : Thread nD τ) none (src := ldSrc c) (dst := xlM) (sem := .dma lsQ)
      (q := fullShare) (fs := A m c) (fd := f0) (κ := K (c, lsQ)) (r := 0) (d := 0)
      (by rw [duties_d m c lsQ (by decide)]; exact Finset.mem_singleton_self _) () NL rfl rfl
      (by rw [payload_d, payQ_ls]; exact ls_land m c f0)) $$ [HaL Hs0W HtL]
  · iframe HIls HaL Hs0W HtL HRls
  iintro HcL
  sl_exec

  rw [segA_enq_src (peSrc_eq_b1 c hx _)]
  iapply (Rounds.wp_copy_pointsTo 𝒱₀ ER (rsRd m) (c : Thread nD τ) none (src := peSrc c) (dst := peDst) (sem := .dma (psQ 0))
      (q := fullShare) (fs := A m c) (fd := f1) (κ := K (c, psQ 0)) (r := 0) (d := 0)
      (by rw [duties_d m c (psQ 0) (by decide)]; exact Finset.mem_singleton_self _) () NE rfl rfl
      (by rw [payload_d, payQ_ps0]; exact pe_land m c f1)) $$ [HaE HxE HtP0]
  · iframe HIp0 HaE HxE HtP0 HRp0
  iintro HcP0
  sl_exec

  rw [segA_enq_src (pcSrc_eq_b1 c hx _)]
  iapply (Rounds.wp_copy_pointsTo 𝒱₀ ER (rsRd m) (c : Thread nD τ) none (src := pcSrc c) (dst := pcDst) (sem := .dma (psQ 1))
      (q := fullShare) (fs := A m c) (fd := f1) (κ := K (c, psQ 1)) (r := 0) (d := 0)
      (by rw [duties_d m c (psQ 1) (by decide)]; exact Finset.mem_singleton_self _) () NC rfl rfl
      (by rw [payload_d, payQ_ps1]; exact pc_land m c f1)) $$ [HaC HxC HtP1]
  · iframe HIp1 HaC HxC HtP1 HRp1
  iintro HcP1
  ihave #HIb := (segA_inv_b m K c) $$ HI
  ihave #HIbx := (segA_inv_b m K (xp c)) $$ HI
  ihave #HIby := (segA_inv_b m K (yn c)) $$ HI
  ihave #HIbz := (segA_inv_b m K (zn c)) $$ HI
  ihave #HRbx := (segA_reached_b (F := F) (xp c)) $$ HR
  ihave #HRby := (segA_reached_b (F := F) (yn c)) $$ HR
  ihave #HRbz := (segA_reached_b (F := F) (zn c)) $$ HR
  sl_exec

  ihave HO1 := (segA_owes_step c 0 (by omega) (tallyAt (barCell (xp c)) () 1) rfl W) $$ HO
  iapply (Rounds.wp_signal 𝒱₀ ER (rsRd m) (c : Thread nD τ) none (dst := (xp c : Thread nD τ)) (sem := barS) (κ := K (xp c, 0)) (r := 0) (d := 0) (k' := 1)
      (by rw [duties_bar]; exact Finset.mem_univ _) rfl () (owedFrom c 1) rfl) $$ [HO1 HtBX Hs3]
  · isplitr; · iexact HIbx
    isplitl [HO1]; · iexact HO1
    isplitl [HtBX]; · iexact HtBX
    isplitl [Hs3]; · iapply (segA_bar0 m c f3); iexact Hs3
    iexact HRbx
  iintro HO1
  sl_exec
  ihave HO2 := (segA_owes_step c 1 (by omega) (tallyAt (barCell (yn c)) () 1) rfl W) $$ HO1
  iapply (Rounds.wp_signal 𝒱₀ ER (rsRd m) (c : Thread nD τ) none (dst := (yn c : Thread nD τ)) (sem := barS) (κ := K (yn c, 0)) (r := 0) (d := 1) (k' := 1)
      (by rw [duties_bar]; exact Finset.mem_univ _) rfl () (owedFrom c 2) rfl) $$ [HO2 HtBY Hs4]
  · isplitr; · iexact HIby
    isplitl [HO2]; · iexact HO2
    isplitl [HtBY]; · iexact HtBY
    isplitl [Hs4]; · iapply (segA_bar1 m c f4); iexact Hs4
    iexact HRby
  iintro HO2
  sl_exec
  ihave HO3 := (segA_owes_step c 2 (by omega) (tallyAt (barCell (zn c)) () 1) rfl W) $$ HO2
  iapply (Rounds.wp_signal 𝒱₀ ER (rsRd m) (c : Thread nD τ) none (dst := (zn c : Thread nD τ)) (sem := barS) (κ := K (zn c, 0)) (r := 0) (d := 2) (k' := 1)
      (by rw [duties_bar]; exact Finset.mem_univ _) rfl () (owedFrom c 3) rfl) $$ [HO3 HtBZ Hs5]
  · isplitr; · iexact HIbz
    isplitl [HO3]; · iexact HO3
    isplitl [HtBZ]; · iexact HtBZ
    isplitl [Hs5]; · iapply (segA_bar2 m c f5); iexact Hs5
    iexact HRbz
  iintro HO3
  sl_exec

  ihave #HMW := (mayWait_lv c (.reg barS) (owedFrom c 3) 1 rfl (fun g u h => segA_owed_recv c 3 (by omega) g u h)) $$ Hlev
  ihave #HMW0 := (mayWait_lv c (.dma (psQ 0)) (owedFrom c 3) 0 rfl (fun g u h => segA_owed_tc c 3 g u h)) $$ Hlev
  ihave #HMW1 := (mayWait_lv c (.dma (psQ 1)) (owedFrom c 3) 0 rfl (fun g u h => segA_owed_tc c 3 g u h)) $$ Hlev
  sl_exec
  iclear Hp0_reached HpP0_reached HpP1_reached
  ihave Hp := (Entails.of_eq (segA_bar3 c)) $$ Hp0_pay1
  unfold pePay pcPay
  icases HpP0_pay1 with ⟨HxE, HaE⟩
  icases HpP1_pay1 with ⟨HxC, HaC⟩

  ihave Hxp : ((xpM : Memref sig .tc .vmem S704x512 .f32).view.loc (c : Thread nD τ) ↦[(xpM : Memref sig .tc .vmem S704x512 .f32).view.set]{fullShare} XP m c) $$ [HxE HxC]
  · iapply (xps_split c (XP m c)).2
    isplitl [HxE] <;> iassumption
  ihave Hs2W := (Entails.of_eq (segA_pt_eq c cc0_scratch2 f2)) $$ Hs2
  sl_exec

  ihave HS := (Entails.of_eq (congrArg (fun f => ((xsM : Memref sig .tc .vmem S704x512 .bf16).view.loc (c : Thread nD τ) ↦[(xsM : Memref sig .tc .vmem S704x512 .bf16).view.set]{fullShare} f : sProp 𝕄)) (segA_xs_eq_b1 m c f2 _ _))) $$ Hs2W
  ihave HSs := (Entails.of_eq ((chunks704 xsM c fullShare (XS m c)).trans (bigSep_fin11 _))) $$ HS
  icases HSs with ⟨HS0, HS1, HS2, HS3, HS4, HS5, HS6, HS7, HS8, HS9, HS10⟩
  icases Hp with ⟨Hnx, Hny, Hnz⟩
  ihave Hnx' := (Entails.of_eq (segA_barPay0 c)) $$ Hnx
  icases Hnx' with ⟨%fx, Hnx⟩
  ihave HXs := (Entails.of_eq ((chunks704 xrM (xp c) fullShare fx).trans (bigSep_fin11 _))) $$ Hnx
  icases HXs with ⟨HX0, HX1, HX2, HX3, HX4, HX5, HX6, HX7, HX8, HX9, HX10⟩

  iapply (segA_send_x m K c 0 3 (by omega) rfl _ (segA_peer4_b1 c _) fx) $$ [HS0 HX0 HO3 HtSX0 HtRX0]
  · iframe HI HR HS0 HX0 HO3 HtSX0 HtRX0
  iintro ⟨HcSX0, HOx1⟩
  sl_exec

  iapply (segA_send_x m K c 1 4 (by omega) rfl _ (segA_peer5_b1 c _) fx) $$ [HS1 HX1 HOx1 HtSX1 HtRX1]
  · iframe HI HR HS1 HX1 HOx1 HtSX1 HtRX1
  iintro ⟨HcSX1, HOx2⟩
  sl_exec

  iapply (segA_send_x m K c 2 5 (by omega) rfl _ (segA_peer6_b1 c _) fx) $$ [HS2 HX2 HOx2 HtSX2 HtRX2]
  · iframe HI HR HS2 HX2 HOx2 HtSX2 HtRX2
  iintro ⟨HcSX2, HOx3⟩
  sl_exec

  iapply (segA_send_x m K c 3 6 (by omega) rfl _ (segA_peer7_b1 c _) fx) $$ [HS3 HX3 HOx3 HtSX3 HtRX3]
  · iframe HI HR HS3 HX3 HOx3 HtSX3 HtRX3
  iintro ⟨HcSX3, HOx4⟩
  sl_exec

  iapply (segA_send_x m K c 4 7 (by omega) rfl _ (segA_peer8_b1 c _) fx) $$ [HS4 HX4 HOx4 HtSX4 HtRX4]
  · iframe HI HR HS4 HX4 HOx4 HtSX4 HtRX4
  iintro ⟨HcSX4, HOx5⟩
  sl_exec

  iapply (segA_send_x m K c 5 8 (by omega) rfl _ (segA_peer9_b1 c _) fx) $$ [HS5 HX5 HOx5 HtSX5 HtRX5]
  · iframe HI HR HS5 HX5 HOx5 HtSX5 HtRX5
  iintro ⟨HcSX5, HOx6⟩
  sl_exec

  iapply (segA_send_x m K c 6 9 (by omega) rfl _ (segA_peer10_b1 c _) fx) $$ [HS6 HX6 HOx6 HtSX6 HtRX6]
  · iframe HI HR HS6 HX6 HOx6 HtSX6 HtRX6
  iintro ⟨HcSX6, HOx7⟩
  sl_exec

  iapply (segA_send_x m K c 7 10 (by omega) rfl _ (segA_peer11_b1 c _) fx) $$ [HS7 HX7 HOx7 HtSX7 HtRX7]
  · iframe HI HR HS7 HX7 HOx7 HtSX7 HtRX7
  iintro ⟨HcSX7, HOx8⟩
  sl_exec

  iapply (segA_send_x m K c 8 11 (by omega) rfl _ (segA_peer12_b1 c _) fx) $$ [HS8 HX8 HOx8 HtSX8 HtRX8]
  · iframe HI HR HS8 HX8 HOx8 HtSX8 HtRX8
  iintro ⟨HcSX8, HOx9⟩
  sl_exec

  iapply (segA_send_x m K c 9 12 (by omega) rfl _ (segA_peer13_b1 c _) fx) $$ [HS9 HX9 HOx9 HtSX9 HtRX9]
  · iframe HI HR HS9 HX9 HOx9 HtSX9 HtRX9
  iintro ⟨HcSX9, HOx10⟩
  sl_exec

  iapply (segA_send_x m K c 10 13 (by omega) rfl _ (segA_peer14_b1 c _) fx) $$ [HS10 HX10 HOx10 HtSX10 HtRX10]
  · iframe HI HR HS10 HX10 HOx10 HtSX10 HtRX10
  iintro ⟨HcSX10, HOx11⟩
  sl_exec

  ihave #HMWL := (mayWait_lv c (.dma lsQ) (owedFrom c 14) 0 rfl (fun g u h => segA_owed_tc c 14 g u h)) $$ Hlev
  sl_exec
  iclear HpL_reached
  unfold lsPay
  icases HpL_pay1 with ⟨HxL, HaL⟩

  ihave Harg : ((a0M : Memref sig .tc .hbm S1x2048x1024 .f32).view.loc (c : Thread nD τ) ↦[(a0M : Memref sig .tc .hbm S1x2048x1024 .f32).view.set]{fullShare} A m c) $$ [HaL HaE HaC HaR]
  · iapply (arg_split c (A m c)).2
    isplitl [HaL]; · iexact HaL
    isplitl [HaE]; · iexact HaE
    isplitl [HaC]; · iexact HaC
    iexact HaR
  ihave HargW := (Entails.of_eq (segA_whl_eq c main_arg0 (A m c)).symm) $$ Harg
  ihave HxlW := (Entails.of_eq (segA_whl_eq c cc0_scratch0 (XL m c)).symm) $$ HxL
  ihave HxpW := (Entails.of_eq (segA_whl_eq c cc0_scratch1 (XP m c)).symm) $$ Hxp

  ihave Hny' := (Entails.of_eq (segA_barPay1 c)) $$ Hny
  icases Hny' with ⟨%fy, Hny⟩
  ihave HnyW := (Entails.of_eq (segA_whl_eq (yn c) cc0_scratch4 fy).symm) $$ Hny
  ihave Hnz' := (Entails.of_eq (segA_barPay2 c)) $$ Hnz
  icases Hnz' with ⟨%fz, Hnz⟩
  ihave HnzW := (Entails.of_eq (segA_whl_eq (zn c) cc0_scratch5 fz).symm) $$ Hnz

  rw [wp_ret]
  imodintro
  unfold StA pers records locals
  rw [segA_posAt_A]
  simp only [bigSep_fin11, bigSep_fin10]
  isplitr
  · isplitr
    · iframe HI HR
    · iexact Hlev
  isplitl [Hp0 HpL HpP0 HpP1 HpRest]
  · iframe Hp0 HpL HpP0 HpP1 HpRest
  isplitl [HtRY0 HtRY1 HtRY2 HtRY3 HtRY4 HtRY5 HtRY6 HtRY7 HtRY8 HtRY9 HtRY10 HtSY0 HtSY1 HtSY2 HtSY3 HtSY4 HtSY5 HtSY6 HtSY7 HtSY8 HtSY9 HtSY10]
  · iframe
  isplitl [HtRZ0 HtRZ1 HtRZ2 HtRZ3 HtRZ4 HtRZ5 HtRZ6 HtRZ7 HtRZ8 HtRZ9 HtSZ0 HtSZ1 HtSZ2 HtSZ3 HtSZ4 HtSZ5 HtSZ6 HtSZ7 HtSZ8 HtSZ9]
  · iframe
  isplitl [HcRX0 HcRX1 HcRX2 HcRX3 HcRX4 HcRX5 HcRX6 HcRX7 HcRX8 HcRX9 HcRX10 HcRY0 HcRY1 HcRY2 HcRY3 HcRY4 HcRY5 HcRY6 HcRY7 HcRY8 HcRY9 HcRY10 HcSX0 HcSX1 HcSX2 HcSX3 HcSX4 HcSX5 HcSX6 HcSX7 HcSX8 HcSX9 HcSX10]
  · iframe
  isplitl [HcRZ0 HcRZ1 HcRZ2 HcRZ3 HcRZ4 HcRZ5 HcRZ6 HcRZ7 HcRZ8 HcRZ9]
  · iframe
  isplitl [HOx11]
  · iexists _; iexact HOx11
  isplitl [HargW HxlW HxpW]
  · iframe
  isplitl [HnyW]
  · iexists fy; iexact HnyW
  isplitl [HnzW]
  · iexists fz; iexact HnzW
  iexact Hout

end Cert.KernelIdeal.Rs

end
-- ==== Proof.StepsB.lean ====
import proofs.«901021_g7700000000001022_dist_rs_v7x_xyz2x2x2_x_m2048_n512_f32_1_alg».proof.Proof.Cond
import proofs.«901021_g7700000000001022_dist_rs_v7x_xyz2x2x2_x_m2048_n512_f32_1_alg».proof.Proof.Chunks
import proofs.«901021_g7700000000001022_dist_rs_v7x_xyz2x2x2_x_m2048_n512_f32_1_alg».proof.Proof.Rows
import proofs.«901021_g7700000000001022_dist_rs_v7x_xyz2x2x2_x_m2048_n512_f32_1_alg».proof.Proof.Land
import proofs.«901021_g7700000000001022_dist_rs_v7x_xyz2x2x2_x_m2048_n512_f32_1_alg».proof.Proof.OutValue
import proofs.«901021_g7700000000001022_dist_rs_v7x_xyz2x2x2_x_m2048_n512_f32_1_alg».proof.Proof.States
import proofs.«901021_g7700000000001022_dist_rs_v7x_xyz2x2x2_x_m2048_n512_f32_1_alg».proof.Proof.Stor

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def Bq (q : Fin 68) : Prop := (15 ≤ q.val ∧ q.val ≤ 25) ∨ q.val = 37
instance : DecidablePred Bq := fun q => by unfold Bq; infer_instance

def posRest (c : Dev nD) : sProp 𝕄 :=
  bigSep (Finset.univ.filter fun q : Fin 68 => ¬ Bq q) fun q => atPos ER (kcell (c, q)) (if q.val ≤ 3 then 1 else 0) ∅ 0

theorem Bq_list : (Finset.univ.filter fun q : Fin 68 => Bq q) = ([15, 16, 17, 18, 19, 20, 21, 22, 23, 24, 25, 37] : List (Fin 68)).toFinset := by decide

theorem posA_eq (c : Dev nD) :
    (posAt c (fun q => q.val ≤ 3) : sProp 𝕄) = iprop((atPos ER (dcell c (rxQ 0)) 0 ∅ 0 ∗ atPos ER (dcell c (rxQ 1)) 0 ∅ 0 ∗ atPos ER (dcell c (rxQ 2)) 0 ∅ 0
      ∗ atPos ER (dcell c (rxQ 3)) 0 ∅ 0 ∗ atPos ER (dcell c (rxQ 4)) 0 ∅ 0 ∗ atPos ER (dcell c (rxQ 5)) 0 ∅ 0 ∗ atPos ER (dcell c (rxQ 6)) 0 ∅ 0
      ∗ atPos ER (dcell c (rxQ 7)) 0 ∅ 0 ∗ atPos ER (dcell c (rxQ 8)) 0 ∅ 0 ∗ atPos ER (dcell c (rxQ 9)) 0 ∅ 0 ∗ atPos ER (dcell c (rxQ 10)) 0 ∅ 0
      ∗ atPos ER (dcell c (ryQ 0)) 0 ∅ 0) ∗ posRest c) := by
  unfold posAt posRest
  rw [bigSep_filter_split Finset.univ Bq, bigSep_eq_bigSepL_of_eq _ Bq_list (by decide)]
  rfl

theorem posB_eq (c : Dev nD) :
    (posAt c (fun q => q.val ≤ 3 ∨ (15 ≤ q.val ∧ q.val ≤ 25) ∨ q.val = 37) : sProp 𝕄) = iprop((atPos ER (dcell c (rxQ 0)) 1 ∅ 0 ∗ atPos ER (dcell c (rxQ 1)) 1 ∅ 0 ∗ atPos ER (dcell c (rxQ 2)) 1 ∅ 0
      ∗ atPos ER (dcell c (rxQ 3)) 1 ∅ 0 ∗ atPos ER (dcell c (rxQ 4)) 1 ∅ 0 ∗ atPos ER (dcell c (rxQ 5)) 1 ∅ 0 ∗ atPos ER (dcell c (rxQ 6)) 1 ∅ 0
      ∗ atPos ER (dcell c (rxQ 7)) 1 ∅ 0 ∗ atPos ER (dcell c (rxQ 8)) 1 ∅ 0 ∗ atPos ER (dcell c (rxQ 9)) 1 ∅ 0 ∗ atPos ER (dcell c (rxQ 10)) 1 ∅ 0
      ∗ atPos ER (dcell c (ryQ 0)) 1 ∅ 0) ∗ posRest c) := by
  unfold posAt posRest
  rw [bigSep_filter_split Finset.univ Bq, bigSep_eq_bigSepL_of_eq _ Bq_list (by decide)]
  refine congrArg₂ (fun a b : sProp 𝕄 => iprop(a ∗ b)) rfl (bigSep_congr fun q hq => ?_)
  have hq' : ¬ Bq q := (Finset.mem_filter.mp hq).2
  unfold Bq at hq'
  by_cases h3 : q.val ≤ 3
  · rw [if_pos (Or.inl h3), if_pos h3]
  · rw [if_neg (fun h => h.elim h3 hq'), if_neg h3]

theorem drop14 (c : Dev nD) : (payList c).drop 14 =
    [tallyAt (dcell (yn c) (ryQ 0)) () NY, tallyAt (dcell (zn c) (rzQ 0)) () NZ,
     tallyAt (dcell (yn c) (ryQ 1)) () NY, tallyAt (dcell (zn c) (rzQ 1)) () NZ,
     tallyAt (dcell (yn c) (ryQ 2)) () NY, tallyAt (dcell (zn c) (rzQ 2)) () NZ,
     tallyAt (dcell (yn c) (ryQ 3)) () NY, tallyAt (dcell (zn c) (rzQ 3)) () NZ,
     tallyAt (dcell (yn c) (ryQ 4)) () NY, tallyAt (dcell (zn c) (rzQ 4)) () NZ,
     tallyAt (dcell (yn c) (ryQ 5)) () NY, tallyAt (dcell (yn c) (ryQ 6)) () NY, tallyAt (dcell (yn c) (ryQ 7)) () NY,
     tallyAt (dcell (yn c) (ryQ 8)) () NY, tallyAt (dcell (yn c) (ryQ 9)) () NY, tallyAt (dcell (yn c) (ryQ 10)) () NY,
     tallyAt (dcell (zn c) (rzQ 5)) () NZ, tallyAt (dcell (zn c) (rzQ 6)) () NZ, tallyAt (dcell (zn c) (rzQ 7)) () NZ,
     tallyAt (dcell (zn c) (rzQ 8)) () NZ, tallyAt (dcell (zn c) (rzQ 9)) () NZ] := rfl

theorem foldr_pos (l : List (CellTallies nD τ sig Unit)) (g : GSem nD τ sig) (u : Unit)
    (h : 0 < (l.foldr (fun t acc => acc + t) (0 : CellTallies nD τ sig Unit)) g u) : ∃ t ∈ l, 0 < t g u := by
  induction l with
  | nil => exact absurd h (Nat.lt_irrefl 0)
  | cons t l ih =>
    rw [List.foldr_cons] at h
    rcases Pipeline.add_pos_cases h with h' | h'
    · obtain ⟨t', ht', hp⟩ := ih h'
      exact ⟨t', List.mem_cons_of_mem _ ht', hp⟩
    · exact ⟨t, List.mem_cons_self, h'⟩

theorem owed_above2 (c : Dev nD) (n : ℕ) (hn : 14 ≤ n) (g : GSem nD τ sig) (u : Unit) (h : 0 < owedFrom c n g u) :
    g.1.2 = .tc ∧ 2 < lv g () := by
  obtain ⟨t, ht, hp⟩ := foldr_pos _ g u h
  have ht14 : t ∈ (payList c).drop 14 := by
    have e : (payList c).drop n = ((payList c).drop 14).drop (n - 14) := by rw [List.drop_drop]; congr 1; omega
    rw [e] at ht; exact List.mem_of_mem_drop ht
  rw [drop14] at ht14
  simp only [List.mem_cons, List.not_mem_nil, _root_.or_false] at ht14
  rcases ht14 with rfl | rfl | rfl | rfl | rfl | rfl | rfl | rfl | rfl | rfl | rfl | rfl | rfl | rfl | rfl | rfl | rfl | rfl | rfl | rfl | rfl <;>
    (obtain ⟨rfl, -⟩ := Pipeline.tallyAt_pos hp; exact ⟨rfl, by first | (show (2 : ℕ) < 3; omega) | (show (2 : ℕ) < 4; omega)⟩)

theorem drop30 (c : Dev nD) : (payList c).drop 30 =
    [tallyAt (dcell (zn c) (rzQ 5)) () NZ, tallyAt (dcell (zn c) (rzQ 6)) () NZ, tallyAt (dcell (zn c) (rzQ 7)) () NZ,
     tallyAt (dcell (zn c) (rzQ 8)) () NZ, tallyAt (dcell (zn c) (rzQ 9)) () NZ] := rfl

theorem owed_above3 (c : Dev nD) (n : ℕ) (hn : 30 ≤ n) (g : GSem nD τ sig) (u : Unit) (h : 0 < owedFrom c n g u) :
    g.1.2 = .tc ∧ 3 < lv g () := by
  obtain ⟨t, ht, hp⟩ := foldr_pos _ g u h
  have ht30 : t ∈ (payList c).drop 30 := by
    have e : (payList c).drop n = ((payList c).drop 30).drop (n - 30) := by rw [List.drop_drop]; congr 1; omega
    rw [e] at ht; exact List.mem_of_mem_drop ht
  rw [drop30] at ht30
  simp only [List.mem_cons, List.not_mem_nil, _root_.or_false] at ht30
  rcases ht30 with rfl | rfl | rfl | rfl | rfl <;>
    (obtain ⟨rfl, -⟩ := Pipeline.tallyAt_pos hp; exact ⟨rfl, by show (3 : ℕ) < 4; omega⟩)

theorem b_S11_ge1 (Φ : Fin 11 → sProp 𝕄) : bigSep (Finset.univ.filter fun k : Fin 11 => 1 ≤ k.val) Φ = iprop(Φ 1 ∗ Φ 2 ∗ Φ 3 ∗ Φ 4 ∗ Φ 5 ∗ Φ 6 ∗ Φ 7 ∗ Φ 8 ∗ Φ 9 ∗ Φ 10) :=
  bigSep_eq_bigSepL_of_eq [1, 2, 3, 4, 5, 6, 7, 8, 9, 10] (by decide) (by decide) Φ

theorem yr_cut (c' : Dev nD) (f : Buf (Elt F) ((c' : Thread nD τ).loc cc0_scratch4)) :
    (whl c' cc0_scratch4 f : sProp 𝕄) = bigSep Finset.univ fun k : Fin 11 => chk yrM c' k fullShare f := by
  rw [← chunks704 (F := F) yrM c' fullShare f]
  simp only [Memref.view_whole, View.set_whole]
  first | rfl | skip

theorem zr_cut (c' : Dev nD) (f : Buf (Elt F) ((c' : Thread nD τ).loc cc0_scratch5)) :
    (whl c' cc0_scratch5 f : sProp 𝕄) = bigSep Finset.univ fun j : Fin 10 => chkz zrM c' j fullShare f := by
  rw [← chunks640 (F := F) zrM c' fullShare f]
  simp only [Memref.view_whole, View.set_whole]
  first | rfl | skip

theorem devY_eq (c : Dev nD) (n : ℕ) (h : n < nD) (hn : n = (4 * (c.val / 4) + (c.val % 2) + 2) - 2 * ((c.val / 2) % 2)) :
    (⟨n, h⟩ : Dev nD) = yn c := Fin.ext (hn.trans (yn_val c).symm)
theorem devZ_eq (c : Dev nD) (n : ℕ) (h : n < nD) (hn : n = (4 * (c.val / 4) + 2 * ((c.val / 2) % 2) + 1) - (c.val % 2)) :
    (⟨n, h⟩ : Dev nD) = zn c := Fin.ext (hn.trans (zn_val c).symm)

theorem send_y (K : Dev nD × Fin 68 → ℕ) (c : Dev nD) (k : Fin 11) (n : ℕ) (hn : n < 35)
    (ht : (payList c)[n]'(by rw [payList_length]; exact hn) = tallyAt (dcell (yn c) (ryQ k)) () NY)
    (d' : Dev nD) (hd : d' = yn c)
    {hsc : ((ch yrM k) : Memref sig (Dev.tc d' : Thread nD τ).2.kind .vmem S64x512 .bf16).view.ref.isScScratch = false}
    {hsrc : (ch xrM k).view.WordExact} {hdst : (ch yrM k).view.WordExact}
    {hsem : DmaTarget.Typed .vmem (.dma (ryQ k)) (.remote (Dev.tc d' : Thread nD τ) (ch yrM k) (.dma (syQ k)) hsc)}
    {α : Type} {Q : α → sProp 𝕄} {kont : PUnit → Prog (TpuEff nD τ sig (Elt F) Λ₀ .tc) α}
    (fd : Buf (Elt F) ((ch yrM k).view.loc (yn c : Thread nD τ))) (W : Waits sig Unit) :
    iprop((bigSep Finset.univ fun ck : Dev nD × Fin 68 => cellInv ER (rsRd m) (K ck) (kcell ck))
        ∗ (bigSep Finset.univ fun ck : Dev nD × Fin 68 => reached ER (kcell ck) 0)
        ∗ chk xrM c k qL (XR m c) ∗ chk yrM (yn c) k fullShare fd
        ∗ owes (c : Thread nD τ) (owedFrom c n) W
        ∗ dutyTok ER (dcell c (syQ k)) 0 0 ∗ dutyTok ER (dcell (yn c) (ryQ k)) 0 0)
      ⊢ iprop(((cred (tallyAt (dcell c (syQ k)) () NY) ∗ owes (c : Thread nD τ) (owedFrom c (n + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ch xrM k) (.remote (Dev.tc d' : Thread nD τ) (ch yrM k) (.dma (syQ k)) hsc) (.dma (ryQ k)) hsrc hdst hsem) kont) Q) := by
  subst hd
  have hs1 : 1 ≤ (syQ k).val := by show 1 ≤ 26 + k.val; omega
  have hr1 : 1 ≤ (ryQ k).val := by show 1 ≤ 37 + k.val; omega
  iintro ⟨#HI, #HR, Hs, Hd, HO, HtS, HtR⟩
  ihave #HI1 := (inv_d m K c (syQ k) hs1) $$ HI
  ihave #HI2 := (inv_d m K (yn c) (ryQ k) hr1) $$ HI
  ihave #HR1 := (reached_d (F := F) c (syQ k) hs1) $$ HR
  ihave #HR2 := (reached_d (F := F) (yn c) (ryQ k) hr1) $$ HR
  iapply (Rounds.wp_send_pointsTo 𝒱₀ ER (rsRd m) (c : Thread nD τ) none (κ₁ := K (c, syQ k)) (κ₂ := K (yn c, ryQ k))
      (c' := (yn c : Thread nD τ)) (src := ch xrM k) (dst := ch yrM k)
      (r₁ := 0) (r₂ := 0) (d₁ := 0) (d₂ := 0) (q := qL) (fs := XR m c) (fd := fd)
      (by rw [duties_d m c (syQ k) hs1]; exact Finset.mem_singleton_self _)
      (by rw [duties_d m (yn c) (ryQ k) hr1]; exact Finset.mem_singleton_self _)
      () () NY rfl ((amount_d m c (syQ k) 0).trans (amtQ_sy k)) ((amount_d m (yn c) (ryQ k) 0).trans (amtQ_ry k))
      (owedFrom c (n + 1)) ((owedFrom_succ c n hn).trans (congrArg _ ht)) (W := W)
      (by rw [payload_d, payQ_sy]; exact sy_src m c k)
      (by rw [payload_d, payQ_ry]; exact ry_land m c k fd)) $$ [Hs Hd HO HtS HtR]
  isplitr; · iexact HI1
  isplitr; · iexact HI2
  isplitl [Hs]; · iexact Hs
  isplitl [Hd]; · iexact Hd
  isplitl [HO]; · iexact HO
  isplitl [HtS]; · iexact HtS
  isplitr; · iexact HR1
  isplitl [HtR]; · iexact HtR
  iexact HR2

theorem yr_cut11 (c' : Dev nD) (f : Buf (Elt F) ((c' : Thread nD τ).loc cc0_scratch4)) :
    (whl c' cc0_scratch4 f : sProp 𝕄) = iprop(chk yrM c' 0 fullShare f ∗ chk yrM c' 1 fullShare f ∗ chk yrM c' 2 fullShare f ∗ chk yrM c' 3 fullShare f
      ∗ chk yrM c' 4 fullShare f ∗ chk yrM c' 5 fullShare f ∗ chk yrM c' 6 fullShare f ∗ chk yrM c' 7 fullShare f ∗ chk yrM c' 8 fullShare f
      ∗ chk yrM c' 9 fullShare f ∗ chk yrM c' 10 fullShare f) :=
  (yr_cut c' f).trans (bigSep_fin11 _)
theorem zr_cut10 (c' : Dev nD) (f : Buf (Elt F) ((c' : Thread nD τ).loc cc0_scratch5)) :
    (whl c' cc0_scratch5 f : sProp 𝕄) = iprop(chkz zrM c' 0 fullShare f ∗ chkz zrM c' 1 fullShare f ∗ chkz zrM c' 2 fullShare f ∗ chkz zrM c' 3 fullShare f
      ∗ chkz zrM c' 4 fullShare f ∗ chkz zrM c' 5 fullShare f ∗ chkz zrM c' 6 fullShare f ∗ chkz zrM c' 7 fullShare f ∗ chkz zrM c' 8 fullShare f
      ∗ chkz zrM c' 9 fullShare f) :=
  (zr_cut c' f).trans (bigSep_fin10 _)

theorem send_z (K : Dev nD × Fin 68 → ℕ) (c : Dev nD) (j : Fin 5) (k : Fin 11) (jz : Fin 10)
    (hk : k = ⟨j.val, by omega⟩) (hjz : jz = ⟨j.val, by omega⟩) (n : ℕ) (hn : n < 35)
    (ht : (payList c)[n]'(by rw [payList_length]; exact hn) = tallyAt (dcell (zn c) (rzQ jz)) () NZ)
    (d' : Dev nD) (hd : d' = zn c)
    {hsc : ((chz zrM jz) : Memref sig (Dev.tc d' : Thread nD τ).2.kind .vmem S64x512 .bf16).view.ref.isScScratch = false}
    {hsrc : (ch xrM k).view.WordExact} {hdst : (chz zrM jz).view.WordExact}
    {hsem : DmaTarget.Typed .vmem (.dma (rzQ jz)) (.remote (Dev.tc d' : Thread nD τ) (chz zrM jz) (.dma (szQ jz)) hsc)}
    {α : Type} {Q : α → sProp 𝕄} {kont : PUnit → Prog (TpuEff nD τ sig (Elt F) Λ₀ .tc) α}
    (fd : Buf (Elt F) ((chz zrM jz).view.loc (zn c : Thread nD τ))) (W : Waits sig Unit) :
    iprop((bigSep Finset.univ fun ck : Dev nD × Fin 68 => cellInv ER (rsRd m) (K ck) (kcell ck))
        ∗ (bigSep Finset.univ fun ck : Dev nD × Fin 68 => reached ER (kcell ck) 0)
        ∗ chk xrM c k qRL (XR m c) ∗ chkz zrM (zn c) jz fullShare fd
        ∗ owes (c : Thread nD τ) (owedFrom c n) W
        ∗ dutyTok ER (dcell c (szQ jz)) 0 0 ∗ dutyTok ER (dcell (zn c) (rzQ jz)) 0 0)
      ⊢ iprop(((cred (tallyAt (dcell c (szQ jz)) () NZ) ∗ owes (c : Thread nD τ) (owedFrom c (n + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ch xrM k) (.remote (Dev.tc d' : Thread nD τ) (chz zrM jz) (.dma (szQ jz)) hsc) (.dma (rzQ jz)) hsrc hdst hsem) kont) Q) := by
  subst hd
  subst hk
  subst hjz
  have hs1 : 1 ≤ (szQ ⟨j.val, by omega⟩).val := by show 1 ≤ 48 + j.val; omega
  have hr1 : 1 ≤ (rzQ ⟨j.val, by omega⟩).val := by show 1 ≤ 58 + j.val; omega
  iintro ⟨#HI, #HR, Hs, Hd, HO, HtS, HtR⟩
  ihave #HI1 := (inv_d m K c (szQ ⟨j.val, by omega⟩) hs1) $$ HI
  ihave #HI2 := (inv_d m K (zn c) (rzQ ⟨j.val, by omega⟩) hr1) $$ HI
  ihave #HR1 := (reached_d (F := F) c (szQ ⟨j.val, by omega⟩) hs1) $$ HR
  ihave #HR2 := (reached_d (F := F) (zn c) (rzQ ⟨j.val, by omega⟩) hr1) $$ HR
  iapply (Rounds.wp_send_pointsTo 𝒱₀ ER (rsRd m) (c : Thread nD τ) none (κ₁ := K (c, szQ ⟨j.val, by omega⟩)) (κ₂ := K (zn c, rzQ ⟨j.val, by omega⟩))
      (c' := (zn c : Thread nD τ)) (src := ch xrM ⟨j.val, _⟩) (dst := chz zrM ⟨j.val, _⟩)
      (r₁ := 0) (r₂ := 0) (d₁ := 0) (d₂ := 0) (q := qRL) (fs := XR m c) (fd := fd)
      (by rw [duties_d m c _ hs1]; exact Finset.mem_singleton_self _)
      (by rw [duties_d m (zn c) _ hr1]; exact Finset.mem_singleton_self _)
      () () NZ rfl ((amount_d m c _ 0).trans (amtQ_sz _)) ((amount_d m (zn c) _ 0).trans (amtQ_rz _))
      (owedFrom c (n + 1)) ((owedFrom_succ c n hn).trans (congrArg _ ht)) (W := W)
      (by rw [payload_d, payQ_sz]; exact sz_src_x m c j)
      (by rw [payload_d, payQ_rz]; exact rz_land_x m c j fd)) $$ [Hs Hd HO HtS HtR]
  isplitr; · iexact HI1
  isplitr; · iexact HI2
  isplitl [Hs]; · iexact Hs
  isplitl [Hd]; · iexact Hd
  isplitl [HO]; · iexact HO
  isplitl [HtS]; · iexact HtS
  isplitr; · iexact HR1
  isplitl [HtR]; · iexact HtR
  iexact HR2

@[irreducible] def aside (P : sProp 𝕄) : sProp 𝕄 := P
theorem aside_in (P : sProp 𝕄) : P ⊢ aside P := by unfold aside; exact Entails.refl _
theorem aside_out (P : sProp 𝕄) : aside P ⊢ P := by unfold aside; exact Entails.refl _

theorem xr_lo_join (c : Dev nD) :
    (iprop(chk xrM c 0 qRR (XR m c) ∗ chk xrM c 1 qRR (XR m c) ∗ chk xrM c 2 qRR (XR m c) ∗ chk xrM c 3 qRR (XR m c) ∗ chk xrM c 4 qRR (XR m c)) : sProp 𝕄)
      = (xrM.view.loc (c : Thread nD τ) ↦[rowsLo xrM]{qRR} XR m c) :=
  (bigSep_11_lt5 _).symm.trans (lo_eq xrM c qRR (XR m c))

theorem xr_hi_join (c : Dev nD) :
    (iprop(chk xrM c 5 qRR (XR m c) ∗ chk xrM c 6 qRR (XR m c) ∗ chk xrM c 7 qRR (XR m c) ∗ chk xrM c 8 qRR (XR m c) ∗ chk xrM c 9 qRR (XR m c) ∗ chk xrM c 10 qRR (XR m c)) : sProp 𝕄)
      = (xrM.view.loc (c : Thread nD τ) ↦[rowsHi xrM]{qRR} XR m c) :=
  (bigSep_11_ge5 _).symm.trans (hi_eq xrM c qRR (XR m c))

end Cert.KernelIdeal.Rs

end
-- ==== Proof.SegB1.lean ====
import proofs.«901021_g7700000000001022_dist_rs_v7x_xyz2x2x2_x_m2048_n512_f32_1_alg».proof.Proof.Cond
import proofs.«901021_g7700000000001022_dist_rs_v7x_xyz2x2x2_x_m2048_n512_f32_1_alg».proof.Proof.Chunks
import proofs.«901021_g7700000000001022_dist_rs_v7x_xyz2x2x2_x_m2048_n512_f32_1_alg».proof.Proof.Rows
import proofs.«901021_g7700000000001022_dist_rs_v7x_xyz2x2x2_x_m2048_n512_f32_1_alg».proof.Proof.Land
import proofs.«901021_g7700000000001022_dist_rs_v7x_xyz2x2x2_x_m2048_n512_f32_1_alg».proof.Proof.OutValue
import proofs.«901021_g7700000000001022_dist_rs_v7x_xyz2x2x2_x_m2048_n512_f32_1_alg».proof.Proof.StepsB

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_d amount_bar amount_d payload_bar payload_d expect_bar expect_d
  amtQ_ls amtQ_ps0 amtQ_ps1 amtQ_sx amtQ_rx amtQ_sy amtQ_ry amtQ_sz amtQ_rz payQ_ls payQ_ps0 payQ_ps1 payQ_sx payQ_rx payQ_sy payQ_ry payQ_sz payQ_rz

theorem st1_at_b1 (c : Dev nD) (off : Fin 2 → ℕ) (hoff : off = ![erow c, 0]) (inb : ∀ a, off a + S320x512.size a ≤ S2048x512.size a)
    (g : (cc0_stg0_0 : Ref sig .tc).ty.Contents (Elt F)) :
    ((oM.access (Rect.unit (s := S2048x512) off S320x512.size inb) : View sig .tc _ _ _).write (Elt F) g
      (k0_pay2 (xlM.view.readAt (Elt F) (Rect.unit (s := S2048x512) off S320x512.size inb).toLoadRect (XL m c)) (xrM.view.readAt (Elt F) Ra.toLoadRect (XR m c))) Finset.univ)
      = st1 m c g := by
  subst hoff; rfl

theorem st2_at_b1 (c : Dev nD) (off : Fin 2 → ℕ) (hoff : off = ![crow c, 0]) (inb : ∀ a, off a + S384x512.size a ≤ S2048x512.size a)
    (g : (cc0_stg0_0 : Ref sig .tc).ty.Contents (Elt F)) :
    ((oM.access (Rect.unit (s := S2048x512) off S384x512.size inb) : View sig .tc _ _ _).write (Elt F) g
      (k0_pay3 (xlM.view.readAt (Elt F) (Rect.unit (s := S2048x512) off S384x512.size inb).toLoadRect (XL m c)) (xrM.view.readAt (Elt F) Rb.toLoadRect (XR m c))) Finset.univ)
      = st2 m c g := by
  subst hoff; rfl

-- Stretch B on a device with x = 0: each chunk from the x neighbour arrives and goes on along y, the first five along z too; two row ranges of the result are stored.
set_option maxHeartbeats 4000000 in

theorem segB1_run (K : Dev nD × Fin 68 → ℕ) (c : Dev nD) (hx : c.val / 4 = 0) (g0 : Buf (Elt F) ((c : Thread nD τ).loc cc0_stg0_0))
    (v2 v5 v8 v9 v10 v11 v15 v18 v23 v27 v32 v38 : BitVec 32) :
    StA m K c g0 ⊢ wp frame (wpE (defs₀ (F := F)) 𝒱₀ (c : Thread nD τ) none) Set.univ
      (segB1 (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v5 v8 v9 v10 v11 v15 v18 v23 v27 v32 v38 (cond1_of c hx))
      (fun _ => StB m K c g0) := by
  unfold StA pers records locals
  rw [posA_eq]
  simp only [bigSep_fin11, bigSep_fin10]
  iintro ⟨⟨⟨#HI, #HR⟩, #Hlev⟩, ⟨⟨HpX0, HpX1, HpX2, HpX3, HpX4, HpX5, HpX6, HpX7, HpX8, HpX9, HpX10, HpY0⟩, Hprest⟩,
    ⟨⟨HtRY0, HtSY0⟩, ⟨HtRY1, HtSY1⟩, ⟨HtRY2, HtSY2⟩, ⟨HtRY3, HtSY3⟩, ⟨HtRY4, HtSY4⟩, ⟨HtRY5, HtSY5⟩, ⟨HtRY6, HtSY6⟩, ⟨HtRY7, HtSY7⟩, ⟨HtRY8, HtSY8⟩, ⟨HtRY9, HtSY9⟩, ⟨HtRY10, HtSY10⟩⟩,
    ⟨⟨HtRZ0, HtSZ0⟩, ⟨HtRZ1, HtSZ1⟩, ⟨HtRZ2, HtSZ2⟩, ⟨HtRZ3, HtSZ3⟩, ⟨HtRZ4, HtSZ4⟩, ⟨HtRZ5, HtSZ5⟩, ⟨HtRZ6, HtSZ6⟩, ⟨HtRZ7, HtSZ7⟩, ⟨HtRZ8, HtSZ8⟩, ⟨HtRZ9, HtSZ9⟩⟩,
    ⟨⟨HcRX0, HcRY0, HcSX0⟩, ⟨HcRX1, HcRY1, HcSX1⟩, ⟨HcRX2, HcRY2, HcSX2⟩, ⟨HcRX3, HcRY3, HcSX3⟩, ⟨HcRX4, HcRY4, HcSX4⟩, ⟨HcRX5, HcRY5, HcSX5⟩, ⟨HcRX6, HcRY6, HcSX6⟩, ⟨HcRX7, HcRY7, HcSX7⟩, ⟨HcRX8, HcRY8, HcSX8⟩, ⟨HcRX9, HcRY9, HcSX9⟩, ⟨HcRX10, HcRY10, HcSX10⟩⟩,
    ⟨HcRZ0, HcRZ1, HcRZ2, HcRZ3, HcRZ4, HcRZ5, HcRZ6, HcRZ7, HcRZ8, HcRZ9⟩,
    ⟨%W, HO⟩, ⟨Harg, Hxl, Hxp⟩, ⟨%fy, Hyr⟩, ⟨%fz, Hzr⟩, Hout⟩
  unfold whl
  ihave #HIrx0 := (inv_d m K c (rxQ 0) (by decide)) $$ HI
  ihave #HIrx1 := (inv_d m K c (rxQ 1) (by decide)) $$ HI
  ihave #HIrx2 := (inv_d m K c (rxQ 2) (by decide)) $$ HI
  ihave #HIrx3 := (inv_d m K c (rxQ 3) (by decide)) $$ HI
  ihave #HIrx4 := (inv_d m K c (rxQ 4) (by decide)) $$ HI
  ihave #HIrx5 := (inv_d m K c (rxQ 5) (by decide)) $$ HI
  ihave #HIrx6 := (inv_d m K c (rxQ 6) (by decide)) $$ HI
  ihave #HIrx7 := (inv_d m K c (rxQ 7) (by decide)) $$ HI
  ihave #HIrx8 := (inv_d m K c (rxQ 8) (by decide)) $$ HI
  ihave #HIrx9 := (inv_d m K c (rxQ 9) (by decide)) $$ HI
  ihave #HIrx10 := (inv_d m K c (rxQ 10) (by decide)) $$ HI
  ihave #HIry0 := (inv_d m K c (ryQ 0) (by decide)) $$ HI
  ihave Hmw0 := (mayWait_lv c (.dma (rxQ 0)) (owedFrom c (14)) 2 rfl (owed_above2 c _ (by omega))) $$ Hlev
  ihave Hmw1 := (mayWait_lv c (.dma (rxQ 1)) (owedFrom c (14 + 1 + 1)) 2 rfl (owed_above2 c _ (by omega))) $$ Hlev
  ihave Hmw2 := (mayWait_lv c (.dma (rxQ 2)) (owedFrom c (14 + 1 + 1 + 1 + 1)) 2 rfl (owed_above2 c _ (by omega))) $$ Hlev
  ihave Hmw3 := (mayWait_lv c (.dma (rxQ 3)) (owedFrom c (14 + 1 + 1 + 1 + 1 + 1 + 1)) 2 rfl (owed_above2 c _ (by omega))) $$ Hlev
  ihave Hmw4 := (mayWait_lv c (.dma (rxQ 4)) (owedFrom c (14 + 1 + 1 + 1 + 1 + 1 + 1 + 1 + 1)) 2 rfl (owed_above2 c _ (by omega))) $$ Hlev
  ihave Hmw5 := (mayWait_lv c (.dma (rxQ 5)) (owedFrom c (14 + 1 + 1 + 1 + 1 + 1 + 1 + 1 + 1 + 1 + 1)) 2 rfl (owed_above2 c _ (by omega))) $$ Hlev
  ihave Hmw6 := (mayWait_lv c (.dma (rxQ 6)) (owedFrom c (14 + 1 + 1 + 1 + 1 + 1 + 1 + 1 + 1 + 1 + 1 + 1)) 2 rfl (owed_above2 c _ (by omega))) $$ Hlev
  ihave Hmw7 := (mayWait_lv c (.dma (rxQ 7)) (owedFrom c (14 + 1 + 1 + 1 + 1 + 1 + 1 + 1 + 1 + 1 + 1 + 1 + 1)) 2 rfl (owed_above2 c _ (by omega))) $$ Hlev
  ihave Hmw8 := (mayWait_lv c (.dma (rxQ 8)) (owedFrom c (14 + 1 + 1 + 1 + 1 + 1 + 1 + 1 + 1 + 1 + 1 + 1 + 1 + 1)) 2 rfl (owed_above2 c _ (by omega))) $$ Hlev
  ihave Hmw9 := (mayWait_lv c (.dma (rxQ 9)) (owedFrom c (14 + 1 + 1 + 1 + 1 + 1 + 1 + 1 + 1 + 1 + 1 + 1 + 1 + 1 + 1)) 2 rfl (owed_above2 c _ (by omega))) $$ Hlev
  ihave Hmw10 := (mayWait_lv c (.dma (rxQ 10)) (owedFrom c (14 + 1 + 1 + 1 + 1 + 1 + 1 + 1 + 1 + 1 + 1 + 1 + 1 + 1 + 1 + 1)) 2 rfl (owed_above2 c _ (by omega))) $$ Hlev
  ihave HmwY := (mayWait_lv c (.dma (ryQ 0)) (owedFrom c (14 + 1 + 1 + 1 + 1 + 1 + 1 + 1 + 1 + 1 + 1 + 1 + 1 + 1 + 1 + 1 + 1)) 3 rfl (owed_above3 c _ (by omega))) $$ Hlev
  ihave Hyc := (Entails.of_eq (yr_cut11 (F := F) (yn c) fy)) $$ Hyr
  icases Hyc with ⟨Hy0, Hy1, Hy2, Hy3, Hy4, Hy5, Hy6, Hy7, Hy8, Hy9, Hy10⟩
  ihave Hzc := (Entails.of_eq (zr_cut10 (F := F) (zn c) fz)) $$ Hzr
  icases Hzc with ⟨Hz0, Hz1, Hz2, Hz3, Hz4, Hz5, Hz6, Hz7, Hz8, Hz9⟩
  ihave Hout := (aside_in _) $$ Hout
  sl_unfold [segB1]
  sl_exec
  unfold rxPay
  icases HpX0_pay1 with ⟨HxL0, HxRL0, HxRR0⟩
  iapply (send_y m K c 0 (14) (by omega) rfl _ (devY_eq c _ _ (k0_dev15_eq c)) fy _) $$ [HxL0 Hy0 HO HtSY0 HtRY0]
  · iframe HI HR HxL0 Hy0 HO HtSY0 HtRY0
  iintro ⟨HcSY0, HO⟩
  sl_exec
  iapply (send_z m K c 0 0 0 rfl rfl (14 + 1) (by omega) rfl _ (devZ_eq c _ _ (k0_dev16_eq c)) fz _) $$ [HxRL0 Hz0 HO HtSZ0 HtRZ0]
  · iframe HI HR HxRL0 Hz0 HO HtSZ0 HtRZ0
  iintro ⟨HcSZ0, HO⟩
  sl_exec
  unfold rxPay
  icases HpX1_pay1 with ⟨HxL1, HxRL1, HxRR1⟩
  iapply (send_y m K c 1 (14 + 1 + 1) (by omega) rfl _ (devY_eq c _ _ (k0_dev17_eq c)) fy _) $$ [HxL1 Hy1 HO HtSY1 HtRY1]
  · iframe HI HR HxL1 Hy1 HO HtSY1 HtRY1
  iintro ⟨HcSY1, HO⟩
  sl_exec
  iapply (send_z m K c 1 1 1 rfl rfl (14 + 1 + 1 + 1) (by omega) rfl _ (devZ_eq c _ _ (k0_dev18_eq c)) fz _) $$ [HxRL1 Hz1 HO HtSZ1 HtRZ1]
  · iframe HI HR HxRL1 Hz1 HO HtSZ1 HtRZ1
  iintro ⟨HcSZ1, HO⟩
  sl_exec
  unfold rxPay
  icases HpX2_pay1 with ⟨HxL2, HxRL2, HxRR2⟩
  iapply (send_y m K c 2 (14 + 1 + 1 + 1 + 1) (by omega) rfl _ (devY_eq c _ _ (k0_dev19_eq c)) fy _) $$ [HxL2 Hy2 HO HtSY2 HtRY2]
  · iframe HI HR HxL2 Hy2 HO HtSY2 HtRY2
  iintro ⟨HcSY2, HO⟩
  sl_exec
  iapply (send_z m K c 2 2 2 rfl rfl (14 + 1 + 1 + 1 + 1 + 1) (by omega) rfl _ (devZ_eq c _ _ (k0_dev20_eq c)) fz _) $$ [HxRL2 Hz2 HO HtSZ2 HtRZ2]
  · iframe HI HR HxRL2 Hz2 HO HtSZ2 HtRZ2
  iintro ⟨HcSZ2, HO⟩
  sl_exec
  unfold rxPay
  icases HpX3_pay1 with ⟨HxL3, HxRL3, HxRR3⟩
  iapply (send_y m K c 3 (14 + 1 + 1 + 1 + 1 + 1 + 1) (by omega) rfl _ (devY_eq c _ _ (k0_dev21_eq c)) fy _) $$ [HxL3 Hy3 HO HtSY3 HtRY3]
  · iframe HI HR HxL3 Hy3 HO HtSY3 HtRY3
  iintro ⟨HcSY3, HO⟩
  sl_exec
  iapply (send_z m K c 3 3 3 rfl rfl (14 + 1 + 1 + 1 + 1 + 1 + 1 + 1) (by omega) rfl _ (devZ_eq c _ _ (k0_dev22_eq c)) fz _) $$ [HxRL3 Hz3 HO HtSZ3 HtRZ3]
  · iframe HI HR HxRL3 Hz3 HO HtSZ3 HtRZ3
  iintro ⟨HcSZ3, HO⟩
  sl_exec
  unfold rxPay
  icases HpX4_pay1 with ⟨HxL4, HxRL4, HxRR4⟩
  iapply (send_y m K c 4 (14 + 1 + 1 + 1 + 1 + 1 + 1 + 1 + 1) (by omega) rfl _ (devY_eq c _ _ (k0_dev23_eq c)) fy _) $$ [HxL4 Hy4 HO HtSY4 HtRY4]
  · iframe HI HR HxL4 Hy4 HO HtSY4 HtRY4
  iintro ⟨HcSY4, HO⟩
  sl_exec
  iapply (send_z m K c 4 4 4 rfl rfl (14 + 1 + 1 + 1 + 1 + 1 + 1 + 1 + 1 + 1) (by omega) rfl _ (devZ_eq c _ _ (k0_dev24_eq c)) fz _) $$ [HxRL4 Hz4 HO HtSZ4 HtRZ4]
  · iframe HI HR HxRL4 Hz4 HO HtSZ4 HtRZ4
  iintro ⟨HcSZ4, HO⟩
  iapply (wp_load 𝒱₀ (c : Thread nD τ) none Set.univ (m := xlM) (S := Finset.univ) (q := fullShare) (f := XL m c) (Finset.subset_univ _)) $$ Hxl
  iintro Hxl
  ihave Hlo := (Entails.of_eq (xr_lo_join m c)) $$ [HxRR0 HxRR1 HxRR2 HxRR3 HxRR4]
  · iframe HxRR0 HxRR1 HxRR2 HxRR3 HxRR4
  iapply (wp_load 𝒱₀ (c : Thread nD τ) none Set.univ (m := xrM) (S := rowsLo xrM) (q := qRR) (f := XR m c) (load_lo xrM)) $$ Hlo
  iintro Hlo
  ihave Hout := (aside_out _) $$ Hout
  iapply (wp_load 𝒱₀ (c : Thread nD τ) none Set.univ (m := oM) (S := Finset.univ) (q := fullShare) (f := g0) (Finset.subset_univ _)) $$ Hout
  iintro Hout
  iapply (wp_store 𝒱₀ (c : Thread nD τ) none Set.univ (m := oM) (r := Rect.unit (s := S2048x512) (k0_off3 c) S320x512.size (k0_off3_inb c (cond1_of c hx))) (Mk := Finset.univ) (S := Finset.univ) (f := g0) (Finset.subset_univ _)) $$ Hout
  iintro Hout
  iapply (wp_ret_bind c _ _)
  ihave Hout := (Entails.of_eq (congrArg (fun f => (((c : Thread nD τ).loc cc0_stg0_0) ↦{fullShare} f : sProp 𝕄)) (st1_at_b1 m c _ (k0_off3_eq c) _ g0))) $$ Hout
  ihave Hout := (aside_in _) $$ Hout
  sl_exec
  unfold rxPay
  icases HpX5_pay1 with ⟨HxL5, HxRL5, HxRR5⟩
  iapply (send_y m K c 5 (14 + 1 + 1 + 1 + 1 + 1 + 1 + 1 + 1 + 1 + 1) (by omega) rfl _ (devY_eq c _ _ (k0_dev25_eq c)) fy _) $$ [HxL5 Hy5 HO HtSY5 HtRY5]
  · iframe HI HR HxL5 Hy5 HO HtSY5 HtRY5
  iintro ⟨HcSY5, HO⟩
  sl_exec
  unfold rxPay
  icases HpX6_pay1 with ⟨HxL6, HxRL6, HxRR6⟩
  iapply (send_y m K c 6 (14 + 1 + 1 + 1 + 1 + 1 + 1 + 1 + 1 + 1 + 1 + 1) (by omega) rfl _ (devY_eq c _ _ (k0_dev26_eq c)) fy _) $$ [HxL6 Hy6 HO HtSY6 HtRY6]
  · iframe HI HR HxL6 Hy6 HO HtSY6 HtRY6
  iintro ⟨HcSY6, HO⟩
  sl_exec
  unfold rxPay
  icases HpX7_pay1 with ⟨HxL7, HxRL7, HxRR7⟩
  iapply (send_y m K c 7 (14 + 1 + 1 + 1 + 1 + 1 + 1 + 1 + 1 + 1 + 1 + 1 + 1) (by omega) rfl _ (devY_eq c _ _ (k0_dev27_eq c)) fy _) $$ [HxL7 Hy7 HO HtSY7 HtRY7]
  · iframe HI HR HxL7 Hy7 HO HtSY7 HtRY7
  iintro ⟨HcSY7, HO⟩
  sl_exec
  unfold rxPay
  icases HpX8_pay1 with ⟨HxL8, HxRL8, HxRR8⟩
  iapply (send_y m K c 8 (14 + 1 + 1 + 1 + 1 + 1 + 1 + 1 + 1 + 1 + 1 + 1 + 1 + 1) (by omega) rfl _ (devY_eq c _ _ (k0_dev28_eq c)) fy _) $$ [HxL8 Hy8 HO HtSY8 HtRY8]
  · iframe HI HR HxL8 Hy8 HO HtSY8 HtRY8
  iintro ⟨HcSY8, HO⟩
  sl_exec
  unfold rxPay
  icases HpX9_pay1 with ⟨HxL9, HxRL9, HxRR9⟩
  iapply (send_y m K c 9 (14 + 1 + 1 + 1 + 1 + 1 + 1 + 1 + 1 + 1 + 1 + 1 + 1 + 1 + 1) (by omega) rfl _ (devY_eq c _ _ (k0_dev29_eq c)) fy _) $$ [HxL9 Hy9 HO HtSY9 HtRY9]
  · iframe HI HR HxL9 Hy9 HO HtSY9 HtRY9
  iintro ⟨HcSY9, HO⟩
  sl_exec
  unfold rxPay
  icases HpX10_pay1 with ⟨HxL10, HxRL10, HxRR10⟩
  iapply (send_y m K c 10 (14 + 1 + 1 + 1 + 1 + 1 + 1 + 1 + 1 + 1 + 1 + 1 + 1 + 1 + 1 + 1) (by omega) rfl _ (devY_eq c _ _ (k0_dev30_eq c)) fy _) $$ [HxL10 Hy10 HO HtSY10 HtRY10]
  · iframe HI HR HxL10 Hy10 HO HtSY10 HtRY10
  iintro ⟨HcSY10, HO⟩
  iapply (wp_load 𝒱₀ (c : Thread nD τ) none Set.univ (m := xlM) (S := Finset.univ) (q := fullShare) (f := XL m c) (Finset.subset_univ _)) $$ Hxl
  iintro Hxl
  ihave Hhi := (Entails.of_eq (xr_hi_join m c)) $$ [HxRR5 HxRR6 HxRR7 HxRR8 HxRR9 HxRR10]
  · iframe HxRR5 HxRR6 HxRR7 HxRR8 HxRR9 HxRR10
  iapply (wp_load 𝒱₀ (c : Thread nD τ) none Set.univ (m := xrM) (S := rowsHi xrM) (q := qRR) (f := XR m c) (load_hi xrM)) $$ Hhi
  iintro Hhi
  ihave Hout := (aside_out _) $$ Hout
  iapply (wp_load 𝒱₀ (c : Thread nD τ) none Set.univ (m := oM) (S := Finset.univ) (q := fullShare) (f := (st1 m c g0)) (Finset.subset_univ _)) $$ Hout
  iintro Hout
  iapply (wp_store 𝒱₀ (c : Thread nD τ) none Set.univ (m := oM) (r := Rect.unit (s := S2048x512) (k0_off4 c) S384x512.size (k0_off4_inb c (cond1_of c hx))) (Mk := Finset.univ) (S := Finset.univ) (f := (st1 m c g0)) (Finset.subset_univ _)) $$ Hout
  iintro Hout
  iapply (wp_ret_bind c _ _)
  ihave Hout := (Entails.of_eq (congrArg (fun f => (((c : Thread nD τ).loc cc0_stg0_0) ↦{fullShare} f : sProp 𝕄)) (st2_at_b1 m c _ (k0_off4_eq c) _ (st1 m c g0)))) $$ Hout
  ihave Hout := (aside_in _) $$ Hout
  sl_exec
  rw [wp_ret]
  imodintro
  unfold ryPay
  icases HpY0_pay1 with ⟨HyL, HyR⟩
  ihave Hc5 := (Entails.of_eq (xr_lo_join m c).symm) $$ Hlo
  icases Hc5 with ⟨HxRR0, HxRR1, HxRR2, HxRR3, HxRR4⟩
  ihave Hc6 := (Entails.of_eq (xr_hi_join m c).symm) $$ Hhi
  icases Hc6 with ⟨HxRR5, HxRR6, HxRR7, HxRR8, HxRR9, HxRR10⟩
  ihave Hout := (aside_out _) $$ Hout
  iclear HpX0_reached HpX1_reached HpX2_reached HpX3_reached HpX4_reached HpX5_reached HpX6_reached HpX7_reached HpX8_reached HpX9_reached HpX10_reached HpY0_reached
  unfold StB pers records locals whl
  rw [posB_eq]
  isplitr
  · isplitr
    · iframe HI HR
    iexact Hlev
  isplitl [HpX0 HpX1 HpX2 HpX3 HpX4 HpX5 HpX6 HpX7 HpX8 HpX9 HpX10 HpY0 Hprest]
  · iframe
  isplitl [HtRZ5 HtSZ5 HtRZ6 HtSZ6 HtRZ7 HtSZ7 HtRZ8 HtSZ8 HtRZ9 HtSZ9]
  · iapply (Entails.of_eq (bigSep_10_ge5 _).symm); iframe
  isplitl [HcSX0 HcSY0 HcSX1 HcSY1 HcSX2 HcSY2 HcSX3 HcSY3 HcSX4 HcSY4 HcSX5 HcSY5 HcSX6 HcSY6 HcSX7 HcSY7 HcSX8 HcSY8 HcSX9 HcSY9 HcSX10 HcSY10]
  · iapply (Entails.of_eq (bigSep_fin11 _).symm); iframe
  isplitl [HcRY1 HcRY2 HcRY3 HcRY4 HcRY5 HcRY6 HcRY7 HcRY8 HcRY9 HcRY10]
  · iapply (Entails.of_eq (b_S11_ge1 _).symm); iframe
  isplitl [HcRZ0 HcRZ1 HcRZ2 HcRZ3 HcRZ4 HcRZ5 HcRZ6 HcRZ7 HcRZ8 HcRZ9]
  · iapply (Entails.of_eq (bigSep_fin10 _).symm); iframe
  isplitl [HcSZ0 HcSZ1 HcSZ2 HcSZ3 HcSZ4]
  · iapply (Entails.of_eq (bigSep_10_lt5 _).symm); iframe
  isplitl [HO]
  · iexists _; iexact HO
  isplitl [Harg Hxl Hxp]
  · iframe
  isplitl [HxRR0 HxRR1 HxRR2 HxRR3 HxRR4 HxRR5 HxRR6 HxRR7 HxRR8 HxRR9 HxRR10]
  · iapply (Entails.of_eq (bigSep_fin11 _).symm); iframe
  isplitl [HxRL5 HxRL6 HxRL7 HxRL8 HxRL9 HxRL10]
  · iapply (Entails.of_eq (bigSep_11_ge5 _).symm); iframe
  isplitl [HyL]; · iexact HyL
  isplitl [HyR]; · iexact HyR
  isplitl [Hz5 Hz6 Hz7 Hz8 Hz9]
  · iapply (Entails.of_eq (bigSep_10_ge5 _).symm)
    isplitl [Hz5]; · iexists fz; iexact Hz5
    isplitl [Hz6]; · iexists fz; iexact Hz6
    isplitl [Hz7]; · iexists fz; iexact Hz7
    isplitl [Hz8]; · iexists fz; iexact Hz8
    iexists fz; iexact Hz9
  iexact Hout

end Cert.KernelIdeal.Rs

end
-- ==== Proof.StepsC.lean ====
import proofs.«901021_g7700000000001022_dist_rs_v7x_xyz2x2x2_x_m2048_n512_f32_1_alg».proof.Proof.States
import proofs.«901021_g7700000000001022_dist_rs_v7x_xyz2x2x2_x_m2048_n512_f32_1_alg».proof.Proof.Chunks
import proofs.«901021_g7700000000001022_dist_rs_v7x_xyz2x2x2_x_m2048_n512_f32_1_alg».proof.Proof.Rows
import proofs.«901021_g7700000000001022_dist_rs_v7x_xyz2x2x2_x_m2048_n512_f32_1_alg».proof.Proof.Land
import proofs.«901021_g7700000000001022_dist_rs_v7x_xyz2x2x2_x_m2048_n512_f32_1_alg».proof.Proof.OutValue
import proofs.«901021_g7700000000001022_dist_rs_v7x_xyz2x2x2_x_m2048_n512_f32_1_alg».proof.Proof.Stor

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem segC_S10_ge5 (Φ : Fin 10 → sProp 𝕄) : bigSep (S10 fun j => 5 ≤ j.val) Φ = iprop(Φ 5 ∗ Φ 6 ∗ Φ 7 ∗ Φ 8 ∗ Φ 9) :=
  bigSep_eq_bigSepL_of_eq [5, 6, 7, 8, 9] (by decide) (by decide) Φ
theorem segC_S10_lt5 (Φ : Fin 10 → sProp 𝕄) : bigSep (S10 fun j => j.val < 5) Φ = iprop(Φ 0 ∗ Φ 1 ∗ Φ 2 ∗ Φ 3 ∗ Φ 4) :=
  bigSep_eq_bigSepL_of_eq [0, 1, 2, 3, 4] (by decide) (by decide) Φ
def segC_posRest (c : Dev nD) (p : Fin 68 → Prop) [DecidablePred p] (l : List (Fin 68)) : sProp 𝕄 :=
  bigSep (Finset.univ \ l.toFinset) fun q : Fin 68 => atPos ER (kcell (c, q)) (if p q then 1 else 0) ∅ 0

theorem segC_posAt_split (c : Dev nD) (p : Fin 68 → Prop) [DecidablePred p] (l : List (Fin 68)) (hl : l.Nodup)
    (r : ℕ) (h1 : ∀ q ∈ l, 1 ≤ q.val ∧ (if p q then 1 else 0) = r) :
    posAt (F := F) c p = iprop(bigSepL l (fun q => atPos ER (dcell c q) r ∅ 0) ∗ segC_posRest (F := F) c p l) := by
  unfold posAt segC_posRest
  rw [bigSep_sdiff_split (Finset.subset_univ l.toFinset), ← bigSep_eq_bigSepL l hl]
  congr 1
  exact bigSep_congr fun q hq => by
    have h := h1 q (List.mem_toFinset.mp hq)
    rw [kcell_d c q h.1, h.2]

theorem segC_posRest_congr (c : Dev nD) (p p' : Fin 68 → Prop) [DecidablePred p] [DecidablePred p'] (l : List (Fin 68))
    (h : ∀ q, q ∉ l → (p q ↔ p' q)) : segC_posRest (F := F) c p l = segC_posRest (F := F) c p' l := by
  unfold segC_posRest
  exact bigSep_congr fun q hq => by
    have hq' : q ∉ l := fun hm => (Finset.mem_sdiff.mp hq).2 (List.mem_toFinset.mpr hm)
    rw [if_congr (h q hq') rfl rfl]

def segC_cells : List (Fin 68) :=
  [ryQ 1, ryQ 2, ryQ 3, ryQ 4, ryQ 5, ryQ 6, ryQ 7, ryQ 8, ryQ 9, ryQ 10,
   rzQ 0, rzQ 1, rzQ 2, rzQ 3, rzQ 4, rzQ 5, rzQ 6, rzQ 7, rzQ 8, rzQ 9, sxQ 0, syQ 0]

abbrev segC_T (c : Dev nD) (j : Fin 10) : CellTallies nD τ sig Unit := tallyAt (dcell (zn c) (rzQ j)) () NZ

theorem segC_owed30 (c : Dev nD) :
    owedFrom c 30 = 0 + segC_T c 9 + segC_T c 8 + segC_T c 7 + segC_T c 6 + segC_T c 5 := by
  rw [owedFrom_succ c 30 (by decide), owedFrom_succ c 31 (by decide), owedFrom_succ c 32 (by decide),
    owedFrom_succ c 33 (by decide), owedFrom_succ c 34 (by decide), owedFrom_end]
  rfl

theorem segC_cells_list (Φ : Fin 68 → sProp 𝕄) : bigSepL segC_cells Φ =
    iprop(Φ (ryQ 1) ∗ Φ (ryQ 2) ∗ Φ (ryQ 3) ∗ Φ (ryQ 4) ∗ Φ (ryQ 5) ∗ Φ (ryQ 6) ∗ Φ (ryQ 7) ∗ Φ (ryQ 8) ∗ Φ (ryQ 9) ∗ Φ (ryQ 10)
      ∗ Φ (rzQ 0) ∗ Φ (rzQ 1) ∗ Φ (rzQ 2) ∗ Φ (rzQ 3) ∗ Φ (rzQ 4) ∗ Φ (rzQ 5) ∗ Φ (rzQ 6) ∗ Φ (rzQ 7) ∗ Φ (rzQ 8) ∗ Φ (rzQ 9)
      ∗ Φ (sxQ 0) ∗ Φ (syQ 0)) := rfl

theorem segC_send (K : Dev nD × Fin 68 → ℕ) (c d : Dev nD) (hd : d = zn c) (k : Fin 11) (j : Fin 10) (hj : j.val = 5 + k.val)
    {hsc : ((chz zrM j) : Memref sig (Dev.tc d : Thread nD τ).2.kind .vmem S64x512 .bf16).view.ref.isScScratch = false}
    {hsrc : (ch yrM k).view.WordExact} {hdst : (chz zrM j).view.WordExact}
    {hsem : DmaTarget.Typed .vmem (.dma (rzQ j)) (.remote (Dev.tc d : Thread nD τ) (chz zrM j) (.dma (szQ j)) hsc)}
    {α : Type} {Q : α → sProp 𝕄} {kont : PUnit → Prog (TpuEff nD τ sig (Elt F) Λ₀ .tc) α}
    (fd : Buf (Elt F) ((chz zrM j).view.loc (zn c : Thread nD τ))) (O : CellTallies nD τ sig Unit) (W : Waits sig Unit) :
    iprop(cellInv ER (rsRd m) (K (c, szQ j)) (dcell c (szQ j))
        ∗ cellInv ER (rsRd m) (K (zn c, rzQ j)) (dcell (zn c) (rzQ j))
        ∗ ((ch yrM k).view.loc (c : Thread nD τ) ↦[(ch yrM k).view.set]{qL} YR m c)
        ∗ ((chz zrM j).view.loc (zn c : Thread nD τ) ↦[(chz zrM j).view.set]{fullShare} fd)
        ∗ owes (c : Thread nD τ) (O + tallyAt (dcell (zn c) (rzQ j)) () NZ) W
        ∗ dutyTok ER (dcell c (szQ j)) 0 0 ∗ reached ER (dcell c (szQ j)) 0
        ∗ dutyTok ER (dcell (zn c) (rzQ j)) 0 0 ∗ reached ER (dcell (zn c) (rzQ j)) 0)
      ⊢ iprop(((cred (tallyAt (dcell c (szQ j)) () NZ) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ch yrM k) (.remote (Dev.tc d : Thread nD τ) (chz zrM j) (.dma (szQ j)) hsc)
                (.dma (rzQ j)) hsrc hdst hsem) kont) Q) := by
  have hk5 : k.val < 5 := by have := j.isLt; omega
  obtain ⟨kv, hkv⟩ := k
  obtain ⟨jv, hjv⟩ := j
  obtain rfl : jv = 5 + kv := hj
  subst hd
  exact Rounds.wp_send_pointsTo 𝒱₀ ER (rsRd m) (c : Thread nD τ) none
    (κ₁ := K (c, szQ ⟨5 + kv, hjv⟩)) (κ₂ := K (zn c, rzQ ⟨5 + kv, hjv⟩))
    (src := ch yrM ⟨kv, hkv⟩) (dst := chz zrM ⟨5 + kv, hjv⟩) (q := qL) (fs := YR m c) (c' := (zn c : Thread nD τ))
    (r₁ := 0) (r₂ := 0) (d₁ := 0) (d₂ := 0) (fd := fd)
    (by rw [duties_d m c _ (by show 1 ≤ 48 + (5 + kv); omega)]; exact Finset.mem_singleton_self _)
    (by rw [duties_d m (zn c) _ (by show 1 ≤ 58 + (5 + kv); omega)]; exact Finset.mem_singleton_self _)
    () () NZ rfl ((amount_d m c _ 0).trans (amtQ_sz _)) ((amount_d m (zn c) _ 0).trans (amtQ_rz _)) O rfl (W := W)
    (by rw [payload_d, payQ_sz]; exact sz_src_y m c ⟨kv, hk5⟩)
    (by rw [payload_d, payQ_rz]; exact rz_land_y m c ⟨kv, hk5⟩ fd)

def segC_zonly (c : Dev nD) (O : CellTallies nD τ sig Unit) : Prop :=
  ∀ (g : GSem nD τ sig) (u : Unit), 0 < O g u → ∃ j : Fin 10, g = dcell (zn c) (rzQ j)

theorem segC_zonly_zero (c : Dev nD) : segC_zonly c 0 := fun g u h => absurd h (Nat.lt_irrefl 0)

theorem segC_zonly_add (c : Dev nD) {O : CellTallies nD τ sig Unit} (h : segC_zonly c O) (j : Fin 10) :
    segC_zonly c (O + segC_T c j) :=
  fun g u hg => (Pipeline.add_pos_cases hg).elim (h g u) fun h2 => ⟨j, (Pipeline.tallyAt_pos h2).1⟩

theorem segC_mayWait_ry (c : Dev nD) (k : Fin 11) (O : CellTallies nD τ sig Unit) (hO : segC_zonly c O) :
    (levAts L lv : sProp 𝕄) ⊢ MayWait (c : Thread nD τ) (.dma (ryQ k)) () O :=
  mayWait_lv c _ O 3 (by
    have := k.isLt
    show (if 15 ≤ 37 + k.val ∧ 37 + k.val < 26 then 2 else if 37 ≤ 37 + k.val ∧ 37 + k.val < 48 then 3 else if 58 ≤ 37 + k.val then 4 else 0) = 3
    rw [if_neg (by omega), if_pos (by omega)])
    (fun g u h => by
      obtain ⟨j, rfl⟩ := hO g u h
      refine ⟨rfl, ?_⟩
      have := j.isLt
      show 3 < (if 15 ≤ 58 + j.val ∧ 58 + j.val < 26 then 2 else if 37 ≤ 58 + j.val ∧ 58 + j.val < 48 then 3 else if 58 ≤ 58 + j.val then 4 else 0)
      rw [if_neg (by omega), if_neg (by omega), if_pos (by omega)]
      decide)

theorem segC_send' (K : Dev nD × Fin 68 → ℕ) (c d : Dev nD) (hd : d = zn c) (k : Fin 11) (j : Fin 10) (hj : j.val = 5 + k.val)
    {hsc : ((chz zrM j) : Memref sig (Dev.tc d : Thread nD τ).2.kind .vmem S64x512 .bf16).view.ref.isScScratch = false}
    {hsrc : (ch yrM k).view.WordExact} {hdst : (chz zrM j).view.WordExact}
    {hsem : DmaTarget.Typed .vmem (.dma (rzQ j)) (.remote (Dev.tc d : Thread nD τ) (chz zrM j) (.dma (szQ j)) hsc)}
    {α : Type} {Q : α → sProp 𝕄} {kont : PUnit → Prog (TpuEff nD τ sig (Elt F) Λ₀ .tc) α}
    (fd : Buf (Elt F) ((chz zrM j).view.loc (zn c : Thread nD τ))) (O : CellTallies nD τ sig Unit) (W : Waits sig Unit) :
    iprop(records m K
        ∗ ((ch yrM k).view.loc (c : Thread nD τ) ↦[(ch yrM k).view.set]{qL} YR m c)
        ∗ ((chz zrM j).view.loc (zn c : Thread nD τ) ↦[(chz zrM j).view.set]{fullShare} fd)
        ∗ owes (c : Thread nD τ) (O + segC_T c j) W
        ∗ dutyTok ER (dcell c (szQ j)) 0 0 ∗ dutyTok ER (dcell (zn c) (rzQ j)) 0 0)
      ⊢ iprop(((cred (tallyAt (dcell c (szQ j)) () NZ) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ch yrM k) (.remote (Dev.tc d : Thread nD τ) (chz zrM j) (.dma (szQ j)) hsc)
                (.dma (rzQ j)) hsrc hdst hsem) kont) Q) := by
  refine BIBase.Entails.trans ?_ (segC_send m K c d hd k j hj fd O W)
  have h1 : 1 ≤ (szQ j).val := by show 1 ≤ 48 + j.val; omega
  have h2 : 1 ≤ (rzQ j).val := by show 1 ≤ 58 + j.val; omega
  unfold records
  iintro ⟨⟨#HI, #HR⟩, Hs, Hd, HO, Ht1, Ht2⟩
  ihave #HI1 := (inv_d m K c (szQ j) h1) $$ HI
  ihave #HI2 := (inv_d m K (zn c) (rzQ j) h2) $$ HI
  ihave #HR1 := (reached_d (F := F) c (szQ j) h1) $$ HR
  ihave #HR2 := (reached_d (F := F) (zn c) (rzQ j) h2) $$ HR
  isplitr; · iexact HI1
  isplitr; · iexact HI2
  isplitl [Hs]; · iexact Hs
  isplitl [Hd]; · iexact Hd
  isplitl [HO]; · iexact HO
  isplitl [Ht1]; · iexact Ht1
  isplitr; · iexact HR1
  isplitl [Ht2]; · iexact Ht2
  iexact HR2

theorem segC_join_lo (M : Memref sig .tc .vmem S704x512 .bf16) (c : Dev nD) (q : PosShare TreeShare) (f : Buf (Elt F) (M.view.loc (c : Thread nD τ))) :
    iprop(chk M c 0 q f ∗ chk M c 1 q f ∗ chk M c 2 q f ∗ chk M c 3 q f ∗ chk M c 4 q f)
      = (M.view.loc (c : Thread nD τ) ↦[rowsLo M]{q} f : sProp 𝕄) := by
  rw [← lo_eq M c q f, bigSep_11_lt5]
theorem segC_join_hi (M : Memref sig .tc .vmem S704x512 .bf16) (c : Dev nD) (q : PosShare TreeShare) (f : Buf (Elt F) (M.view.loc (c : Thread nD τ))) :
    iprop(chk M c 5 q f ∗ chk M c 6 q f ∗ chk M c 7 q f ∗ chk M c 8 q f ∗ chk M c 9 q f ∗ chk M c 10 q f)
      = (M.view.loc (c : Thread nD τ) ↦[rowsHi M]{q} f : sProp 𝕄) := by
  rw [← hi_eq M c q f, bigSep_11_ge5]
theorem segC_zjoin_lo (M : Memref sig .tc .vmem S640x512 .bf16) (c : Dev nD) (q : PosShare TreeShare) (f : Buf (Elt F) (M.view.loc (c : Thread nD τ))) :
    iprop(chkz M c 0 q f ∗ chkz M c 1 q f ∗ chkz M c 2 q f ∗ chkz M c 3 q f ∗ chkz M c 4 q f)
      = (M.view.loc (c : Thread nD τ) ↦[zrowsLo M]{q} f : sProp 𝕄) := by
  rw [← zlo_eq M c q f, bigSep_10_lt5]
theorem segC_zjoin_hi (M : Memref sig .tc .vmem S640x512 .bf16) (c : Dev nD) (q : PosShare TreeShare) (f : Buf (Elt F) (M.view.loc (c : Thread nD τ))) :
    iprop(chkz M c 5 q f ∗ chkz M c 6 q f ∗ chkz M c 7 q f ∗ chkz M c 8 q f ∗ chkz M c 9 q f)
      = (M.view.loc (c : Thread nD τ) ↦[zrowsHi M]{q} f : sProp 𝕄) := by
  rw [← zhi_eq M c q f, bigSep_10_ge5]

theorem segC_load_xl (c : Dev nD) (f : Buf (Elt F) ((c : Thread nD τ).loc cc0_scratch0))
    {r : LoadRect S2048x512} {hl : (xlM : Memref sig .tc .vmem S2048x512 .f32).view.LoadsAt r}
    {α : Type} {k : (r.shape.Idx → Elt F .f32) → Prog (TpuEff nD τ sig (Elt F) Λ₀ .tc) α} {Q : α → sProp 𝕄} :
    whl c cc0_scratch0 f ⊢ iprop((whl c cc0_scratch0 f
          -∗ wp frame (wpE (defs₀ (F := F)) 𝒱₀ (c : Thread nD τ) none) Set.univ (k ((xlM : Memref sig .tc .vmem S2048x512 .f32).view.readAt (Elt F) r f)) Q)
        -∗ wp frame (wpE (defs₀ (F := F)) 𝒱₀ (c : Thread nD τ) none) Set.univ (.op (.load (xlM : Memref sig .tc .vmem S2048x512 .f32) r hl) k) Q) :=
  wp_load 𝒱₀ (c : Thread nD τ) none Set.univ (m := (xlM : Memref sig .tc .vmem S2048x512 .f32)) (S := Finset.univ) (q := fullShare) (f := f) (Finset.subset_univ _)

theorem segC_load_out (c : Dev nD) (f : Buf (Elt F) ((c : Thread nD τ).loc cc0_stg0_0))
    {r : LoadRect S2048x512} {hl : (oM : Memref sig .tc .vmem S2048x512 .f32).view.LoadsAt r}
    {α : Type} {k : (r.shape.Idx → Elt F .f32) → Prog (TpuEff nD τ sig (Elt F) Λ₀ .tc) α} {Q : α → sProp 𝕄} :
    whl c cc0_stg0_0 f ⊢ iprop((whl c cc0_stg0_0 f
          -∗ wp frame (wpE (defs₀ (F := F)) 𝒱₀ (c : Thread nD τ) none) Set.univ (k ((oM : Memref sig .tc .vmem S2048x512 .f32).view.readAt (Elt F) r f)) Q)
        -∗ wp frame (wpE (defs₀ (F := F)) 𝒱₀ (c : Thread nD τ) none) Set.univ (.op (.load (oM : Memref sig .tc .vmem S2048x512 .f32) r hl) k) Q) :=
  wp_load 𝒱₀ (c : Thread nD τ) none Set.univ (m := (oM : Memref sig .tc .vmem S2048x512 .f32)) (S := Finset.univ) (q := fullShare) (f := f) (Finset.subset_univ _)

end Cert.KernelIdeal.Rs

end
-- ==== Proof.SegC1.lean ====
import proofs.«901021_g7700000000001022_dist_rs_v7x_xyz2x2x2_x_m2048_n512_f32_1_alg».proof.Proof.Cond
import proofs.«901021_g7700000000001022_dist_rs_v7x_xyz2x2x2_x_m2048_n512_f32_1_alg».proof.Proof.Chunks
import proofs.«901021_g7700000000001022_dist_rs_v7x_xyz2x2x2_x_m2048_n512_f32_1_alg».proof.Proof.Rows
import proofs.«901021_g7700000000001022_dist_rs_v7x_xyz2x2x2_x_m2048_n512_f32_1_alg».proof.Proof.Land
import proofs.«901021_g7700000000001022_dist_rs_v7x_xyz2x2x2_x_m2048_n512_f32_1_alg».proof.Proof.OutValue
import proofs.«901021_g7700000000001022_dist_rs_v7x_xyz2x2x2_x_m2048_n512_f32_1_alg».proof.Proof.Stor
import proofs.«901021_g7700000000001022_dist_rs_v7x_xyz2x2x2_x_m2048_n512_f32_1_alg».proof.Proof.StepsC

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

@[sl_canon] theorem segC_dev31_b1 (c : Dev nD) (h : k0_cond1 c = 1#1) : (⟨k0_dev31 c, k0_dev31_lt c h⟩ : Dev nD) = zn c :=
  Fin.ext ((k0_dev31_eq c).trans (zn_val c).symm)
@[sl_canon] theorem segC_dev32_b1 (c : Dev nD) (h : k0_cond1 c = 1#1) : (⟨k0_dev32 c, k0_dev32_lt c h⟩ : Dev nD) = zn c :=
  Fin.ext ((k0_dev32_eq c).trans (zn_val c).symm)
@[sl_canon] theorem segC_dev33_b1 (c : Dev nD) (h : k0_cond1 c = 1#1) : (⟨k0_dev33 c, k0_dev33_lt c h⟩ : Dev nD) = zn c :=
  Fin.ext ((k0_dev33_eq c).trans (zn_val c).symm)
@[sl_canon] theorem segC_dev34_b1 (c : Dev nD) (h : k0_cond1 c = 1#1) : (⟨k0_dev34 c, k0_dev34_lt c h⟩ : Dev nD) = zn c :=
  Fin.ext ((k0_dev34_eq c).trans (zn_val c).symm)
@[sl_canon] theorem segC_dev35_b1 (c : Dev nD) (h : k0_cond1 c = 1#1) : (⟨k0_dev35 c, k0_dev35_lt c h⟩ : Dev nD) = zn c :=
  Fin.ext ((k0_dev35_eq c).trans (zn_val c).symm)

attribute [local sl_rounds] duties_bar duties_d amount_bar amount_d payload_bar payload_d expect_bar expect_d
  amtQ_ls amtQ_ps0 amtQ_ps1 amtQ_sx amtQ_rx amtQ_sy amtQ_ry amtQ_sz amtQ_rz payQ_ls payQ_ps0 payQ_ps1 payQ_sx payQ_rx payQ_sy payQ_ry payQ_sz payQ_rz

theorem segC_ryPay_b1 (c : Dev nD) (k : Fin 11) : ryPay m c k =
    iprop(((ch yrM k).view.loc (c : Thread nD τ) ↦[(ch yrM k).view.set]{qL} YR m c)
      ∗ ((ch yrM k).view.loc (c : Thread nD τ) ↦[(ch yrM k).view.set]{qR} YR m c)) := rfl
theorem segC_rzPay_b1 (c : Dev nD) (j : Fin 10) : rzPay m c j =
    ((chz zrM j).view.loc (c : Thread nD τ) ↦[(chz zrM j).view.set]{fullShare} ZR m c) := rfl
theorem segC_sxPay_b1 (c : Dev nD) (k : Fin 11) : sxPay m c k =
    ((ch xsM k).view.loc (c : Thread nD τ) ↦[(ch xsM k).view.set]{fullShare} XS m c) := rfl
theorem segC_syPay_b1 (c : Dev nD) (k : Fin 11) : syPay m c k =
    ((ch xrM k).view.loc (c : Thread nD τ) ↦[(ch xrM k).view.set]{qL} XR m c) := rfl
attribute [local sl_rounds] segC_ryPay_b1 segC_rzPay_b1 segC_sxPay_b1 segC_syPay_b1

theorem segC_recI_b1 (K : Dev nD × Fin 68 → ℕ) :
    records m K ⊢ (bigSep Finset.univ fun ck : Dev nD × Fin 68 => (cellInv ER (rsRd m) (K ck) (kcell ck) : sProp 𝕄)) := by
  unfold records
  iintro ⟨H, -⟩
  iexact H

local macro "segC_adv" : tactic => `(tactic| try sl_exec)

local macro "segC_ret" : tactic => `(tactic| (iapply (Idealize.SL.Sem.le_wp_ret _ _); try sl_exec))

-- Stretch C on a device with x = 0: the chunks from the y neighbour arrive and five go on along z; the last four row ranges are stored.
set_option maxHeartbeats 8000000 in

theorem segC1_run (K : Dev nD × Fin 68 → ℕ) (c : Dev nD) (hx : c.val / 4 = 0) (g0 : Buf (Elt F) ((c : Thread nD τ).loc cc0_stg0_0))
    (v2 v5 v8 v9 v10 v11 v15 v18 v23 v27 v32 v38 : BitVec 32) :
    StB m K c g0 ⊢ wp frame (wpE (defs₀ (F := F)) 𝒱₀ (c : Thread nD τ) none) Set.univ
      (segC1 (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v5 v8 v9 v10 v11 v15 v18 v23 v27 v32 v38 (cond1_of c hx))
      (fun _ => StC m K c g0) := by
  unfold StB pers locals
  rw [segC_posAt_split (F := F) c _ segC_cells (by decide) 0 (by decide), segC_owed30]
  simp only [bigSep_fin11, bigSep_fin10, segC_S10_ge5, segC_S10_lt5, bigSep_ge1, bigSep_ge5, segC_cells_list]
  iintro ⟨⟨#Hrec, #Hlev⟩, ⟨⟨Hp_ry1, Hp_ry2, Hp_ry3, Hp_ry4, Hp_ry5, Hp_ry6, Hp_ry7, Hp_ry8, Hp_ry9, Hp_ry10, Hp_rz0, Hp_rz1, Hp_rz2, Hp_rz3, Hp_rz4, Hp_rz5, Hp_rz6, Hp_rz7, Hp_rz8, Hp_rz9, Hp_sx0, Hp_sy0⟩, Hprest⟩,
    ⟨⟨HtRZ5, HtSZ5⟩, ⟨HtRZ6, HtSZ6⟩, ⟨HtRZ7, HtSZ7⟩, ⟨HtRZ8, HtSZ8⟩, ⟨HtRZ9, HtSZ9⟩⟩,
    ⟨⟨HcSX0, HcSY0⟩, Hcs1, Hcs2, Hcs3, Hcs4, Hcs5, Hcs6, Hcs7, Hcs8, Hcs9, Hcs10⟩,
    ⟨HcRY1, HcRY2, HcRY3, HcRY4, HcRY5, HcRY6, HcRY7, HcRY8, HcRY9, HcRY10⟩,
    ⟨HcRZ0, HcRZ1, HcRZ2, HcRZ3, HcRZ4, HcRZ5, HcRZ6, HcRZ7, HcRZ8, HcRZ9⟩,
    ⟨HcSZ0, HcSZ1, HcSZ2, HcSZ3, HcSZ4⟩,
    ⟨%W, HO⟩, ⟨Harg, Hxl, Hxp⟩, HxRR, HxRL, Hy0L, Hy0R,
    ⟨⟨%fz5, Hz5⟩, ⟨%fz6, Hz6⟩, ⟨%fz7, Hz7⟩, ⟨%fz8, Hz8⟩, ⟨%fz9, Hz9⟩⟩, Hout⟩
  have hz0 := segC_zonly_zero c
  have hz9 := segC_zonly_add c hz0 9
  have hz8 := segC_zonly_add c hz9 8
  have hz7 := segC_zonly_add c hz8 7
  have hz6 := segC_zonly_add c hz7 6
  have hc1 := cond1_of c hx
  have hmw1 : (levAts L lv : sProp 𝕄) ⊢ MayWait (c : Thread nD τ) (.dma (ryQ 1)) () (0 + segC_T c 9 + segC_T c 8 + segC_T c 7 + segC_T c 6) := segC_mayWait_ry c 1 _ hz6
  have hmw2 : (levAts L lv : sProp 𝕄) ⊢ MayWait (c : Thread nD τ) (.dma (ryQ 2)) () (0 + segC_T c 9 + segC_T c 8 + segC_T c 7) := segC_mayWait_ry c 2 _ hz7
  have hmw3 : (levAts L lv : sProp 𝕄) ⊢ MayWait (c : Thread nD τ) (.dma (ryQ 3)) () (0 + segC_T c 9 + segC_T c 8) := segC_mayWait_ry c 3 _ hz8
  have hmw4 : (levAts L lv : sProp 𝕄) ⊢ MayWait (c : Thread nD τ) (.dma (ryQ 4)) () (0 + segC_T c 9) := segC_mayWait_ry c 4 _ hz9
  ihave #HI := (segC_recI_b1 m K) $$ Hrec
  ihave #HI_ry1 := (inv_d m K c (ryQ 1) (by decide)) $$ HI
  ihave #HI_ry2 := (inv_d m K c (ryQ 2) (by decide)) $$ HI
  ihave #HI_ry3 := (inv_d m K c (ryQ 3) (by decide)) $$ HI
  ihave #HI_ry4 := (inv_d m K c (ryQ 4) (by decide)) $$ HI
  ihave #HI_ry5 := (inv_d m K c (ryQ 5) (by decide)) $$ HI
  ihave #HI_ry6 := (inv_d m K c (ryQ 6) (by decide)) $$ HI
  ihave #HI_ry7 := (inv_d m K c (ryQ 7) (by decide)) $$ HI
  ihave #HI_ry8 := (inv_d m K c (ryQ 8) (by decide)) $$ HI
  ihave #HI_ry9 := (inv_d m K c (ryQ 9) (by decide)) $$ HI
  ihave #HI_ry10 := (inv_d m K c (ryQ 10) (by decide)) $$ HI
  ihave #HI_rz0 := (inv_d m K c (rzQ 0) (by decide)) $$ HI
  ihave #HI_rz1 := (inv_d m K c (rzQ 1) (by decide)) $$ HI
  ihave #HI_rz2 := (inv_d m K c (rzQ 2) (by decide)) $$ HI
  ihave #HI_rz3 := (inv_d m K c (rzQ 3) (by decide)) $$ HI
  ihave #HI_rz4 := (inv_d m K c (rzQ 4) (by decide)) $$ HI
  ihave #HI_rz5 := (inv_d m K c (rzQ 5) (by decide)) $$ HI
  ihave #HI_rz6 := (inv_d m K c (rzQ 6) (by decide)) $$ HI
  ihave #HI_rz7 := (inv_d m K c (rzQ 7) (by decide)) $$ HI
  ihave #HI_rz8 := (inv_d m K c (rzQ 8) (by decide)) $$ HI
  ihave #HI_rz9 := (inv_d m K c (rzQ 9) (by decide)) $$ HI
  ihave #HI_sx0 := (inv_d m K c (sxQ 0) (by decide)) $$ HI
  ihave #HI_sy0 := (inv_d m K c (syQ 0) (by decide)) $$ HI
  sl_unfold [segC1]
  sl_exec

  iapply (segC_send' m K c _ (segC_dev31_b1 c hc1) 0 5 rfl fz5 (0 + segC_T c 9 + segC_T c 8 + segC_T c 7 + segC_T c 6) _) $$ [Hy0L Hz5 HO HtSZ5 HtRZ5]
  · isplitr; · iexact Hrec
    iframe
  iintro ⟨HcSZ5, HO⟩
  segC_adv

  iapply (segC_send' m K c _ (segC_dev32_b1 c hc1) 1 6 rfl fz6 (0 + segC_T c 9 + segC_T c 8 + segC_T c 7) _) $$ [Hp_ry1_pay1 Hz6 HO HtSZ6 HtRZ6]
  · isplitr; · iexact Hrec
    iframe
  iintro ⟨HcSZ6, HO⟩
  segC_adv

  iapply (segC_send' m K c _ (segC_dev33_b1 c hc1) 2 7 rfl fz7 (0 + segC_T c 9 + segC_T c 8) _) $$ [Hp_ry2_pay1 Hz7 HO HtSZ7 HtRZ7]
  · isplitr; · iexact Hrec
    iframe
  iintro ⟨HcSZ7, HO⟩
  segC_adv

  iapply (segC_send' m K c _ (segC_dev34_b1 c hc1) 3 8 rfl fz8 (0 + segC_T c 9) _) $$ [Hp_ry3_pay1 Hz8 HO HtSZ8 HtRZ8]
  · isplitr; · iexact Hrec
    iframe
  iintro ⟨HcSZ8, HO⟩
  segC_adv

  iapply (segC_send' m K c _ (segC_dev35_b1 c hc1) 4 9 rfl fz9 (0) _) $$ [Hp_ry4_pay1 Hz9 HO HtSZ9 HtRZ9]
  · isplitr; · iexact Hrec
    iframe
  iintro ⟨HcSZ9, HO⟩
  segC_adv

  ihave Hylo : (yrM.view.loc (c : Thread nD τ) ↦[rowsLo yrM]{qR} YR m c) $$ [Hy0R Hp_ry1_pay2 Hp_ry2_pay2 Hp_ry3_pay2 Hp_ry4_pay2]
  · rw [← segC_join_lo yrM c qR (YR m c)]; iframe

  iapply (segC_load_xl (F := F) c (XL m c)) $$ [Hxl]
  · iexact Hxl
  iintro Hxl
  iapply (wp_load 𝒱₀ (c : Thread nD τ) none Set.univ (m := yrM) (S := rowsLo yrM) (q := qR) (f := YR m c) (load_lo yrM)) $$ [Hylo]
  · iexact Hylo
  iintro Hylo
  iapply (segC_load_out (F := F) c _) $$ [Hout]
  · iexact Hout
  iintro Hout
  iapply (wp_store 𝒱₀ (c : Thread nD τ) none Set.univ (m := oM) (S := Finset.univ) (Finset.subset_univ _)) $$ [Hout]
  · iexact Hout
  iintro Hout
  iapply (wp_ret_bind (F := F) c _ _)
  sl_exec

  ihave Hyhi : (yrM.view.loc (c : Thread nD τ) ↦[rowsHi yrM]{qR} YR m c) $$ [Hp_ry5_pay2 Hp_ry6_pay2 Hp_ry7_pay2 Hp_ry8_pay2 Hp_ry9_pay2 Hp_ry10_pay2]
  · rw [← segC_join_hi yrM c qR (YR m c)]; iframe

  iapply (segC_load_xl (F := F) c (XL m c)) $$ [Hxl]
  · iexact Hxl
  iintro Hxl
  iapply (wp_load 𝒱₀ (c : Thread nD τ) none Set.univ (m := yrM) (S := rowsHi yrM) (q := qR) (f := YR m c) (load_hi yrM)) $$ [Hyhi]
  · iexact Hyhi
  iintro Hyhi
  iapply (segC_load_out (F := F) c _) $$ [Hout]
  · iexact Hout
  iintro Hout
  iapply (wp_store 𝒱₀ (c : Thread nD τ) none Set.univ (m := oM) (S := Finset.univ) (Finset.subset_univ _)) $$ [Hout]
  · iexact Hout
  iintro Hout
  iapply (wp_ret_bind (F := F) c _ _)
  sl_exec

  ihave Hzlo : (zrM.view.loc (c : Thread nD τ) ↦[zrowsLo zrM]{fullShare} ZR m c) $$ [Hp_rz0_pay1 Hp_rz1_pay1 Hp_rz2_pay1 Hp_rz3_pay1 Hp_rz4_pay1]
  · rw [← segC_zjoin_lo zrM c fullShare (ZR m c)]; iframe

  iapply (segC_load_xl (F := F) c (XL m c)) $$ [Hxl]
  · iexact Hxl
  iintro Hxl
  iapply (wp_load 𝒱₀ (c : Thread nD τ) none Set.univ (m := zrM) (S := zrowsLo zrM) (q := fullShare) (f := ZR m c) (zload_lo zrM)) $$ [Hzlo]
  · iexact Hzlo
  iintro Hzlo
  iapply (segC_load_out (F := F) c _) $$ [Hout]
  · iexact Hout
  iintro Hout
  iapply (wp_store 𝒱₀ (c : Thread nD τ) none Set.univ (m := oM) (S := Finset.univ) (Finset.subset_univ _)) $$ [Hout]
  · iexact Hout
  iintro Hout
  iapply (wp_ret_bind (F := F) c _ _)
  sl_exec

  ihave Hzhi : (zrM.view.loc (c : Thread nD τ) ↦[zrowsHi zrM]{fullShare} ZR m c) $$ [Hp_rz5_pay1 Hp_rz6_pay1 Hp_rz7_pay1 Hp_rz8_pay1 Hp_rz9_pay1]
  · rw [← segC_zjoin_hi zrM c fullShare (ZR m c)]; iframe

  iapply (segC_load_xl (F := F) c (XL m c)) $$ [Hxl]
  · iexact Hxl
  iintro Hxl
  iapply (wp_load 𝒱₀ (c : Thread nD τ) none Set.univ (m := zrM) (S := zrowsHi zrM) (q := fullShare) (f := ZR m c) (zload_hi zrM)) $$ [Hzhi]
  · iexact Hzhi
  iintro Hzhi
  iapply (segC_load_out (F := F) c _) $$ [Hout]
  · iexact Hout
  iintro Hout
  iapply (wp_store 𝒱₀ (c : Thread nD τ) none Set.univ (m := oM) (S := Finset.univ) (Finset.subset_univ _)) $$ [Hout]
  · iexact Hout
  iintro Hout
  iapply (wp_ret_bind (F := F) c _ _)
  sl_exec

  iapply (Idealize.SL.Sem.le_wp_ret _ _)
  iclear Hp_ry1_reached Hp_ry2_reached Hp_ry3_reached Hp_ry4_reached Hp_ry5_reached Hp_ry6_reached Hp_ry7_reached Hp_ry8_reached Hp_ry9_reached Hp_ry10_reached Hp_rz0_reached Hp_rz1_reached Hp_rz2_reached Hp_rz3_reached Hp_rz4_reached Hp_rz5_reached Hp_rz6_reached Hp_rz7_reached Hp_rz8_reached Hp_rz9_reached Hp_sx0_reached Hp_sy0_reached

  have eOut : ∀ (o5 o6 o7 o8 : Fin 2 → Nat) (h5 : o5 = ![e2row c, 0]) (h6 : o6 = ![c2row c, 0]) (h7 : o7 = ![e3row c, 0]) (h8 : o8 = ![e4row c, 0])
      (i5 : ∀ a, o5 a + S320x512.size a ≤ S2048x512.size a) (i6 : ∀ a, o6 a + S384x512.size a ≤ S2048x512.size a)
      (i7 : ∀ a, o7 a + S320x512.size a ≤ S2048x512.size a) (i8 : ∀ a, o8 a + S320x512.size a ≤ S2048x512.size a),
      ((oM.access (Rect.unit (s := S2048x512) o8 S320x512.size i8) : View sig .tc _ _ _).write (Elt F)
        ((oM.access (Rect.unit (s := S2048x512) o7 S320x512.size i7) : View sig .tc _ _ _).write (Elt F)
          ((oM.access (Rect.unit (s := S2048x512) o6 S384x512.size i6) : View sig .tc _ _ _).write (Elt F)
            ((oM.access (Rect.unit (s := S2048x512) o5 S320x512.size i5) : View sig .tc _ _ _).write (Elt F) (st2 m c (st1 m c g0))
              (k0_pay4 (xlM.view.readAt (Elt F) (Rect.unit (s := S2048x512) o5 S320x512.size i5).toLoadRect (XL m c)) (yrM.view.readAt (Elt F) Ra.toLoadRect (YR m c))) Finset.univ)
            (k0_pay5 (xlM.view.readAt (Elt F) (Rect.unit (s := S2048x512) o6 S384x512.size i6).toLoadRect (XL m c)) (yrM.view.readAt (Elt F) Rb.toLoadRect (YR m c))) Finset.univ)
          (k0_pay6 (xlM.view.readAt (Elt F) (Rect.unit (s := S2048x512) o7 S320x512.size i7).toLoadRect (XL m c)) (zrM.view.readAt (Elt F) Za.toLoadRect (ZR m c))) Finset.univ)
        (k0_pay7 (xlM.view.readAt (Elt F) (Rect.unit (s := S2048x512) o8 S320x512.size i8).toLoadRect (XL m c)) (zrM.view.readAt (Elt F) Zb.toLoadRect (ZR m c))) Finset.univ)
        = OUTw m c g0 := by
    intro o5 o6 o7 o8 h5 h6 h7 h8 i5 i6 i7 i8
    subst h5 h6 h7 h8
    rfl
  have e := eOut (k0_off5 c) (k0_off6 c) (k0_off7 c) (k0_off8 c) ((k0_off5_eq c).trans rfl) ((k0_off6_eq c).trans rfl)
    ((k0_off7_eq c).trans rfl) ((k0_off8_eq c).trans rfl) (k0_off5_inb c hc1) (k0_off6_inb c hc1) (k0_off7_inb c hc1) (k0_off8_inb c hc1)
  unfold StC pers locals
  rw [segC_posAt_split (F := F) c _ segC_cells (by decide) 1 (by decide),
    segC_posRest_congr (F := F) c (fun q => q.val ≤ 3 ∨ (15 ≤ q.val ∧ q.val ≤ 25) ∨ (37 ≤ q.val ∧ q.val ≤ 47) ∨ 58 ≤ q.val ∨ q.val = 4 ∨ q.val = 26)
      (fun q => q.val ≤ 3 ∨ (15 ≤ q.val ∧ q.val ≤ 25) ∨ q.val = 37) segC_cells (by decide),
    ← chunks704 yrM c qR (YR m c), ← chunks640 zrM c fullShare (ZR m c), ← e]
  simp only [bigSep_fin11, bigSep_fin10, bigSep_ge1, bigSep_ge5, segC_cells_list]
  isplitr
  · iframe Hrec Hlev
  isplitl [Hp_ry1 Hp_ry2 Hp_ry3 Hp_ry4 Hp_ry5 Hp_ry6 Hp_ry7 Hp_ry8 Hp_ry9 Hp_ry10 Hp_rz0 Hp_rz1 Hp_rz2 Hp_rz3 Hp_rz4 Hp_rz5 Hp_rz6 Hp_rz7 Hp_rz8 Hp_rz9 Hp_sx0 Hp_sy0 Hprest]
  · iframe
  isplitl [Hcs1 Hcs2 Hcs3 Hcs4 Hcs5 Hcs6 Hcs7 Hcs8 Hcs9 Hcs10]
  · iframe
  isplitl [HcSZ0 HcSZ1 HcSZ2 HcSZ3 HcSZ4 HcSZ5 HcSZ6 HcSZ7 HcSZ8 HcSZ9]
  · iframe
  isplitl [HO]
  · iexists _; iexact HO
  isplitl [Harg Hxl Hxp]
  · iframe
  isplitl [Hp_sx0_pay1]
  · iexact Hp_sx0_pay1
  isplitl [HxRR]
  · iexact HxRR
  isplitl [HxRL]
  · iexact HxRL
  isplitl [Hp_sy0_pay1]
  · iexact Hp_sy0_pay1
  isplitl [Hylo Hyhi]
  · iapply (rows_split yrM c qR (YR m c)).2; iframe
  isplitl [Hp_ry5_pay1 Hp_ry6_pay1 Hp_ry7_pay1 Hp_ry8_pay1 Hp_ry9_pay1 Hp_ry10_pay1]
  · iframe
  isplitl [Hzlo Hzhi]
  · iapply (zrows_split zrM c fullShare (ZR m c)).2; iframe
  iexact Hout

end Cert.KernelIdeal.Rs

end
-- ==== Proof.SendWaits.lean ====
import proofs.«901021_g7700000000001022_dist_rs_v7x_xyz2x2x2_x_m2048_n512_f32_1_alg».proof.Proof.Cond
import proofs.«901021_g7700000000001022_dist_rs_v7x_xyz2x2x2_x_m2048_n512_f32_1_alg».proof.Proof.Chunks
import proofs.«901021_g7700000000001022_dist_rs_v7x_xyz2x2x2_x_m2048_n512_f32_1_alg».proof.Proof.Rows
import proofs.«901021_g7700000000001022_dist_rs_v7x_xyz2x2x2_x_m2048_n512_f32_1_alg».proof.Proof.Land
import proofs.«901021_g7700000000001022_dist_rs_v7x_xyz2x2x2_x_m2048_n512_f32_1_alg».proof.Proof.OutValue
import proofs.«901021_g7700000000001022_dist_rs_v7x_xyz2x2x2_x_m2048_n512_f32_1_alg».proof.Proof.Stor

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace SendWait

theorem posAt_congr (c : Dev nD) (p p' : Fin 68 → Prop) [DecidablePred p] [DecidablePred p'] (h : ∀ q, p q ↔ p' q) :
    posAt (F := F) c p = posAt c p' := by
  unfold posAt
  exact bigSep_congr fun q _ => by simp only [h q]

def pw (a b z : ℕ) (q : Fin 68) : Prop :=
  q.val ≤ 3 ∨ (15 ≤ q.val ∧ q.val ≤ 25) ∨ (37 ≤ q.val ∧ q.val ≤ 47) ∨ 58 ≤ q.val
    ∨ (4 ≤ q.val ∧ q.val < 4 + a) ∨ (26 ≤ q.val ∧ q.val < 26 + b) ∨ (48 ≤ q.val ∧ q.val < 48 + z)

instance pw_dec (a b z : ℕ) : DecidablePred (pw a b z) := fun q => by unfold pw; infer_instance

theorem posAt_split (c : Dev nD) (p : Fin 68 → Prop) [DecidablePred p] (l : List (Fin 68)) (hl : l.Nodup)
    (hp : ∀ q ∈ l, ¬ p q) (h1 : ∀ q ∈ l, 1 ≤ q.val) :
    posAt (F := F) c p = iprop(bigSepL l (fun q => (atPos ER (dcell c q) 0 ∅ 0 : sProp 𝕄))
      ∗ bigSep (Finset.univ \ l.toFinset) (fun q => atPos ER (kcell (c, q)) (if p q then 1 else 0) ∅ 0)) := by
  unfold posAt
  rw [bigSep_sdiff_split (Finset.subset_univ l.toFinset), ← bigSep_eq_bigSepL l hl]
  congr 1
  exact bigSep_congr fun q hq => by
    rw [if_neg (hp q (List.mem_toFinset.mp hq)), kcell_d c q (h1 q (List.mem_toFinset.mp hq))]

theorem posAt_join (c : Dev nD) (p p' : Fin 68 → Prop) [DecidablePred p] [DecidablePred p'] (l : List (Fin 68)) (hl : l.Nodup)
    (hp' : ∀ q ∈ l, p' q) (h1 : ∀ q ∈ l, 1 ≤ q.val) (hrest : ∀ q, q ∉ l → (p q ↔ p' q)) :
    iprop(bigSepL l (fun q => (atPos ER (dcell c q) 1 ∅ 0 : sProp 𝕄))
      ∗ bigSep (Finset.univ \ l.toFinset) (fun q => atPos ER (kcell (c, q)) (if p q then 1 else 0) ∅ 0)) = posAt (F := F) c p' := by
  unfold posAt
  refine Eq.symm ?_
  rw [bigSep_sdiff_split (Finset.subset_univ l.toFinset), ← bigSep_eq_bigSepL l hl]
  congr 1
  · exact bigSep_congr fun q hq => by
      rw [if_pos (hp' q (List.mem_toFinset.mp hq)), kcell_d c q (h1 q (List.mem_toFinset.mp hq))]
  · exact bigSep_congr fun q hq => by
      have hq' : q ∉ l := fun h => (Finset.mem_sdiff.mp hq).2 (List.mem_toFinset.mpr h)
      simp only [hrest q hq']

def cellsD : List (Fin 68) :=
  [sxQ 1, syQ 1, sxQ 2, syQ 2, sxQ 3, syQ 3, sxQ 4, syQ 4, sxQ 5, syQ 5, sxQ 6, syQ 6, sxQ 7, syQ 7, sxQ 8, syQ 8, sxQ 9, syQ 9, sxQ 10, syQ 10,
   szQ 0, szQ 1, szQ 2, szQ 3, szQ 4, szQ 5, szQ 6, szQ 7]

def cellsE : List (Fin 68) := [szQ 8, szQ 9]

theorem bigSepL_cc (i j : Fin 68) (l : List (Fin 68)) (Φ : Fin 68 → sProp 𝕄) :
    bigSepL (i :: j :: l) Φ = iprop(Φ i ∗ bigSepL (j :: l) Φ) := rfl

theorem sxPay_eq (c : Dev nD) (k : Fin 11) : sxPay m c k = chk xsM c k fullShare (XS m c) := rfl
theorem syPay_eq (c : Dev nD) (k : Fin 11) : syPay m c k = chk xrM c k qL (XR m c) := rfl

theorem szPay_x (c : Dev nD) (j : Fin 10) (k : Fin 11) (hj : j.val < 5) (hk : k.val = j.val) :
    szPay m c j = chk xrM c k qRL (XR m c) := by
  unfold szPay; rw [dif_pos hj]
  have e : (⟨j.val, by omega⟩ : Fin 11) = k := Fin.ext hk.symm
  rw [e]

theorem szPay_y (c : Dev nD) (j : Fin 10) (k : Fin 11) (hj : 5 ≤ j.val) (hk : k.val + 5 = j.val) :
    szPay m c j = chk yrM c k qL (YR m c) := by
  unfold szPay; rw [dif_neg (by omega)]
  have e : (⟨j.val - 5, by have := j.isLt; omega⟩ : Fin 11) = k := Fin.ext (by show j.val - 5 = k.val; omega)
  rw [e]

theorem szPay_0 (c : Dev nD) : szPay m c 0 = chk xrM c 0 qRL (XR m c) := szPay_x m c 0 0 (by decide) rfl
theorem szPay_1 (c : Dev nD) : szPay m c 1 = chk xrM c 1 qRL (XR m c) := szPay_x m c 1 1 (by decide) rfl
theorem szPay_2 (c : Dev nD) : szPay m c 2 = chk xrM c 2 qRL (XR m c) := szPay_x m c 2 2 (by decide) rfl
theorem szPay_3 (c : Dev nD) : szPay m c 3 = chk xrM c 3 qRL (XR m c) := szPay_x m c 3 3 (by decide) rfl
theorem szPay_4 (c : Dev nD) : szPay m c 4 = chk xrM c 4 qRL (XR m c) := szPay_x m c 4 4 (by decide) rfl
theorem szPay_5 (c : Dev nD) : szPay m c 5 = chk yrM c 0 qL (YR m c) := szPay_y m c 5 0 (by decide) rfl
theorem szPay_6 (c : Dev nD) : szPay m c 6 = chk yrM c 1 qL (YR m c) := szPay_y m c 6 1 (by decide) rfl
theorem szPay_7 (c : Dev nD) : szPay m c 7 = chk yrM c 2 qL (YR m c) := szPay_y m c 7 2 (by decide) rfl
theorem szPay_8 (c : Dev nD) : szPay m c 8 = chk yrM c 3 qL (YR m c) := szPay_y m c 8 3 (by decide) rfl
theorem szPay_9 (c : Dev nD) : szPay m c 9 = chk yrM c 4 qL (YR m c) := szPay_y m c 9 4 (by decide) rfl

theorem bigSep_lt3ge5 (Φ : Fin 11 → sProp 𝕄) : bigSep (S11 fun k => k.val < 3 ∨ 5 ≤ k.val) Φ = iprop(Φ 0 ∗ Φ 1 ∗ Φ 2 ∗ Φ 5 ∗ Φ 6 ∗ Φ 7 ∗ Φ 8 ∗ Φ 9 ∗ Φ 10) :=
  bigSep_eq_bigSepL_of_eq [0, 1, 2, 5, 6, 7, 8, 9, 10] (by decide) (by decide) Φ

end SendWait

open SendWait

attribute [local sl_rounds] duties_bar duties_d amount_bar amount_d payload_bar payload_d expect_bar expect_d
  amtQ_ls amtQ_ps0 amtQ_ps1 amtQ_sx amtQ_rx amtQ_sy amtQ_ry amtQ_sz amtQ_rz payQ_ls payQ_ps0 payQ_ps1 payQ_sx payQ_rx payQ_sy payQ_ry payQ_sz payQ_rz
attribute [local sl_rounds] sxPay_eq syPay_eq szPay_0 szPay_1 szPay_2 szPay_3 szPay_4 szPay_5 szPay_6 szPay_7 szPay_8 szPay_9

theorem segE1_run (K : Dev nD × Fin 68 → ℕ) (c : Dev nD) (g0 : Buf (Elt F) ((c : Thread nD τ).loc cc0_stg0_0)) :
    StD m K c g0 ⊢ wp frame (wpE (defs₀ (F := F)) 𝒱₀ (c : Thread nD τ) none) Set.univ
      (segE1 (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13)
      (fun _ => StF m K c g0) := by
  unfold StD StF pers records
  rw [posAt_congr c (fun q => q.val ≠ 56 ∧ q.val ≠ 57) (pw 11 11 8) (fun q => by have := q.isLt; unfold pw; omega),
    posAt_congr c (fun _ => True) (pw 11 11 10) (fun q => ⟨fun _ => by have := q.isLt; unfold pw; omega, fun _ => trivial⟩),
    posAt_split c (pw 11 11 8) cellsE (by decide) (by decide) (by decide),
    ← posAt_join c (pw 11 11 8) (pw 11 11 10) cellsE (by decide) (by decide) (by decide) (by decide)]
  simp only [cellsE, bigSepL_cc, bigSepL_singleton, bigSep_sep', bigSep_lt3ge5]
  rw [bigSep_fin11 (fun k => chk yrM c k qL (YR m c))]
  iintro ⟨⟨⟨#HI, #HR⟩, #Hlev⟩, ⟨⟨PZ8, PZ9⟩, Hposrest⟩, Hc8, Hc9, ⟨%W, HO⟩, Hloc, ⟨Hxs, HxrL, HxrRL, HxrRR, HyrR⟩,
    ⟨Hy0, Hy1, Hy2, Hy5, Hy6, Hy7, Hy8, Hy9, Hy10⟩, Hz, Hout⟩
  ihave #IZ8 := (inv_d m K c (szQ 8) (by decide)) $$ HI
  ihave #IZ9 := (inv_d m K c (szQ 9) (by decide)) $$ HI
  sl_unfold [segE1]
  sl_exec
  rw [wp_ret]; imodintro
  iclear PZ8_reached PZ9_reached

  isplitr
  · isplitr
    · isplitr
      · iexact HI
      iexact HR
    iexact Hlev
  isplitl [PZ8 PZ9 Hposrest]
  · isplitr [Hposrest]
    · iframe PZ8 PZ9
    iexact Hposrest
  isplitl [HO]; · (iexists _; iexact HO)
  isplitl [Hloc]; · iexact Hloc
  isplitl [Hxs HxrL HxrRL HxrRR HyrR Hy0 Hy1 Hy2 PZ8_pay1 PZ9_pay1 Hy5 Hy6 Hy7 Hy8 Hy9 Hy10]
  · isplitl [Hxs]; · iexact Hxs
    isplitl [HxrL]; · iexact HxrL
    isplitl [HxrRL]; · iexact HxrRL
    isplitl [HxrRR]; · iexact HxrRR
    isplitl [Hy0 Hy1 Hy2 PZ8_pay1 PZ9_pay1 Hy5 Hy6 Hy7 Hy8 Hy9 Hy10]
    · iframe Hy0 Hy1 Hy2 PZ8_pay1 PZ9_pay1 Hy5 Hy6 Hy7 Hy8 Hy9 Hy10
    iexact HyrR
  isplitl [Hz]; · iexact Hz
  iexact Hout

end Cert.KernelIdeal.Rs

end
-- ==== Proof.SegD1.lean ====
import proofs.«901021_g7700000000001022_dist_rs_v7x_xyz2x2x2_x_m2048_n512_f32_1_alg».proof.Proof.SendWaits

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open SendWait

attribute [local sl_rounds] duties_bar duties_d amount_bar amount_d payload_bar payload_d expect_bar expect_d
  amtQ_ls amtQ_ps0 amtQ_ps1 amtQ_sx amtQ_rx amtQ_sy amtQ_ry amtQ_sz amtQ_rz payQ_ls payQ_ps0 payQ_ps1 payQ_sx payQ_rx payQ_sy payQ_ry payQ_sz payQ_rz
attribute [local sl_rounds] sxPay_eq syPay_eq szPay_0 szPay_1 szPay_2 szPay_3 szPay_4 szPay_5 szPay_6 szPay_7 szPay_8 szPay_9

-- Stretch D on a device with x = 0: the waits on the send cells, which the device pays itself and so may always wait on.
set_option maxHeartbeats 4000000 in

theorem segD1_run (K : Dev nD × Fin 68 → ℕ) (c : Dev nD) (hx : c.val / 4 = 0) (g0 : Buf (Elt F) ((c : Thread nD τ).loc cc0_stg0_0))
    (v2 v5 v8 v9 v10 v11 v15 v18 v23 v27 v32 v38 : BitVec 32) :
    StC m K c g0 ⊢ wp frame (wpE (defs₀ (F := F)) 𝒱₀ (c : Thread nD τ) none) Set.univ
      (segD1 (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v5 v8 v9 v10 v11 v15 v18 v23 v27 v32 v38 (cond1_of c hx))
      (fun _ => StD m K c g0) := by
  unfold StC StD pers records
  rw [posAt_congr c (fun q => q.val ≤ 3 ∨ (15 ≤ q.val ∧ q.val ≤ 25) ∨ (37 ≤ q.val ∧ q.val ≤ 47) ∨ 58 ≤ q.val ∨ q.val = 4 ∨ q.val = 26) (pw 1 1 0)
      (fun q => by have := q.isLt; unfold pw; omega),
    posAt_congr c (fun q => q.val ≠ 56 ∧ q.val ≠ 57) (pw 11 11 8) (fun q => by have := q.isLt; unfold pw; omega),
    posAt_split c (pw 1 1 0) cellsD (by decide) (by decide) (by decide),
    ← posAt_join c (pw 1 1 0) (pw 11 11 8) cellsD (by decide) (by decide) (by decide) (by decide)]
  simp only [cellsD, bigSepL_cc, bigSepL_singleton, bigSep_sep', bigSep_ge1, bigSep_ge5, bigSep_lt3ge5]
  rw [bigSep_fin10 (fun j => cred (tallyAt (dcell c (szQ j)) () NZ)), bigSep_fin11 (fun k => chk xsM c k fullShare (XS m c)),
    bigSep_fin11 (fun k => chk xrM c k qL (XR m c)), bigSep_fin11 (fun k => chk xrM c k qRL (XR m c))]
  iintro ⟨⟨⟨#HI, #HR⟩, #Hlev⟩,
    ⟨⟨PX1, PY1, PX2, PY2, PX3, PY3, PX4, PY4, PX5, PY5, PX6, PY6, PX7, PY7, PX8, PY8, PX9, PY9, PX10, PY10, PZ0, PZ1, PZ2, PZ3, PZ4, PZ5, PZ6, PZ7⟩, Hposrest⟩,
    ⟨⟨Hcx1, Hcx2, Hcx3, Hcx4, Hcx5, Hcx6, Hcx7, Hcx8, Hcx9, Hcx10⟩, Hcy1, Hcy2, Hcy3, Hcy4, Hcy5, Hcy6, Hcy7, Hcy8, Hcy9, Hcy10⟩,
    ⟨Hcz0, Hcz1, Hcz2, Hcz3, Hcz4, Hcz5, Hcz6, Hcz7, Hcz8, Hcz9⟩, ⟨%W, HO⟩, Hloc, Hxs0, HxrRR, ⟨HRL5, HRL6, HRL7, HRL8, HRL9, HRL10⟩, HxL0, HyrR,
    ⟨HyL5, HyL6, HyL7, HyL8, HyL9, HyL10⟩, Hz, Hout⟩
  ihave #IX1 := (inv_d m K c (sxQ 1) (by decide)) $$ HI
  ihave #IY1 := (inv_d m K c (syQ 1) (by decide)) $$ HI
  ihave #IX2 := (inv_d m K c (sxQ 2) (by decide)) $$ HI
  ihave #IY2 := (inv_d m K c (syQ 2) (by decide)) $$ HI
  ihave #IX3 := (inv_d m K c (sxQ 3) (by decide)) $$ HI
  ihave #IY3 := (inv_d m K c (syQ 3) (by decide)) $$ HI
  ihave #IX4 := (inv_d m K c (sxQ 4) (by decide)) $$ HI
  ihave #IY4 := (inv_d m K c (syQ 4) (by decide)) $$ HI
  ihave #IX5 := (inv_d m K c (sxQ 5) (by decide)) $$ HI
  ihave #IY5 := (inv_d m K c (syQ 5) (by decide)) $$ HI
  ihave #IX6 := (inv_d m K c (sxQ 6) (by decide)) $$ HI
  ihave #IY6 := (inv_d m K c (syQ 6) (by decide)) $$ HI
  ihave #IX7 := (inv_d m K c (sxQ 7) (by decide)) $$ HI
  ihave #IY7 := (inv_d m K c (syQ 7) (by decide)) $$ HI
  ihave #IX8 := (inv_d m K c (sxQ 8) (by decide)) $$ HI
  ihave #IY8 := (inv_d m K c (syQ 8) (by decide)) $$ HI
  ihave #IX9 := (inv_d m K c (sxQ 9) (by decide)) $$ HI
  ihave #IY9 := (inv_d m K c (syQ 9) (by decide)) $$ HI
  ihave #IX10 := (inv_d m K c (sxQ 10) (by decide)) $$ HI
  ihave #IY10 := (inv_d m K c (syQ 10) (by decide)) $$ HI
  ihave #IZ0 := (inv_d m K c (szQ 0) (by decide)) $$ HI
  ihave #IZ1 := (inv_d m K c (szQ 1) (by decide)) $$ HI
  ihave #IZ2 := (inv_d m K c (szQ 2) (by decide)) $$ HI
  ihave #IZ3 := (inv_d m K c (szQ 3) (by decide)) $$ HI
  ihave #IZ4 := (inv_d m K c (szQ 4) (by decide)) $$ HI
  ihave #IZ5 := (inv_d m K c (szQ 5) (by decide)) $$ HI
  ihave #IZ6 := (inv_d m K c (szQ 6) (by decide)) $$ HI
  ihave #IZ7 := (inv_d m K c (szQ 7) (by decide)) $$ HI
  sl_unfold [segD1]
  sl_exec
  rw [wp_ret]; imodintro
  iclear PX1_reached PY1_reached PX2_reached PY2_reached PX3_reached PY3_reached PX4_reached PY4_reached PX5_reached PY5_reached
  iclear PX6_reached PY6_reached PX7_reached PY7_reached PX8_reached PY8_reached PX9_reached PY9_reached PX10_reached PY10_reached
  iclear PZ0_reached PZ1_reached PZ2_reached PZ3_reached PZ4_reached PZ5_reached PZ6_reached PZ7_reached

  isplitr
  · isplitr
    · isplitr
      · iexact HI
      iexact HR
    iexact Hlev
  isplitl [PX1 PY1 PX2 PY2 PX3 PY3 PX4 PY4 PX5 PY5 PX6 PY6 PX7 PY7 PX8 PY8 PX9 PY9 PX10 PY10 PZ0 PZ1 PZ2 PZ3 PZ4 PZ5 PZ6 PZ7 Hposrest]
  · isplitr [Hposrest]
    · iframe PX1 PY1 PX2 PY2 PX3 PY3 PX4 PY4 PX5 PY5 PX6 PY6 PX7 PY7 PX8 PY8 PX9 PY9 PX10 PY10 PZ0 PZ1 PZ2 PZ3 PZ4 PZ5 PZ6 PZ7
    iexact Hposrest
  isplitl [Hcz8]; · iexact Hcz8
  isplitl [Hcz9]; · iexact Hcz9
  isplitl [HO]; · (iexists _; iexact HO)
  isplitl [Hloc]; · iexact Hloc
  isplitl [Hxs0 PX1_pay1 PX2_pay1 PX3_pay1 PX4_pay1 PX5_pay1 PX6_pay1 PX7_pay1 PX8_pay1 PX9_pay1 PX10_pay1
    HxL0 PY1_pay1 PY2_pay1 PY3_pay1 PY4_pay1 PY5_pay1 PY6_pay1 PY7_pay1 PY8_pay1 PY9_pay1 PY10_pay1
    PZ0_pay1 PZ1_pay1 PZ2_pay1 PZ3_pay1 PZ4_pay1 HRL5 HRL6 HRL7 HRL8 HRL9 HRL10 HxrRR HyrR]
  · isplitl [Hxs0 PX1_pay1 PX2_pay1 PX3_pay1 PX4_pay1 PX5_pay1 PX6_pay1 PX7_pay1 PX8_pay1 PX9_pay1 PX10_pay1]
    · iframe Hxs0 PX1_pay1 PX2_pay1 PX3_pay1 PX4_pay1 PX5_pay1 PX6_pay1 PX7_pay1 PX8_pay1 PX9_pay1 PX10_pay1
    isplitl [HxL0 PY1_pay1 PY2_pay1 PY3_pay1 PY4_pay1 PY5_pay1 PY6_pay1 PY7_pay1 PY8_pay1 PY9_pay1 PY10_pay1]
    · iframe HxL0 PY1_pay1 PY2_pay1 PY3_pay1 PY4_pay1 PY5_pay1 PY6_pay1 PY7_pay1 PY8_pay1 PY9_pay1 PY10_pay1
    isplitl [PZ0_pay1 PZ1_pay1 PZ2_pay1 PZ3_pay1 PZ4_pay1 HRL5 HRL6 HRL7 HRL8 HRL9 HRL10]
    · iframe PZ0_pay1 PZ1_pay1 PZ2_pay1 PZ3_pay1 PZ4_pay1 HRL5 HRL6 HRL7 HRL8 HRL9 HRL10
    isplitl [HxrRR]; · iexact HxrRR
    iexact HyrR
  isplitl [PZ5_pay1 PZ6_pay1 PZ7_pay1 HyL5 HyL6 HyL7 HyL8 HyL9 HyL10]
  · iframe PZ5_pay1 PZ6_pay1 PZ7_pay1 HyL5 HyL6 HyL7 HyL8 HyL9 HyL10
  isplitl [Hz]; · iexact Hz
  iexact Hout

end Cert.KernelIdeal.Rs

end
-- ==== Proof.Close.lean ====
import proofs.«901021_g7700000000001022_dist_rs_v7x_xyz2x2x2_x_m2048_n512_f32_1_alg».proof.Proof.Cond
import proofs.«901021_g7700000000001022_dist_rs_v7x_xyz2x2x2_x_m2048_n512_f32_1_alg».proof.Proof.Chunks
import proofs.«901021_g7700000000001022_dist_rs_v7x_xyz2x2x2_x_m2048_n512_f32_1_alg».proof.Proof.Rows
import proofs.«901021_g7700000000001022_dist_rs_v7x_xyz2x2x2_x_m2048_n512_f32_1_alg».proof.Proof.Land
import proofs.«901021_g7700000000001022_dist_rs_v7x_xyz2x2x2_x_m2048_n512_f32_1_alg».proof.Proof.OutValue

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem posAt_all (c : Dev nD) :
    (posAt c (fun _ => True) : sProp 𝕄) = bigSep Finset.univ fun q : Fin 68 => atPos ER (kcell (c, q)) 1 ∅ 0 := rfl

theorem close_cell (κ : ℕ) (c : Dev nD) (q : Fin 68) (hq : 1 ≤ q.val) :
    (iprop(cellInv ER (rsRd m) κ (kcell (c, q)) ∗ atPos ER (kcell (c, q)) 1 ∅ 0) : sProp 𝕄) ⊢ |={Set.univ}=> semVal (dcell c q) 0 := by
  rw [kcell_d c q hq]
  exact Rounds.cell_close ER (rsRd m) (Set.mem_univ _) (fun h => h) (R := 0 + 1) (duties_later m (dcell c q))

theorem close_cells (K : Dev nD × Fin 68 → ℕ) (c : Dev nD) :
    (iprop(records m K ∗ posAt c (fun _ => True)) : sProp 𝕄)
      ⊢ |={Set.univ}=> bigSep (Finset.univ.filter fun q : Fin 68 => 1 ≤ q.val) fun q => semVal (dcell c q) 0 := by
  rw [posAt_all]
  refine (sep_mono_right (bigSep_subset (Finset.filter_subset (fun q : Fin 68 => 1 ≤ q.val) Finset.univ))).trans ?_
  refine (bigSep_with_persistent (Ψ := fun q : Fin 68 => iprop(|={Set.univ}=> semVal (dcell c q) 0)) fun q hq => ?_).trans (bigSep_fupd _ _)
  have h1 : 1 ≤ q.val := (Finset.mem_filter.mp hq).2
  unfold records
  iintro ⟨⟨#HI, -⟩, Hat⟩
  ihave #Hinv := (inv_at m K (c, q)) $$ HI
  iapply (close_cell m (K (c, q)) c q h1)
  isplitr
  · iexact Hinv
  · iexact Hat

theorem whole_pts (b : Ref sig .tc) (c : Dev nD) (q : PosShare TreeShare) (f : Buf (Elt F) ((c : Thread nD τ).loc b)) :
    (((Memref.whole b).view.loc (c : Thread nD τ)) ↦[(Memref.whole b).view.set]{q} f : sProp 𝕄) = (((c : Thread nD τ).loc b) ↦{q} f) :=
  congrArg (fun S => (((c : Thread nD τ).loc b) ↦[S]{q} f : sProp 𝕄)) (View.set_whole b)

theorem join_chunk (c : Dev nD) (k : Fin 11) :
    (iprop(chk xsM c k fullShare (XS m c) ∗ chk xrM c k qL (XR m c) ∗ chk xrM c k qRL (XR m c) ∗ chk xrM c k qRR (XR m c) ∗ chk yrM c k qL (YR m c) ∗ chk yrM c k qR (YR m c)) : sProp 𝕄)
      ⊢ iprop(chk xsM c k fullShare (XS m c) ∗ chk xrM c k fullShare (XR m c) ∗ chk yrM c k fullShare (YR m c)) := by
  iintro ⟨Hs, H1, H2, H3, H4, H5⟩
  isplitl [Hs]; · iexact Hs
  isplitl [H1 H2 H3]
  · iapply share3.2
    isplitl [H1]; · iexact H1
    isplitl [H2]; · iexact H2
    iexact H3
  · iapply share2.2
    isplitl [H4]; · iexact H4
    iexact H5

theorem join704 (c : Dev nD) :
    (bigSep Finset.univ fun k : Fin 11 => iprop(chk xsM c k fullShare (XS m c) ∗ chk xrM c k qL (XR m c) ∗ chk xrM c k qRL (XR m c) ∗ chk xrM c k qRR (XR m c) ∗ chk yrM c k qL (YR m c) ∗ chk yrM c k qR (YR m c)) : sProp 𝕄)
      ⊢ iprop(whl c cc0_scratch2 (XS m c) ∗ whl c cc0_scratch3 (XR m c) ∗ whl c cc0_scratch4 (YR m c)) := by
  refine (bigSep_mono fun k _ => join_chunk m c k).trans ?_
  rw [bigSep_sep', bigSep_sep', ← chunks704 xsM c fullShare (XS m c), ← chunks704 xrM c fullShare (XR m c), ← chunks704 yrM c fullShare (YR m c),
    whole_pts, whole_pts, whole_pts]
  exact .refl _

theorem join640 (c : Dev nD) :
    (bigSep Finset.univ fun j : Fin 10 => chkz zrM c j fullShare (ZR m c) : sProp 𝕄) ⊢ whl c cc0_scratch5 (ZR m c) := by
  rw [← chunks640 zrM c fullShare (ZR m c), whole_pts]

-- With every wait done the device's cells close and its buffers are whole again.
theorem close_all (K : Dev nD × Fin 68 → ℕ) (c : Dev nD) (g0 : Buf (Elt F) ((c : Thread nD τ).loc cc0_stg0_0)) :
    StF m K c g0 ⊢ |={Set.univ}=> iprop(Φ₁ m c ∗ (∃ W, owes (c : Thread nD τ) 0 W) ∗ whl c cc0_stg0_0 (OUT m c)) := by
  unfold StF pers locals Φ₁ argPts scratch
  rw [OUTw_indep m c g0]
  iintro ⟨⟨#Hrec, -⟩, Hpos, HO, ⟨Harg, Hxl, Hxp⟩, Hch, Hz, Hout⟩
  imod (close_cells m K c) $$ [Hpos] with Hsem
  · isplitr
    · iexact Hrec
    · iexact Hpos
  ihave H3 := (join704 m c) $$ Hch
  icases H3 with ⟨Hxs, Hxr, Hyr⟩
  ihave Hzr := (join640 m c) $$ Hz
  imodintro
  isplitl [Harg Hxl Hxp Hxs Hxr Hyr Hzr Hsem]
  · isplitl [Harg]; · iexact Harg
    isplitr [Hsem]
    · isplitl [Hxl]; · iexists (XL m c); iexact Hxl
      isplitl [Hxp]; · iexists (XP m c); iexact Hxp
      isplitl [Hxs]; · iexists (XS m c); iexact Hxs
      isplitl [Hxr]; · iexists (XR m c); iexact Hxr
      isplitl [Hyr]; · iexists (YR m c); iexact Hyr
      iexists (ZR m c); iexact Hzr
    · iexact Hsem
  isplitl [HO]; · iexact HO
  iexact Hout

end Cert.KernelIdeal.Rs

end
-- ==== Proof.Seg2.lean ====
import proofs.«901021_g7700000000001022_dist_rs_v7x_xyz2x2x2_x_m2048_n512_f32_1_alg».proof.Proof.Gen.KernelIdeal.Skeleton

set_option synthInstance.maxSize 4096

noncomputable section

namespace Cert.KernelIdeal.Rs

open Cert.KernelIdeal Cert.KernelIdeal.Gen
open Idealize.ShloMosaic Idealize.SL.Sem

variable {F : FTy → Type} [FloatOps F]

noncomputable def segA2 (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) (d0 : Dev nD) (v2 : BitVec 32) (v5 : BitVec 32) (v8 : BitVec 32) (v9 : BitVec 32) (v10 : BitVec 32) (v11 : BitVec 32) (v15 : BitVec 32) (v18 : BitVec 32) (v23 : BitVec 32) (v27 : BitVec 32) (v32 : BitVec 32) (v38 : BitVec 32) (k0_h2 : k0_cond2 d0 = 1#1) :
    Prog (TpuEff nD τ sig (Elt F) Λ₀ .tc) (PUnit) := do
  let ⟨v57, v71, v72⟩ : Σ' (v57 : Sems sig S_) (v71 : BitVec 32), BitVec 32 ← k0_part34 arg0 harg0 arg1 harg1 arg2 harg2 arg3 harg3 arg4 harg4 arg5 harg5 arg6 harg6 arg7 harg7 arg8 arg9 arg10 arg11 arg12 arg13 arg14 arg15 d0 v2 v5 v8 v9 v10 k0_h2
  k0_part35 arg0 harg0 arg1 harg1 arg2 harg2 arg3 harg3 arg4 harg4 arg5 harg5 arg6 harg6 arg7 harg7 arg8 arg9 arg10 arg11 arg12 arg13 arg14 arg15 d0 v5 v8 v9 v11 k0_h2 v57 v71 v72
  let ⟨v130, v131⟩ : Σ' (v130 : BitVec 32), BitVec 32 ← k0_part36 arg0 harg0 arg1 harg1 arg2 harg2 arg3 harg3 arg4 harg4 arg5 harg5 arg6 harg6 arg7 harg7 arg8 arg9 arg10 arg11 arg12 arg13 arg14 arg15 d0 v5 v8 v9 k0_h2
  k0_part37 arg0 harg0 arg1 harg1 arg2 harg2 arg3 harg3 arg4 harg4 arg5 harg5 arg6 harg6 arg7 harg7 arg8 arg9 arg10 arg11 arg12 arg13 arg14 arg15 d0 v5 v8 v9 k0_h2 v130 v131
  k0_part38 arg0 harg0 arg1 harg1 arg2 harg2 arg3 harg3 arg4 harg4 arg5 harg5 arg6 harg6 arg7 harg7 arg8 arg9 arg10 arg11 arg12 arg13 arg14 arg15 d0 v5 v8 v9 k0_h2
  k0_part39 arg0 harg0 arg1 harg1 arg2 harg2 arg3 harg3 arg4 harg4 arg5 harg5 arg6 harg6 arg7 harg7 arg8 arg9 arg10 arg11 arg12 arg13 arg14 arg15 d0 v5 v8 v9 k0_h2
  pure ⟨⟩

noncomputable def segB2 (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) (d0 : Dev nD) (v2 : BitVec 32) (v5 : BitVec 32) (v8 : BitVec 32) (v9 : BitVec 32) (v10 : BitVec 32) (v11 : BitVec 32) (v15 : BitVec 32) (v18 : BitVec 32) (v23 : BitVec 32) (v27 : BitVec 32) (v32 : BitVec 32) (v38 : BitVec 32) (k0_h2 : k0_cond2 d0 = 1#1) :
    Prog (TpuEff nD τ sig (Elt F) Λ₀ .tc) (PUnit) := do
  k0_part40 arg0 harg0 arg1 harg1 arg2 harg2 arg3 harg3 arg4 harg4 arg5 harg5 arg6 harg6 arg7 harg7 arg8 arg9 arg10 arg11 arg12 arg13 arg14 arg15 d0 v2 v5 v8 v9 v10 v11 k0_h2
  let ⟨v284, c1_i32_224⟩ : Σ' (v284 : BitVec 32), BitVec 32 ← k0_part41 arg0 harg0 arg1 harg1 arg2 harg2 arg3 harg3 arg4 harg4 arg5 harg5 arg6 harg6 arg7 harg7 arg8 arg9 arg10 arg11 arg12 arg13 arg14 arg15 d0 v2 v5 v8 v9 v10 k0_h2
  let c4_i32_251 : BitVec 32 ← k0_part42 arg0 harg0 arg1 harg1 arg2 harg2 arg3 harg3 arg4 harg4 arg5 harg5 arg6 harg6 arg7 harg7 arg8 arg9 arg10 arg11 arg12 arg13 arg14 arg15 d0 v2 v5 v8 v9 v10 v11 k0_h2 v284 c1_i32_224
  k0_part43 arg0 harg0 arg1 harg1 arg2 harg2 arg3 harg3 arg4 harg4 arg5 harg5 arg6 harg6 arg7 harg7 arg8 arg9 arg10 arg11 arg12 arg13 arg14 arg15 d0 v2 v5 v8 v9 v10 v11 k0_h2 c4_i32_251
  k0_part44 arg0 harg0 arg1 harg1 arg2 harg2 arg3 harg3 arg4 harg4 arg5 harg5 arg6 harg6 arg7 harg7 arg8 arg9 arg10 arg11 arg12 arg13 arg14 arg15 d0 v2 v5 v8 v9 v10 v11 k0_h2
  k0_part45 arg0 harg0 arg1 harg1 arg2 harg2 arg3 harg3 arg4 harg4 arg5 harg5 arg6 harg6 arg7 harg7 arg8 arg9 arg10 arg11 arg12 arg13 arg14 arg15 d0 v2 v5 v8 v9 v11 v15 k0_h2
  let v437 : BitVec 32 ← k0_part46 arg0 harg0 arg1 harg1 arg2 harg2 arg3 harg3 arg4 harg4 arg5 harg5 arg6 harg6 arg7 harg7 arg8 arg9 arg10 arg11 arg12 arg13 arg14 arg15 d0 v2 v5 v8 v9 v10 k0_h2
  k0_part47 arg0 harg0 arg1 harg1 arg2 harg2 arg3 harg3 arg4 harg4 arg5 harg5 arg6 harg6 arg7 harg7 arg8 arg9 arg10 arg11 arg12 arg13 arg14 arg15 d0 v2 v5 v8 v9 v10 k0_h2 v437
  k0_part48 arg0 harg0 arg1 harg1 arg2 harg2 arg3 harg3 arg4 harg4 arg5 harg5 arg6 harg6 arg7 harg7 arg8 arg9 arg10 arg11 arg12 arg13 arg14 arg15 d0 v2 v5 v8 v9 v10 k0_h2
  k0_part49 arg0 harg0 arg1 harg1 arg2 harg2 arg3 harg3 arg4 harg4 arg5 harg5 arg6 harg6 arg7 harg7 arg8 arg9 arg10 arg11 arg12 arg13 arg14 arg15 d0 v2 v5 v8 v9 v10 k0_h2
  k0_part50 arg0 harg0 arg1 harg1 arg2 harg2 arg3 harg3 arg4 harg4 arg5 harg5 arg6 harg6 arg7 harg7 arg8 arg9 arg10 arg11 arg12 arg13 arg14 arg15 d0 v2 v5 v8 v10 v11 v18 k0_h2
  pure ⟨⟩

noncomputable def segC2 (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) (d0 : Dev nD) (v2 : BitVec 32) (v5 : BitVec 32) (v8 : BitVec 32) (v9 : BitVec 32) (v10 : BitVec 32) (v11 : BitVec 32) (v15 : BitVec 32) (v18 : BitVec 32) (v23 : BitVec 32) (v27 : BitVec 32) (v32 : BitVec 32) (v38 : BitVec 32) (k0_h2 : k0_cond2 d0 = 1#1) :
    Prog (TpuEff nD τ sig (Elt F) Λ₀ .tc) (PUnit) := do
  let ⟨v588, c1_i32_491⟩ : Σ' (v588 : BitVec 32), BitVec 32 ← k0_part51 arg0 harg0 arg1 harg1 arg2 harg2 arg3 harg3 arg4 harg4 arg5 harg5 arg6 harg6 arg7 harg7 arg8 arg9 arg10 arg11 arg12 arg13 arg14 arg15 d0 v2 v5 v8 v10 v11 k0_h2
  let ⟨v617, c0_i32_519⟩ : Σ' (v617 : BitVec 32), BitVec 32 ← k0_part52 arg0 harg0 arg1 harg1 arg2 harg2 arg3 harg3 arg4 harg4 arg5 harg5 arg6 harg6 arg7 harg7 arg8 arg9 arg10 arg11 arg12 arg13 arg14 arg15 d0 v2 v5 v8 v10 v11 k0_h2 v588 c1_i32_491
  k0_part53 arg0 harg0 arg1 harg1 arg2 harg2 arg3 harg3 arg4 harg4 arg5 harg5 arg6 harg6 arg7 harg7 arg8 arg9 arg10 arg11 arg12 arg13 arg14 arg15 d0 v2 v5 v8 v10 v11 k0_h2 v617 c0_i32_519
  let v678 : BitVec 32 ← k0_part54 arg0 harg0 arg1 harg1 arg2 harg2 arg3 harg3 arg4 harg4 arg5 harg5 arg6 harg6 arg7 harg7 arg8 arg9 arg10 arg11 arg12 arg13 arg14 arg15 d0 v2 v8 v10 v23 k0_h2
  k0_part55 arg0 harg0 arg1 harg1 arg2 harg2 arg3 harg3 arg4 harg4 arg5 harg5 arg6 harg6 arg7 harg7 arg8 arg9 arg10 arg11 arg12 arg13 arg14 arg15 v2 v8 v10 v678
  let ⟨v736, c2_i32_628⟩ : Σ' (v736 : BitVec 32), BitVec 32 ← k0_part56 arg0 harg0 arg1 harg1 arg2 harg2 arg3 harg3 arg4 harg4 arg5 harg5 arg6 harg6 arg7 harg7 arg8 arg9 arg10 arg11 arg12 arg13 arg14 arg15 d0 v2 v5 v8 v10 v11 v27 k0_h2
  let v765 : BitVec 32 ← k0_part57 arg0 harg0 arg1 harg1 arg2 harg2 arg3 harg3 arg4 harg4 arg5 harg5 arg6 harg6 arg7 harg7 arg8 arg9 arg10 arg11 arg12 arg13 arg14 arg15 v2 v5 v11 v736 c2_i32_628
  let ⟨v795, c1_i32_683⟩ : Σ' (v795 : BitVec 32), BitVec 32 ← k0_part58 arg0 harg0 arg1 harg1 arg2 harg2 arg3 harg3 arg4 harg4 arg5 harg5 arg6 harg6 arg7 harg7 arg8 arg9 arg10 arg11 arg12 arg13 arg14 arg15 d0 v2 v5 v11 v32 k0_h2 v765
  let ⟨v823, c2_i32_712⟩ : Σ' (v823 : BitVec 32), BitVec 32 ← k0_part59 arg0 harg0 arg1 harg1 arg2 harg2 arg3 harg3 arg4 harg4 arg5 harg5 arg6 harg6 arg7 harg7 arg8 arg9 arg10 arg11 arg12 arg13 arg14 arg15 v2 v5 v11 v795 c1_i32_683
  k0_part60 arg0 harg0 arg1 harg1 arg2 harg2 arg3 harg3 arg4 harg4 arg5 harg5 arg6 harg6 arg7 harg7 arg8 arg9 arg10 arg11 arg12 arg13 arg14 arg15 d0 v5 v11 v38 k0_h2 v823 c2_i32_712
  pure ⟨⟩

noncomputable def segD2 (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) (d0 : Dev nD) (v2 : BitVec 32) (v5 : BitVec 32) (v8 : BitVec 32) (v9 : BitVec 32) (v10 : BitVec 32) (v11 : BitVec 32) (v15 : BitVec 32) (v18 : BitVec 32) (v23 : BitVec 32) (v27 : BitVec 32) (v32 : BitVec 32) (v38 : BitVec 32) (k0_h2 : k0_cond2 d0 = 1#1) :
    Prog (TpuEff nD τ sig (Elt F) Λ₀ .tc) (PUnit) := do
  k0_part61 arg0 harg0 arg1 harg1 arg2 harg2 arg3 harg3 arg4 harg4 arg5 harg5 arg6 harg6 arg7 harg7 arg8 arg9 arg10 arg11 arg12 arg13 arg14 arg15
  k0_part62 arg0 harg0 arg1 harg1 arg2 harg2 arg3 harg3 arg4 harg4 arg5 harg5 arg6 harg6 arg7 harg7 arg8 arg9 arg10 arg11 arg12 arg13 arg14 arg15
  k0_part63 arg0 harg0 arg1 harg1 arg2 harg2 arg3 harg3 arg4 harg4 arg5 harg5 arg6 harg6 arg7 harg7 arg8 arg9 arg10 arg11 arg12 arg13 arg14 arg15
  k0_part64 arg0 harg0 arg1 harg1 arg2 harg2 arg3 harg3 arg4 harg4 arg5 harg5 arg6 harg6 arg7 harg7 arg8 arg9 arg10 arg11 arg12 arg13 arg14 arg15
  k0_part65 arg0 harg0 arg1 harg1 arg2 harg2 arg3 harg3 arg4 harg4 arg5 harg5 arg6 harg6 arg7 harg7 arg8 arg9 arg10 arg11 arg12 arg13 arg14 arg15
  let v950 : Memref sig .tc .vmem S64x512 .bf16 := arg7.slice (Rect.unit (s := S640x512) ![320, 0] S64x512.size inb_S640x512_S64x512_320_0) (fun _ => rfl)
  let v947 : DmaSems sig S1 := arg14.slice (Rect.unit (s := S10) ![5] S1.size inb_S10_S1_5)
  let v948 : DmaSems sig S_ := v947.squeeze S_ squeezes_S1_S_
  let v949 : Memref sig .tc .vmem S64x512 .bf16 := arg6.slice (Rect.unit (s := S704x512) ![0, 0] S64x512.size inb_S704x512_S64x512_0_0) (fun _ => rfl)
  Prog.lift (.waitDma2 v948.sem v950 v949 (harg7.wordExact_slice rfl _ wordsbf16_S640x512_S64x512_320_0) (harg6.wordExact_slice rfl _ wordsbf16_S704x512_S64x512_0_0))
  let v951 : DmaSems sig S1 := arg14.slice (Rect.unit (s := S10) ![6] S1.size inb_S10_S1_6)
  let v952 : DmaSems sig S_ := v951.squeeze S_ squeezes_S1_S_
  let v953 : Memref sig .tc .vmem S64x512 .bf16 := arg6.slice (Rect.unit (s := S704x512) ![64, 0] S64x512.size inb_S704x512_S64x512_64_0) (fun _ => rfl)
  let v954 : Memref sig .tc .vmem S64x512 .bf16 := arg7.slice (Rect.unit (s := S640x512) ![384, 0] S64x512.size inb_S640x512_S64x512_384_0) (fun _ => rfl)
  Prog.lift (.waitDma2 v952.sem v954 v953 (harg7.wordExact_slice rfl _ wordsbf16_S640x512_S64x512_384_0) (harg6.wordExact_slice rfl _ wordsbf16_S704x512_S64x512_64_0))
  let v955 : DmaSems sig S1 := arg14.slice (Rect.unit (s := S10) ![7] S1.size inb_S10_S1_7)
  let v956 : DmaSems sig S_ := v955.squeeze S_ squeezes_S1_S_
  let v957 : Memref sig .tc .vmem S64x512 .bf16 := arg6.slice (Rect.unit (s := S704x512) ![128, 0] S64x512.size inb_S704x512_S64x512_128_0) (fun _ => rfl)
  let v958 : Memref sig .tc .vmem S64x512 .bf16 := arg7.slice (Rect.unit (s := S640x512) ![448, 0] S64x512.size inb_S640x512_S64x512_448_0) (fun _ => rfl)
  Prog.lift (.waitDma2 v956.sem v958 v957 (harg7.wordExact_slice rfl _ wordsbf16_S640x512_S64x512_448_0) (harg6.wordExact_slice rfl _ wordsbf16_S704x512_S64x512_128_0))
  pure ⟨⟩

set_option maxRecDepth 65536 in

theorem part66_segs (arg0 : Memref sig .tc .hbm S1x2048x1024 .f32) (harg0 : arg0.IsWhole) (arg1 : Memref sig .tc .vmem S2048x512 .f32) (harg1 : arg1.IsWhole) (arg2 : Memref sig .tc .vmem S2048x512 .f32) (harg2 : arg2.IsWhole) (arg3 : Memref sig .tc .vmem S704x512 .f32) (harg3 : arg3.IsWhole) (arg4 : Memref sig .tc .vmem S704x512 .bf16) (harg4 : arg4.IsWhole) (arg5 : Memref sig .tc .vmem S704x512 .bf16) (harg5 : arg5.IsWhole) (arg6 : Memref sig .tc .vmem S704x512 .bf16) (harg6 : arg6.IsWhole) (arg7 : Memref sig .tc .vmem S640x512 .bf16) (harg7 : arg7.IsWhole) (arg8 : DmaSems sig S_) (arg9 : DmaSems sig S2) (arg10 : DmaSems sig S11) (arg11 : DmaSems sig S11) (arg12 : DmaSems sig S11) (arg13 : DmaSems sig S11) (arg14 : DmaSems sig S10) (arg15 : DmaSems sig S10) (d0 : Dev nD) (v2 : BitVec 32) (v5 : BitVec 32) (v8 : BitVec 32) (v9 : BitVec 32) (v10 : BitVec 32) (v11 : BitVec 32) (v15 : BitVec 32) (v18 : BitVec 32) (v23 : BitVec 32) (v27 : BitVec 32) (v32 : BitVec 32) (v38 : BitVec 32) (k0_h2 : k0_cond2 d0 = 1#1) :
    k0_part66_skel (F := F) arg0 harg0 arg1 harg1 arg2 harg2 arg3 harg3 arg4 harg4 arg5 harg5 arg6 harg6 arg7 harg7 arg8 arg9 arg10 arg11 arg12 arg13 arg14 arg15 d0 v2 v5 v8 v9 v10 v11 v15 v18 v23 v27 v32 v38 k0_h2 = (do
      segA2 arg0 harg0 arg1 harg1 arg2 harg2 arg3 harg3 arg4 harg4 arg5 harg5 arg6 harg6 arg7 harg7 arg8 arg9 arg10 arg11 arg12 arg13 arg14 arg15 d0 v2 v5 v8 v9 v10 v11 v15 v18 v23 v27 v32 v38 k0_h2
      segB2 arg0 harg0 arg1 harg1 arg2 harg2 arg3 harg3 arg4 harg4 arg5 harg5 arg6 harg6 arg7 harg7 arg8 arg9 arg10 arg11 arg12 arg13 arg14 arg15 d0 v2 v5 v8 v9 v10 v11 v15 v18 v23 v27 v32 v38 k0_h2
      segC2 arg0 harg0 arg1 harg1 arg2 harg2 arg3 harg3 arg4 harg4 arg5 harg5 arg6 harg6 arg7 harg7 arg8 arg9 arg10 arg11 arg12 arg13 arg14 arg15 d0 v2 v5 v8 v9 v10 v11 v15 v18 v23 v27 v32 v38 k0_h2
      segD2 arg0 harg0 arg1 harg1 arg2 harg2 arg3 harg3 arg4 harg4 arg5 harg5 arg6 harg6 arg7 harg7 arg8 arg9 arg10 arg11 arg12 arg13 arg14 arg15 d0 v2 v5 v8 v9 v10 v11 v15 v18 v23 v27 v32 v38 k0_h2) := rfl

end Cert.KernelIdeal.Rs

end
-- ==== Proof.SegA2.lean ====
import proofs.«901021_g7700000000001022_dist_rs_v7x_xyz2x2x2_x_m2048_n512_f32_1_alg».proof.Proof.StepsA
import proofs.«901021_g7700000000001022_dist_rs_v7x_xyz2x2x2_x_m2048_n512_f32_1_alg».proof.Proof.Seg2

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_d amount_bar amount_d payload_bar payload_d expect_bar expect_d
  amtQ_ls amtQ_ps0 amtQ_ps1 amtQ_sx amtQ_rx amtQ_sy amtQ_ry amtQ_sz amtQ_rz payQ_ls payQ_ps0 payQ_ps1 payQ_sx payQ_rx payQ_sy payQ_ry payQ_sz payQ_rz

theorem segA_peer1_b2 (c : Dev nD) (h : k0_dev36 c < nD) : (⟨k0_dev36 c, h⟩ : Dev nD) = xp c := segA_peer_xp c _ (k0_dev36_eq c) h
theorem segA_peer2_b2 (c : Dev nD) (h : k0_dev37 c < nD) : (⟨k0_dev37 c, h⟩ : Dev nD) = yn c := segA_peer_yn c _ (k0_dev37_eq c) h
theorem segA_peer3_b2 (c : Dev nD) (h : k0_dev38 c < nD) : (⟨k0_dev38 c, h⟩ : Dev nD) = zn c := segA_peer_zn c _ (k0_dev38_eq c) h
theorem segA_peer4_b2 (c : Dev nD) (h : k0_dev39 c < nD) : (⟨k0_dev39 c, h⟩ : Dev nD) = xp c := segA_peer_xp c _ (k0_dev39_eq c) h
theorem segA_peer5_b2 (c : Dev nD) (h : k0_dev40 c < nD) : (⟨k0_dev40 c, h⟩ : Dev nD) = xp c := segA_peer_xp c _ (k0_dev40_eq c) h
theorem segA_peer6_b2 (c : Dev nD) (h : k0_dev41 c < nD) : (⟨k0_dev41 c, h⟩ : Dev nD) = xp c := segA_peer_xp c _ (k0_dev41_eq c) h
theorem segA_peer7_b2 (c : Dev nD) (h : k0_dev42 c < nD) : (⟨k0_dev42 c, h⟩ : Dev nD) = xp c := segA_peer_xp c _ (k0_dev42_eq c) h
theorem segA_peer8_b2 (c : Dev nD) (h : k0_dev43 c < nD) : (⟨k0_dev43 c, h⟩ : Dev nD) = xp c := segA_peer_xp c _ (k0_dev43_eq c) h
theorem segA_peer9_b2 (c : Dev nD) (h : k0_dev44 c < nD) : (⟨k0_dev44 c, h⟩ : Dev nD) = xp c := segA_peer_xp c _ (k0_dev44_eq c) h
theorem segA_peer10_b2 (c : Dev nD) (h : k0_dev45 c < nD) : (⟨k0_dev45 c, h⟩ : Dev nD) = xp c := segA_peer_xp c _ (k0_dev45_eq c) h
theorem segA_peer11_b2 (c : Dev nD) (h : k0_dev46 c < nD) : (⟨k0_dev46 c, h⟩ : Dev nD) = xp c := segA_peer_xp c _ (k0_dev46_eq c) h
theorem segA_peer12_b2 (c : Dev nD) (h : k0_dev47 c < nD) : (⟨k0_dev47 c, h⟩ : Dev nD) = xp c := segA_peer_xp c _ (k0_dev47_eq c) h
theorem segA_peer13_b2 (c : Dev nD) (h : k0_dev48 c < nD) : (⟨k0_dev48 c, h⟩ : Dev nD) = xp c := segA_peer_xp c _ (k0_dev48_eq c) h
theorem segA_peer14_b2 (c : Dev nD) (h : k0_dev49 c < nD) : (⟨k0_dev49 c, h⟩ : Dev nD) = xp c := segA_peer_xp c _ (k0_dev49_eq c) h

attribute [local sl_canon] segA_peer1_b2 segA_peer2_b2 segA_peer3_b2 segA_peer4_b2 segA_peer5_b2 segA_peer6_b2 segA_peer7_b2 segA_peer8_b2 segA_peer9_b2 segA_peer10_b2 segA_peer11_b2 segA_peer12_b2 segA_peer13_b2 segA_peer14_b2

theorem segA_xs_eq_b2 (c : Dev nD) (f2 : Buf (Elt F) ((c : Thread nD τ).loc cc0_scratch2))
    (h1 h2 : ∀ a, (![0, 0] : Fin 2 → ℕ) a + S704x512.size a ≤ S704x512.size a) :
    (Memref.whole cc0_scratch2 : Memref sig .tc .vmem S704x512 .bf16).view.writes (Elt F) f2
      [⟨Rect.unit (s := S704x512) ![0, 0] S704x512.size h1,
        k0_pay8 (View.readAt (Elt F) (xpM : Memref sig .tc .vmem S704x512 .f32).view (Rect.unit (s := S704x512) ![0, 0] S704x512.size h2).toLoadRect (XP m c))⟩]
      = XS m c := by
  have hz : (![0, 0] : Fin 2 → ℕ) = fun _ => 0 := by funext a; fin_cases a <;> rfl
  have e1 : View.readAt (Elt F) (xpM : Memref sig .tc .vmem S704x512 .f32).view (Rect.unit (s := S704x512) ![0, 0] S704x512.size h2).toLoadRect (XP m c) = XP m c :=
    Memref.readAt_unit_zero (Elt F) cc0_scratch1 hz h2 (XP m c)
  rw [View.writes_singleton, e1]
  exact Memref.write_access_unit_zero_univ (Elt F) cc0_scratch2 hz h1 f2 (k0_pay8 (XP m c))

-- Stretch A on a device with x = 1: the three local copies, the handshake with the three neighbours, the eleven sends along x.
set_option maxHeartbeats 4000000 in
theorem segA2_run (K : Dev nD × Fin 68 → ℕ) (c : Dev nD) (hx : c.val / 4 = 1) (g0 : Buf (Elt F) ((c : Thread nD τ).loc cc0_stg0_0))
    (v2 v5 v8 v9 v10 v11 v15 v18 v23 v27 v32 v38 : BitVec 32) :
    St0 m K c g0 ⊢ wp frame (wpE (defs₀ (F := F)) 𝒱₀ (c : Thread nD τ) none) Set.univ
      (segA2 (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v5 v8 v9 v10 v11 v15 v18 v23 v27 v32 v38 (cond2_of c hx))
      (fun _ => StA m K c g0) := by
  unfold St0 pers records payToks creds scratch argPts
  rw [segA_posAt_lo]
  simp only [bigSep_fin11, bigSep_fin10, if_false]
  iintro ⟨⟨⟨#HI, #HR⟩, #Hlev⟩, ⟨Hp0, HpL, HpP0, HpP1, HpRest⟩,
    ⟨HtBX, HtBY, HtBZ, ⟨HtRX0, HtRX1, HtRX2, HtRX3, HtRX4, HtRX5, HtRX6, HtRX7, HtRX8, HtRX9, HtRX10⟩, ⟨HtRY0, HtRY1, HtRY2, HtRY3, HtRY4, HtRY5, HtRY6, HtRY7, HtRY8, HtRY9, HtRY10⟩, ⟨HtRZ0, HtRZ1, HtRZ2, HtRZ3, HtRZ4, HtRZ5, HtRZ6, HtRZ7, HtRZ8, HtRZ9⟩, HtL, HtP0, HtP1, ⟨HtSX0, HtSX1, HtSX2, HtSX3, HtSX4, HtSX5, HtSX6, HtSX7, HtSX8, HtSX9, HtSX10⟩, ⟨HtSY0, HtSY1, HtSY2, HtSY3, HtSY4, HtSY5, HtSY6, HtSY7, HtSY8, HtSY9, HtSY10⟩, ⟨HtSZ0, HtSZ1, HtSZ2, HtSZ3, HtSZ4, HtSZ5, HtSZ6, HtSZ7, HtSZ8, HtSZ9⟩⟩,
    ⟨HcB, ⟨HcRX0, HcRX1, HcRX2, HcRX3, HcRX4, HcRX5, HcRX6, HcRX7, HcRX8, HcRX9, HcRX10⟩, ⟨HcRY0, HcRY1, HcRY2, HcRY3, HcRY4, HcRY5, HcRY6, HcRY7, HcRY8, HcRY9, HcRY10⟩, ⟨HcRZ0, HcRZ1, HcRZ2, HcRZ3, HcRZ4, HcRZ5, HcRZ6, HcRZ7, HcRZ8, HcRZ9⟩⟩,
    ⟨%W, HO⟩, Harg, ⟨⟨%f0, Hs0⟩, ⟨%f1, Hs1⟩, ⟨%f2, Hs2⟩, ⟨%f3, Hs3⟩, ⟨%f4, Hs4⟩, ⟨%f5, Hs5⟩⟩, Hout⟩

  ihave HargW := (Entails.of_eq (segA_whl_eq c main_arg0 (A m c))) $$ Harg
  icases (arg_split c (A m c)).1 $$ HargW with ⟨HaL, HaE, HaC, HaR⟩
  ihave Hs1W := (Entails.of_eq (segA_whl_eq c cc0_scratch1 f1)) $$ Hs1
  icases (xps_split c f1).1 $$ Hs1W with ⟨HxE, HxC⟩
  ihave Hs0W := (Entails.of_eq (segA_whl_eq c cc0_scratch0 f0)) $$ Hs0
  ihave #HIls := (inv_d m K c lsQ (by decide)) $$ HI
  ihave #HRls := (reached_d (F := F) c lsQ (by decide)) $$ HR
  ihave #HIp0 := (inv_d m K c (psQ 0) (by decide)) $$ HI
  ihave #HRp0 := (reached_d (F := F) c (psQ 0) (by decide)) $$ HR
  ihave #HIp1 := (inv_d m K c (psQ 1) (by decide)) $$ HI
  ihave #HRp1 := (reached_d (F := F) c (psQ 1) (by decide)) $$ HR
  sl_unfold [segA2]
  sl_exec

  rw [segA_enq_src (ldSrc_eq_b2 c hx _)]
  iapply (Rounds.wp_copy_pointsTo 𝒱₀ ER (rsRd m) (c : Thread nD τ) none (src := ldSrc c) (dst := xlM) (sem := .dma lsQ)
      (q := fullShare) (fs := A m c) (fd := f0) (κ := K (c, lsQ)) (r := 0) (d := 0)
      (by rw [duties_d m c lsQ (by decide)]; exact Finset.mem_singleton_self _) () NL rfl rfl
      (by rw [payload_d, payQ_ls]; exact ls_land m c f0)) $$ [HaL Hs0W HtL]
  · iframe HIls HaL Hs0W HtL HRls
  iintro HcL
  sl_exec

  rw [segA_enq_src (peSrc_eq_b2 c hx _)]
  iapply (Rounds.wp_copy_pointsTo 𝒱₀ ER (rsRd m) (c : Thread nD τ) none (src := peSrc c) (dst := peDst) (sem := .dma (psQ 0))
      (q := fullShare) (fs := A m c) (fd := f1) (κ := K (c, psQ 0)) (r := 0) (d := 0)
      (by rw [duties_d m c (psQ 0) (by decide)]; exact Finset.mem_singleton_self _) () NE rfl rfl
      (by rw [payload_d, payQ_ps0]; exact pe_land m c f1)) $$ [HaE HxE HtP0]
  · iframe HIp0 HaE HxE HtP0 HRp0
  iintro HcP0
  sl_exec

  rw [segA_enq_src (pcSrc_eq_b2 c hx _)]
  iapply (Rounds.wp_copy_pointsTo 𝒱₀ ER (rsRd m) (c : Thread nD τ) none (src := pcSrc c) (dst := pcDst) (sem := .dma (psQ 1))
      (q := fullShare) (fs := A m c) (fd := f1) (κ := K (c, psQ 1)) (r := 0) (d := 0)
      (by rw [duties_d m c (psQ 1) (by decide)]; exact Finset.mem_singleton_self _) () NC rfl rfl
      (by rw [payload_d, payQ_ps1]; exact pc_land m c f1)) $$ [HaC HxC HtP1]
  · iframe HIp1 HaC HxC HtP1 HRp1
  iintro HcP1
  ihave #HIb := (segA_inv_b m K c) $$ HI
  ihave #HIbx := (segA_inv_b m K (xp c)) $$ HI
  ihave #HIby := (segA_inv_b m K (yn c)) $$ HI
  ihave #HIbz := (segA_inv_b m K (zn c)) $$ HI
  ihave #HRbx := (segA_reached_b (F := F) (xp c)) $$ HR
  ihave #HRby := (segA_reached_b (F := F) (yn c)) $$ HR
  ihave #HRbz := (segA_reached_b (F := F) (zn c)) $$ HR
  sl_exec

  ihave HO1 := (segA_owes_step c 0 (by omega) (tallyAt (barCell (xp c)) () 1) rfl W) $$ HO
  iapply (Rounds.wp_signal 𝒱₀ ER (rsRd m) (c : Thread nD τ) none (dst := (xp c : Thread nD τ)) (sem := barS) (κ := K (xp c, 0)) (r := 0) (d := 0) (k' := 1)
      (by rw [duties_bar]; exact Finset.mem_univ _) rfl () (owedFrom c 1) rfl) $$ [HO1 HtBX Hs3]
  · isplitr; · iexact HIbx
    isplitl [HO1]; · iexact HO1
    isplitl [HtBX]; · iexact HtBX
    isplitl [Hs3]; · iapply (segA_bar0 m c f3); iexact Hs3
    iexact HRbx
  iintro HO1
  sl_exec
  ihave HO2 := (segA_owes_step c 1 (by omega) (tallyAt (barCell (yn c)) () 1) rfl W) $$ HO1
  iapply (Rounds.wp_signal 𝒱₀ ER (rsRd m) (c : Thread nD τ) none (dst := (yn c : Thread nD τ)) (sem := barS) (κ := K (yn c, 0)) (r := 0) (d := 1) (k' := 1)
      (by rw [duties_bar]; exact Finset.mem_univ _) rfl () (owedFrom c 2) rfl) $$ [HO2 HtBY Hs4]
  · isplitr; · iexact HIby
    isplitl [HO2]; · iexact HO2
    isplitl [HtBY]; · iexact HtBY
    isplitl [Hs4]; · iapply (segA_bar1 m c f4); iexact Hs4
    iexact HRby
  iintro HO2
  sl_exec
  ihave HO3 := (segA_owes_step c 2 (by omega) (tallyAt (barCell (zn c)) () 1) rfl W) $$ HO2
  iapply (Rounds.wp_signal 𝒱₀ ER (rsRd m) (c : Thread nD τ) none (dst := (zn c : Thread nD τ)) (sem := barS) (κ := K (zn c, 0)) (r := 0) (d := 2) (k' := 1)
      (by rw [duties_bar]; exact Finset.mem_univ _) rfl () (owedFrom c 3) rfl) $$ [HO3 HtBZ Hs5]
  · isplitr; · iexact HIbz
    isplitl [HO3]; · iexact HO3
    isplitl [HtBZ]; · iexact HtBZ
    isplitl [Hs5]; · iapply (segA_bar2 m c f5); iexact Hs5
    iexact HRbz
  iintro HO3
  sl_exec

  ihave #HMW := (mayWait_lv c (.reg barS) (owedFrom c 3) 1 rfl (fun g u h => segA_owed_recv c 3 (by omega) g u h)) $$ Hlev
  ihave #HMW0 := (mayWait_lv c (.dma (psQ 0)) (owedFrom c 3) 0 rfl (fun g u h => segA_owed_tc c 3 g u h)) $$ Hlev
  ihave #HMW1 := (mayWait_lv c (.dma (psQ 1)) (owedFrom c 3) 0 rfl (fun g u h => segA_owed_tc c 3 g u h)) $$ Hlev
  sl_exec
  iclear Hp0_reached HpP0_reached HpP1_reached
  ihave Hp := (Entails.of_eq (segA_bar3 c)) $$ Hp0_pay1
  unfold pePay pcPay
  icases HpP0_pay1 with ⟨HxE, HaE⟩
  icases HpP1_pay1 with ⟨HxC, HaC⟩

  ihave Hxp : ((xpM : Memref sig .tc .vmem S704x512 .f32).view.loc (c : Thread nD τ) ↦[(xpM : Memref sig .tc .vmem S704x512 .f32).view.set]{fullShare} XP m c) $$ [HxE HxC]
  · iapply (xps_split c (XP m c)).2
    isplitl [HxE] <;> iassumption
  ihave Hs2W := (Entails.of_eq (segA_pt_eq c cc0_scratch2 f2)) $$ Hs2
  sl_exec

  ihave HS := (Entails.of_eq (congrArg (fun f => ((xsM : Memref sig .tc .vmem S704x512 .bf16).view.loc (c : Thread nD τ) ↦[(xsM : Memref sig .tc .vmem S704x512 .bf16).view.set]{fullShare} f : sProp 𝕄)) (segA_xs_eq_b2 m c f2 _ _))) $$ Hs2W
  ihave HSs := (Entails.of_eq ((chunks704 xsM c fullShare (XS m c)).trans (bigSep_fin11 _))) $$ HS
  icases HSs with ⟨HS0, HS1, HS2, HS3, HS4, HS5, HS6, HS7, HS8, HS9, HS10⟩
  icases Hp with ⟨Hnx, Hny, Hnz⟩
  ihave Hnx' := (Entails.of_eq (segA_barPay0 c)) $$ Hnx
  icases Hnx' with ⟨%fx, Hnx⟩
  ihave HXs := (Entails.of_eq ((chunks704 xrM (xp c) fullShare fx).trans (bigSep_fin11 _))) $$ Hnx
  icases HXs with ⟨HX0, HX1, HX2, HX3, HX4, HX5, HX6, HX7, HX8, HX9, HX10⟩

  iapply (segA_send_x m K c 0 3 (by omega) rfl _ (segA_peer4_b2 c _) fx) $$ [HS0 HX0 HO3 HtSX0 HtRX0]
  · iframe HI HR HS0 HX0 HO3 HtSX0 HtRX0
  iintro ⟨HcSX0, HOx1⟩
  sl_exec

  iapply (segA_send_x m K c 1 4 (by omega) rfl _ (segA_peer5_b2 c _) fx) $$ [HS1 HX1 HOx1 HtSX1 HtRX1]
  · iframe HI HR HS1 HX1 HOx1 HtSX1 HtRX1
  iintro ⟨HcSX1, HOx2⟩
  sl_exec

  iapply (segA_send_x m K c 2 5 (by omega) rfl _ (segA_peer6_b2 c _) fx) $$ [HS2 HX2 HOx2 HtSX2 HtRX2]
  · iframe HI HR HS2 HX2 HOx2 HtSX2 HtRX2
  iintro ⟨HcSX2, HOx3⟩
  sl_exec

  iapply (segA_send_x m K c 3 6 (by omega) rfl _ (segA_peer7_b2 c _) fx) $$ [HS3 HX3 HOx3 HtSX3 HtRX3]
  · iframe HI HR HS3 HX3 HOx3 HtSX3 HtRX3
  iintro ⟨HcSX3, HOx4⟩
  sl_exec

  iapply (segA_send_x m K c 4 7 (by omega) rfl _ (segA_peer8_b2 c _) fx) $$ [HS4 HX4 HOx4 HtSX4 HtRX4]
  · iframe HI HR HS4 HX4 HOx4 HtSX4 HtRX4
  iintro ⟨HcSX4, HOx5⟩
  sl_exec

  iapply (segA_send_x m K c 5 8 (by omega) rfl _ (segA_peer9_b2 c _) fx) $$ [HS5 HX5 HOx5 HtSX5 HtRX5]
  · iframe HI HR HS5 HX5 HOx5 HtSX5 HtRX5
  iintro ⟨HcSX5, HOx6⟩
  sl_exec

  iapply (segA_send_x m K c 6 9 (by omega) rfl _ (segA_peer10_b2 c _) fx) $$ [HS6 HX6 HOx6 HtSX6 HtRX6]
  · iframe HI HR HS6 HX6 HOx6 HtSX6 HtRX6
  iintro ⟨HcSX6, HOx7⟩
  sl_exec

  iapply (segA_send_x m K c 7 10 (by omega) rfl _ (segA_peer11_b2 c _) fx) $$ [HS7 HX7 HOx7 HtSX7 HtRX7]
  · iframe HI HR HS7 HX7 HOx7 HtSX7 HtRX7
  iintro ⟨HcSX7, HOx8⟩
  sl_exec

  iapply (segA_send_x m K c 8 11 (by omega) rfl _ (segA_peer12_b2 c _) fx) $$ [HS8 HX8 HOx8 HtSX8 HtRX8]
  · iframe HI HR HS8 HX8 HOx8 HtSX8 HtRX8
  iintro ⟨HcSX8, HOx9⟩
  sl_exec

  iapply (segA_send_x m K c 9 12 (by omega) rfl _ (segA_peer13_b2 c _) fx) $$ [HS9 HX9 HOx9 HtSX9 HtRX9]
  · iframe HI HR HS9 HX9 HOx9 HtSX9 HtRX9
  iintro ⟨HcSX9, HOx10⟩
  sl_exec

  iapply (segA_send_x m K c 10 13 (by omega) rfl _ (segA_peer14_b2 c _) fx) $$ [HS10 HX10 HOx10 HtSX10 HtRX10]
  · iframe HI HR HS10 HX10 HOx10 HtSX10 HtRX10
  iintro ⟨HcSX10, HOx11⟩
  sl_exec

  ihave #HMWL := (mayWait_lv c (.dma lsQ) (owedFrom c 14) 0 rfl (fun g u h => segA_owed_tc c 14 g u h)) $$ Hlev
  sl_exec
  iclear HpL_reached
  unfold lsPay
  icases HpL_pay1 with ⟨HxL, HaL⟩

  ihave Harg : ((a0M : Memref sig .tc .hbm S1x2048x1024 .f32).view.loc (c : Thread nD τ) ↦[(a0M : Memref sig .tc .hbm S1x2048x1024 .f32).view.set]{fullShare} A m c) $$ [HaL HaE HaC HaR]
  · iapply (arg_split c (A m c)).2
    isplitl [HaL]; · iexact HaL
    isplitl [HaE]; · iexact HaE
    isplitl [HaC]; · iexact HaC
    iexact HaR
  ihave HargW := (Entails.of_eq (segA_whl_eq c main_arg0 (A m c)).symm) $$ Harg
  ihave HxlW := (Entails.of_eq (segA_whl_eq c cc0_scratch0 (XL m c)).symm) $$ HxL
  ihave HxpW := (Entails.of_eq (segA_whl_eq c cc0_scratch1 (XP m c)).symm) $$ Hxp

  ihave Hny' := (Entails.of_eq (segA_barPay1 c)) $$ Hny
  icases Hny' with ⟨%fy, Hny⟩
  ihave HnyW := (Entails.of_eq (segA_whl_eq (yn c) cc0_scratch4 fy).symm) $$ Hny
  ihave Hnz' := (Entails.of_eq (segA_barPay2 c)) $$ Hnz
  icases Hnz' with ⟨%fz, Hnz⟩
  ihave HnzW := (Entails.of_eq (segA_whl_eq (zn c) cc0_scratch5 fz).symm) $$ Hnz

  rw [wp_ret]
  imodintro
  unfold StA pers records locals
  rw [segA_posAt_A]
  simp only [bigSep_fin11, bigSep_fin10]
  isplitr
  · isplitr
    · iframe HI HR
    · iexact Hlev
  isplitl [Hp0 HpL HpP0 HpP1 HpRest]
  · iframe Hp0 HpL HpP0 HpP1 HpRest
  isplitl [HtRY0 HtRY1 HtRY2 HtRY3 HtRY4 HtRY5 HtRY6 HtRY7 HtRY8 HtRY9 HtRY10 HtSY0 HtSY1 HtSY2 HtSY3 HtSY4 HtSY5 HtSY6 HtSY7 HtSY8 HtSY9 HtSY10]
  · iframe
  isplitl [HtRZ0 HtRZ1 HtRZ2 HtRZ3 HtRZ4 HtRZ5 HtRZ6 HtRZ7 HtRZ8 HtRZ9 HtSZ0 HtSZ1 HtSZ2 HtSZ3 HtSZ4 HtSZ5 HtSZ6 HtSZ7 HtSZ8 HtSZ9]
  · iframe
  isplitl [HcRX0 HcRX1 HcRX2 HcRX3 HcRX4 HcRX5 HcRX6 HcRX7 HcRX8 HcRX9 HcRX10 HcRY0 HcRY1 HcRY2 HcRY3 HcRY4 HcRY5 HcRY6 HcRY7 HcRY8 HcRY9 HcRY10 HcSX0 HcSX1 HcSX2 HcSX3 HcSX4 HcSX5 HcSX6 HcSX7 HcSX8 HcSX9 HcSX10]
  · iframe
  isplitl [HcRZ0 HcRZ1 HcRZ2 HcRZ3 HcRZ4 HcRZ5 HcRZ6 HcRZ7 HcRZ8 HcRZ9]
  · iframe
  isplitl [HOx11]
  · iexists _; iexact HOx11
  isplitl [HargW HxlW HxpW]
  · iframe
  isplitl [HnyW]
  · iexists fy; iexact HnyW
  isplitl [HnzW]
  · iexists fz; iexact HnzW
  iexact Hout

end Cert.KernelIdeal.Rs

end
-- ==== Proof.SegB2.lean ====
import proofs.«901021_g7700000000001022_dist_rs_v7x_xyz2x2x2_x_m2048_n512_f32_1_alg».proof.Proof.Cond
import proofs.«901021_g7700000000001022_dist_rs_v7x_xyz2x2x2_x_m2048_n512_f32_1_alg».proof.Proof.Seg2
import proofs.«901021_g7700000000001022_dist_rs_v7x_xyz2x2x2_x_m2048_n512_f32_1_alg».proof.Proof.Chunks
import proofs.«901021_g7700000000001022_dist_rs_v7x_xyz2x2x2_x_m2048_n512_f32_1_alg».proof.Proof.Rows
import proofs.«901021_g7700000000001022_dist_rs_v7x_xyz2x2x2_x_m2048_n512_f32_1_alg».proof.Proof.Land
import proofs.«901021_g7700000000001022_dist_rs_v7x_xyz2x2x2_x_m2048_n512_f32_1_alg».proof.Proof.OutValue
import proofs.«901021_g7700000000001022_dist_rs_v7x_xyz2x2x2_x_m2048_n512_f32_1_alg».proof.Proof.StepsB

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_d amount_bar amount_d payload_bar payload_d expect_bar expect_d
  amtQ_ls amtQ_ps0 amtQ_ps1 amtQ_sx amtQ_rx amtQ_sy amtQ_ry amtQ_sz amtQ_rz payQ_ls payQ_ps0 payQ_ps1 payQ_sx payQ_rx payQ_sy payQ_ry payQ_sz payQ_rz

theorem st1_at_b2 (c : Dev nD) (off : Fin 2 → ℕ) (hoff : off = ![erow c, 0]) (inb : ∀ a, off a + S320x512.size a ≤ S2048x512.size a)
    (g : (cc0_stg0_0 : Ref sig .tc).ty.Contents (Elt F)) :
    ((oM.access (Rect.unit (s := S2048x512) off S320x512.size inb) : View sig .tc _ _ _).write (Elt F) g
      (k0_pay9 (xlM.view.readAt (Elt F) (Rect.unit (s := S2048x512) off S320x512.size inb).toLoadRect (XL m c)) (xrM.view.readAt (Elt F) Ra.toLoadRect (XR m c))) Finset.univ)
      = st1 m c g := by
  subst hoff; rfl

theorem st2_at_b2 (c : Dev nD) (off : Fin 2 → ℕ) (hoff : off = ![crow c, 0]) (inb : ∀ a, off a + S384x512.size a ≤ S2048x512.size a)
    (g : (cc0_stg0_0 : Ref sig .tc).ty.Contents (Elt F)) :
    ((oM.access (Rect.unit (s := S2048x512) off S384x512.size inb) : View sig .tc _ _ _).write (Elt F) g
      (k0_pay10 (xlM.view.readAt (Elt F) (Rect.unit (s := S2048x512) off S384x512.size inb).toLoadRect (XL m c)) (xrM.view.readAt (Elt F) Rb.toLoadRect (XR m c))) Finset.univ)
      = st2 m c g := by
  subst hoff; rfl

-- Stretch B on a device with x = 1: each chunk from the x neighbour arrives and goes on along y, the first five along z too; two row ranges of the result are stored.
set_option maxHeartbeats 4000000 in

theorem segB2_run (K : Dev nD × Fin 68 → ℕ) (c : Dev nD) (hx : c.val / 4 = 1) (g0 : Buf (Elt F) ((c : Thread nD τ).loc cc0_stg0_0))
    (v2 v5 v8 v9 v10 v11 v15 v18 v23 v27 v32 v38 : BitVec 32) :
    StA m K c g0 ⊢ wp frame (wpE (defs₀ (F := F)) 𝒱₀ (c : Thread nD τ) none) Set.univ
      (segB2 (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v5 v8 v9 v10 v11 v15 v18 v23 v27 v32 v38 (cond2_of c hx))
      (fun _ => StB m K c g0) := by
  unfold StA pers records locals
  rw [posA_eq]
  simp only [bigSep_fin11, bigSep_fin10]
  iintro ⟨⟨⟨#HI, #HR⟩, #Hlev⟩, ⟨⟨HpX0, HpX1, HpX2, HpX3, HpX4, HpX5, HpX6, HpX7, HpX8, HpX9, HpX10, HpY0⟩, Hprest⟩,
    ⟨⟨HtRY0, HtSY0⟩, ⟨HtRY1, HtSY1⟩, ⟨HtRY2, HtSY2⟩, ⟨HtRY3, HtSY3⟩, ⟨HtRY4, HtSY4⟩, ⟨HtRY5, HtSY5⟩, ⟨HtRY6, HtSY6⟩, ⟨HtRY7, HtSY7⟩, ⟨HtRY8, HtSY8⟩, ⟨HtRY9, HtSY9⟩, ⟨HtRY10, HtSY10⟩⟩,
    ⟨⟨HtRZ0, HtSZ0⟩, ⟨HtRZ1, HtSZ1⟩, ⟨HtRZ2, HtSZ2⟩, ⟨HtRZ3, HtSZ3⟩, ⟨HtRZ4, HtSZ4⟩, ⟨HtRZ5, HtSZ5⟩, ⟨HtRZ6, HtSZ6⟩, ⟨HtRZ7, HtSZ7⟩, ⟨HtRZ8, HtSZ8⟩, ⟨HtRZ9, HtSZ9⟩⟩,
    ⟨⟨HcRX0, HcRY0, HcSX0⟩, ⟨HcRX1, HcRY1, HcSX1⟩, ⟨HcRX2, HcRY2, HcSX2⟩, ⟨HcRX3, HcRY3, HcSX3⟩, ⟨HcRX4, HcRY4, HcSX4⟩, ⟨HcRX5, HcRY5, HcSX5⟩, ⟨HcRX6, HcRY6, HcSX6⟩, ⟨HcRX7, HcRY7, HcSX7⟩, ⟨HcRX8, HcRY8, HcSX8⟩, ⟨HcRX9, HcRY9, HcSX9⟩, ⟨HcRX10, HcRY10, HcSX10⟩⟩,
    ⟨HcRZ0, HcRZ1, HcRZ2, HcRZ3, HcRZ4, HcRZ5, HcRZ6, HcRZ7, HcRZ8, HcRZ9⟩,
    ⟨%W, HO⟩, ⟨Harg, Hxl, Hxp⟩, ⟨%fy, Hyr⟩, ⟨%fz, Hzr⟩, Hout⟩
  unfold whl
  ihave #HIrx0 := (inv_d m K c (rxQ 0) (by decide)) $$ HI
  ihave #HIrx1 := (inv_d m K c (rxQ 1) (by decide)) $$ HI
  ihave #HIrx2 := (inv_d m K c (rxQ 2) (by decide)) $$ HI
  ihave #HIrx3 := (inv_d m K c (rxQ 3) (by decide)) $$ HI
  ihave #HIrx4 := (inv_d m K c (rxQ 4) (by decide)) $$ HI
  ihave #HIrx5 := (inv_d m K c (rxQ 5) (by decide)) $$ HI
  ihave #HIrx6 := (inv_d m K c (rxQ 6) (by decide)) $$ HI
  ihave #HIrx7 := (inv_d m K c (rxQ 7) (by decide)) $$ HI
  ihave #HIrx8 := (inv_d m K c (rxQ 8) (by decide)) $$ HI
  ihave #HIrx9 := (inv_d m K c (rxQ 9) (by decide)) $$ HI
  ihave #HIrx10 := (inv_d m K c (rxQ 10) (by decide)) $$ HI
  ihave #HIry0 := (inv_d m K c (ryQ 0) (by decide)) $$ HI
  ihave Hmw0 := (mayWait_lv c (.dma (rxQ 0)) (owedFrom c (14)) 2 rfl (owed_above2 c _ (by omega))) $$ Hlev
  ihave Hmw1 := (mayWait_lv c (.dma (rxQ 1)) (owedFrom c (14 + 1 + 1)) 2 rfl (owed_above2 c _ (by omega))) $$ Hlev
  ihave Hmw2 := (mayWait_lv c (.dma (rxQ 2)) (owedFrom c (14 + 1 + 1 + 1 + 1)) 2 rfl (owed_above2 c _ (by omega))) $$ Hlev
  ihave Hmw3 := (mayWait_lv c (.dma (rxQ 3)) (owedFrom c (14 + 1 + 1 + 1 + 1 + 1 + 1)) 2 rfl (owed_above2 c _ (by omega))) $$ Hlev
  ihave Hmw4 := (mayWait_lv c (.dma (rxQ 4)) (owedFrom c (14 + 1 + 1 + 1 + 1 + 1 + 1 + 1 + 1)) 2 rfl (owed_above2 c _ (by omega))) $$ Hlev
  ihave Hmw5 := (mayWait_lv c (.dma (rxQ 5)) (owedFrom c (14 + 1 + 1 + 1 + 1 + 1 + 1 + 1 + 1 + 1 + 1)) 2 rfl (owed_above2 c _ (by omega))) $$ Hlev
  ihave Hmw6 := (mayWait_lv c (.dma (rxQ 6)) (owedFrom c (14 + 1 + 1 + 1 + 1 + 1 + 1 + 1 + 1 + 1 + 1 + 1)) 2 rfl (owed_above2 c _ (by omega))) $$ Hlev
  ihave Hmw7 := (mayWait_lv c (.dma (rxQ 7)) (owedFrom c (14 + 1 + 1 + 1 + 1 + 1 + 1 + 1 + 1 + 1 + 1 + 1 + 1)) 2 rfl (owed_above2 c _ (by omega))) $$ Hlev
  ihave Hmw8 := (mayWait_lv c (.dma (rxQ 8)) (owedFrom c (14 + 1 + 1 + 1 + 1 + 1 + 1 + 1 + 1 + 1 + 1 + 1 + 1 + 1)) 2 rfl (owed_above2 c _ (by omega))) $$ Hlev
  ihave Hmw9 := (mayWait_lv c (.dma (rxQ 9)) (owedFrom c (14 + 1 + 1 + 1 + 1 + 1 + 1 + 1 + 1 + 1 + 1 + 1 + 1 + 1 + 1)) 2 rfl (owed_above2 c _ (by omega))) $$ Hlev
  ihave Hmw10 := (mayWait_lv c (.dma (rxQ 10)) (owedFrom c (14 + 1 + 1 + 1 + 1 + 1 + 1 + 1 + 1 + 1 + 1 + 1 + 1 + 1 + 1 + 1)) 2 rfl (owed_above2 c _ (by omega))) $$ Hlev
  ihave HmwY := (mayWait_lv c (.dma (ryQ 0)) (owedFrom c (14 + 1 + 1 + 1 + 1 + 1 + 1 + 1 + 1 + 1 + 1 + 1 + 1 + 1 + 1 + 1 + 1)) 3 rfl (owed_above3 c _ (by omega))) $$ Hlev
  ihave Hyc := (Entails.of_eq (yr_cut11 (F := F) (yn c) fy)) $$ Hyr
  icases Hyc with ⟨Hy0, Hy1, Hy2, Hy3, Hy4, Hy5, Hy6, Hy7, Hy8, Hy9, Hy10⟩
  ihave Hzc := (Entails.of_eq (zr_cut10 (F := F) (zn c) fz)) $$ Hzr
  icases Hzc with ⟨Hz0, Hz1, Hz2, Hz3, Hz4, Hz5, Hz6, Hz7, Hz8, Hz9⟩
  ihave Hout := (aside_in _) $$ Hout
  sl_unfold [segB2]
  sl_exec
  unfold rxPay
  icases HpX0_pay1 with ⟨HxL0, HxRL0, HxRR0⟩
  iapply (send_y m K c 0 (14) (by omega) rfl _ (devY_eq c _ _ (k0_dev50_eq c)) fy _) $$ [HxL0 Hy0 HO HtSY0 HtRY0]
  · iframe HI HR HxL0 Hy0 HO HtSY0 HtRY0
  iintro ⟨HcSY0, HO⟩
  sl_exec
  iapply (send_z m K c 0 0 0 rfl rfl (14 + 1) (by omega) rfl _ (devZ_eq c _ _ (k0_dev51_eq c)) fz _) $$ [HxRL0 Hz0 HO HtSZ0 HtRZ0]
  · iframe HI HR HxRL0 Hz0 HO HtSZ0 HtRZ0
  iintro ⟨HcSZ0, HO⟩
  sl_exec
  unfold rxPay
  icases HpX1_pay1 with ⟨HxL1, HxRL1, HxRR1⟩
  iapply (send_y m K c 1 (14 + 1 + 1) (by omega) rfl _ (devY_eq c _ _ (k0_dev52_eq c)) fy _) $$ [HxL1 Hy1 HO HtSY1 HtRY1]
  · iframe HI HR HxL1 Hy1 HO HtSY1 HtRY1
  iintro ⟨HcSY1, HO⟩
  sl_exec
  iapply (send_z m K c 1 1 1 rfl rfl (14 + 1 + 1 + 1) (by omega) rfl _ (devZ_eq c _ _ (k0_dev53_eq c)) fz _) $$ [HxRL1 Hz1 HO HtSZ1 HtRZ1]
  · iframe HI HR HxRL1 Hz1 HO HtSZ1 HtRZ1
  iintro ⟨HcSZ1, HO⟩
  sl_exec
  unfold rxPay
  icases HpX2_pay1 with ⟨HxL2, HxRL2, HxRR2⟩
  iapply (send_y m K c 2 (14 + 1 + 1 + 1 + 1) (by omega) rfl _ (devY_eq c _ _ (k0_dev54_eq c)) fy _) $$ [HxL2 Hy2 HO HtSY2 HtRY2]
  · iframe HI HR HxL2 Hy2 HO HtSY2 HtRY2
  iintro ⟨HcSY2, HO⟩
  sl_exec
  iapply (send_z m K c 2 2 2 rfl rfl (14 + 1 + 1 + 1 + 1 + 1) (by omega) rfl _ (devZ_eq c _ _ (k0_dev55_eq c)) fz _) $$ [HxRL2 Hz2 HO HtSZ2 HtRZ2]
  · iframe HI HR HxRL2 Hz2 HO HtSZ2 HtRZ2
  iintro ⟨HcSZ2, HO⟩
  sl_exec
  unfold rxPay
  icases HpX3_pay1 with ⟨HxL3, HxRL3, HxRR3⟩
  iapply (send_y m K c 3 (14 + 1 + 1 + 1 + 1 + 1 + 1) (by omega) rfl _ (devY_eq c _ _ (k0_dev56_eq c)) fy _) $$ [HxL3 Hy3 HO HtSY3 HtRY3]
  · iframe HI HR HxL3 Hy3 HO HtSY3 HtRY3
  iintro ⟨HcSY3, HO⟩
  sl_exec
  iapply (send_z m K c 3 3 3 rfl rfl (14 + 1 + 1 + 1 + 1 + 1 + 1 + 1) (by omega) rfl _ (devZ_eq c _ _ (k0_dev57_eq c)) fz _) $$ [HxRL3 Hz3 HO HtSZ3 HtRZ3]
  · iframe HI HR HxRL3 Hz3 HO HtSZ3 HtRZ3
  iintro ⟨HcSZ3, HO⟩
  sl_exec
  unfold rxPay
  icases HpX4_pay1 with ⟨HxL4, HxRL4, HxRR4⟩
  iapply (send_y m K c 4 (14 + 1 + 1 + 1 + 1 + 1 + 1 + 1 + 1) (by omega) rfl _ (devY_eq c _ _ (k0_dev58_eq c)) fy _) $$ [HxL4 Hy4 HO HtSY4 HtRY4]
  · iframe HI HR HxL4 Hy4 HO HtSY4 HtRY4
  iintro ⟨HcSY4, HO⟩
  sl_exec
  iapply (send_z m K c 4 4 4 rfl rfl (14 + 1 + 1 + 1 + 1 + 1 + 1 + 1 + 1 + 1) (by omega) rfl _ (devZ_eq c _ _ (k0_dev59_eq c)) fz _) $$ [HxRL4 Hz4 HO HtSZ4 HtRZ4]
  · iframe HI HR HxRL4 Hz4 HO HtSZ4 HtRZ4
  iintro ⟨HcSZ4, HO⟩
  iapply (wp_load 𝒱₀ (c : Thread nD τ) none Set.univ (m := xlM) (S := Finset.univ) (q := fullShare) (f := XL m c) (Finset.subset_univ _)) $$ Hxl
  iintro Hxl
  ihave Hlo := (Entails.of_eq (xr_lo_join m c)) $$ [HxRR0 HxRR1 HxRR2 HxRR3 HxRR4]
  · iframe HxRR0 HxRR1 HxRR2 HxRR3 HxRR4
  iapply (wp_load 𝒱₀ (c : Thread nD τ) none Set.univ (m := xrM) (S := rowsLo xrM) (q := qRR) (f := XR m c) (load_lo xrM)) $$ Hlo
  iintro Hlo
  ihave Hout := (aside_out _) $$ Hout
  iapply (wp_load 𝒱₀ (c : Thread nD τ) none Set.univ (m := oM) (S := Finset.univ) (q := fullShare) (f := g0) (Finset.subset_univ _)) $$ Hout
  iintro Hout
  iapply (wp_store 𝒱₀ (c : Thread nD τ) none Set.univ (m := oM) (r := Rect.unit (s := S2048x512) (k0_off11 c) S320x512.size (k0_off11_inb c (cond2_of c hx))) (Mk := Finset.univ) (S := Finset.univ) (f := g0) (Finset.subset_univ _)) $$ Hout
  iintro Hout
  iapply (wp_ret_bind c _ _)
  ihave Hout := (Entails.of_eq (congrArg (fun f => (((c : Thread nD τ).loc cc0_stg0_0) ↦{fullShare} f : sProp 𝕄)) (st1_at_b2 m c _ (k0_off11_eq c) _ g0))) $$ Hout
  ihave Hout := (aside_in _) $$ Hout
  sl_exec
  unfold rxPay
  icases HpX5_pay1 with ⟨HxL5, HxRL5, HxRR5⟩
  iapply (send_y m K c 5 (14 + 1 + 1 + 1 + 1 + 1 + 1 + 1 + 1 + 1 + 1) (by omega) rfl _ (devY_eq c _ _ (k0_dev60_eq c)) fy _) $$ [HxL5 Hy5 HO HtSY5 HtRY5]
  · iframe HI HR HxL5 Hy5 HO HtSY5 HtRY5
  iintro ⟨HcSY5, HO⟩
  sl_exec
  unfold rxPay
  icases HpX6_pay1 with ⟨HxL6, HxRL6, HxRR6⟩
  iapply (send_y m K c 6 (14 + 1 + 1 + 1 + 1 + 1 + 1 + 1 + 1 + 1 + 1 + 1) (by omega) rfl _ (devY_eq c _ _ (k0_dev61_eq c)) fy _) $$ [HxL6 Hy6 HO HtSY6 HtRY6]
  · iframe HI HR HxL6 Hy6 HO HtSY6 HtRY6
  iintro ⟨HcSY6, HO⟩
  sl_exec
  unfold rxPay
  icases HpX7_pay1 with ⟨HxL7, HxRL7, HxRR7⟩
  iapply (send_y m K c 7 (14 + 1 + 1 + 1 + 1 + 1 + 1 + 1 + 1 + 1 + 1 + 1 + 1) (by omega) rfl _ (devY_eq c _ _ (k0_dev62_eq c)) fy _) $$ [HxL7 Hy7 HO HtSY7 HtRY7]
  · iframe HI HR HxL7 Hy7 HO HtSY7 HtRY7
  iintro ⟨HcSY7, HO⟩
  sl_exec
  unfold rxPay
  icases HpX8_pay1 with ⟨HxL8, HxRL8, HxRR8⟩
  iapply (send_y m K c 8 (14 + 1 + 1 + 1 + 1 + 1 + 1 + 1 + 1 + 1 + 1 + 1 + 1 + 1) (by omega) rfl _ (devY_eq c _ _ (k0_dev63_eq c)) fy _) $$ [HxL8 Hy8 HO HtSY8 HtRY8]
  · iframe HI HR HxL8 Hy8 HO HtSY8 HtRY8
  iintro ⟨HcSY8, HO⟩
  sl_exec
  unfold rxPay
  icases HpX9_pay1 with ⟨HxL9, HxRL9, HxRR9⟩
  iapply (send_y m K c 9 (14 + 1 + 1 + 1 + 1 + 1 + 1 + 1 + 1 + 1 + 1 + 1 + 1 + 1 + 1) (by omega) rfl _ (devY_eq c _ _ (k0_dev64_eq c)) fy _) $$ [HxL9 Hy9 HO HtSY9 HtRY9]
  · iframe HI HR HxL9 Hy9 HO HtSY9 HtRY9
  iintro ⟨HcSY9, HO⟩
  sl_exec
  unfold rxPay
  icases HpX10_pay1 with ⟨HxL10, HxRL10, HxRR10⟩
  iapply (send_y m K c 10 (14 + 1 + 1 + 1 + 1 + 1 + 1 + 1 + 1 + 1 + 1 + 1 + 1 + 1 + 1 + 1) (by omega) rfl _ (devY_eq c _ _ (k0_dev65_eq c)) fy _) $$ [HxL10 Hy10 HO HtSY10 HtRY10]
  · iframe HI HR HxL10 Hy10 HO HtSY10 HtRY10
  iintro ⟨HcSY10, HO⟩
  iapply (wp_load 𝒱₀ (c : Thread nD τ) none Set.univ (m := xlM) (S := Finset.univ) (q := fullShare) (f := XL m c) (Finset.subset_univ _)) $$ Hxl
  iintro Hxl
  ihave Hhi := (Entails.of_eq (xr_hi_join m c)) $$ [HxRR5 HxRR6 HxRR7 HxRR8 HxRR9 HxRR10]
  · iframe HxRR5 HxRR6 HxRR7 HxRR8 HxRR9 HxRR10
  iapply (wp_load 𝒱₀ (c : Thread nD τ) none Set.univ (m := xrM) (S := rowsHi xrM) (q := qRR) (f := XR m c) (load_hi xrM)) $$ Hhi
  iintro Hhi
  ihave Hout := (aside_out _) $$ Hout
  iapply (wp_load 𝒱₀ (c : Thread nD τ) none Set.univ (m := oM) (S := Finset.univ) (q := fullShare) (f := (st1 m c g0)) (Finset.subset_univ _)) $$ Hout
  iintro Hout
  iapply (wp_store 𝒱₀ (c : Thread nD τ) none Set.univ (m := oM) (r := Rect.unit (s := S2048x512) (k0_off12 c) S384x512.size (k0_off12_inb c (cond2_of c hx))) (Mk := Finset.univ) (S := Finset.univ) (f := (st1 m c g0)) (Finset.subset_univ _)) $$ Hout
  iintro Hout
  iapply (wp_ret_bind c _ _)
  ihave Hout := (Entails.of_eq (congrArg (fun f => (((c : Thread nD τ).loc cc0_stg0_0) ↦{fullShare} f : sProp 𝕄)) (st2_at_b2 m c _ (k0_off12_eq c) _ (st1 m c g0)))) $$ Hout
  ihave Hout := (aside_in _) $$ Hout
  sl_exec
  rw [wp_ret]
  imodintro
  unfold ryPay
  icases HpY0_pay1 with ⟨HyL, HyR⟩
  ihave Hc5 := (Entails.of_eq (xr_lo_join m c).symm) $$ Hlo
  icases Hc5 with ⟨HxRR0, HxRR1, HxRR2, HxRR3, HxRR4⟩
  ihave Hc6 := (Entails.of_eq (xr_hi_join m c).symm) $$ Hhi
  icases Hc6 with ⟨HxRR5, HxRR6, HxRR7, HxRR8, HxRR9, HxRR10⟩
  ihave Hout := (aside_out _) $$ Hout
  iclear HpX0_reached HpX1_reached HpX2_reached HpX3_reached HpX4_reached HpX5_reached HpX6_reached HpX7_reached HpX8_reached HpX9_reached HpX10_reached HpY0_reached
  unfold StB pers records locals whl
  rw [posB_eq]
  isplitr
  · isplitr
    · iframe HI HR
    iexact Hlev
  isplitl [HpX0 HpX1 HpX2 HpX3 HpX4 HpX5 HpX6 HpX7 HpX8 HpX9 HpX10 HpY0 Hprest]
  · iframe
  isplitl [HtRZ5 HtSZ5 HtRZ6 HtSZ6 HtRZ7 HtSZ7 HtRZ8 HtSZ8 HtRZ9 HtSZ9]
  · iapply (Entails.of_eq (bigSep_10_ge5 _).symm); iframe
  isplitl [HcSX0 HcSY0 HcSX1 HcSY1 HcSX2 HcSY2 HcSX3 HcSY3 HcSX4 HcSY4 HcSX5 HcSY5 HcSX6 HcSY6 HcSX7 HcSY7 HcSX8 HcSY8 HcSX9 HcSY9 HcSX10 HcSY10]
  · iapply (Entails.of_eq (bigSep_fin11 _).symm); iframe
  isplitl [HcRY1 HcRY2 HcRY3 HcRY4 HcRY5 HcRY6 HcRY7 HcRY8 HcRY9 HcRY10]
  · iapply (Entails.of_eq (b_S11_ge1 _).symm); iframe
  isplitl [HcRZ0 HcRZ1 HcRZ2 HcRZ3 HcRZ4 HcRZ5 HcRZ6 HcRZ7 HcRZ8 HcRZ9]
  · iapply (Entails.of_eq (bigSep_fin10 _).symm); iframe
  isplitl [HcSZ0 HcSZ1 HcSZ2 HcSZ3 HcSZ4]
  · iapply (Entails.of_eq (bigSep_10_lt5 _).symm); iframe
  isplitl [HO]
  · iexists _; iexact HO
  isplitl [Harg Hxl Hxp]
  · iframe
  isplitl [HxRR0 HxRR1 HxRR2 HxRR3 HxRR4 HxRR5 HxRR6 HxRR7 HxRR8 HxRR9 HxRR10]
  · iapply (Entails.of_eq (bigSep_fin11 _).symm); iframe
  isplitl [HxRL5 HxRL6 HxRL7 HxRL8 HxRL9 HxRL10]
  · iapply (Entails.of_eq (bigSep_11_ge5 _).symm); iframe
  isplitl [HyL]; · iexact HyL
  isplitl [HyR]; · iexact HyR
  isplitl [Hz5 Hz6 Hz7 Hz8 Hz9]
  · iapply (Entails.of_eq (bigSep_10_ge5 _).symm)
    isplitl [Hz5]; · iexists fz; iexact Hz5
    isplitl [Hz6]; · iexists fz; iexact Hz6
    isplitl [Hz7]; · iexists fz; iexact Hz7
    isplitl [Hz8]; · iexists fz; iexact Hz8
    iexists fz; iexact Hz9
  iexact Hout

end Cert.KernelIdeal.Rs

end
-- ==== Proof.SegC2.lean ====
import proofs.«901021_g7700000000001022_dist_rs_v7x_xyz2x2x2_x_m2048_n512_f32_1_alg».proof.Proof.Cond
import proofs.«901021_g7700000000001022_dist_rs_v7x_xyz2x2x2_x_m2048_n512_f32_1_alg».proof.Proof.Seg2
import proofs.«901021_g7700000000001022_dist_rs_v7x_xyz2x2x2_x_m2048_n512_f32_1_alg».proof.Proof.Chunks
import proofs.«901021_g7700000000001022_dist_rs_v7x_xyz2x2x2_x_m2048_n512_f32_1_alg».proof.Proof.Rows
import proofs.«901021_g7700000000001022_dist_rs_v7x_xyz2x2x2_x_m2048_n512_f32_1_alg».proof.Proof.Land
import proofs.«901021_g7700000000001022_dist_rs_v7x_xyz2x2x2_x_m2048_n512_f32_1_alg».proof.Proof.OutValue
import proofs.«901021_g7700000000001022_dist_rs_v7x_xyz2x2x2_x_m2048_n512_f32_1_alg».proof.Proof.Stor
import proofs.«901021_g7700000000001022_dist_rs_v7x_xyz2x2x2_x_m2048_n512_f32_1_alg».proof.Proof.StepsC

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

@[sl_canon] theorem segC_dev31_b2 (c : Dev nD) (h : k0_cond2 c = 1#1) : (⟨k0_dev66 c, k0_dev66_lt c h⟩ : Dev nD) = zn c :=
  Fin.ext ((k0_dev66_eq c).trans (zn_val c).symm)
@[sl_canon] theorem segC_dev32_b2 (c : Dev nD) (h : k0_cond2 c = 1#1) : (⟨k0_dev67 c, k0_dev67_lt c h⟩ : Dev nD) = zn c :=
  Fin.ext ((k0_dev67_eq c).trans (zn_val c).symm)
@[sl_canon] theorem segC_dev33_b2 (c : Dev nD) (h : k0_cond2 c = 1#1) : (⟨k0_dev68 c, k0_dev68_lt c h⟩ : Dev nD) = zn c :=
  Fin.ext ((k0_dev68_eq c).trans (zn_val c).symm)
@[sl_canon] theorem segC_dev34_b2 (c : Dev nD) (h : k0_cond2 c = 1#1) : (⟨k0_dev69 c, k0_dev69_lt c h⟩ : Dev nD) = zn c :=
  Fin.ext ((k0_dev69_eq c).trans (zn_val c).symm)
@[sl_canon] theorem segC_dev35_b2 (c : Dev nD) (h : k0_cond2 c = 1#1) : (⟨k0_dev70 c, k0_dev70_lt c h⟩ : Dev nD) = zn c :=
  Fin.ext ((k0_dev70_eq c).trans (zn_val c).symm)

attribute [local sl_rounds] duties_bar duties_d amount_bar amount_d payload_bar payload_d expect_bar expect_d
  amtQ_ls amtQ_ps0 amtQ_ps1 amtQ_sx amtQ_rx amtQ_sy amtQ_ry amtQ_sz amtQ_rz payQ_ls payQ_ps0 payQ_ps1 payQ_sx payQ_rx payQ_sy payQ_ry payQ_sz payQ_rz

theorem segC_ryPay_b2 (c : Dev nD) (k : Fin 11) : ryPay m c k =
    iprop(((ch yrM k).view.loc (c : Thread nD τ) ↦[(ch yrM k).view.set]{qL} YR m c)
      ∗ ((ch yrM k).view.loc (c : Thread nD τ) ↦[(ch yrM k).view.set]{qR} YR m c)) := rfl
theorem segC_rzPay_b2 (c : Dev nD) (j : Fin 10) : rzPay m c j =
    ((chz zrM j).view.loc (c : Thread nD τ) ↦[(chz zrM j).view.set]{fullShare} ZR m c) := rfl
theorem segC_sxPay_b2 (c : Dev nD) (k : Fin 11) : sxPay m c k =
    ((ch xsM k).view.loc (c : Thread nD τ) ↦[(ch xsM k).view.set]{fullShare} XS m c) := rfl
theorem segC_syPay_b2 (c : Dev nD) (k : Fin 11) : syPay m c k =
    ((ch xrM k).view.loc (c : Thread nD τ) ↦[(ch xrM k).view.set]{qL} XR m c) := rfl
attribute [local sl_rounds] segC_ryPay_b2 segC_rzPay_b2 segC_sxPay_b2 segC_syPay_b2

theorem segC_recI_b2 (K : Dev nD × Fin 68 → ℕ) :
    records m K ⊢ (bigSep Finset.univ fun ck : Dev nD × Fin 68 => (cellInv ER (rsRd m) (K ck) (kcell ck) : sProp 𝕄)) := by
  unfold records
  iintro ⟨H, -⟩
  iexact H

local macro "segC_adv" : tactic => `(tactic| try sl_exec)

local macro "segC_ret" : tactic => `(tactic| (iapply (Idealize.SL.Sem.le_wp_ret _ _); try sl_exec))

-- Stretch C on a device with x = 1: the chunks from the y neighbour arrive and five go on along z; the last four row ranges are stored.
set_option maxHeartbeats 8000000 in

theorem segC2_run (K : Dev nD × Fin 68 → ℕ) (c : Dev nD) (hx : c.val / 4 = 1) (g0 : Buf (Elt F) ((c : Thread nD τ).loc cc0_stg0_0))
    (v2 v5 v8 v9 v10 v11 v15 v18 v23 v27 v32 v38 : BitVec 32) :
    StB m K c g0 ⊢ wp frame (wpE (defs₀ (F := F)) 𝒱₀ (c : Thread nD τ) none) Set.univ
      (segC2 (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v5 v8 v9 v10 v11 v15 v18 v23 v27 v32 v38 (cond2_of c hx))
      (fun _ => StC m K c g0) := by
  unfold StB pers locals
  rw [segC_posAt_split (F := F) c _ segC_cells (by decide) 0 (by decide), segC_owed30]
  simp only [bigSep_fin11, bigSep_fin10, segC_S10_ge5, segC_S10_lt5, bigSep_ge1, bigSep_ge5, segC_cells_list]
  iintro ⟨⟨#Hrec, #Hlev⟩, ⟨⟨Hp_ry1, Hp_ry2, Hp_ry3, Hp_ry4, Hp_ry5, Hp_ry6, Hp_ry7, Hp_ry8, Hp_ry9, Hp_ry10, Hp_rz0, Hp_rz1, Hp_rz2, Hp_rz3, Hp_rz4, Hp_rz5, Hp_rz6, Hp_rz7, Hp_rz8, Hp_rz9, Hp_sx0, Hp_sy0⟩, Hprest⟩,
    ⟨⟨HtRZ5, HtSZ5⟩, ⟨HtRZ6, HtSZ6⟩, ⟨HtRZ7, HtSZ7⟩, ⟨HtRZ8, HtSZ8⟩, ⟨HtRZ9, HtSZ9⟩⟩,
    ⟨⟨HcSX0, HcSY0⟩, Hcs1, Hcs2, Hcs3, Hcs4, Hcs5, Hcs6, Hcs7, Hcs8, Hcs9, Hcs10⟩,
    ⟨HcRY1, HcRY2, HcRY3, HcRY4, HcRY5, HcRY6, HcRY7, HcRY8, HcRY9, HcRY10⟩,
    ⟨HcRZ0, HcRZ1, HcRZ2, HcRZ3, HcRZ4, HcRZ5, HcRZ6, HcRZ7, HcRZ8, HcRZ9⟩,
    ⟨HcSZ0, HcSZ1, HcSZ2, HcSZ3, HcSZ4⟩,
    ⟨%W, HO⟩, ⟨Harg, Hxl, Hxp⟩, HxRR, HxRL, Hy0L, Hy0R,
    ⟨⟨%fz5, Hz5⟩, ⟨%fz6, Hz6⟩, ⟨%fz7, Hz7⟩, ⟨%fz8, Hz8⟩, ⟨%fz9, Hz9⟩⟩, Hout⟩
  have hz0 := segC_zonly_zero c
  have hz9 := segC_zonly_add c hz0 9
  have hz8 := segC_zonly_add c hz9 8
  have hz7 := segC_zonly_add c hz8 7
  have hz6 := segC_zonly_add c hz7 6
  have hc1 := cond2_of c hx
  have hmw1 : (levAts L lv : sProp 𝕄) ⊢ MayWait (c : Thread nD τ) (.dma (ryQ 1)) () (0 + segC_T c 9 + segC_T c 8 + segC_T c 7 + segC_T c 6) := segC_mayWait_ry c 1 _ hz6
  have hmw2 : (levAts L lv : sProp 𝕄) ⊢ MayWait (c : Thread nD τ) (.dma (ryQ 2)) () (0 + segC_T c 9 + segC_T c 8 + segC_T c 7) := segC_mayWait_ry c 2 _ hz7
  have hmw3 : (levAts L lv : sProp 𝕄) ⊢ MayWait (c : Thread nD τ) (.dma (ryQ 3)) () (0 + segC_T c 9 + segC_T c 8) := segC_mayWait_ry c 3 _ hz8
  have hmw4 : (levAts L lv : sProp 𝕄) ⊢ MayWait (c : Thread nD τ) (.dma (ryQ 4)) () (0 + segC_T c 9) := segC_mayWait_ry c 4 _ hz9
  ihave #HI := (segC_recI_b2 m K) $$ Hrec
  ihave #HI_ry1 := (inv_d m K c (ryQ 1) (by decide)) $$ HI
  ihave #HI_ry2 := (inv_d m K c (ryQ 2) (by decide)) $$ HI
  ihave #HI_ry3 := (inv_d m K c (ryQ 3) (by decide)) $$ HI
  ihave #HI_ry4 := (inv_d m K c (ryQ 4) (by decide)) $$ HI
  ihave #HI_ry5 := (inv_d m K c (ryQ 5) (by decide)) $$ HI
  ihave #HI_ry6 := (inv_d m K c (ryQ 6) (by decide)) $$ HI
  ihave #HI_ry7 := (inv_d m K c (ryQ 7) (by decide)) $$ HI
  ihave #HI_ry8 := (inv_d m K c (ryQ 8) (by decide)) $$ HI
  ihave #HI_ry9 := (inv_d m K c (ryQ 9) (by decide)) $$ HI
  ihave #HI_ry10 := (inv_d m K c (ryQ 10) (by decide)) $$ HI
  ihave #HI_rz0 := (inv_d m K c (rzQ 0) (by decide)) $$ HI
  ihave #HI_rz1 := (inv_d m K c (rzQ 1) (by decide)) $$ HI
  ihave #HI_rz2 := (inv_d m K c (rzQ 2) (by decide)) $$ HI
  ihave #HI_rz3 := (inv_d m K c (rzQ 3) (by decide)) $$ HI
  ihave #HI_rz4 := (inv_d m K c (rzQ 4) (by decide)) $$ HI
  ihave #HI_rz5 := (inv_d m K c (rzQ 5) (by decide)) $$ HI
  ihave #HI_rz6 := (inv_d m K c (rzQ 6) (by decide)) $$ HI
  ihave #HI_rz7 := (inv_d m K c (rzQ 7) (by decide)) $$ HI
  ihave #HI_rz8 := (inv_d m K c (rzQ 8) (by decide)) $$ HI
  ihave #HI_rz9 := (inv_d m K c (rzQ 9) (by decide)) $$ HI
  ihave #HI_sx0 := (inv_d m K c (sxQ 0) (by decide)) $$ HI
  ihave #HI_sy0 := (inv_d m K c (syQ 0) (by decide)) $$ HI
  sl_unfold [segC2]
  sl_exec

  iapply (segC_send' m K c _ (segC_dev31_b2 c hc1) 0 5 rfl fz5 (0 + segC_T c 9 + segC_T c 8 + segC_T c 7 + segC_T c 6) _) $$ [Hy0L Hz5 HO HtSZ5 HtRZ5]
  · isplitr; · iexact Hrec
    iframe
  iintro ⟨HcSZ5, HO⟩
  segC_adv

  iapply (segC_send' m K c _ (segC_dev32_b2 c hc1) 1 6 rfl fz6 (0 + segC_T c 9 + segC_T c 8 + segC_T c 7) _) $$ [Hp_ry1_pay1 Hz6 HO HtSZ6 HtRZ6]
  · isplitr; · iexact Hrec
    iframe
  iintro ⟨HcSZ6, HO⟩
  segC_adv

  iapply (segC_send' m K c _ (segC_dev33_b2 c hc1) 2 7 rfl fz7 (0 + segC_T c 9 + segC_T c 8) _) $$ [Hp_ry2_pay1 Hz7 HO HtSZ7 HtRZ7]
  · isplitr; · iexact Hrec
    iframe
  iintro ⟨HcSZ7, HO⟩
  segC_adv

  iapply (segC_send' m K c _ (segC_dev34_b2 c hc1) 3 8 rfl fz8 (0 + segC_T c 9) _) $$ [Hp_ry3_pay1 Hz8 HO HtSZ8 HtRZ8]
  · isplitr; · iexact Hrec
    iframe
  iintro ⟨HcSZ8, HO⟩
  segC_adv

  iapply (segC_send' m K c _ (segC_dev35_b2 c hc1) 4 9 rfl fz9 (0) _) $$ [Hp_ry4_pay1 Hz9 HO HtSZ9 HtRZ9]
  · isplitr; · iexact Hrec
    iframe
  iintro ⟨HcSZ9, HO⟩
  segC_adv

  ihave Hylo : (yrM.view.loc (c : Thread nD τ) ↦[rowsLo yrM]{qR} YR m c) $$ [Hy0R Hp_ry1_pay2 Hp_ry2_pay2 Hp_ry3_pay2 Hp_ry4_pay2]
  · rw [← segC_join_lo yrM c qR (YR m c)]; iframe

  iapply (segC_load_xl (F := F) c (XL m c)) $$ [Hxl]
  · iexact Hxl
  iintro Hxl
  iapply (wp_load 𝒱₀ (c : Thread nD τ) none Set.univ (m := yrM) (S := rowsLo yrM) (q := qR) (f := YR m c) (load_lo yrM)) $$ [Hylo]
  · iexact Hylo
  iintro Hylo
  iapply (segC_load_out (F := F) c _) $$ [Hout]
  · iexact Hout
  iintro Hout
  iapply (wp_store 𝒱₀ (c : Thread nD τ) none Set.univ (m := oM) (S := Finset.univ) (Finset.subset_univ _)) $$ [Hout]
  · iexact Hout
  iintro Hout
  iapply (wp_ret_bind (F := F) c _ _)
  sl_exec

  ihave Hyhi : (yrM.view.loc (c : Thread nD τ) ↦[rowsHi yrM]{qR} YR m c) $$ [Hp_ry5_pay2 Hp_ry6_pay2 Hp_ry7_pay2 Hp_ry8_pay2 Hp_ry9_pay2 Hp_ry10_pay2]
  · rw [← segC_join_hi yrM c qR (YR m c)]; iframe

  iapply (segC_load_xl (F := F) c (XL m c)) $$ [Hxl]
  · iexact Hxl
  iintro Hxl
  iapply (wp_load 𝒱₀ (c : Thread nD τ) none Set.univ (m := yrM) (S := rowsHi yrM) (q := qR) (f := YR m c) (load_hi yrM)) $$ [Hyhi]
  · iexact Hyhi
  iintro Hyhi
  iapply (segC_load_out (F := F) c _) $$ [Hout]
  · iexact Hout
  iintro Hout
  iapply (wp_store 𝒱₀ (c : Thread nD τ) none Set.univ (m := oM) (S := Finset.univ) (Finset.subset_univ _)) $$ [Hout]
  · iexact Hout
  iintro Hout
  iapply (wp_ret_bind (F := F) c _ _)
  sl_exec

  ihave Hzlo : (zrM.view.loc (c : Thread nD τ) ↦[zrowsLo zrM]{fullShare} ZR m c) $$ [Hp_rz0_pay1 Hp_rz1_pay1 Hp_rz2_pay1 Hp_rz3_pay1 Hp_rz4_pay1]
  · rw [← segC_zjoin_lo zrM c fullShare (ZR m c)]; iframe

  iapply (segC_load_xl (F := F) c (XL m c)) $$ [Hxl]
  · iexact Hxl
  iintro Hxl
  iapply (wp_load 𝒱₀ (c : Thread nD τ) none Set.univ (m := zrM) (S := zrowsLo zrM) (q := fullShare) (f := ZR m c) (zload_lo zrM)) $$ [Hzlo]
  · iexact Hzlo
  iintro Hzlo
  iapply (segC_load_out (F := F) c _) $$ [Hout]
  · iexact Hout
  iintro Hout
  iapply (wp_store 𝒱₀ (c : Thread nD τ) none Set.univ (m := oM) (S := Finset.univ) (Finset.subset_univ _)) $$ [Hout]
  · iexact Hout
  iintro Hout
  iapply (wp_ret_bind (F := F) c _ _)
  sl_exec

  ihave Hzhi : (zrM.view.loc (c : Thread nD τ) ↦[zrowsHi zrM]{fullShare} ZR m c) $$ [Hp_rz5_pay1 Hp_rz6_pay1 Hp_rz7_pay1 Hp_rz8_pay1 Hp_rz9_pay1]
  · rw [← segC_zjoin_hi zrM c fullShare (ZR m c)]; iframe

  iapply (segC_load_xl (F := F) c (XL m c)) $$ [Hxl]
  · iexact Hxl
  iintro Hxl
  iapply (wp_load 𝒱₀ (c : Thread nD τ) none Set.univ (m := zrM) (S := zrowsHi zrM) (q := fullShare) (f := ZR m c) (zload_hi zrM)) $$ [Hzhi]
  · iexact Hzhi
  iintro Hzhi
  iapply (segC_load_out (F := F) c _) $$ [Hout]
  · iexact Hout
  iintro Hout
  iapply (wp_store 𝒱₀ (c : Thread nD τ) none Set.univ (m := oM) (S := Finset.univ) (Finset.subset_univ _)) $$ [Hout]
  · iexact Hout
  iintro Hout
  iapply (wp_ret_bind (F := F) c _ _)
  sl_exec

  iapply (Idealize.SL.Sem.le_wp_ret _ _)
  iclear Hp_ry1_reached Hp_ry2_reached Hp_ry3_reached Hp_ry4_reached Hp_ry5_reached Hp_ry6_reached Hp_ry7_reached Hp_ry8_reached Hp_ry9_reached Hp_ry10_reached Hp_rz0_reached Hp_rz1_reached Hp_rz2_reached Hp_rz3_reached Hp_rz4_reached Hp_rz5_reached Hp_rz6_reached Hp_rz7_reached Hp_rz8_reached Hp_rz9_reached Hp_sx0_reached Hp_sy0_reached

  have eOut : ∀ (o5 o6 o7 o8 : Fin 2 → Nat) (h5 : o5 = ![e2row c, 0]) (h6 : o6 = ![c2row c, 0]) (h7 : o7 = ![e3row c, 0]) (h8 : o8 = ![e4row c, 0])
      (i5 : ∀ a, o5 a + S320x512.size a ≤ S2048x512.size a) (i6 : ∀ a, o6 a + S384x512.size a ≤ S2048x512.size a)
      (i7 : ∀ a, o7 a + S320x512.size a ≤ S2048x512.size a) (i8 : ∀ a, o8 a + S320x512.size a ≤ S2048x512.size a),
      ((oM.access (Rect.unit (s := S2048x512) o8 S320x512.size i8) : View sig .tc _ _ _).write (Elt F)
        ((oM.access (Rect.unit (s := S2048x512) o7 S320x512.size i7) : View sig .tc _ _ _).write (Elt F)
          ((oM.access (Rect.unit (s := S2048x512) o6 S384x512.size i6) : View sig .tc _ _ _).write (Elt F)
            ((oM.access (Rect.unit (s := S2048x512) o5 S320x512.size i5) : View sig .tc _ _ _).write (Elt F) (st2 m c (st1 m c g0))
              (k0_pay11 (xlM.view.readAt (Elt F) (Rect.unit (s := S2048x512) o5 S320x512.size i5).toLoadRect (XL m c)) (yrM.view.readAt (Elt F) Ra.toLoadRect (YR m c))) Finset.univ)
            (k0_pay12 (xlM.view.readAt (Elt F) (Rect.unit (s := S2048x512) o6 S384x512.size i6).toLoadRect (XL m c)) (yrM.view.readAt (Elt F) Rb.toLoadRect (YR m c))) Finset.univ)
          (k0_pay13 (xlM.view.readAt (Elt F) (Rect.unit (s := S2048x512) o7 S320x512.size i7).toLoadRect (XL m c)) (zrM.view.readAt (Elt F) Za.toLoadRect (ZR m c))) Finset.univ)
        (k0_pay14 (xlM.view.readAt (Elt F) (Rect.unit (s := S2048x512) o8 S320x512.size i8).toLoadRect (XL m c)) (zrM.view.readAt (Elt F) Zb.toLoadRect (ZR m c))) Finset.univ)
        = OUTw m c g0 := by
    intro o5 o6 o7 o8 h5 h6 h7 h8 i5 i6 i7 i8
    subst h5 h6 h7 h8
    rfl
  have e := eOut (k0_off13 c) (k0_off14 c) (k0_off15 c) (k0_off16 c) ((k0_off13_eq c).trans rfl) ((k0_off14_eq c).trans rfl)
    ((k0_off15_eq c).trans rfl) ((k0_off16_eq c).trans rfl) (k0_off13_inb c hc1) (k0_off14_inb c hc1) (k0_off15_inb c hc1) (k0_off16_inb c hc1)
  unfold StC pers locals
  rw [segC_posAt_split (F := F) c _ segC_cells (by decide) 1 (by decide),
    segC_posRest_congr (F := F) c (fun q => q.val ≤ 3 ∨ (15 ≤ q.val ∧ q.val ≤ 25) ∨ (37 ≤ q.val ∧ q.val ≤ 47) ∨ 58 ≤ q.val ∨ q.val = 4 ∨ q.val = 26)
      (fun q => q.val ≤ 3 ∨ (15 ≤ q.val ∧ q.val ≤ 25) ∨ q.val = 37) segC_cells (by decide),
    ← chunks704 yrM c qR (YR m c), ← chunks640 zrM c fullShare (ZR m c), ← e]
  simp only [bigSep_fin11, bigSep_fin10, bigSep_ge1, bigSep_ge5, segC_cells_list]
  isplitr
  · iframe Hrec Hlev
  isplitl [Hp_ry1 Hp_ry2 Hp_ry3 Hp_ry4 Hp_ry5 Hp_ry6 Hp_ry7 Hp_ry8 Hp_ry9 Hp_ry10 Hp_rz0 Hp_rz1 Hp_rz2 Hp_rz3 Hp_rz4 Hp_rz5 Hp_rz6 Hp_rz7 Hp_rz8 Hp_rz9 Hp_sx0 Hp_sy0 Hprest]
  · iframe
  isplitl [Hcs1 Hcs2 Hcs3 Hcs4 Hcs5 Hcs6 Hcs7 Hcs8 Hcs9 Hcs10]
  · iframe
  isplitl [HcSZ0 HcSZ1 HcSZ2 HcSZ3 HcSZ4 HcSZ5 HcSZ6 HcSZ7 HcSZ8 HcSZ9]
  · iframe
  isplitl [HO]
  · iexists _; iexact HO
  isplitl [Harg Hxl Hxp]
  · iframe
  isplitl [Hp_sx0_pay1]
  · iexact Hp_sx0_pay1
  isplitl [HxRR]
  · iexact HxRR
  isplitl [HxRL]
  · iexact HxRL
  isplitl [Hp_sy0_pay1]
  · iexact Hp_sy0_pay1
  isplitl [Hylo Hyhi]
  · iapply (rows_split yrM c qR (YR m c)).2; iframe
  isplitl [Hp_ry5_pay1 Hp_ry6_pay1 Hp_ry7_pay1 Hp_ry8_pay1 Hp_ry9_pay1 Hp_ry10_pay1]
  · iframe
  isplitl [Hzlo Hzhi]
  · iapply (zrows_split zrM c fullShare (ZR m c)).2; iframe
  iexact Hout

end Cert.KernelIdeal.Rs

end
-- ==== Proof.SegD2.lean ====
import proofs.«901021_g7700000000001022_dist_rs_v7x_xyz2x2x2_x_m2048_n512_f32_1_alg».proof.Proof.SendWaits
import proofs.«901021_g7700000000001022_dist_rs_v7x_xyz2x2x2_x_m2048_n512_f32_1_alg».proof.Proof.Seg2

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open SendWait

attribute [local sl_rounds] duties_bar duties_d amount_bar amount_d payload_bar payload_d expect_bar expect_d
  amtQ_ls amtQ_ps0 amtQ_ps1 amtQ_sx amtQ_rx amtQ_sy amtQ_ry amtQ_sz amtQ_rz payQ_ls payQ_ps0 payQ_ps1 payQ_sx payQ_rx payQ_sy payQ_ry payQ_sz payQ_rz
attribute [local sl_rounds] sxPay_eq syPay_eq szPay_0 szPay_1 szPay_2 szPay_3 szPay_4 szPay_5 szPay_6 szPay_7 szPay_8 szPay_9

-- Stretch D on a device with x = 1: the waits on the send cells, which the device pays itself and so may always wait on.
set_option maxHeartbeats 4000000 in

theorem segD2_run (K : Dev nD × Fin 68 → ℕ) (c : Dev nD) (hx : c.val / 4 = 1) (g0 : Buf (Elt F) ((c : Thread nD τ).loc cc0_stg0_0))
    (v2 v5 v8 v9 v10 v11 v15 v18 v23 v27 v32 v38 : BitVec 32) :
    StC m K c g0 ⊢ wp frame (wpE (defs₀ (F := F)) 𝒱₀ (c : Thread nD τ) none) Set.univ
      (segD2 (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c v2 v5 v8 v9 v10 v11 v15 v18 v23 v27 v32 v38 (cond2_of c hx))
      (fun _ => StD m K c g0) := by
  unfold StC StD pers records
  rw [posAt_congr c (fun q => q.val ≤ 3 ∨ (15 ≤ q.val ∧ q.val ≤ 25) ∨ (37 ≤ q.val ∧ q.val ≤ 47) ∨ 58 ≤ q.val ∨ q.val = 4 ∨ q.val = 26) (pw 1 1 0)
      (fun q => by have := q.isLt; unfold pw; omega),
    posAt_congr c (fun q => q.val ≠ 56 ∧ q.val ≠ 57) (pw 11 11 8) (fun q => by have := q.isLt; unfold pw; omega),
    posAt_split c (pw 1 1 0) cellsD (by decide) (by decide) (by decide),
    ← posAt_join c (pw 1 1 0) (pw 11 11 8) cellsD (by decide) (by decide) (by decide) (by decide)]
  simp only [cellsD, bigSepL_cc, bigSepL_singleton, bigSep_sep', bigSep_ge1, bigSep_ge5, bigSep_lt3ge5]
  rw [bigSep_fin10 (fun j => cred (tallyAt (dcell c (szQ j)) () NZ)), bigSep_fin11 (fun k => chk xsM c k fullShare (XS m c)),
    bigSep_fin11 (fun k => chk xrM c k qL (XR m c)), bigSep_fin11 (fun k => chk xrM c k qRL (XR m c))]
  iintro ⟨⟨⟨#HI, #HR⟩, #Hlev⟩,
    ⟨⟨PX1, PY1, PX2, PY2, PX3, PY3, PX4, PY4, PX5, PY5, PX6, PY6, PX7, PY7, PX8, PY8, PX9, PY9, PX10, PY10, PZ0, PZ1, PZ2, PZ3, PZ4, PZ5, PZ6, PZ7⟩, Hposrest⟩,
    ⟨⟨Hcx1, Hcx2, Hcx3, Hcx4, Hcx5, Hcx6, Hcx7, Hcx8, Hcx9, Hcx10⟩, Hcy1, Hcy2, Hcy3, Hcy4, Hcy5, Hcy6, Hcy7, Hcy8, Hcy9, Hcy10⟩,
    ⟨Hcz0, Hcz1, Hcz2, Hcz3, Hcz4, Hcz5, Hcz6, Hcz7, Hcz8, Hcz9⟩, ⟨%W, HO⟩, Hloc, Hxs0, HxrRR, ⟨HRL5, HRL6, HRL7, HRL8, HRL9, HRL10⟩, HxL0, HyrR,
    ⟨HyL5, HyL6, HyL7, HyL8, HyL9, HyL10⟩, Hz, Hout⟩
  ihave #IX1 := (inv_d m K c (sxQ 1) (by decide)) $$ HI
  ihave #IY1 := (inv_d m K c (syQ 1) (by decide)) $$ HI
  ihave #IX2 := (inv_d m K c (sxQ 2) (by decide)) $$ HI
  ihave #IY2 := (inv_d m K c (syQ 2) (by decide)) $$ HI
  ihave #IX3 := (inv_d m K c (sxQ 3) (by decide)) $$ HI
  ihave #IY3 := (inv_d m K c (syQ 3) (by decide)) $$ HI
  ihave #IX4 := (inv_d m K c (sxQ 4) (by decide)) $$ HI
  ihave #IY4 := (inv_d m K c (syQ 4) (by decide)) $$ HI
  ihave #IX5 := (inv_d m K c (sxQ 5) (by decide)) $$ HI
  ihave #IY5 := (inv_d m K c (syQ 5) (by decide)) $$ HI
  ihave #IX6 := (inv_d m K c (sxQ 6) (by decide)) $$ HI
  ihave #IY6 := (inv_d m K c (syQ 6) (by decide)) $$ HI
  ihave #IX7 := (inv_d m K c (sxQ 7) (by decide)) $$ HI
  ihave #IY7 := (inv_d m K c (syQ 7) (by decide)) $$ HI
  ihave #IX8 := (inv_d m K c (sxQ 8) (by decide)) $$ HI
  ihave #IY8 := (inv_d m K c (syQ 8) (by decide)) $$ HI
  ihave #IX9 := (inv_d m K c (sxQ 9) (by decide)) $$ HI
  ihave #IY9 := (inv_d m K c (syQ 9) (by decide)) $$ HI
  ihave #IX10 := (inv_d m K c (sxQ 10) (by decide)) $$ HI
  ihave #IY10 := (inv_d m K c (syQ 10) (by decide)) $$ HI
  ihave #IZ0 := (inv_d m K c (szQ 0) (by decide)) $$ HI
  ihave #IZ1 := (inv_d m K c (szQ 1) (by decide)) $$ HI
  ihave #IZ2 := (inv_d m K c (szQ 2) (by decide)) $$ HI
  ihave #IZ3 := (inv_d m K c (szQ 3) (by decide)) $$ HI
  ihave #IZ4 := (inv_d m K c (szQ 4) (by decide)) $$ HI
  ihave #IZ5 := (inv_d m K c (szQ 5) (by decide)) $$ HI
  ihave #IZ6 := (inv_d m K c (szQ 6) (by decide)) $$ HI
  ihave #IZ7 := (inv_d m K c (szQ 7) (by decide)) $$ HI
  sl_unfold [segD2]
  sl_exec
  rw [wp_ret]; imodintro
  iclear PX1_reached PY1_reached PX2_reached PY2_reached PX3_reached PY3_reached PX4_reached PY4_reached PX5_reached PY5_reached
  iclear PX6_reached PY6_reached PX7_reached PY7_reached PX8_reached PY8_reached PX9_reached PY9_reached PX10_reached PY10_reached
  iclear PZ0_reached PZ1_reached PZ2_reached PZ3_reached PZ4_reached PZ5_reached PZ6_reached PZ7_reached

  isplitr
  · isplitr
    · isplitr
      · iexact HI
      iexact HR
    iexact Hlev
  isplitl [PX1 PY1 PX2 PY2 PX3 PY3 PX4 PY4 PX5 PY5 PX6 PY6 PX7 PY7 PX8 PY8 PX9 PY9 PX10 PY10 PZ0 PZ1 PZ2 PZ3 PZ4 PZ5 PZ6 PZ7 Hposrest]
  · isplitr [Hposrest]
    · iframe PX1 PY1 PX2 PY2 PX3 PY3 PX4 PY4 PX5 PY5 PX6 PY6 PX7 PY7 PX8 PY8 PX9 PY9 PX10 PY10 PZ0 PZ1 PZ2 PZ3 PZ4 PZ5 PZ6 PZ7
    iexact Hposrest
  isplitl [Hcz8]; · iexact Hcz8
  isplitl [Hcz9]; · iexact Hcz9
  isplitl [HO]; · (iexists _; iexact HO)
  isplitl [Hloc]; · iexact Hloc
  isplitl [Hxs0 PX1_pay1 PX2_pay1 PX3_pay1 PX4_pay1 PX5_pay1 PX6_pay1 PX7_pay1 PX8_pay1 PX9_pay1 PX10_pay1
    HxL0 PY1_pay1 PY2_pay1 PY3_pay1 PY4_pay1 PY5_pay1 PY6_pay1 PY7_pay1 PY8_pay1 PY9_pay1 PY10_pay1
    PZ0_pay1 PZ1_pay1 PZ2_pay1 PZ3_pay1 PZ4_pay1 HRL5 HRL6 HRL7 HRL8 HRL9 HRL10 HxrRR HyrR]
  · isplitl [Hxs0 PX1_pay1 PX2_pay1 PX3_pay1 PX4_pay1 PX5_pay1 PX6_pay1 PX7_pay1 PX8_pay1 PX9_pay1 PX10_pay1]
    · iframe Hxs0 PX1_pay1 PX2_pay1 PX3_pay1 PX4_pay1 PX5_pay1 PX6_pay1 PX7_pay1 PX8_pay1 PX9_pay1 PX10_pay1
    isplitl [HxL0 PY1_pay1 PY2_pay1 PY3_pay1 PY4_pay1 PY5_pay1 PY6_pay1 PY7_pay1 PY8_pay1 PY9_pay1 PY10_pay1]
    · iframe HxL0 PY1_pay1 PY2_pay1 PY3_pay1 PY4_pay1 PY5_pay1 PY6_pay1 PY7_pay1 PY8_pay1 PY9_pay1 PY10_pay1
    isplitl [PZ0_pay1 PZ1_pay1 PZ2_pay1 PZ3_pay1 PZ4_pay1 HRL5 HRL6 HRL7 HRL8 HRL9 HRL10]
    · iframe PZ0_pay1 PZ1_pay1 PZ2_pay1 PZ3_pay1 PZ4_pay1 HRL5 HRL6 HRL7 HRL8 HRL9 HRL10
    isplitl [HxrRR]; · iexact HxrRR
    iexact HyrR
  isplitl [PZ5_pay1 PZ6_pay1 PZ7_pay1 HyL5 HyL6 HyL7 HyL8 HyL9 HyL10]
  · iframe PZ5_pay1 PZ6_pay1 PZ7_pay1 HyL5 HyL6 HyL7 HyL8 HyL9 HyL10
  isplitl [Hz]; · iexact Hz
  iexact Hout

end Cert.KernelIdeal.Rs

end
-- ==== Proof.Body.lean ====
import proofs.«901021_g7700000000001022_dist_rs_v7x_xyz2x2x2_x_m2048_n512_f32_1_alg».proof.Proof.SegA1
import proofs.«901021_g7700000000001022_dist_rs_v7x_xyz2x2x2_x_m2048_n512_f32_1_alg».proof.Proof.SegB1
import proofs.«901021_g7700000000001022_dist_rs_v7x_xyz2x2x2_x_m2048_n512_f32_1_alg».proof.Proof.SegC1
import proofs.«901021_g7700000000001022_dist_rs_v7x_xyz2x2x2_x_m2048_n512_f32_1_alg».proof.Proof.SegD1
import proofs.«901021_g7700000000001022_dist_rs_v7x_xyz2x2x2_x_m2048_n512_f32_1_alg».proof.Proof.Close
import proofs.«901021_g7700000000001022_dist_rs_v7x_xyz2x2x2_x_m2048_n512_f32_1_alg».proof.Proof.SegA2
import proofs.«901021_g7700000000001022_dist_rs_v7x_xyz2x2x2_x_m2048_n512_f32_1_alg».proof.Proof.SegB2
import proofs.«901021_g7700000000001022_dist_rs_v7x_xyz2x2x2_x_m2048_n512_f32_1_alg».proof.Proof.SegC2
import proofs.«901021_g7700000000001022_dist_rs_v7x_xyz2x2x2_x_m2048_n512_f32_1_alg».proof.Proof.SegD2

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_W (Φ : Fin cfg0.W → sProp 𝕄) : bigSep Finset.univ Φ = iprop(Φ (0 : Fin 1)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem to_St0 (c : Dev nD) :
    iprop(Φ₀ m c ∗ (dats m ρ 0 c).owesAt () t₀.castSucc
        ∗ ∃ d, ∃ f : Buf (Elt F) ((c : Thread nD τ).loc cc0_stg0_0), ⌜f = (dats m ρ 0 c).before (0 : Fin 1) t₀ d⌝ ∗ (((c : Thread nD τ).loc cc0_stg0_0) ↦{fullShare} f))
      ⊢ iprop(∃ K g0, St0 m K c g0) := by
  unfold Φ₀ start ghost St0 pers Dat.owesAt Pipeline.owesWithin
  rw [show (dats m ρ 0 c).owed t₀.castSucc = owedFrom c 0 from rfl]
  iintro ⟨⟨⟨⟨%K, Hrec, Hpos, Htok⟩, Hcr, Hlev⟩, Harg, Hscr⟩, ⟨%W, %hW, HO⟩, ⟨%d0, %g0, %hg0, Hout⟩⟩
  iexists K; iexists g0
  isplitl [Hrec Hlev]
  · isplitl [Hrec] <;> iassumption
  isplitl [Hpos]; · unfold posAt positions; iexact Hpos
  isplitl [Htok]; · iexact Htok
  isplitl [Hcr]; · iexact Hcr
  isplitl [HO]; · iexists W; iexact HO
  isplitl [Harg]; · iexact Harg
  isplitl [Hscr]; · iexact Hscr
  iexact Hout

set_option maxHeartbeats 2000000 in

theorem from_close (c : Dev nD) :
    iprop(Φ₁ m c ∗ (∃ W, owes (c : Thread nD τ) 0 W) ∗ whl c cc0_stg0_0 (OUT m c))
      ⊢ iprop((dats m ρ 0 c).Φ t₀.succ ∗ (dats m ρ 0 c).owesAt () t₀.succ
          ∗ ∃ f : Buf (Elt F) ((c : Thread nD τ).loc cc0_stg0_0), ⌜f = (dats m ρ 0 c).after (0 : Fin 1) t₀⌝ ∗ (((c : Thread nD τ).loc cc0_stg0_0) ↦{fullShare} f)) := by
  unfold Dat.owesAt Pipeline.owesWithin
  rw [show (dats m ρ 0 c).Φ t₀.succ = Φ₁ m c from rfl, show (dats m ρ 0 c).owed t₀.succ = 0 from rfl]
  iintro ⟨H1, ⟨%W, HO⟩, Hout⟩
  isplitl [H1]; · iexact H1
  isplitl [HO]
  · iexists W; isplitr; · ipureintro; exact fun _ _ => Or.inl trivial
    iexact HO
  iexists _; isplitr; · (ipureintro; rfl)
  iexact Hout

set_option maxRecDepth 65536 in
set_option maxHeartbeats 4000000 in
theorem body_x0 (K : Dev nD × Fin 68 → ℕ) (c : Dev nD) (hx : c.val / 4 = 0) (g0 : Buf (Elt F) ((c : Thread nD τ).loc cc0_stg0_0)) :
    St0 m K c g0 ⊢ wp frame (wpE (defs₀ (F := F)) 𝒱₀ (c : Thread nD τ) none) Set.univ
      (cc0_body (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13)
      (fun _ => iprop(Φ₁ m c ∗ (∃ W, owes (c : Thread nD τ) 0 W) ∗ whl c cc0_stg0_0 (OUT m c))) := by
  have h1 := cond1_of c hx
  have h2 := cond2_not c hx
  rw [cc0_body_eq_skeleton]; unfold cc0_body_skel
  rw [k0_part67_eq_skeleton]; unfold k0_part67_skel
  simp only [Prog.lift, Prog.bind_op, Prog.bind_ret, Prog.pure_eq_ret, wp_deviceId]
  simp only [dif_pos h1, dif_neg h2]
  rw [k0_part33_eq_skeleton, part33_segs]
  simp only [Prog.bind_assoc, wp_bind]
  refine (segA1_run m K c hx g0 _ _ _ _ _ _ _ _ _ _ _ _).trans (wp_mono _ _ _ fun _ => ?_)
  refine (segB1_run m K c hx g0 _ _ _ _ _ _ _ _ _ _ _ _).trans (wp_mono _ _ _ fun _ => ?_)
  refine (segC1_run m K c hx g0 _ _ _ _ _ _ _ _ _ _ _ _).trans (wp_mono _ _ _ fun _ => ?_)
  refine (segD1_run m K c hx g0 _ _ _ _ _ _ _ _ _ _ _ _).trans (wp_mono _ _ _ fun _ => ?_)
  refine (segE1_run m K c g0).trans ?_
  refine (wp_mono _ _ _ fun _ => close_all m K c g0).trans ?_
  exact wp_fupd _ _ _ _ _

set_option maxRecDepth 65536 in
set_option maxHeartbeats 4000000 in
theorem body_x1 (K : Dev nD × Fin 68 → ℕ) (c : Dev nD) (hx : c.val / 4 = 1) (g0 : Buf (Elt F) ((c : Thread nD τ).loc cc0_stg0_0)) :
    St0 m K c g0 ⊢ wp frame (wpE (defs₀ (F := F)) 𝒱₀ (c : Thread nD τ) none) Set.univ
      (cc0_body (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13)
      (fun _ => iprop(Φ₁ m c ∗ (∃ W, owes (c : Thread nD τ) 0 W) ∗ whl c cc0_stg0_0 (OUT m c))) := by
  have h1 := cond1_not c hx
  have h2 := cond2_of c hx
  rw [cc0_body_eq_skeleton]; unfold cc0_body_skel
  rw [k0_part67_eq_skeleton]; unfold k0_part67_skel
  simp only [Prog.lift, Prog.bind_op, Prog.bind_ret, Prog.pure_eq_ret, wp_deviceId]
  simp only [dif_neg h1, dif_pos h2]
  rw [k0_part66_eq_skeleton, part66_segs]
  simp only [Prog.bind_assoc, wp_bind]
  refine (segA2_run m K c hx g0 _ _ _ _ _ _ _ _ _ _ _ _).trans (wp_mono _ _ _ fun _ => ?_)
  refine (segB2_run m K c hx g0 _ _ _ _ _ _ _ _ _ _ _ _).trans (wp_mono _ _ _ fun _ => ?_)
  refine (segC2_run m K c hx g0 _ _ _ _ _ _ _ _ _ _ _ _).trans (wp_mono _ _ _ fun _ => ?_)
  refine (segD2_run m K c hx g0 _ _ _ _ _ _ _ _ _ _ _ _).trans (wp_mono _ _ _ fun _ => ?_)
  refine (segE1_run m K c g0).trans ?_
  refine (wp_mono _ _ _ fun _ => close_all m K c g0).trans ?_
  exact wp_fupd _ _ _ _ _

-- One device's body, from what it holds at launch to what it hands back, by the branch its x coordinate selects.
set_option maxHeartbeats 1000000 in

theorem body_obligation (c : Dev nD) : BodyObligation (dats (F := F) m ρ 0 c) (defs₀ (F := F)) 𝒱₀ () Set.univ := fun t => by
  rw [fin_N t]
  rw [bigSep_W, bigSep_W]
  simp only [owns_whole_eq]
  show _ ⊢ wp frame (wpE (defs₀ (F := F)) 𝒱₀ c none) Set.univ
    (cc0_body (Memref.whole main_arg0) (Memref.isWhole_whole _) (stage0_0 0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) _
  refine (to_St0 m ρ c).trans ?_
  iintro ⟨%K, %g0, H⟩
  have hc : c.val / 4 = 0 ∨ c.val / 4 = 1 := by have := c.isLt; have h8 : c.val < 8 := this; omega
  rcases hc with hx | hx
  · iapply (wp_mono _ _ _ fun _ => from_close m ρ c)
    iapply (body_x0 m K c hx g0)
    iexact H
  · iapply (wp_mono _ _ _ fun _ => from_close m ρ c)
    iapply (body_x1 m K c hx g0)
    iexact H

end Cert.KernelIdeal.Rs

end
-- ==== Proof.Launch.lean ====
import proofs.«901021_g7700000000001022_dist_rs_v7x_xyz2x2x2_x_m2048_n512_f32_1_alg».proof.Proof.Body
import proofs.«901021_g7700000000001022_dist_rs_v7x_xyz2x2x2_x_m2048_n512_f32_1_alg».proof.Proof.Stor
import Mathlib.Algebra.BigOperators.Fin
import Mathlib.Tactic.Abel

set_option maxRecDepth 16384

noncomputable section

namespace Cert.KernelIdeal.Rs

open Cert.KernelIdeal Cert.KernelIdeal.Gen Cert.RsMesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev oq (i : Fin 67) : DmaSem sig := ⟨i.val + 1, by have := i.isLt; show i.val + 1 < 68; omega⟩
abbrev osem : Fin 67 → SemLoc sig := fun i => .dma (oq i)

theorem oq_injective : Function.Injective oq := fun a b h => Fin.ext (by have := congrArg Fin.val h; exact Nat.succ.inj this)

theorem ownSemFacts : Pipeline.OwnSemFacts cfg0.spec osem := by decide

theorem share_eq (c : Dev nD) (w : Fin cfg0.W) : (dats m ρ 0 c).share w = fullShare := by unfold Dat.share; split <;> rfl

def rsCells : Finset (GSem nD τ sig) := Finset.univ.map ⟨kcell, kcell_injective⟩

abbrev tokOf (cj : Dev nD × (Fin 3 ⊕ Fin 67)) : GSem nD τ sig × ℕ × Fin 3 := match cj.2 with
  | .inl d => (barCell cj.1, 0, d)
  | .inr i => (dcell cj.1 (oq i), 0, 0)

theorem tokOf_injective : Function.Injective (tokOf : Dev nD × (Fin 3 ⊕ Fin 67) → GSem nD τ sig × ℕ × Fin 3) := by
  rintro ⟨c, j⟩ ⟨c', j'⟩ h
  have h1 : c = c' := by
    have := congrArg (fun x : GSem nD τ sig × ℕ × Fin 3 => x.1.1.1) h
    rcases j with d | i <;> rcases j' with d' | i' <;> exact this
  subst h1
  rcases j with d | i <;> rcases j' with d' | i'
  · have h2 : d = d' := congrArg (fun x : GSem nD τ sig × ℕ × Fin 3 => x.2.2) h
    subst h2; rfl
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : i = i' := oq_injective (SemLoc.dma.inj (congrArg (fun x : GSem nD τ sig × ℕ × Fin 3 => x.1.2) h))
    subst h2; rfl

def rsToks : Finset (GSem nD τ sig × ℕ × Fin 3) := Finset.univ.map ⟨tokOf, tokOf_injective⟩

def u₀ : UU :=
  (initOf (Pipeline.cells cfgs cellOf_inj) (Pipeline.launchToks cfgs cellOf_inj), initOf rsCells rsToks)

def toks (c : Dev nD) : sProp 𝕄 :=
  iprop((bigSep Finset.univ fun d : Fin 3 => dutyTok ER (barCell c) 0 d)
    ∗ bigSep Finset.univ fun i : Fin 67 => dutyTok ER (dcell c (oq i)) 0 0)

def G (c : Dev nD) : sProp 𝕄 :=
  iprop((bigSep Finset.univ fun q : Fin 68 => roundState ER (rsRd m) (kcell (c, q)) 0)
    ∗ (bigSep Finset.univ fun q : Fin 68 => iprop(atPos ER (kcell (c, q)) 0 ∅ 0 ∗ reached ER (kcell (c, q)) 0)) ∗ toks c)

def G' (c : Dev nD) : sProp 𝕄 := iprop(∃ K, ghost m K c)

theorem fund_rs : BI.own (ER (initOf rsCells rsToks)) ⊢ (|==> bigSep Finset.univ (G m) : sProp 𝕄) := by
  have hX (Φ : GSem nD τ sig → sProp 𝕄) : bigSep rsCells Φ = bigSep Finset.univ fun c : Dev nD => bigSep Finset.univ fun q : Fin 68 => Φ (kcell (c, q)) := by
    unfold rsCells; rw [bigSep_map, bigSep_univ_prod]; rfl
  have hT : bigSep rsToks (fun x => (dutyTok ER x.1 x.2.1 x.2.2 : sProp 𝕄)) = bigSep Finset.univ fun c : Dev nD => toks c := by
    unfold rsToks; rw [bigSep_map, bigSep_univ_prod]
    exact bigSep_congr fun c _ => by unfold toks; rw [bigSep_univ_sum]; rfl
  iintro HX
  imod (Rounds.fund ER (rsRd m) rsCells rsToks) $$ HX with ⟨Hst, Hr, Hat, Htok⟩
  imodintro
  ihave Hst' := (Entails.of_eq (hX fun g => roundState ER (rsRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem map_oq : (Finset.univ : Finset (Fin 67)).map ⟨oq, oq_injective⟩ = Finset.univ.filter fun q : Fin 68 => 1 ≤ q.val := by decide

theorem bigSep_oq (Φ : Fin 68 → sProp 𝕄) :
    (bigSep Finset.univ fun i : Fin 67 => Φ (oq i)) = bigSep (Finset.univ.filter fun q : Fin 68 => 1 ≤ q.val) Φ := by
  rw [← map_oq, bigSep_map]; rfl

theorem ownSems0_eq (c : Dev nD) : (Pipeline.ownSems0 (Ix := Unit) (Name := ℕ) (U := UU) (Lvl := ℕ) (Val := Elt F) (τ := τ) osem c : sProp 𝕄)
    = bigSep (Finset.univ.filter fun q : Fin 68 => 1 ≤ q.val) fun q => semVal (dcell c q) 0 := by
  unfold Pipeline.ownSems0; exact bigSep_oq (fun q => semVal (dcell c q) 0)

theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_cells (c : Dev nD) (Φ : GSem nD τ sig → sProp 𝕄) :
    (bigSep Finset.univ fun q : Fin 68 => Φ (kcell (c, q)))
      = iprop(Φ (barCell c) ∗ bigSep (Finset.univ.filter fun q : Fin 68 => 1 ≤ q.val) fun q => Φ (dcell c q)) := by
  rw [bigSep_univ_at _ (0 : Fin 68), show (Finset.univ : Finset (Fin 68)).erase 0 = Finset.univ.filter fun q : Fin 68 => 1 ≤ q.val from by decide,
    bigSep_congr (s := Finset.univ.filter fun q : Fin 68 => 1 ≤ q.val) fun q hq =>
      show Φ (kcell (c, q)) = Φ (dcell c q) from by rw [kcell_d c q (Finset.mem_filter.mp hq).2]]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun q : Fin 68 => semVal (kcell (c, q)) 0 : sProp 𝕄) := by
  rw [ownSems0_eq, unscopedSems0_eq, bigSep_cells c (fun g => semVal g 0)]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun q : Fin 68 => iprop(∃ κ : ℕ, cellInv ER (rsRd m) κ (kcell (c, q))))
          ∗ (bigSep Finset.univ fun q : Fin 68 => iprop(atPos ER (kcell (c, q)) 0 ∅ 0 ∗ reached ER (kcell (c, q)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun q : Fin 68 => semVal (kcell (c, q)) 0) ∗ bigSep Finset.univ fun q : Fin 68 => roundState ER (rsRd m) (kcell (c, q)) 0)
      ⊢ (|={Set.univ}=> bigSep Finset.univ fun q : Fin 68 => iprop(∃ κ : ℕ, cellInv ER (rsRd m) κ (kcell (c, q))) : sProp 𝕄) from by
        rw [← bigSep_sep']
        exact (bigSep_mono fun q _ => (Rounds.body_intro ER (rsRd m) (kcell (c, q))).trans inv_alloc).trans (bigSep_fupd _ _)) $$ [Hv Hst] with Hinv
  · isplitl [Hv] <;> iassumption
  imodintro
  isplitl [Hinv]; · iexact Hinv
  isplitl [Hat]; · iexact Hat
  iexact Htok

theorem psQ_inj : Function.Injective (psQ : Fin 2 → Fin 68) := fun a b h => Fin.ext (by have : 2 + a.val = 2 + b.val := congrArg Fin.val h; omega)
theorem sxQ_inj : Function.Injective (sxQ : Fin 11 → Fin 68) := fun a b h => Fin.ext (by have : 4 + a.val = 4 + b.val := congrArg Fin.val h; omega)
theorem rxQ_inj : Function.Injective (rxQ : Fin 11 → Fin 68) := fun a b h => Fin.ext (by have : 15 + a.val = 15 + b.val := congrArg Fin.val h; omega)
theorem syQ_inj : Function.Injective (syQ : Fin 11 → Fin 68) := fun a b h => Fin.ext (by have : 26 + a.val = 26 + b.val := congrArg Fin.val h; omega)
theorem ryQ_inj : Function.Injective (ryQ : Fin 11 → Fin 68) := fun a b h => Fin.ext (by have : 37 + a.val = 37 + b.val := congrArg Fin.val h; omega)
theorem szQ_inj : Function.Injective (szQ : Fin 10 → Fin 68) := fun a b h => Fin.ext (by have : 48 + a.val = 48 + b.val := congrArg Fin.val h; omega)
theorem rzQ_inj : Function.Injective (rzQ : Fin 10 → Fin 68) := fun a b h => Fin.ext (by have : 58 + a.val = 58 + b.val := congrArg Fin.val h; omega)

theorem bigSep_kinds (Φ : Fin 68 → sProp 𝕄) :
    bigSep (Finset.univ.filter fun q : Fin 68 => 1 ≤ q.val) Φ
      = iprop(Φ lsQ ∗ (bigSep Finset.univ fun k : Fin 2 => Φ (psQ k)) ∗ (bigSep Finset.univ fun k : Fin 11 => Φ (sxQ k))
          ∗ (bigSep Finset.univ fun k : Fin 11 => Φ (rxQ k)) ∗ (bigSep Finset.univ fun k : Fin 11 => Φ (syQ k))
          ∗ (bigSep Finset.univ fun k : Fin 11 => Φ (ryQ k)) ∗ (bigSep Finset.univ fun j : Fin 10 => Φ (szQ j))
          ∗ (bigSep Finset.univ fun j : Fin 10 => Φ (rzQ j))) := by
  rw [show (Finset.univ.filter fun q : Fin 68 => 1 ≤ q.val)
      = ({lsQ} : Finset (Fin 68)) ∪ (Finset.univ.map ⟨psQ, psQ_inj⟩ ∪ (Finset.univ.map ⟨sxQ, sxQ_inj⟩ ∪ (Finset.univ.map ⟨rxQ, rxQ_inj⟩ ∪ (Finset.univ.map ⟨syQ, syQ_inj⟩
          ∪ (Finset.univ.map ⟨ryQ, ryQ_inj⟩ ∪ (Finset.univ.map ⟨szQ, szQ_inj⟩ ∪ Finset.univ.map ⟨rzQ, rzQ_inj⟩)))))) from by decide,
    bigSep_union (by decide), bigSep_union (by decide), bigSep_union (by decide), bigSep_union (by decide), bigSep_union (by decide),
    bigSep_union (by decide), bigSep_union (by decide), bigSep_singleton, bigSep_map, bigSep_map, bigSep_map, bigSep_map, bigSep_map, bigSep_map, bigSep_map]
  rfl

theorem launch_deal (e : Dev nD ≃ Dev nD) (Φ : Dev nD → sProp 𝕄) : bigSep Finset.univ Φ ⊢ bigSep Finset.univ fun c => Φ (e c) :=
  Entails.of_eq (bigSep_univ_equiv e Φ)

theorem toks_eq (c : Dev nD) : (toks c : sProp 𝕄)
    = iprop((dutyTok ER (barCell c) 0 0 ∗ dutyTok ER (barCell c) 0 1 ∗ dutyTok ER (barCell c) 0 2)
        ∗ dutyTok ER (dcell c lsQ) 0 0 ∗ (dutyTok ER (dcell c (psQ 0)) 0 0 ∗ dutyTok ER (dcell c (psQ 1)) 0 0)
        ∗ (bigSep Finset.univ fun k : Fin 11 => dutyTok ER (dcell c (sxQ k)) 0 0)
        ∗ (bigSep Finset.univ fun k : Fin 11 => dutyTok ER (dcell c (rxQ k)) 0 0)
        ∗ (bigSep Finset.univ fun k : Fin 11 => dutyTok ER (dcell c (syQ k)) 0 0)
        ∗ (bigSep Finset.univ fun k : Fin 11 => dutyTok ER (dcell c (ryQ k)) 0 0)
        ∗ (bigSep Finset.univ fun j : Fin 10 => dutyTok ER (dcell c (szQ j)) 0 0)
        ∗ (bigSep Finset.univ fun j : Fin 10 => dutyTok ER (dcell c (rzQ j)) 0 0)) := by
  unfold toks
  rw [bigSep_oq (fun q => dutyTok ER (dcell c q) 0 0), bigSep_kinds, bigSep_univ_eq_bigSepL [(0 : Fin 3), 1, 2] (by decide) (by decide), bigSep_univ_two]
  rfl

theorem toks_around : (bigSep Finset.univ fun c : Dev nD => (toks c : sProp 𝕄)) ⊢ bigSep Finset.univ fun c : Dev nD => payToks c := by
  rw [bigSep_congr fun c _ => toks_eq c]
  unfold payToks
  simp only [bigSep_sep']
  iintro ⟨⟨B0, B1, B2⟩, Ls, ⟨P0, P1⟩, Sx, Rx, Sy, Ry, Sz, Rz⟩
  ihave B0' := (launch_deal xpE fun c => dutyTok ER (barCell c) 0 0) $$ B0
  ihave B1' := (launch_deal ynE fun c => dutyTok ER (barCell c) 0 1) $$ B1
  ihave B2' := (launch_deal znE fun c => dutyTok ER (barCell c) 0 2) $$ B2
  ihave Rx' := (launch_deal xpE fun c => bigSep Finset.univ fun k : Fin 11 => dutyTok ER (dcell c (rxQ k)) 0 0) $$ Rx
  ihave Ry' := (launch_deal ynE fun c => bigSep Finset.univ fun k : Fin 11 => dutyTok ER (dcell c (ryQ k)) 0 0) $$ Ry
  ihave Rz' := (launch_deal znE fun c => bigSep Finset.univ fun j : Fin 10 => dutyTok ER (dcell c (rzQ j)) 0 0) $$ Rz
  isplitl [B0']; · iexact B0'
  isplitl [B1']; · iexact B1'
  isplitl [B2']; · iexact B2'
  isplitl [Rx']; · iexact Rx'
  isplitl [Ry']; · iexact Ry'
  isplitl [Rz']; · iexact Rz'
  isplitl [Ls]; · iexact Ls
  isplitl [P0]; · iexact P0
  isplitl [P1]; · iexact P1
  isplitl [Sx]; · iexact Sx
  isplitl [Sy]; · iexact Sy
  iexact Sz

theorem ghost_intro (K : Dev nD × Fin 68 → ℕ) (c : Dev nD) : iprop(records m K ∗ positions c ∗ payToks c) ⊢ G' m c := by
  unfold G' ghost
  iintro H; iexists K; iexact H

theorem launch_bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun q : Fin 68 => iprop(∃ κ : ℕ, cellInv ER (rsRd m) κ (kcell (c, q))))
          ∗ (bigSep Finset.univ fun q : Fin 68 => iprop(atPos ER (kcell (c, q)) 0 ∅ 0 ∗ reached ER (kcell (c, q)) 0)) ∗ toks c) : sProp 𝕄)
      ⊢ bigSep Finset.univ (G' m) := by
  rw [bigSep_sep', bigSep_sep', ← bigSep_univ_prod (fun ck : Dev nD × Fin 68 => iprop(∃ κ : ℕ, cellInv ER (rsRd m) κ (kcell ck))),
    bigSep_congr (s := Finset.univ) (fun (c : Dev nD) _ => bigSep_sep' Finset.univ (fun q : Fin 68 => (atPos ER (kcell (c, q)) 0 ∅ 0 : sProp 𝕄)) (fun q => reached ER (kcell (c, q)) 0)),
    bigSep_sep', ← bigSep_univ_prod (fun ck : Dev nD × Fin 68 => (reached ER (kcell ck) 0 : sProp 𝕄))]
  iintro ⟨HI, ⟨Hat, #HR⟩, Htok⟩
  ihave HK := (BI.bigSep_exists_pi Finset.univ (fun (ck : Dev nD × Fin 68) (κ : ℕ) => (cellInv ER (rsRd m) κ (kcell ck) : sProp 𝕄))) $$ HI
  icases HK with ⟨%K, #HI⟩
  ihave Htk := (toks_around (F := F)) $$ Htok
  iapply (launch_bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem launch_foldr_sum (l : List (CellTallies nD τ sig Unit)) : l.foldr (fun t acc => acc + t) 0 = l.sum := by
  induction l with
  | nil => rfl
  | cons a l ih => rw [List.foldr_cons, ih, List.sum_cons, add_comm]

theorem launch_sum_pairs {α : Type} (l : List α) (a b : α → CellTallies nD τ sig Unit) :
    (l.flatMap fun k => [a k, b k]).sum = (l.map a).sum + (l.map b).sum := by
  induction l with
  | nil => simp
  | cons x l ih =>
    rw [List.flatMap_cons, List.sum_append, ih, List.map_cons, List.map_cons, List.sum_cons, List.sum_cons, List.sum_cons, List.sum_cons, List.sum_nil, add_zero]
    abel

def OB (d : Dev nD) : CellTallies nD τ sig Unit :=
  tallyAt (barCell (xp d)) () 1 + (tallyAt (barCell (yn d)) () 1 + tallyAt (barCell (zn d)) () 1)
def OX (d : Dev nD) : CellTallies nD τ sig Unit := ∑ k : Fin 11, tallyAt (dcell (xp d) (rxQ k)) () NX
def OY (d : Dev nD) : CellTallies nD τ sig Unit := ∑ k : Fin 11, tallyAt (dcell (yn d) (ryQ k)) () NY
def OZ (d : Dev nD) : CellTallies nD τ sig Unit := ∑ j : Fin 10, tallyAt (dcell (zn d) (rzQ j)) () NZ

theorem O₀_eq (d : Dev nD) : O₀ d = OB d + (OX d + (OY d + OZ d)) := by
  unfold O₀ owedFrom
  rw [List.drop_zero, launch_foldr_sum]
  unfold payList
  rw [List.sum_append, List.sum_append, List.sum_append, List.sum_append, launch_sum_pairs,
    ← Fin.sum_univ_def, ← Fin.sum_univ_def, ← Fin.sum_univ_def, ← Fin.sum_univ_def, ← Fin.sum_univ_def]
  unfold OB OX OY OZ
  rw [Fin.sum_univ_add (a := 5) (b := 6) (fun k : Fin 11 => (tallyAt (dcell (yn d) (ryQ k)) () NY : CellTallies nD τ sig Unit)),
    Fin.sum_univ_add (a := 5) (b := 5) (fun j : Fin 10 => (tallyAt (dcell (zn d) (rzQ j)) () NZ : CellTallies nD τ sig Unit))]
  simp only [List.sum_cons, List.sum_nil, add_zero]
  show _ = _ + (_ + (((∑ k : Fin 5, (tallyAt (dcell (yn d) (ryQ ⟨k.val, by omega⟩)) () NY : CellTallies nD τ sig Unit))
      + ∑ k : Fin 6, (tallyAt (dcell (yn d) (ryQ ⟨5 + k.val, by omega⟩)) () NY : CellTallies nD τ sig Unit))
    + ((∑ k : Fin 5, (tallyAt (dcell (zn d) (rzQ ⟨k.val, by omega⟩)) () NZ : CellTallies nD τ sig Unit))
      + ∑ k : Fin 5, (tallyAt (dcell (zn d) (rzQ ⟨5 + k.val, by omega⟩)) () NZ : CellTallies nD τ sig Unit))))
  abel

theorem launch_cred_at (sm : SemLoc sig) (f : Dev nD → Dev nD) (hf : ∀ c, f (f c) = c) (n : ℕ) (c : Dev nD) :
    (Pipeline.launchCred (fun d => tallyAt (((f d) : Thread nD τ), sm) () n) c : sProp 𝕄) ⊢ cred (tallyAt ((c : Thread nD τ), sm) () n) :=
  Pipeline.launchCred_tallyAt sm f f hf hf () n c

theorem creds_bar (c : Dev nD) : (Pipeline.launchCred OB c : sProp 𝕄) ⊢ cred (tallyAt (barCell c) () 3) := by
  unfold OB
  rw [Pipeline.launchCred_add, Pipeline.launchCred_add]
  refine (BI.sep_mono (launch_cred_at _ xp xp_xp 1 c) (BI.sep_mono (launch_cred_at _ yn yn_yn 1 c) (launch_cred_at _ zn zn_zn 1 c))).trans ?_
  have e : (tallyAt (barCell c) () 3 : CellTallies nD τ sig Unit)
      = tallyAt (barCell c) () 1 + (tallyAt (barCell c) () 1 + tallyAt (barCell c) () 1) := by
    rw [tallyAt_add, tallyAt_add]
  rw [e]
  exact (sep_mono_right (cred_add _ _).2).trans (cred_add _ _).2

theorem creds_intro (c : Dev nD) : (Pipeline.launchCred O₀ c : sProp 𝕄) ⊢ creds c := by
  rw [show (O₀ : Dev nD → CellTallies nD τ sig Unit) = fun d => OB d + (OX d + (OY d + OZ d)) from funext O₀_eq]
  rw [Pipeline.launchCred_add, Pipeline.launchCred_add, Pipeline.launchCred_add]
  unfold creds
  refine BI.sep_mono (creds_bar c) (BI.sep_mono ?_ (BI.sep_mono ?_ ?_))
  · unfold OX
    rw [Pipeline.launchCred_sum Finset.univ (fun (k : Fin 11) (d : Dev nD) => (tallyAt (dcell (xp d) (rxQ k)) () NX : CellTallies nD τ sig Unit))]
    exact bigSep_mono fun k _ => launch_cred_at _ xp xp_xp NX c
  · unfold OY
    rw [Pipeline.launchCred_sum Finset.univ (fun (k : Fin 11) (d : Dev nD) => (tallyAt (dcell (yn d) (ryQ k)) () NY : CellTallies nD τ sig Unit))]
    exact bigSep_mono fun k _ => launch_cred_at _ yn yn_yn NY c
  · unfold OZ
    rw [Pipeline.launchCred_sum Finset.univ (fun (j : Fin 10) (d : Dev nD) => (tallyAt (dcell (zn d) (rzQ j)) () NZ : CellTallies nD τ sig Unit))]
    exact bigSep_mono fun j _ => launch_cred_at _ zn zn_zn NZ c

def launchX (c : Dev nD) : sProp 𝕄 := iprop(start m c ∗ argPts m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(launchX m c ∗ emp) := by
  rw [Pipeline.unscopedRestP_none, unscopedRest0_eq]
  iintro ⟨Ha, Hlev, Hcr, -, HG⟩
  ihave Hc := (creds_intro (F := F) c) $$ Hcr
  imodintro
  unfold launchX start G' argPts A
  isplitl
  · isplitl [HG Hc Hlev]
    · iframe HG Hc Hlev
    · iexact Ha
  · iempintro

theorem phi0_intro (c : Dev nD) :
    iprop(launchX m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ launchX scratch
  iintro ⟨⟨Hs, Ha⟩, -, Hr⟩
  isplitl [Hs]; · iexact Hs
  isplitl [Ha]; · iexact Ha
  iexact Hr

theorem phi1_exit (c : Dev nD) :
    (dats m ρ 0 c).Φ (Fin.last cfg0.N) ⊢ iprop(argPts m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ scratch
  iintro ⟨Ha, Hr, Hz⟩
  isplitl [Ha]; · iexact Ha
  isplitl [Hz]; · iexact Hz
  iexact Hr

theorem launch_foldr_pos (l : List (CellTallies nD τ sig Unit)) (g : GSem nD τ sig) (u : Unit)
    (h : 0 < (l.foldr (fun t acc => acc + t) (0 : CellTallies nD τ sig Unit)) g u) : ∃ t ∈ l, 0 < t g u := by
  induction l with
  | nil => exact absurd h (Nat.lt_irrefl 0)
  | cons a l ih =>
    rw [List.foldr_cons] at h
    rcases Pipeline.add_pos_cases h with h | h
    · obtain ⟨t, ht, hp⟩ := ih h; exact ⟨t, List.mem_cons_of_mem _ ht, hp⟩
    · exact ⟨a, List.mem_cons_self, h⟩

theorem launch_O₀_pos {c : Dev nD} {g : GSem nD τ sig} {u : Unit} (h : 0 < O₀ c g u) : g.1.2 = .tc ∧ 0 < lv g () := by
  obtain ⟨t, ht, hp⟩ := launch_foldr_pos _ g u h
  obtain ⟨g', n, rfl, htc, hcase⟩ := payList_mem c ht
  obtain ⟨rfl, -⟩ := Pipeline.tallyAt_pos hp
  refine ⟨htc, ?_⟩
  rcases hcase with ⟨s, hs⟩ | ⟨q, hq, hr⟩
  · unfold lv; rw [hs]; exact Nat.one_pos
  · unfold lv; rw [hq]; dsimp only
    rcases hr with h1 | h1 | h1
    · rw [if_pos h1]; decide
    · rw [if_neg (by omega), if_pos h1]; decide
    · rw [if_neg (by omega), if_neg (by omega), if_pos h1]; decide

theorem waits (c : Dev nD) : (levAts L lv : sProp 𝕄) ⊢ Pipeline.cellsWaits cfgs (dats m ρ) () 0 c :=
  Pipeline.cellsWaits_intro cfgs (dats m ρ) () 0 c fun w s t =>
    mayWait_lv c _ _ 0 (by fin_cases w; rfl) (fun g u hg => by
      rcases t with ⟨_ | _, ht⟩
      · exact launch_O₀_pos hg
      · exact absurd hg (Nat.lt_irrefl 0))

def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg0) = m ((c : Thread nD τ).loc main_arg0)

-- Every fair run of the eight devices ends, each result array at the computed contents and each argument block unchanged.
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_rs m) $$ HX with HG
      imodintro
      isplitl [HP] <;> iassumption)
    (hglob := glob m)
    (hA := fun _ _ => rfl) (hpf := fun _ k => k.elim0)
    (X := launchX m) (Y := argPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold argPts
      iintro ⟨Hx, -, HSI⟩
      icombine HSI Hx gives %hx
      imodintro
      isplitr; · ipureintro; exact Buf.eq_of_forall_mem_univ hx
      iexact HSI)
    (hQ := fun _ h c => ⟨(h c).1, (h c).2.2⟩)

attribute [local irreducible] OUT in
theorem launch_after_eq (c : Dev nD) : (dats m ρ 0 c).after (0 : Fin 1) t₀ = OUT m c := rfl

attribute [local irreducible] OUT in
theorem launch_flushed_eq (c : Dev nD) : (dats m ρ 0 c).flushed (0 : Fin 1) t₀ = OUT m c := by
  unfold Dat.flushed
  rw [launch_after_eq]
  generalize OUT m c = o
  rfl

attribute [local irreducible] OUT in

theorem final_out (c : Dev nD) : (dats m ρ 0 c).arrAt (0 : Fin 1) cfg0.N = OUT m c := by
  have h1 : (dats m ρ 0 c).arrAt (0 : Fin 1) cfg0.N
      = ((cfg0.win (0 : Fin 1)).blk t₀).view.write (Elt F) ((dats m ρ 0 c).arrAt (0 : Fin 1) t₀.val) ((dats m ρ 0 c).flushed (0 : Fin 1) t₀) Finset.univ :=
    ((dats m ρ 0 c).arrAt_succ (0 : Fin 1) t₀).trans (if_pos (flush0_0 t₀))
  rw [h1, launch_flushed_eq]
  generalize (dats m ρ 0 c).arrAt (0 : Fin 1) t₀.val = prev
  generalize OUT m c = o
  have hz : (fun a => (win0_0.index t₀) a * main_v1.ty.shape.size a) = fun _ => 0 := funext fun a => Nat.zero_mul _
  exact Memref.write_access_unit_zero_univ (Elt F) main_v1 hz
    (fun a => by
      have h0 : (win0_0.index t₀) a * main_v1.ty.shape.size a = 0 := congrFun hz a
      rw [h0]; exact Nat.le_of_eq (Nat.zero_add _)) prev o

end Cert.KernelIdeal.Rs

end
-- ==== Proof.RefValue.lean ====
import proofs.«901021_g7700000000001022_dist_rs_v7x_xyz2x2x2_x_m2048_n512_f32_1_alg».proof.Defs
import proofs.«901021_g7700000000001022_dist_rs_v7x_xyz2x2x2_x_m2048_n512_f32_1_alg».proof.Proof.Gen.ReferenceIdeal
import proofs.«901021_g7700000000001022_dist_rs_v7x_xyz2x2x2_x_m2048_n512_f32_1_alg».proof.Proof.Gen.ReferenceIdeal.Run
import proofs.«901021_g7700000000001022_dist_rs_v7x_xyz2x2x2_x_m2048_n512_f32_1_alg».proof.Proof.Gen.ReferenceIdeal.Read
import proofs.«901021_g7700000000001022_dist_rs_v7x_xyz2x2x2_x_m2048_n512_f32_1_alg».proof.Proof.Gen.Pre_finite_inputs_ReferenceIdeal
import proofs.«901021_g7700000000001022_dist_rs_v7x_xyz2x2x2_x_m2048_n512_f32_1_alg».proof.Proof.Mesh
import Idealize.ShloMosaic.Lib.ValueIdx
import Idealize.ShloMosaic.Lib.Layout

noncomputable section

namespace Cert.RsValue

open Idealize.ShloMosaic Idealize.SL.Sem Idealize.ShloMosaic.ValueIdx

def col (xc : Fin 2) (l : Fin 512) : Fin 1024 := ⟨512 * xc.val + l.val, by omega⟩

@[simp] theorem col_val (xc : Fin 2) (l : Fin 512) : (col xc l).val = 512 * xc.val + l.val := rfl

def outSpec (a b : (⟨3, ![1, 2048, 1024]⟩ : Shape).Idx → EReal) (xc : Fin 2) :
    (⟨2, ![2048, 512]⟩ : Shape).Idx → EReal :=
  fun i => a (ix3 (0 : Fin 1) (i 0 : Fin 2048) (col xc (i 1 : Fin 512)))
    + b (ix3 (0 : Fin 1) (i 0 : Fin 2048) (col xc (i 1 : Fin 512)))

def refSum (X : (⟨3, ![2, 2048, 1024]⟩ : Shape).Idx → EReal) : (⟨2, ![2048, 1024]⟩ : Shape).Idx → EReal :=
  fun i => X (ix3 (0 : Fin 2) (i 0 : Fin 2048) (i 1 : Fin 1024)) + X (ix3 (1 : Fin 2) (i 0 : Fin 2048) (i 1 : Fin 1024))

theorem outSpec_apply (a b : (⟨3, ![1, 2048, 1024]⟩ : Shape).Idx → EReal) (xc : Fin 2) (i : (⟨2, ![2048, 512]⟩ : Shape).Idx) :
    outSpec a b xc i = a (ix3 (0 : Fin 1) (i 0 : Fin 2048) (col xc (i 1 : Fin 512)))
      + b (ix3 (0 : Fin 1) (i 0 : Fin 2048) (col xc (i 1 : Fin 512))) := rfl

theorem refSum_apply (X : (⟨3, ![2, 2048, 1024]⟩ : Shape).Idx → EReal) (i : (⟨2, ![2048, 1024]⟩ : Shape).Idx) :
    refSum X i = X (ix3 (0 : Fin 2) (i 0 : Fin 2048) (i 1 : Fin 1024)) + X (ix3 (1 : Fin 2) (i 0 : Fin 2048) (i 1 : Fin 1024)) := rfl

theorem outSpec_ix2 (a b : (⟨3, ![1, 2048, 1024]⟩ : Shape).Idx → EReal) (xc : Fin 2) (r : Fin 2048) (l : Fin 512) :
    outSpec a b xc (ix2 r l) = a (ix3 (0 : Fin 1) r (col xc l)) + b (ix3 (0 : Fin 1) r (col xc l)) := rfl

theorem refSum_ix2 (X : (⟨3, ![2, 2048, 1024]⟩ : Shape).Idx → EReal) (r : Fin 2048) (q : Fin 1024) :
    refSum X (ix2 r q) = X (ix3 (0 : Fin 2) r q) + X (ix3 (1 : Fin 2) r q) := rfl

theorem val_eq_refSum (X : (⟨3, ![2, 2048, 1024]⟩ : Shape).Idx → EReal) :
    Cert.ReferenceIdeal.Read.val_main_v0 (F := Ideal) X = refSum X := by
  funext i
  rw [Cert.ReferenceIdeal.Read.val_main_v0_apply, Cert.ReferenceIdeal.Read.val_main_cst_apply, Fin.sum_univ_two, refSum_apply]
  show Ideal.ofBits .f32 0x00000000#32 + _ = _
  rw [Ideal.ofBits_zero_f32, zero_add]
  refine congrArg₂ (· + ·) (congrArg X ?_) (congrArg X ?_)
  · funext a; match a with | ⟨0, _⟩ => rfl | ⟨1, _⟩ => rfl | ⟨2, _⟩ => rfl
  · funext a; match a with | ⟨0, _⟩ => rfl | ⟨1, _⟩ => rfl | ⟨2, _⟩ => rfl

theorem argBlock_val (c : Fin 8) :
    ((Layout.meshBlock [2, 2, 2] ![[0], [], []] c) 0).val = c.val / 4
      ∧ ((Layout.meshBlock [2, 2, 2] ![[0], [], []] c) 1).val = 0
      ∧ ((Layout.meshBlock [2, 2, 2] ![[0], [], []] c) 2).val = 0 := by
  revert c; decide

theorem outBlock_val (c : Fin 8) :
    ((Layout.meshBlock [2, 2, 2] ![[], [0]] c) 0).val = 0
      ∧ ((Layout.meshBlock [2, 2, 2] ![[], [0]] c) 1).val = c.val / 4 := by
  revert c; decide

theorem arg_idx (h : Layout.TilesN ⟨3, ![1, 2048, 1024]⟩ ⟨3, ![2, 2048, 1024]⟩ (fun b => Layout.cutSize [2, 2, 2] (![[0], [], []] b)))
    (c : Fin 8) (r : Fin 2048) (q : Fin 1024) :
    h.idx (Layout.meshBlock [2, 2, 2] ![[0], [], []] c) (ix3 (0 : Fin 1) r q) = ix3 (⟨c.val / 4, by omega⟩ : Fin 2) r q := by
  obtain ⟨h0, h1, h2⟩ := argBlock_val c
  funext b
  apply Fin.ext
  rw [Layout.TilesN.idx_val]
  match b with
  | ⟨0, _⟩ =>
    show ((Layout.meshBlock [2, 2, 2] ![[0], [], []] c) 0).val * 1 + 0 = c.val / 4
    omega
  | ⟨1, _⟩ =>
    show ((Layout.meshBlock [2, 2, 2] ![[0], [], []] c) 1).val * 2048 + r.val = r.val
    omega
  | ⟨2, _⟩ =>
    show ((Layout.meshBlock [2, 2, 2] ![[0], [], []] c) 2).val * 1024 + q.val = q.val
    omega

theorem out_idx (h : Layout.TilesN ⟨2, ![2048, 512]⟩ ⟨2, ![2048, 1024]⟩ (fun b => Layout.cutSize [2, 2, 2] (![[], [0]] b)))
    (c : Fin 8) (i : (⟨2, ![2048, 512]⟩ : Shape).Idx) :
    h.idx (Layout.meshBlock [2, 2, 2] ![[], [0]] c) i = ix2 (i 0 : Fin 2048) (col ⟨c.val / 4, by omega⟩ (i 1 : Fin 512)) := by
  obtain ⟨h0, h1⟩ := outBlock_val c
  funext b
  apply Fin.ext
  rw [Layout.TilesN.idx_val]
  match b with
  | ⟨0, _⟩ =>
    show ((Layout.meshBlock [2, 2, 2] ![[], [0]] c) 0).val * 2048 + (i 0).val = (i 0).val
    omega
  | ⟨1, _⟩ =>
    show ((Layout.meshBlock [2, 2, 2] ![[], [0]] c) 1).val * 512 + (i 1).val = 512 * (c.val / 4) + (i 1).val
    omega

theorem argBlock_apply (X : (⟨3, ![2, 2048, 1024]⟩ : Shape).Idx → EReal) (c : Fin 8) (r : Fin 2048) (q : Fin 1024) :
    (Layout.blockN ⟨3, ![1, 2048, 1024]⟩ ⟨3, ![2, 2048, 1024]⟩ (Layout.meshBlock [2, 2, 2] ![[0], [], []] c) X) (ix3 (0 : Fin 1) r q)
      = X (ix3 (⟨c.val / 4, by omega⟩ : Fin 2) r q) :=
  congrArg X (arg_idx _ c r q)

theorem outBlock_apply (v : (⟨2, ![2048, 1024]⟩ : Shape).Idx → EReal) (c : Fin 8) (r : Fin 2048) (l : Fin 512) :
    (Layout.blockN ⟨2, ![2048, 512]⟩ ⟨2, ![2048, 1024]⟩ (Layout.meshBlock [2, 2, 2] ![[], [0]] c) v) (ix2 r l)
      = v (ix2 r (col ⟨c.val / 4, by omega⟩ l)) :=
  congrArg v (out_idx _ c (ix2 r l))

-- The reference adds the two slabs of its argument and leaves it unchanged.
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v0)
          = refSum (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨((h 0).1.trans (Cert.ReferenceIdeal.Read.val_main_v0_eq _)).trans (val_eq_refSum _), (h 0).2⟩)
    (Cert.ReferenceIdeal.Value.run (F := Ideal) m' g')

theorem frame_ri : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

theorem block_out (X : (⟨3, ![2, 2048, 1024]⟩ : Shape).Idx → EReal) (c : Fin 8) :
    Layout.blockN ⟨2, ![2048, 512]⟩ ⟨2, ![2048, 1024]⟩ (Layout.meshBlock [2, 2, 2] ![[], [0]] c) (refSum X)
      = outSpec (Layout.blockN ⟨3, ![1, 2048, 1024]⟩ ⟨3, ![2, 2048, 1024]⟩ (Layout.meshBlock [2, 2, 2] ![[0], [], []] c) X)
          (Layout.blockN ⟨3, ![1, 2048, 1024]⟩ ⟨3, ![2, 2048, 1024]⟩ (Layout.meshBlock [2, 2, 2] ![[0], [], []] (Cert.RsMesh.xp c)) X)
          ⟨c.val / 4, by omega⟩ := by
  funext i
  obtain ⟨r, l, rfl⟩ : ∃ (r : Fin 2048) (l : Fin 512), i = ix2 r l := ⟨i 0, i 1, eq_ix2 i⟩
  rw [outBlock_apply, refSum_ix2, outSpec_ix2, argBlock_apply, argBlock_apply]
  have hx := Cert.RsMesh.xp_x c
  rcases (show c.val / 4 = 0 ∨ c.val / 4 = 1 by omega) with hc | hc
  · have e1 : (⟨c.val / 4, by omega⟩ : Fin 2) = 0 := Fin.ext hc
    have e2 : (⟨(Cert.RsMesh.xp c).val / 4, by omega⟩ : Fin 2) = 1 := Fin.ext (by show (Cert.RsMesh.xp c).val / 4 = 1; omega)
    rw [e1, e2]
  · have e1 : (⟨c.val / 4, by omega⟩ : Fin 2) = 1 := Fin.ext hc
    have e2 : (⟨(Cert.RsMesh.xp c).val / 4, by omega⟩ : Fin 2) = 0 := Fin.ext (by show (Cert.RsMesh.xp c).val / 4 = 0; omega)
    rw [e1, e2]
    exact add_comm (G := EReal) _ _

end Cert.RsValue

end
-- ==== Proof.OutIdeal.lean ====
import proofs.«901021_g7700000000001022_dist_rs_v7x_xyz2x2x2_x_m2048_n512_f32_1_alg».proof.Proof.OutValue
import proofs.«901021_g7700000000001022_dist_rs_v7x_xyz2x2x2_x_m2048_n512_f32_1_alg».proof.Proof.RefValue
import Idealize.ShloMosaic.Lib.Pipeline.Value
import Idealize.ShloMosaic.Lib.ValueIdx

set_option maxRecDepth 16384

noncomputable section

namespace Cert.RsKernelValue

open Cert.KernelIdeal Cert.KernelIdeal.Gen Cert.KernelIdeal.Rs Cert.RsMesh Cert.RsValue
open Idealize.ShloMosaic Idealize.ShloMosaic.TcCoe Idealize.SL.Sem Idealize.ShloMosaic.ValueIdx

variable (m : (ℓ : Loc nD τ sig) → Buf (Elt Ideal) ℓ)

theorem read_rows {n : Nat} (r0 c0 : Nat)
    (inb : ∀ a, (![0, r0, c0] : Fin 3 → Nat) a + (![1, n, 512] : Fin 3 → Nat) a ≤ S1x2048x1024.size a)
    (sq : (⟨3, ![1, n, 512]⟩ : Shape).Squeezes ⟨2, ![n, 512]⟩)
    (f : (main_arg0 : Ref sig .tc).ty.Contents (Elt Ideal)) (j : Fin n) (l : Fin 512) :
    ((a0M.slice (Rect.unit (s := S1x2048x1024) ![0, r0, c0] ![1, n, 512] inb) (fun _ => rfl)).squeeze ⟨2, ![n, 512]⟩ sq).view.read (Elt Ideal) f (ix2 j l)
      = f (ix3 (0 : Fin 1) (⟨r0 + j.val, by have := inb 1; have : r0 + n ≤ 2048 := this; omega⟩ : Fin 2048)
            (⟨c0 + l.val, by have := inb 2; have : c0 + 512 ≤ 1024 := this; omega⟩ : Fin 1024)) := by
  have hc : (⟨3, ![1, n, 512]⟩ : Shape).ShapeCasts ⟨2, ![n, 512]⟩ := sq.numel_eq
  rw [Memref.read_squeeze_slice a0M _ (fun _ => rfl) sq hc f]
  rw [shapeCast_dropUnit_apply ![n, 512]]
  refine congrArg f (funext fun a => Fin.ext ?_)
  match a with
  | ⟨0, _⟩ => rfl
  | ⟨1, _⟩ => show r0 + 1 * j.val = r0 + j.val; omega
  | ⟨2, _⟩ => show c0 + 1 * l.val = c0 + l.val; omega

theorem XL_apply (c : Dev nD) (r : Fin 2048) (l : Fin 512) :
    XL m c (ix2 r l) = A m c (ix3 (0 : Fin 1) r (col ⟨xc c, xc_lt c⟩ l)) := by
  refine (read_rows 0 (512 * xc c) (ld_inb c) squeezes_S1x2048x512_S2048x512 (A m c) r l).trans ?_
  refine congrArg (A m c) (funext fun a => ?_)
  match a with
  | ⟨0, _⟩ => rfl
  | ⟨1, _⟩ => exact Fin.ext (Nat.zero_add _)
  | ⟨2, _⟩ => rfl

theorem erow_lt (c : Dev nD) (j : Fin 320) : erow c + j.val < 2048 := by have := erow_le c; omega
theorem crow_lt (c : Dev nD) (j : Fin 384) : crow c + j.val < 2048 := by have := crow_le c; omega
theorem oxc_lt (c : Dev nD) : 1 - xc c < 2 := by omega

theorem PE_apply (c : Dev nD) (j : Fin 320) (l : Fin 512) :
    (peSrc c).view.read (Elt Ideal) (A m c) (ix2 j l)
      = A m c (ix3 (0 : Fin 1) (⟨erow c + j.val, erow_lt c j⟩ : Fin 2048) (col ⟨1 - xc c, oxc_lt c⟩ l)) :=
  read_rows (erow c) (512 * (1 - xc c)) (pe_inb c) squeezes_S1x320x512_S320x512 (A m c) j l

theorem PC_apply (c : Dev nD) (j : Fin 384) (l : Fin 512) :
    (pcSrc c).view.read (Elt Ideal) (A m c) (ix2 j l)
      = A m c (ix3 (0 : Fin 1) (⟨crow c + j.val, crow_lt c j⟩ : Fin 2048) (col ⟨1 - xc c, oxc_lt c⟩ l)) :=
  read_rows (crow c) (512 * (1 - xc c)) (pc_inb c) squeezes_S1x384x512_S384x512 (A m c) j l

theorem xp_write_rows {n : Nat} (r0 : Nat) (inb : ∀ a, (![r0, 0] : Fin 2 → Nat) a + (![n, 512] : Fin 2 → Nat) a ≤ S704x512.size a)
    (d : (cc0_scratch1 : Ref sig .tc).ty.Contents (Elt Ideal)) (w : (⟨2, ![n, 512]⟩ : Shape).Idx → Elt Ideal .f32) (i : S704x512.Idx) :
    ((xpM.access (Rect.unit (s := S704x512) ![r0, 0] ![n, 512] inb) : View sig .tc _ _ _).write (Elt Ideal) d w Finset.univ) i
      = if h : r0 ≤ (i 0).val ∧ (i 0).val < r0 + n then w (ix2 (⟨(i 0).val - r0, by omega⟩ : Fin n) (⟨(i 1).val, (i 1).isLt⟩ : Fin 512)) else d i := by
  have e := View.write_whole_slice_unit (Val := Elt Ideal) (cc0_scratch1 : Ref sig .tc) ![r0, 0] ![n, 512] inb d w
  rw [show ((xpM.access (Rect.unit (s := S704x512) ![r0, 0] ![n, 512] inb) : View sig .tc _ _ _).write (Elt Ideal) d w Finset.univ) = _ from e]
  unfold updateSlice
  have h1 : (i 1).val < 512 := (i 1).isLt
  by_cases h : r0 ≤ (i 0).val ∧ (i 0).val < r0 + n
  · rw [dif_pos h, dif_pos (by
      intro a; match a with
      | ⟨0, _⟩ => exact h
      | ⟨1, _⟩ => exact ⟨Nat.zero_le _, by show (i 1).val < 0 + 512; omega⟩)]
    refine congrArg w (funext fun b => ?_)
    match b with
    | ⟨0, _⟩ => rfl
    | ⟨1, _⟩ => rfl
  · rw [dif_neg h, dif_neg (fun hh => h (hh 0))]

theorem XP_lo (c : Dev nD) (j : Fin 320) (l : Fin 512) :
    XP m c (ix2 (⟨j.val, by omega⟩ : Fin 704) l) = (peSrc c).view.read (Elt Ideal) (A m c) (ix2 j l) := by
  unfold XP
  rw [xp_write_rows (n := 384) 320 inb_S704x512_S384x512_320_0, dif_neg (by show ¬ (320 ≤ j.val ∧ j.val < 320 + 384); omega)]
  rw [xp_write_rows (n := 320) 0 inb_S704x512_S320x512_0_0, dif_pos (by show (0 ≤ j.val ∧ j.val < 0 + 320); omega)]
  rfl

theorem XP_hi (c : Dev nD) (j : Fin 384) (l : Fin 512) :
    XP m c (ix2 (⟨320 + j.val, by omega⟩ : Fin 704) l) = (pcSrc c).view.read (Elt Ideal) (A m c) (ix2 j l) := by
  unfold XP
  rw [xp_write_rows (n := 384) 320 inb_S704x512_S384x512_320_0, dif_pos (by show (320 ≤ 320 + j.val ∧ 320 + j.val < 320 + 384); omega)]
  refine congrArg _ (funext fun b => ?_)
  match b with
  | ⟨0, _⟩ => exact Fin.ext (by show 320 + j.val - 320 = j.val; omega)
  | ⟨1, _⟩ => rfl

theorem XS_apply (c : Dev nD) (i : S704x512.Idx) : XS m c i = XP m c i := by
  unfold XS k0_pay1
  rw [shapeCast_self]
  rfl

theorem XS_lo (s : Dev nD) (ρ : Fin 704) (l : Fin 512) (h : ρ.val < 320) :
    XS m s (ix2 ρ l) = A m s (ix3 (0 : Fin 1) (⟨erow s + ρ.val, by have := erow_le s; omega⟩ : Fin 2048) (col ⟨1 - xc s, oxc_lt s⟩ l)) := by
  rw [XS_apply]
  exact (XP_lo m s ⟨ρ.val, h⟩ l).trans (PE_apply m s ⟨ρ.val, h⟩ l)

theorem XS_hi (s : Dev nD) (ρ : Fin 704) (l : Fin 512) (h : 320 ≤ ρ.val) :
    XS m s (ix2 ρ l) = A m s (ix3 (0 : Fin 1) (⟨crow s + (ρ.val - 320), by have := crow_le s; have := ρ.isLt; omega⟩ : Fin 2048) (col ⟨1 - xc s, oxc_lt s⟩ l)) := by
  rw [XS_apply]
  have e : ρ = (⟨320 + (ρ.val - 320), by have := ρ.isLt; omega⟩ : Fin 704) := Fin.ext (by show ρ.val = 320 + (ρ.val - 320); omega)
  exact ((congrArg (fun ρ' : Fin 704 => XP m s (ix2 ρ' l)) e).trans
    (XP_hi m s ⟨ρ.val - 320, by have := ρ.isLt; omega⟩ l)).trans (PC_apply m s ⟨ρ.val - 320, by have := ρ.isLt; omega⟩ l)

theorem xl_load {n : Nat} (r0 : Nat) (inb : ∀ a, (![r0, 0] : Fin 2 → Nat) a + (![n, 512] : Fin 2 → Nat) a ≤ S2048x512.size a)
    (f : (cc0_scratch0 : Ref sig .tc).ty.Contents (Elt Ideal)) (j : Fin n) (l : Fin 512) :
    xlM.view.readAt (Elt Ideal) (Rect.unit (s := S2048x512) ![r0, 0] ![n, 512] inb).toLoadRect f (ix2 j l)
      = f (ix2 (⟨r0 + j.val, by have := inb 0; have : r0 + n ≤ 2048 := this; omega⟩ : Fin 2048) l) := by
  refine congrArg f (funext fun a => Fin.ext ?_)
  match a with
  | ⟨0, _⟩ => show r0 + 1 * j.val = r0 + j.val; omega
  | ⟨1, _⟩ => show 0 + 1 * l.val = l.val; omega

theorem xr_load {n : Nat} (r0 : Nat) (inb : ∀ a, (![r0, 0] : Fin 2 → Nat) a + (![n, 512] : Fin 2 → Nat) a ≤ S704x512.size a)
    (f : (cc0_scratch3 : Ref sig .tc).ty.Contents (Elt Ideal)) (j : Fin n) (l : Fin 512) :
    xrM.view.readAt (Elt Ideal) (Rect.unit (s := S704x512) ![r0, 0] ![n, 512] inb).toLoadRect f (ix2 j l)
      = f (ix2 (⟨r0 + j.val, by have := inb 0; have : r0 + n ≤ 704 := this; omega⟩ : Fin 704) l) := by
  refine congrArg f (funext fun a => Fin.ext ?_)
  match a with
  | ⟨0, _⟩ => show r0 + 1 * j.val = r0 + j.val; omega
  | ⟨1, _⟩ => show 0 + 1 * l.val = l.val; omega

theorem yr_load {n : Nat} (r0 : Nat) (inb : ∀ a, (![r0, 0] : Fin 2 → Nat) a + (![n, 512] : Fin 2 → Nat) a ≤ S704x512.size a)
    (f : (cc0_scratch4 : Ref sig .tc).ty.Contents (Elt Ideal)) (j : Fin n) (l : Fin 512) :
    yrM.view.readAt (Elt Ideal) (Rect.unit (s := S704x512) ![r0, 0] ![n, 512] inb).toLoadRect f (ix2 j l)
      = f (ix2 (⟨r0 + j.val, by have := inb 0; have : r0 + n ≤ 704 := this; omega⟩ : Fin 704) l) := by
  refine congrArg f (funext fun a => Fin.ext ?_)
  match a with
  | ⟨0, _⟩ => show r0 + 1 * j.val = r0 + j.val; omega
  | ⟨1, _⟩ => show 0 + 1 * l.val = l.val; omega

theorem zr_load {n : Nat} (r0 : Nat) (inb : ∀ a, (![r0, 0] : Fin 2 → Nat) a + (![n, 512] : Fin 2 → Nat) a ≤ S640x512.size a)
    (f : (cc0_scratch5 : Ref sig .tc).ty.Contents (Elt Ideal)) (j : Fin n) (l : Fin 512) :
    zrM.view.readAt (Elt Ideal) (Rect.unit (s := S640x512) ![r0, 0] ![n, 512] inb).toLoadRect f (ix2 j l)
      = f (ix2 (⟨r0 + j.val, by have := inb 0; have : r0 + n ≤ 640 := this; omega⟩ : Fin 640) l) := by
  refine congrArg f (funext fun a => Fin.ext ?_)
  match a with
  | ⟨0, _⟩ => show r0 + 1 * j.val = r0 + j.val; omega
  | ⟨1, _⟩ => show 0 + 1 * l.val = l.val; omega

theorem ZR_lo (c : Dev nD) (ρ : Fin 640) (l : Fin 512) (h : ρ.val < 320) :
    ZR m c (ix2 ρ l) = XS m (xp (zn c)) (ix2 (⟨ρ.val, by omega⟩ : Fin 704) l) := by
  unfold ZR
  split
  · refine congrArg (XS m (xp (zn c))) (funext fun a => ?_)
    match a with
    | ⟨0, _⟩ => rfl
    | ⟨1, _⟩ => rfl
  · next hh => exact absurd h hh

theorem ZR_hi (c : Dev nD) (ρ : Fin 640) (l : Fin 512) (h : 320 ≤ ρ.val) :
    ZR m c (ix2 ρ l) = XS m (xp (yn (zn c))) (ix2 (⟨ρ.val - 320, by have := ρ.isLt; omega⟩ : Fin 704) l) := by
  unfold ZR
  split
  · next hh => exact absurd (show ρ.val < 320 from hh) (by omega)
  · refine congrArg (XS m (xp (yn (zn c)))) (funext fun a => ?_)
    match a with
    | ⟨0, _⟩ => rfl
    | ⟨1, _⟩ => rfl

theorem src_x (c : Dev nD) : erow (xp c) = erow c ∧ crow (xp c) = crow c ∧ (xp c).val / 4 = 1 - c.val / 4 := by
  revert c; decide
theorem src_y (c : Dev nD) : erow (xp (yn c)) = e2row c ∧ crow (xp (yn c)) = c2row c ∧ (xp (yn c)).val / 4 = 1 - c.val / 4 := by
  revert c; decide
theorem src_z (c : Dev nD) : erow (xp (zn c)) = e3row c ∧ (xp (zn c)).val / 4 = 1 - c.val / 4 := by
  revert c; decide
theorem src_yz (c : Dev nD) : erow (xp (yn (zn c))) = e4row c ∧ (xp (yn (zn c))).val / 4 = 1 - c.val / 4 := by
  revert c; decide

theorem pay2_apply (a : Vec Ideal S320x512 .f32) (b : Vec Ideal S320x512 .bf16) (i : S320x512.Idx) :
    k0_pay2 a b i = (show EReal from a i) + (show EReal from b i) := rfl
theorem pay3_apply (a : Vec Ideal S384x512 .f32) (b : Vec Ideal S384x512 .bf16) (i : S384x512.Idx) :
    k0_pay3 a b i = (show EReal from a i) + (show EReal from b i) := rfl
theorem pay4_apply (a : Vec Ideal S320x512 .f32) (b : Vec Ideal S320x512 .bf16) (i : S320x512.Idx) :
    k0_pay4 a b i = (show EReal from a i) + (show EReal from b i) := rfl
theorem pay5_apply (a : Vec Ideal S384x512 .f32) (b : Vec Ideal S384x512 .bf16) (i : S384x512.Idx) :
    k0_pay5 a b i = (show EReal from a i) + (show EReal from b i) := rfl
theorem pay6_apply (a : Vec Ideal S320x512 .f32) (b : Vec Ideal S320x512 .bf16) (i : S320x512.Idx) :
    k0_pay6 a b i = (show EReal from a i) + (show EReal from b i) := rfl
theorem pay7_apply (a : Vec Ideal S320x512 .f32) (b : Vec Ideal S320x512 .bf16) (i : S320x512.Idx) :
    k0_pay7 a b i = (show EReal from a i) + (show EReal from b i) := rfl

theorem xcF_lt (c : Dev nD) : c.val / 4 < 2 := by have : c.val < 8 := c.isLt; omega

theorem own_part {n : Nat} (c : Dev nD) (i : S2048x512.Idx) (r0 : Nat)
    (inb : ∀ a, (![r0, 0] : Fin 2 → Nat) a + (![n, 512] : Fin 2 → Nat) a ≤ S2048x512.size a)
    (hj : (i 0).val - r0 < n) (h : r0 ≤ (i 0).val) :
    xlM.view.readAt (Elt Ideal) (Rect.unit (s := S2048x512) ![r0, 0] ![n, 512] inb).toLoadRect (XL m c)
        (ix2 (⟨(i 0).val - r0, hj⟩ : Fin n) (⟨(i 1).val, (i 1).isLt⟩ : Fin 512))
      = A m c (ix3 (0 : Fin 1) (i 0 : Fin 2048) (col ⟨c.val / 4, xcF_lt c⟩ (i 1 : Fin 512))) := by
  rw [xl_load, XL_apply]
  refine congrArg (A m c) (funext fun a => ?_)
  match a with
  | ⟨0, _⟩ => rfl
  | ⟨1, _⟩ => exact Fin.ext (by show r0 + ((i 0).val - r0) = (i 0).val; omega)
  | ⟨2, _⟩ => rfl

variable (hrep : ∀ c c' : Dev nD, c.val / 4 = c'.val / 4 → A m c = A m c')
include hrep

theorem recv_lo (c s : Dev nD) (i : S2048x512.Idx) (ρ : Fin 704) (hρ : ρ.val < 320)
    (hs : s.val / 4 = 1 - c.val / 4) (hrow : erow s + ρ.val = (i 0).val) :
    XS m s (ix2 ρ (⟨(i 1).val, (i 1).isLt⟩ : Fin 512))
      = A m (xp c) (ix3 (0 : Fin 1) (i 0 : Fin 2048) (col ⟨c.val / 4, xcF_lt c⟩ (i 1 : Fin 512))) := by
  have hc : c.val < 8 := c.isLt
  rw [XS_lo m s ρ _ hρ, hrep s (xp c) (by rw [hs, xp_x])]
  refine congrArg (A m (xp c)) (funext fun a => ?_)
  match a with
  | ⟨0, _⟩ => rfl
  | ⟨1, _⟩ => exact Fin.ext hrow
  | ⟨2, _⟩ => exact Fin.ext (by show 512 * (1 - s.val / 4) + (i 1).val = 512 * (c.val / 4) + (i 1).val; omega)

theorem recv_hi (c s : Dev nD) (i : S2048x512.Idx) (ρ : Fin 704) (hρ : 320 ≤ ρ.val)
    (hs : s.val / 4 = 1 - c.val / 4) (hrow : crow s + (ρ.val - 320) = (i 0).val) :
    XS m s (ix2 ρ (⟨(i 1).val, (i 1).isLt⟩ : Fin 512))
      = A m (xp c) (ix3 (0 : Fin 1) (i 0 : Fin 2048) (col ⟨c.val / 4, xcF_lt c⟩ (i 1 : Fin 512))) := by
  have hc : c.val < 8 := c.isLt
  rw [XS_hi m s ρ _ hρ, hrep s (xp c) (by rw [hs, xp_x])]
  refine congrArg (A m (xp c)) (funext fun a => ?_)
  match a with
  | ⟨0, _⟩ => rfl
  | ⟨1, _⟩ => exact Fin.ext hrow
  | ⟨2, _⟩ => exact Fin.ext (by show 512 * (1 - s.val / 4) + (i 1).val = 512 * (c.val / 4) + (i 1).val; omega)

theorem range_e (c : Dev nD) (i : S2048x512.Idx) (h : erow c ≤ (i 0).val ∧ (i 0).val < erow c + 320) :
    k0_pay2 (xlM.view.readAt (Elt Ideal) (R320 erow erow_le c).toLoadRect (XL m c)) (xrM.view.readAt (Elt Ideal) Ra.toLoadRect (XR m c))
        (ix2 (⟨(i 0).val - erow c, by omega⟩ : Fin 320) (⟨(i 1).val, (i 1).isLt⟩ : Fin 512))
      = outSpec (A m c) (A m (xp c)) ⟨c.val / 4, xcF_lt c⟩ i := by
  obtain ⟨h1, h2, h3⟩ := src_x c
  rw [pay2_apply, outSpec_apply]
  refine congrArg₂ (fun a b : EReal => a + b) ?_ ?_
  · exact own_part m c i (erow c) _ _ h.1
  · exact (xr_load 0 _ (XR m c) _ _).trans
      (recv_lo m hrep c (xp c) i ⟨0 + ((i 0).val - erow c), by omega⟩ (by show 0 + ((i 0).val - erow c) < 320; omega) h3
        (by show erow (xp c) + (0 + ((i 0).val - erow c)) = (i 0).val; omega))

theorem range_c (c : Dev nD) (i : S2048x512.Idx) (h : crow c ≤ (i 0).val ∧ (i 0).val < crow c + 384) :
    k0_pay3 (xlM.view.readAt (Elt Ideal) (R384 crow crow_le c).toLoadRect (XL m c)) (xrM.view.readAt (Elt Ideal) Rb.toLoadRect (XR m c))
        (ix2 (⟨(i 0).val - crow c, by omega⟩ : Fin 384) (⟨(i 1).val, (i 1).isLt⟩ : Fin 512))
      = outSpec (A m c) (A m (xp c)) ⟨c.val / 4, xcF_lt c⟩ i := by
  obtain ⟨h1, h2, h3⟩ := src_x c
  rw [pay3_apply, outSpec_apply]
  refine congrArg₂ (fun a b : EReal => a + b) ?_ ?_
  · exact own_part m c i (crow c) _ _ h.1
  · exact (xr_load 320 _ (XR m c) _ _).trans
      (recv_hi m hrep c (xp c) i ⟨320 + ((i 0).val - crow c), by omega⟩ (by show 320 ≤ 320 + ((i 0).val - crow c); omega) h3
        (by show crow (xp c) + (320 + ((i 0).val - crow c) - 320) = (i 0).val; omega))

theorem range_e2 (c : Dev nD) (i : S2048x512.Idx) (h : e2row c ≤ (i 0).val ∧ (i 0).val < e2row c + 320) :
    k0_pay4 (xlM.view.readAt (Elt Ideal) (R320 e2row e2row_le c).toLoadRect (XL m c)) (yrM.view.readAt (Elt Ideal) Ra.toLoadRect (YR m c))
        (ix2 (⟨(i 0).val - e2row c, by omega⟩ : Fin 320) (⟨(i 1).val, (i 1).isLt⟩ : Fin 512))
      = outSpec (A m c) (A m (xp c)) ⟨c.val / 4, xcF_lt c⟩ i := by
  obtain ⟨h1, h2, h3⟩ := src_y c
  rw [pay4_apply, outSpec_apply]
  refine congrArg₂ (fun a b : EReal => a + b) ?_ ?_
  · exact own_part m c i (e2row c) _ _ h.1
  · exact (yr_load 0 _ (YR m c) _ _).trans
      (recv_lo m hrep c (xp (yn c)) i ⟨0 + ((i 0).val - e2row c), by omega⟩ (by show 0 + ((i 0).val - e2row c) < 320; omega) h3
        (by show erow (xp (yn c)) + (0 + ((i 0).val - e2row c)) = (i 0).val; omega))

theorem range_c2 (c : Dev nD) (i : S2048x512.Idx) (h : c2row c ≤ (i 0).val ∧ (i 0).val < c2row c + 384) :
    k0_pay5 (xlM.view.readAt (Elt Ideal) (R384 c2row c2row_le c).toLoadRect (XL m c)) (yrM.view.readAt (Elt Ideal) Rb.toLoadRect (YR m c))
        (ix2 (⟨(i 0).val - c2row c, by omega⟩ : Fin 384) (⟨(i 1).val, (i 1).isLt⟩ : Fin 512))
      = outSpec (A m c) (A m (xp c)) ⟨c.val / 4, xcF_lt c⟩ i := by
  obtain ⟨h1, h2, h3⟩ := src_y c
  rw [pay5_apply, outSpec_apply]
  refine congrArg₂ (fun a b : EReal => a + b) ?_ ?_
  · exact own_part m c i (c2row c) _ _ h.1
  · exact (yr_load 320 _ (YR m c) _ _).trans
      (recv_hi m hrep c (xp (yn c)) i ⟨320 + ((i 0).val - c2row c), by omega⟩ (by show 320 ≤ 320 + ((i 0).val - c2row c); omega) h3
        (by show crow (xp (yn c)) + (320 + ((i 0).val - c2row c) - 320) = (i 0).val; omega))

theorem range_e3 (c : Dev nD) (i : S2048x512.Idx) (h : e3row c ≤ (i 0).val ∧ (i 0).val < e3row c + 320) :
    k0_pay6 (xlM.view.readAt (Elt Ideal) (R320 e3row e3row_le c).toLoadRect (XL m c)) (zrM.view.readAt (Elt Ideal) Za.toLoadRect (ZR m c))
        (ix2 (⟨(i 0).val - e3row c, by omega⟩ : Fin 320) (⟨(i 1).val, (i 1).isLt⟩ : Fin 512))
      = outSpec (A m c) (A m (xp c)) ⟨c.val / 4, xcF_lt c⟩ i := by
  obtain ⟨h1, h3⟩ := src_z c
  rw [pay6_apply, outSpec_apply]
  refine congrArg₂ (fun a b : EReal => a + b) ?_ ?_
  · exact own_part m c i (e3row c) _ _ h.1
  · exact ((zr_load 0 _ (ZR m c) _ _).trans
      (ZR_lo m c ⟨0 + ((i 0).val - e3row c), by omega⟩ _ (by show 0 + ((i 0).val - e3row c) < 320; omega))).trans
      (recv_lo m hrep c (xp (zn c)) i ⟨0 + ((i 0).val - e3row c), by omega⟩ (by show 0 + ((i 0).val - e3row c) < 320; omega) h3
        (by show erow (xp (zn c)) + (0 + ((i 0).val - e3row c)) = (i 0).val; omega))

theorem range_e4 (c : Dev nD) (i : S2048x512.Idx) (h : e4row c ≤ (i 0).val ∧ (i 0).val < e4row c + 320) :
    k0_pay7 (xlM.view.readAt (Elt Ideal) (R320 e4row e4row_le c).toLoadRect (XL m c)) (zrM.view.readAt (Elt Ideal) Zb.toLoadRect (ZR m c))
        (ix2 (⟨(i 0).val - e4row c, by omega⟩ : Fin 320) (⟨(i 1).val, (i 1).isLt⟩ : Fin 512))
      = outSpec (A m c) (A m (xp c)) ⟨c.val / 4, xcF_lt c⟩ i := by
  obtain ⟨h1, h3⟩ := src_yz c
  rw [pay7_apply, outSpec_apply]
  refine congrArg₂ (fun a b : EReal => a + b) ?_ ?_
  · exact own_part m c i (e4row c) _ _ h.1
  · exact ((zr_load 320 _ (ZR m c) _ _).trans
      (ZR_hi m c ⟨320 + ((i 0).val - e4row c), by omega⟩ _ (by show 320 ≤ 320 + ((i 0).val - e4row c); omega))).trans
      (recv_lo m hrep c (xp (yn (zn c))) i ⟨320 + ((i 0).val - e4row c) - 320, by omega⟩ (by show 320 + ((i 0).val - e4row c) - 320 < 320; omega) h3
        (by show erow (xp (yn (zn c))) + (320 + ((i 0).val - e4row c) - 320) = (i 0).val; omega))

-- Over the extended reals the narrowing is the identity, so the result is the own column half plus the x neighbour's.
theorem OUT_eq (c : Dev nD) :
    OUT (F := Ideal) m c = outSpec (A m c) (A m (xp c)) ⟨c.val / 4, by have : c.val < 8 := c.isLt; omega⟩ := by
  funext i
  have hcov := rows_cover c (i 0).val (i 0).isLt
  unfold OUT OUTw
  simp only [write_rows320, write_rows384]
  split_ifs with h6 h5 h4 h3 h2 h1
  · exact range_e4 m hrep c i h6
  · exact range_e3 m hrep c i h5
  · exact range_c2 m hrep c i h4
  · exact range_e2 m hrep c i h3
  · exact range_c m hrep c i h2
  · exact range_e m hrep c i h1
  · omega

omit hrep

theorem A_rep (X : (⟨3, ![2, 2048, 1024]⟩ : Shape).Idx → EReal)
    (hA : ∀ c : Dev nD, A m c = Layout.blockN ⟨3, ![1, 2048, 1024]⟩ ⟨3, ![2, 2048, 1024]⟩ (Layout.meshBlock [2, 2, 2] ![[0], [], []] c) X) :
    ∀ c c' : Dev nD, c.val / 4 = c'.val / 4 → A m c = A m c' := by
  intro c c' h
  have e : Layout.meshBlock [2, 2, 2] ![[0], [], []] c = Layout.meshBlock [2, 2, 2] ![[0], [], []] c' := by
    obtain ⟨a0, a1, a2⟩ := argBlock_val c
    obtain ⟨b0, b1, b2⟩ := argBlock_val c'
    funext b
    apply Fin.ext
    match b with
    | ⟨0, _⟩ => exact a0.trans (h.trans b0.symm)
    | ⟨1, _⟩ => exact a1.trans b1.symm
    | ⟨2, _⟩ => exact a2.trans b2.symm
  rw [hA c, hA c', e]

end Cert.RsKernelValue

end
-- ==== Proof.Claims.lean ====
import proofs.«901021_g7700000000001022_dist_rs_v7x_xyz2x2x2_x_m2048_n512_f32_1_alg».proof.Proof.Launch
import proofs.«901021_g7700000000001022_dist_rs_v7x_xyz2x2x2_x_m2048_n512_f32_1_alg».proof.Proof.OutIdeal
import proofs.«901021_g7700000000001022_dist_rs_v7x_xyz2x2x2_x_m2048_n512_f32_1_alg».proof.Proof.RefValue
import proofs.«901021_g7700000000001022_dist_rs_v7x_xyz2x2x2_x_m2048_n512_f32_1_alg».proof.Defs
import proofs.«901021_g7700000000001022_dist_rs_v7x_xyz2x2x2_x_m2048_n512_f32_1_alg».proof.Proof.Gen.Kernel
import proofs.«901021_g7700000000001022_dist_rs_v7x_xyz2x2x2_x_m2048_n512_f32_1_alg».proof.Proof.Gen.Pre_finite_inputs_Kernel
import proofs.«901021_g7700000000001022_dist_rs_v7x_xyz2x2x2_x_m2048_n512_f32_1_alg».proof.Proof.Gen.Pre_finite_inputs_ReferenceIdeal
import Idealize.ShloMosaic.Adequacy
import Idealize.ShloMosaic.Init

set_option maxRecDepth 16384

noncomputable section

namespace Cert.Proof.RsClaims

open Idealize.ShloMosaic Idealize.ShloMosaic.TcCoe Idealize.SL.Sem
open Cert.KernelIdeal Cert.KernelIdeal.Gen Cert.KernelIdeal.Rs Cert.RsMesh

theorem frame_ki : Cert.frame_KernelIdeal (hKernelIdeal := Cert.KernelIdeal.Gen.facts)
    (hPre_finite_inputs_Kernel := Cert.Pre_finite_inputs_Kernel.Gen.facts) :=
  fun m g _ => (θ_run Cert.KernelIdeal.defs _ _).mono (fun _ h c => (h c).2) (Cert.KernelIdeal.Rs.run_main (F := Ideal) m g)

section Word
variable {F : FTy → Type} [FloatOps F]

-- The idealization rewrote nothing: the kernel as printed is the same program, label by label.
theorem defs₀_eq : Cert.Kernel.defs₀ (F := F) = Cert.KernelIdeal.defs₀ :=
  congrArg Defs.onTc (funext fun l => funext fun a => by
    obtain rfl : l = 0 := Subsingleton.elim _ _
    obtain ⟨t, s⟩ := a
    rfl)

theorem defs_eq : Cert.Kernel.defs (F := F) = Cert.KernelIdeal.defs := congrArg (Pipeline.defs _) defs₀_eq

theorem main_eq : Cert.Kernel.main (F := F) = Cert.KernelIdeal.main := rfl

end Word

-- So the kernel's frame at machine words is the run of the idealized text read at that instance.
theorem frame_k : Cert.frame_Kernel (hKernel := Cert.Kernel.Gen.facts)
    (hPre_finite_inputs_Kernel := Cert.Pre_finite_inputs_Kernel.Gen.facts) := fun m g _ => by
  rw [defs_eq, main_eq]
  exact (θ_run Cert.KernelIdeal.defs _ _).mono (fun _ h c => (h c).2) (Cert.KernelIdeal.Rs.run_main (F := Bits) m g)

theorem preserves : Cert.preserves_Kernel_KernelIdeal := trivial

-- Device c ends with its own column half plus its x neighbour's, which is its block of the sum of the two slabs.
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) := by
  intro m g m' g' _ hagree
  refine ⟨Cert.RsValue.refSum (m' (((0 : Dev Cert.ReferenceIdeal.nD).tc : Thread Cert.ReferenceIdeal.nD Cert.ReferenceIdeal.τ).loc Cert.ReferenceIdeal.main_arg0)),
    ?_, Cert.RsValue.ref_run m' g'⟩
  have hA : ∀ c : Dev nD, A m c = Layout.blockN ⟨3, ![1, 2048, 1024]⟩ ⟨3, ![2, 2048, 1024]⟩ (Layout.meshBlock [2, 2, 2] ![[0], [], []] c)
      (m' (((0 : Dev Cert.ReferenceIdeal.nD).tc : Thread Cert.ReferenceIdeal.nD Cert.ReferenceIdeal.τ).loc Cert.ReferenceIdeal.main_arg0)) := hagree
  refine (θ_run Cert.KernelIdeal.defs _ _).mono (fun r h c => ⟨?_, (h c).2⟩) (Cert.KernelIdeal.Rs.run_main (F := Ideal) m g)
  have h1 : r.2.mem ((c.tc : Thread nD τ).loc main_v1) = (dats m g 0 c).arrAt (0 : Fin 1) cfg0.N := (h c).1 (0 : Fin 1)
  have e := Cert.RsValue.block_out (m' (((0 : Dev Cert.ReferenceIdeal.nD).tc : Thread Cert.ReferenceIdeal.nD Cert.ReferenceIdeal.τ).loc Cert.ReferenceIdeal.main_arg0)) c
  rw [← hA c, ← hA (xp c)] at e
  exact ((h1.trans (final_out m g c)).trans (Cert.RsKernelValue.OUT_eq m (Cert.RsKernelValue.A_rep m _ hA) c)).trans e.symm

/-- info: 'Cert.Proof.RsClaims.frame_ki' depends on axioms: [propext, Classical.choice, Quot.sound] -/
#guard_msgs in #print axioms frame_ki

/-- info: 'Cert.Proof.RsClaims.frame_k' depends on axioms: [propext, Classical.choice, Quot.sound] -/
#guard_msgs in #print axioms frame_k

/-- info: 'Cert.Proof.RsClaims.algebraic' depends on axioms: [propext, Classical.choice, Quot.sound] -/
#guard_msgs in #print axioms algebraic

end Cert.Proof.RsClaims

end
-- ==== Proof.lean ====
-- A reduce-scatter over the x axis of a 2 × 2 × 2 mesh against the one-device sum of the two slabs of the argument.
import proofs.«901021_g7700000000001022_dist_rs_v7x_xyz2x2x2_x_m2048_n512_f32_1_alg».proof.Defs
import proofs.«901021_g7700000000001022_dist_rs_v7x_xyz2x2x2_x_m2048_n512_f32_1_alg».proof.Proof.Gen.Kernel
import proofs.«901021_g7700000000001022_dist_rs_v7x_xyz2x2x2_x_m2048_n512_f32_1_alg».proof.Proof.Gen.Kernel.Skeleton
import proofs.«901021_g7700000000001022_dist_rs_v7x_xyz2x2x2_x_m2048_n512_f32_1_alg».proof.Proof.Gen.Kernel.Launch
import proofs.«901021_g7700000000001022_dist_rs_v7x_xyz2x2x2_x_m2048_n512_f32_1_alg».proof.Proof.Gen.Kernel.Points
import proofs.«901021_g7700000000001022_dist_rs_v7x_xyz2x2x2_x_m2048_n512_f32_1_alg».proof.Proof.Gen.Kernel.Frame
import proofs.«901021_g7700000000001022_dist_rs_v7x_xyz2x2x2_x_m2048_n512_f32_1_alg».proof.Proof.Gen.KernelIdeal
import proofs.«901021_g7700000000001022_dist_rs_v7x_xyz2x2x2_x_m2048_n512_f32_1_alg».proof.Proof.Gen.KernelIdeal.Skeleton
import proofs.«901021_g7700000000001022_dist_rs_v7x_xyz2x2x2_x_m2048_n512_f32_1_alg».proof.Proof.Gen.KernelIdeal.Launch
import proofs.«901021_g7700000000001022_dist_rs_v7x_xyz2x2x2_x_m2048_n512_f32_1_alg».proof.Proof.Gen.KernelIdeal.Points
import proofs.«901021_g7700000000001022_dist_rs_v7x_xyz2x2x2_x_m2048_n512_f32_1_alg».proof.Proof.Gen.KernelIdeal.Frame
import proofs.«901021_g7700000000001022_dist_rs_v7x_xyz2x2x2_x_m2048_n512_f32_1_alg».proof.Proof.Gen.ReferenceIdeal
import proofs.«901021_g7700000000001022_dist_rs_v7x_xyz2x2x2_x_m2048_n512_f32_1_alg».proof.Proof.Gen.Pre_finite_inputs_Kernel
import proofs.«901021_g7700000000001022_dist_rs_v7x_xyz2x2x2_x_m2048_n512_f32_1_alg».proof.Proof.Gen.Pre_finite_inputs_ReferenceIdeal
import proofs.«901021_g7700000000001022_dist_rs_v7x_xyz2x2x2_x_m2048_n512_f32_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.RsClaims.frame_k, Cert.Proof.RsClaims.frame_ki, Cert.RsValue.frame_ri, Cert.Proof.RsClaims.preserves, Cert.Proof.RsClaims.algebraic⟩

end Cert.Proof

end
